-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1025x512 : Shape := ⟨3, ![4, 1025, 512]⟩
abbrev S4x1024 : Shape := ⟨2, ![4, 1024]⟩
abbrev S512x3 : Shape := ⟨2, ![512, 3]⟩
abbrev S1x3 : Shape := ⟨2, ![1, 3]⟩
abbrev S512x50000 : Shape := ⟨2, ![512, 50000]⟩
abbrev S1x50000 : Shape := ⟨2, ![1, 50000]⟩
abbrev S_ : Shape := ⟨0, ![]⟩

class Facts : Prop where
  bcast_S_S4x1025x512 : S_.BroadcastsInDim S4x1025x512 (![] : Fin 0 → Fin S4x1025x512.rank)
  reducesTo_S4x1025x512_S_d0_1_2 : S4x1025x512.ReducesTo [0, 1, 2] S_
  h_S_ : 0 < S_.numel
  bcast_S_S512x3 : S_.BroadcastsInDim S512x3 (![] : Fin 0 → Fin S512x3.rank)
  reducesTo_S512x3_S_d0_1 : S512x3.ReducesTo [0, 1] S_
  bcast_S_S1x3 : S_.BroadcastsInDim S1x3 (![] : Fin 0 → Fin S1x3.rank)
  reducesTo_S1x3_S_d0_1 : S1x3.ReducesTo [0, 1] S_
  bcast_S_S512x50000 : S_.BroadcastsInDim S512x50000 (![] : Fin 0 → Fin S512x50000.rank)
  reducesTo_S512x50000_S_d0_1 : S512x50000.ReducesTo [0, 1] S_
  bcast_S_S1x50000 : S_.BroadcastsInDim S1x50000 (![] : Fin 0 → Fin S1x50000.rank)
  reducesTo_S1x50000_S_d0_1 : S1x50000.ReducesTo [0, 1] S_

variable [Facts]

def fn_part1 {F : FTy → Type} [FloatOps F] (main_arg5 : FVec F S1x50000 .f32) (main_v13 : IVec S_ 1) (main_v16 : IVec S512x50000 1) : IVec S_ 1 :=
  let main_c_5 : IVec S_ 1 := constantI S_ 1 1#1
  let main_v17 : IVec S_ 1 := (fun x v => Host.reduce IntOp.andi x v reducesTo_S512x50000_S_d0_1 h_S_) main_v16 main_c_5
  let main_v18 : IVec S_ 1 := andi main_v13 main_v17
  let main_v19 : FVec F S1x50000 .f32 := Host.absf main_arg5
  let main_cst_6 : FVec F S_ .f32 := constant S_ .f32 0x7F800000#32
  let main_v20 : FVec F S1x50000 .f32 := broadcastInDim S1x50000 ![] bcast_S_S1x50000 main_cst_6
  let main_v21 : IVec S1x50000 1 := cmpf .olt main_v19 main_v20
  let main_c_7 : IVec S_ 1 := constantI S_ 1 1#1
  let main_v22 : IVec S_ 1 := (fun x v => Host.reduce IntOp.andi x v reducesTo_S1x50000_S_d0_1 h_S_) main_v21 main_c_7
  let main_v23 : IVec S_ 1 := andi main_v18 main_v22
  main_v23

def fn {F : FTy → Type} [FloatOps F] (main_arg0 : FVec F S4x1025x512 .f32) (main_arg1 : IVec S4x1024 32) (main_arg2 : FVec F S512x3 .f32) (main_arg3 : FVec F S1x3 .f32) (main_arg4 : FVec F S512x50000 .f32) (main_arg5 : FVec F S1x50000 .f32) : IVec S_ 1 :=
  let main_v0 : FVec F S4x1025x512 .f32 := Host.absf main_arg0
  let main_cst : FVec F S_ .f32 := constant S_ .f32 0x7F800000#32
  let main_v1 : FVec F S4x1025x512 .f32 := broadcastInDim S4x1025x512 ![] bcast_S_S4x1025x512 main_cst
  let main_v2 : IVec S4x1025x512 1 := cmpf .olt main_v0 main_v1
  let main_c : IVec S_ 1 := constantI S_ 1 1#1
  let main_v3 : IVec S_ 1 := (fun x v => Host.reduce IntOp.andi x v reducesTo_S4x1025x512_S_d0_1_2 h_S_) main_v2 main_c
  let main_v4 : FVec F S512x3 .f32 := Host.absf main_arg2
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S1x3 .f32 := Host.absf main_arg3
  let main_cst_2 : FVec F S_ .f32 := constant S_ .f32 0x7F800000#32
  let main_v10 : FVec F S1x3 .f32 := broadcastInDim S1x3 ![] bcast_S_S1x3 main_cst_2
  let main_v11 : IVec S1x3 1 := cmpf .olt main_v9 main_v10
  let main_c_3 : IVec S_ 1 := constantI S_ 1 1#1
  let main_v12 : IVec S_ 1 := (fun x v => Host.reduce IntOp.andi x v reducesTo_S1x3_S_d0_1 h_S_) main_v11 main_c_3
  let main_v13 : IVec S_ 1 := andi main_v8 main_v12
  let main_v14 : FVec F S512x50000 .f32 := Host.absf main_arg4
  let main_cst_4 : FVec F S_ .f32 := constant S_ .f32 0x7F800000#32
  let main_v15 : FVec F S512x50000 .f32 := broadcastInDim S512x50000 ![] bcast_S_S512x50000 main_cst_4
  let main_v16 : IVec S512x50000 1 := cmpf .olt main_v14 main_v15
  fn_part1 (F := F) main_arg5 main_v13 main_v16
-- ==== Kernel.lean ====
abbrev S4x1025x512 : Shape := ⟨3, ![4, 1025, 512]⟩
abbrev S4x1024 : Shape := ⟨2, ![4, 1024]⟩
abbrev S512x3 : Shape := ⟨2, ![512, 3]⟩
abbrev S1x3 : Shape := ⟨2, ![1, 3]⟩
abbrev S512x50000 : Shape := ⟨2, ![512, 50000]⟩
abbrev S1x50000 : Shape := ⟨2, ![1, 50000]⟩
abbrev S4x1024x512 : Shape := ⟨3, ![4, 1024, 512]⟩
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩
abbrev S512x2000 : Shape := ⟨2, ![512, 2000]⟩
abbrev S1x2000 : Shape := ⟨2, ![1, 2000]⟩
abbrev S512x2048 : Shape := ⟨2, ![512, 2048]⟩
abbrev S1x2048 : Shape := ⟨2, ![1, 2048]⟩
abbrev S2048x512 : Shape := ⟨2, ![2048, 512]⟩
abbrev S512x1024 : Shape := ⟨2, ![512, 1024]⟩
abbrev S1x1024 : Shape := ⟨2, ![1, 1024]⟩
abbrev S2048x1 : Shape := ⟨2, ![2048, 1]⟩
abbrev S2048x1024 : Shape := ⟨2, ![2048, 1024]⟩
abbrev S2048 : Shape := ⟨1, ![2048]⟩
abbrev S1 : Shape := ⟨1, ![1]⟩
abbrev S1x1 : Shape := ⟨2, ![1, 1]⟩
abbrev S512x4096 : Shape := ⟨2, ![512, 4096]⟩
abbrev S4096x2 : Shape := ⟨2, ![4096, 2]⟩
abbrev S512x8000 : Shape := ⟨2, ![512, 8000]⟩
abbrev S1x8000 : Shape := ⟨2, ![1, 8000]⟩
abbrev S512x8192 : Shape := ⟨2, ![512, 8192]⟩
abbrev S1x8192 : Shape := ⟨2, ![1, 8192]⟩
abbrev S512x40000 : Shape := ⟨2, ![512, 40000]⟩
abbrev S1x40000 : Shape := ⟨2, ![1, 40000]⟩
abbrev S512x40960 : Shape := ⟨2, ![512, 40960]⟩
abbrev S1x40960 : Shape := ⟨2, ![1, 40960]⟩

abbrev nBuf : Space → Nat
  | .hbm => 268
  | .vmem => 30
  | .smem => 0
  | _ => 0

abbrev hbmTy0_0 (i : Nat) : BufTy := match i % 128 with
  | 0 => ⟨S4x1025x512, .f32⟩
  | 1 => ⟨S4x1024, .i32⟩
  | 2 => ⟨S512x3, .f32⟩
  | 3 => ⟨S1x3, .f32⟩
  | 4 => ⟨S512x50000, .f32⟩
  | 5 => ⟨S1x50000, .f32⟩
  | 6 => ⟨S4x1024x512, .f32⟩
  | 7 => ⟨S4096x512, .f32⟩
  | 8 => ⟨S4096, .i32⟩
  | 9 => ⟨S4096x3, .f32⟩
  | 10 => ⟨S4096x3, .f32⟩
  | 11 => ⟨S4096x3, .f32⟩
  | 12 => ⟨S_, .f32⟩
  | 13 => ⟨S4096, .f32⟩
  | 14 => ⟨S_, .f32⟩
  | 15 => ⟨S4096, .f32⟩
  | 16 => ⟨S4096, .f32⟩
  | 17 => ⟨S4096x1, .f32⟩
  | 18 => ⟨S4096x3, .f32⟩
  | 19 => ⟨S4096x3, .f32⟩
  | 20 => ⟨S4096x3, .f32⟩
  | 21 => ⟨S_, .f32⟩
  | 22 => ⟨S4096, .f32⟩
  | 23 => ⟨S4096x1, .f32⟩
  | 24 => ⟨S4096x1, .f32⟩
  | 25 => ⟨S4096x3, .f32⟩
  | 26 => ⟨S4096x3, .f32⟩
  | 27 => ⟨S4096x512, .bf16⟩
  | 28 => ⟨S512x50000, .bf16⟩
  | 29 => ⟨S_, .f32⟩
  | 30 => ⟨S4096, .f32⟩
  | 31 => ⟨S512x2000, .bf16⟩
  | 32 => ⟨S1x2000, .f32⟩
  | 33 => ⟨S_, .i32⟩
  | 34 => ⟨S_, .bf16⟩
  | 35 => ⟨S512x2048, .bf16⟩
  | 36 => ⟨S_, .i32⟩
  | 37 => ⟨S_, .f32⟩
  | 38 => ⟨S1x2048, .f32⟩
  | 39 => ⟨S4096x1, .f32⟩
  | 40 => ⟨S_, .i32⟩
  | 41 => ⟨S4096, .i32⟩
  | 42 => ⟨S4096, .i32⟩
  | 43 => ⟨S_, .i32⟩
  | 44 => ⟨S_, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S1, .i32⟩
  | 63 => ⟨S_, .i32⟩
  | 64 => ⟨S4096x1, .i32⟩
  | 65 => ⟨S4096x1, .i1⟩
  | 66 => ⟨S1x1, .i32⟩
  | 67 => ⟨S4096x1, .i32⟩
  | 68 => ⟨S4096x1, .i1⟩
  | 69 => ⟨S4096x1, .i1⟩
  | 70 => ⟨S_, .i1⟩
  | 71 => ⟨S4096, .i1⟩
  | 72 => ⟨S512x4096, .f32⟩
  | 73 => ⟨S512x4096, .i1⟩
  | 74 => ⟨S_, .f32⟩
  | 75 => ⟨S512x4096, .f32⟩
  | 76 => ⟨S512x4096, .f32⟩
  | 77 => ⟨S4096x512, .f32⟩
  | 78 => ⟨S4096x512, .f32⟩
  | 79 => ⟨S_, .f32⟩
  | 80 => ⟨S4096, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S_, .i32⟩
  | 89 => ⟨S4096, .i32⟩
  | 90 => ⟨S4096, .i32⟩
  | 91 => ⟨S4096x1, .i32⟩
  | 92 => ⟨S4096x1, .i32⟩
  | 93 => ⟨S4096x2, .i32⟩
  | 94 => ⟨S4096, .f32⟩
  | 95 => ⟨S4096, .f32⟩
  | 96 => ⟨S4096, .f32⟩
  | 97 => ⟨S4096, .f32⟩
  | 98 => ⟨S_, .i32⟩
  | 99 => ⟨S4096, .i32⟩
  | 100 => ⟨S4096, .i1⟩
  | 101 => ⟨S_, .i32⟩
  | 102 => ⟨S4096, .i32⟩
  | 103 => ⟨S4096, .i1⟩
  | 104 => ⟨S4096, .i1⟩
  | 105 => ⟨S4096x1, .f32⟩
  | 106 => ⟨S4096, .f32⟩
  | 107 => ⟨S4096, .f32⟩
  | 108 => ⟨S4096, .f32⟩
  | 109 => ⟨S4096, .f32⟩
  | 110 => ⟨S512x8000, .bf16⟩
  | 111 => ⟨S1x8000, .f32⟩
  | 112 => ⟨S_, .i32⟩
  | 113 => ⟨S_, .bf16⟩
  | 114 => ⟨S512x8192, .bf16⟩
  | 115 => ⟨S_, .i32⟩
  | 116 => ⟨S_, .f32⟩
  | 117 => ⟨S1x8192, .f32⟩
  | 118 => ⟨S4096x1, .f32⟩
  | 119 => ⟨S_, .i32⟩
  | 120 => ⟨S4096, .i32⟩
  | 121 => ⟨S4096, .i32⟩
  | 122 => ⟨S_, .i32⟩
  | 123 => ⟨S_, .i32⟩
  | 124 => ⟨S_, .i32⟩
  | 125 => ⟨S4096, .i32⟩
  | 126 => ⟨S4096, .i32⟩
  | 127 => ⟨S_, .i32⟩
  | _ => ⟨S4x1025x512, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S1, .i32⟩
  | 14 => ⟨S_, .i32⟩
  | 15 => ⟨S4096x1, .i32⟩
  | 16 => ⟨S4096x1, .i1⟩
  | 17 => ⟨S1x1, .i32⟩
  | 18 => ⟨S4096x1, .i32⟩
  | 19 => ⟨S4096x1, .i1⟩
  | 20 => ⟨S4096x1, .i1⟩
  | 21 => ⟨S_, .i1⟩
  | 22 => ⟨S4096, .i1⟩
  | 23 => ⟨S512x4096, .f32⟩
  | 24 => ⟨S512x4096, .i1⟩
  | 25 => ⟨S_, .f32⟩
  | 26 => ⟨S512x4096, .f32⟩
  | 27 => ⟨S512x4096, .f32⟩
  | 28 => ⟨S4096x512, .f32⟩
  | 29 => ⟨S4096x512, .f32⟩
  | 30 => ⟨S_, .f32⟩
  | 31 => ⟨S4096, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096x1, .i32⟩
  | 43 => ⟨S4096x1, .i32⟩
  | 44 => ⟨S4096x2, .i32⟩
  | 45 => ⟨S4096, .f32⟩
  | 46 => ⟨S4096, .f32⟩
  | 47 => ⟨S4096, .f32⟩
  | 48 => ⟨S4096, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i1⟩
  | 55 => ⟨S4096, .i1⟩
  | 56 => ⟨S4096x1, .f32⟩
  | 57 => ⟨S4096, .f32⟩
  | 58 => ⟨S4096, .f32⟩
  | 59 => ⟨S4096, .f32⟩
  | 60 => ⟨S4096, .f32⟩
  | 61 => ⟨S512x40000, .bf16⟩
  | 62 => ⟨S1x40000, .f32⟩
  | 63 => ⟨S_, .i32⟩
  | 64 => ⟨S_, .bf16⟩
  | 65 => ⟨S512x40960, .bf16⟩
  | 66 => ⟨S_, .i32⟩
  | 67 => ⟨S_, .f32⟩
  | 68 => ⟨S1x40960, .f32⟩
  | 69 => ⟨S4096x1, .f32⟩
  | 70 => ⟨S_, .i32⟩
  | 71 => ⟨S4096, .i32⟩
  | 72 => ⟨S4096, .i32⟩
  | 73 => ⟨S_, .i32⟩
  | 74 => ⟨S_, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S1, .i32⟩
  | 93 => ⟨S_, .i32⟩
  | 94 => ⟨S4096x1, .i32⟩
  | 95 => ⟨S4096x1, .i1⟩
  | 96 => ⟨S1x1, .i32⟩
  | 97 => ⟨S4096x1, .i32⟩
  | 98 => ⟨S4096x1, .i1⟩
  | 99 => ⟨S4096x1, .i1⟩
  | 100 => ⟨S_, .i1⟩
  | 101 => ⟨S4096, .i1⟩
  | 102 => ⟨S512x4096, .f32⟩
  | 103 => ⟨S512x4096, .i1⟩
  | 104 => ⟨S_, .f32⟩
  | 105 => ⟨S512x4096, .f32⟩
  | 106 => ⟨S512x4096, .f32⟩
  | 107 => ⟨S4096x512, .f32⟩
  | 108 => ⟨S4096x512, .f32⟩
  | 109 => ⟨S_, .f32⟩
  | 110 => ⟨S4096, .f32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S_, .i32⟩
  | 119 => ⟨S4096, .i32⟩
  | 120 => ⟨S4096, .i32⟩
  | 121 => ⟨S4096x1, .i32⟩
  | 122 => ⟨S4096x1, .i32⟩
  | 123 => ⟨S4096x2, .i32⟩
  | 124 => ⟨S4096, .f32⟩
  | 125 => ⟨S4096, .f32⟩
  | 126 => ⟨S4096, .f32⟩
  | 127 => ⟨S4096, .f32⟩
  | _ => ⟨S4x1025x512, .f32⟩

abbrev hbmTy0_2 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i1⟩
  | 6 => ⟨S4096, .i1⟩
  | 7 => ⟨S4096x1, .f32⟩
  | 8 => ⟨S4096, .f32⟩
  | 9 => ⟨S4096, .f32⟩
  | 10 => ⟨S4096, .f32⟩
  | 11 => ⟨S4096, .f32⟩
  | _ => ⟨S4x1025x512, .f32⟩

abbrev hbmTy (i : Nat) : BufTy := match i / 128 with
  | 0 => hbmTy0_0 i
  | 1 => hbmTy0_1 i
  | 2 => hbmTy0_2 i
  | _ => ⟨S4x1025x512, .f32⟩

abbrev bufTy : (tb : Table) → Fin (tcTables nBuf tb) → BufTy
  | .hbm, ⟨i, _⟩ => hbmTy i
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x512, .bf16⟩
  | .local _ .vmem, ⟨11, _⟩ => ⟨S2048x512, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x512, .bf16⟩
  | .local _ .vmem, ⟨21, _⟩ => ⟨S2048x512, .bf16⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S2048x1, .f32⟩
  | .local _ .vmem, ⟨27, _⟩ => ⟨S2048x1, .f32⟩
  | .local _ .vmem, ⟨28, _⟩ => ⟨S2048x1, .f32⟩
  | .local _ .vmem, ⟨29, _⟩ => ⟨S2048x1, .f32⟩
  | _, _ => ⟨S4x1025x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_call1_v0 : Ref sig .tc := ⟨.hbm, 34, rfl⟩
abbrev main_v12 : Ref sig .tc := ⟨.hbm, 35, rfl⟩
abbrev main_c_0 : Ref sig .tc := ⟨.hbm, 36, rfl⟩
abbrev main_call2_v0 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_c_3 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v17 : Ref sig .tc := ⟨.hbm, 50, rfl⟩
abbrev main_c_4 : Ref sig .tc := ⟨.hbm, 51, rfl⟩
abbrev main_v18 : Ref sig .tc := ⟨.hbm, 52, rfl⟩
abbrev main_v19 : Ref sig .tc := ⟨.hbm, 53, rfl⟩
abbrev main_call4_c : Ref sig .tc := ⟨.hbm, 54, rfl⟩
abbrev main_call4_v0 : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_c_1 : Ref sig .tc := ⟨.hbm, 62, rfl⟩
abbrev main_call4_c_2 : Ref sig .tc := ⟨.hbm, 63, rfl⟩
abbrev main_call4_v6 : Ref sig .tc := ⟨.hbm, 64, rfl⟩
abbrev main_call4_v7 : Ref sig .tc := ⟨.hbm, 65, rfl⟩
abbrev main_call4_v8 : Ref sig .tc := ⟨.hbm, 66, rfl⟩
abbrev main_call4_v9 : Ref sig .tc := ⟨.hbm, 67, rfl⟩
abbrev main_call4_v10 : Ref sig .tc := ⟨.hbm, 68, rfl⟩
abbrev main_call4_v11 : Ref sig .tc := ⟨.hbm, 69, rfl⟩
abbrev main_call4_c_3 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_call4_cst : Ref sig .tc := ⟨.hbm, 74, rfl⟩
abbrev main_call4_v15 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_5 : Ref sig .tc := ⟨.hbm, 79, rfl⟩
abbrev main_v23 : Ref sig .tc := ⟨.hbm, 80, rfl⟩
abbrev main_c_6 : Ref sig .tc := ⟨.hbm, 81, rfl⟩
abbrev main_v24 : Ref sig .tc := ⟨.hbm, 82, rfl⟩
abbrev main_v25 : Ref sig .tc := ⟨.hbm, 83, rfl⟩
abbrev main_c_7 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_c_8 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_c_9 : Ref sig .tc := ⟨.hbm, 98, rfl⟩
abbrev main_v38 : Ref sig .tc := ⟨.hbm, 99, rfl⟩
abbrev main_v39 : Ref sig .tc := ⟨.hbm, 100, rfl⟩
abbrev main_c_10 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_c_11 : Ref sig .tc := ⟨.hbm, 112, rfl⟩
abbrev main_call6_v0 : Ref sig .tc := ⟨.hbm, 113, rfl⟩
abbrev main_v50 : Ref sig .tc := ⟨.hbm, 114, rfl⟩
abbrev main_c_12 : Ref sig .tc := ⟨.hbm, 115, rfl⟩
abbrev main_call7_v0 : Ref sig .tc := ⟨.hbm, 116, rfl⟩
abbrev main_v51 : Ref sig .tc := ⟨.hbm, 117, rfl⟩
abbrev main_v52 : Ref sig .tc := ⟨.hbm, 118, rfl⟩
abbrev main_c_13 : Ref sig .tc := ⟨.hbm, 119, rfl⟩
abbrev main_v53 : Ref sig .tc := ⟨.hbm, 120, rfl⟩
abbrev main_v54 : Ref sig .tc := ⟨.hbm, 121, rfl⟩
abbrev main_c_14 : Ref sig .tc := ⟨.hbm, 122, rfl⟩
abbrev main_c_15 : Ref sig .tc := ⟨.hbm, 123, rfl⟩
abbrev main_call8_v0 : Ref sig .tc := ⟨.hbm, 124, rfl⟩
abbrev main_call8_v1 : Ref sig .tc := ⟨.hbm, 125, rfl⟩
abbrev main_call8_v2 : Ref sig .tc := ⟨.hbm, 126, rfl⟩
abbrev main_call8_v3 : Ref sig .tc := ⟨.hbm, 127, rfl⟩
abbrev main_call8_v4 : Ref sig .tc := ⟨.hbm, 128, rfl⟩
abbrev main_v55 : Ref sig .tc := ⟨.hbm, 129, rfl⟩
abbrev main_c_16 : Ref sig .tc := ⟨.hbm, 130, rfl⟩
abbrev main_v56 : Ref sig .tc := ⟨.hbm, 131, rfl⟩
abbrev main_v57 : Ref sig .tc := ⟨.hbm, 132, rfl⟩
abbrev main_call9_c : Ref sig .tc := ⟨.hbm, 133, rfl⟩
abbrev main_call9_v0 : Ref sig .tc := ⟨.hbm, 134, rfl⟩
abbrev main_call9_v1 : Ref sig .tc := ⟨.hbm, 135, rfl⟩
abbrev main_call9_c_0 : Ref sig .tc := ⟨.hbm, 136, rfl⟩
abbrev main_call9_v2 : Ref sig .tc := ⟨.hbm, 137, rfl⟩
abbrev main_call9_v3 : Ref sig .tc := ⟨.hbm, 138, rfl⟩
abbrev main_call9_v4 : Ref sig .tc := ⟨.hbm, 139, rfl⟩
abbrev main_call9_v5 : Ref sig .tc := ⟨.hbm, 140, rfl⟩
abbrev main_call9_c_1 : Ref sig .tc := ⟨.hbm, 141, rfl⟩
abbrev main_call9_c_2 : Ref sig .tc := ⟨.hbm, 142, rfl⟩
abbrev main_call9_v6 : Ref sig .tc := ⟨.hbm, 143, rfl⟩
abbrev main_call9_v7 : Ref sig .tc := ⟨.hbm, 144, rfl⟩
abbrev main_call9_v8 : Ref sig .tc := ⟨.hbm, 145, rfl⟩
abbrev main_call9_v9 : Ref sig .tc := ⟨.hbm, 146, rfl⟩
abbrev main_call9_v10 : Ref sig .tc := ⟨.hbm, 147, rfl⟩
abbrev main_call9_v11 : Ref sig .tc := ⟨.hbm, 148, rfl⟩
abbrev main_call9_c_3 : Ref sig .tc := ⟨.hbm, 149, rfl⟩
abbrev main_call9_v12 : Ref sig .tc := ⟨.hbm, 150, rfl⟩
abbrev main_call9_v13 : Ref sig .tc := ⟨.hbm, 151, rfl⟩
abbrev main_call9_v14 : Ref sig .tc := ⟨.hbm, 152, rfl⟩
abbrev main_call9_cst : Ref sig .tc := ⟨.hbm, 153, rfl⟩
abbrev main_call9_v15 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_cst_17 : Ref sig .tc := ⟨.hbm, 158, rfl⟩
abbrev main_v61 : Ref sig .tc := ⟨.hbm, 159, rfl⟩
abbrev main_c_18 : Ref sig .tc := ⟨.hbm, 160, rfl⟩
abbrev main_v62 : Ref sig .tc := ⟨.hbm, 161, rfl⟩
abbrev main_v63 : Ref sig .tc := ⟨.hbm, 162, rfl⟩
abbrev main_c_19 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_c_20 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_c_21 : Ref sig .tc := ⟨.hbm, 177, rfl⟩
abbrev main_v76 : Ref sig .tc := ⟨.hbm, 178, rfl⟩
abbrev main_v77 : Ref sig .tc := ⟨.hbm, 179, rfl⟩
abbrev main_c_22 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_c_23 : Ref sig .tc := ⟨.hbm, 191, rfl⟩
abbrev main_call11_v0 : Ref sig .tc := ⟨.hbm, 192, rfl⟩
abbrev main_v88 : Ref sig .tc := ⟨.hbm, 193, rfl⟩
abbrev main_c_24 : Ref sig .tc := ⟨.hbm, 194, rfl⟩
abbrev main_call12_v0 : Ref sig .tc := ⟨.hbm, 195, rfl⟩
abbrev main_v89 : Ref sig .tc := ⟨.hbm, 196, rfl⟩
abbrev main_v90 : Ref sig .tc := ⟨.hbm, 197, rfl⟩
abbrev main_c_25 : Ref sig .tc := ⟨.hbm, 198, rfl⟩
abbrev main_v91 : Ref sig .tc := ⟨.hbm, 199, rfl⟩
abbrev main_v92 : Ref sig .tc := ⟨.hbm, 200, rfl⟩
abbrev main_c_26 : Ref sig .tc := ⟨.hbm, 201, rfl⟩
abbrev main_c_27 : Ref sig .tc := ⟨.hbm, 202, rfl⟩
abbrev main_call13_v0 : Ref sig .tc := ⟨.hbm, 203, rfl⟩
abbrev main_call13_v1 : Ref sig .tc := ⟨.hbm, 204, rfl⟩
abbrev main_call13_v2 : Ref sig .tc := ⟨.hbm, 205, rfl⟩
abbrev main_call13_v3 : Ref sig .tc := ⟨.hbm, 206, rfl⟩
abbrev main_call13_v4 : Ref sig .tc := ⟨.hbm, 207, rfl⟩
abbrev main_v93 : Ref sig .tc := ⟨.hbm, 208, rfl⟩
abbrev main_c_28 : Ref sig .tc := ⟨.hbm, 209, rfl⟩
abbrev main_v94 : Ref sig .tc := ⟨.hbm, 210, rfl⟩
abbrev main_v95 : Ref sig .tc := ⟨.hbm, 211, rfl⟩
abbrev main_call14_c : Ref sig .tc := ⟨.hbm, 212, rfl⟩
abbrev main_call14_v0 : Ref sig .tc := ⟨.hbm, 213, rfl⟩
abbrev main_call14_v1 : Ref sig .tc := ⟨.hbm, 214, rfl⟩
abbrev main_call14_c_0 : Ref sig .tc := ⟨.hbm, 215, rfl⟩
abbrev main_call14_v2 : Ref sig .tc := ⟨.hbm, 216, rfl⟩
abbrev main_call14_v3 : Ref sig .tc := ⟨.hbm, 217, rfl⟩
abbrev main_call14_v4 : Ref sig .tc := ⟨.hbm, 218, rfl⟩
abbrev main_call14_v5 : Ref sig .tc := ⟨.hbm, 219, rfl⟩
abbrev main_call14_c_1 : Ref sig .tc := ⟨.hbm, 220, rfl⟩
abbrev main_call14_c_2 : Ref sig .tc := ⟨.hbm, 221, rfl⟩
abbrev main_call14_v6 : Ref sig .tc := ⟨.hbm, 222, rfl⟩
abbrev main_call14_v7 : Ref sig .tc := ⟨.hbm, 223, rfl⟩
abbrev main_call14_v8 : Ref sig .tc := ⟨.hbm, 224, rfl⟩
abbrev main_call14_v9 : Ref sig .tc := ⟨.hbm, 225, rfl⟩
abbrev main_call14_v10 : Ref sig .tc := ⟨.hbm, 226, rfl⟩
abbrev main_call14_v11 : Ref sig .tc := ⟨.hbm, 227, rfl⟩
abbrev main_call14_c_3 : Ref sig .tc := ⟨.hbm, 228, rfl⟩
abbrev main_call14_v12 : Ref sig .tc := ⟨.hbm, 229, rfl⟩
abbrev main_call14_v13 : Ref sig .tc := ⟨.hbm, 230, rfl⟩
abbrev main_call14_v14 : Ref sig .tc := ⟨.hbm, 231, rfl⟩
abbrev main_call14_cst : Ref sig .tc := ⟨.hbm, 232, rfl⟩
abbrev main_call14_v15 : Ref sig .tc := ⟨.hbm, 233, rfl⟩
abbrev main_v96 : Ref sig .tc := ⟨.hbm, 234, rfl⟩
abbrev main_v97 : Ref sig .tc := ⟨.hbm, 235, rfl⟩
abbrev main_v98 : Ref sig .tc := ⟨.hbm, 236, rfl⟩
abbrev main_cst_29 : Ref sig .tc := ⟨.hbm, 237, rfl⟩
abbrev main_v99 : Ref sig .tc := ⟨.hbm, 238, rfl⟩
abbrev main_c_30 : Ref sig .tc := ⟨.hbm, 239, rfl⟩
abbrev main_v100 : Ref sig .tc := ⟨.hbm, 240, rfl⟩
abbrev main_v101 : Ref sig .tc := ⟨.hbm, 241, rfl⟩
abbrev main_c_31 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_c_32 : Ref sig .tc := ⟨.hbm, 246, rfl⟩
abbrev main_v105 : Ref sig .tc := ⟨.hbm, 247, rfl⟩
abbrev main_v106 : Ref sig .tc := ⟨.hbm, 248, rfl⟩
abbrev main_v107 : Ref sig .tc := ⟨.hbm, 249, rfl⟩
abbrev main_v108 : Ref sig .tc := ⟨.hbm, 250, rfl⟩
abbrev main_v109 : Ref sig .tc := ⟨.hbm, 251, rfl⟩
abbrev main_v110 : Ref sig .tc := ⟨.hbm, 252, rfl⟩
abbrev main_v111 : Ref sig .tc := ⟨.hbm, 253, rfl⟩
abbrev main_v112 : Ref sig .tc := ⟨.hbm, 254, rfl⟩
abbrev main_v113 : Ref sig .tc := ⟨.hbm, 255, rfl⟩
abbrev main_c_33 : Ref sig .tc := ⟨.hbm, 256, rfl⟩
abbrev main_v114 : Ref sig .tc := ⟨.hbm, 257, rfl⟩
abbrev main_v115 : Ref sig .tc := ⟨.hbm, 258, rfl⟩
abbrev main_c_34 : Ref sig .tc := ⟨.hbm, 259, rfl⟩
abbrev main_v116 : Ref sig .tc := ⟨.hbm, 260, rfl⟩
abbrev main_v117 : Ref sig .tc := ⟨.hbm, 261, rfl⟩
abbrev main_v118 : Ref sig .tc := ⟨.hbm, 262, rfl⟩
abbrev main_v119 : Ref sig .tc := ⟨.hbm, 263, rfl⟩
abbrev main_v120 : Ref sig .tc := ⟨.hbm, 264, rfl⟩
abbrev main_v121 : Ref sig .tc := ⟨.hbm, 265, rfl⟩
abbrev main_v122 : Ref sig .tc := ⟨.hbm, 266, rfl⟩
abbrev main_v123 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc2_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v16 : BitVec 32 := Scalar.extui v12
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def k1_cond3 (i : grid1.Coords) : BitVec 1 :=
  let arg1 : BitVec 32 := BitVec.ofNat 32 (i 1).val
  let c7_i32 : BitVec 32 := 7#32
  let v12 : BitVec 1 := Scalar.cmpi .eq arg1 c7_i32
  let v16 : BitVec 32 := Scalar.extui v12
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 40], ![false, false]⟩

def k2_cond3 (i : grid2.Coords) : BitVec 1 :=
  let arg1 : BitVec 32 := BitVec.ofNat 32 (i 1).val
  let c39_i32 : BitVec 32 := 39#32
  let v12 : BitVec 1 := Scalar.cmpi .eq arg1 c39_i32
  let v16 : BitVec 32 := Scalar.extui v12
  let c0_i32_7 : BitVec 32 := 0#32
  let v17 : BitVec 1 := Scalar.cmpi .ne v16 c0_i32_7
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S4x1025x512_S4x1024x512_0_0_0 : S4x1025x512.Slices ![0, 0, 0] S4x1024x512
  shapeCasts_S4x1024x512_S4096x512 : S4x1024x512.ShapeCasts S4096x512
  shapeCasts_S4x1024_S4096 : S4x1024.ShapeCasts S4096
  bcast_S1x3_S4096x3_0_1 : S1x3.BroadcastsInDim S4096x3 (![0, 1] : Fin 2 → Fin S4096x3.rank)
  reducesTo_S4096x3_S4096_d1 : S4096x3.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  bitsLt_bf16_f32 : FTy.bits .bf16 < FTy.bits .f32
  slices_S512x50000_S512x2000_0_0 : S512x50000.Slices ![0, 0] S512x2000
  slices_S1x50000_S1x2000_0_0 : S1x50000.Slices ![0, 0] S1x2000
  pads_S512x2000_S512x2048_000_0480 : S512x2000.Pads (![0, 0] : Fin 2 → Nat) ![0, 48] ![0, 0] S512x2048
  pads_S1x2000_S1x2048_000_0480 : S1x2000.Pads (![0, 0] : Fin 2 → Nat) ![0, 48] ![0, 0] S1x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  iota_S2048x1024_d1_w32 : S2048x1024.Iotas .tc 32 [1]
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S512x4096_1 : S4096.BroadcastsInDim S512x4096 (![1] : Fin 1 → Fin S512x4096.rank)
  bcast_S_S512x4096 : S_.BroadcastsInDim S512x4096 (![] : Fin 0 → Fin S512x4096.rank)
  transposes_S512x4096_S4096x512_1_0 : S512x4096.Transposes [1, 0] S4096x512
  reducesTo_S4096x512_S4096_d1 : S4096x512.ReducesTo [1] S4096
  concatenates_S4096x1_S4096x1_S4096x2_d1 : Shape.Concatenates [S4096x1, S4096x1] S4096x2 1
  shapeCasts_S4096x1_S4096 : S4096x1.ShapeCasts S4096
  slices_S4096x3_S4096x1_0_0 : S4096x3.Slices ![0, 0] S4096x1
  slices_S512x50000_S512x8000_0_2000 : S512x50000.Slices ![0, 2000] S512x8000
  slices_S1x50000_S1x8000_0_2000 : S1x50000.Slices ![0, 2000] S1x8000
  pads_S512x8000_S512x8192_000_01920 : S512x8000.Pads (![0, 0] : Fin 2 → Nat) ![0, 192] ![0, 0] S512x8192
  pads_S1x8000_S1x8192_000_01920 : S1x8000.Pads (![0, 0] : Fin 2 → Nat) ![0, 192] ![0, 0] S1x8192
  slices_S4096x3_S4096x1_0_1 : S4096x3.Slices ![0, 1] S4096x1
  slices_S512x50000_S512x40000_0_10000 : S512x50000.Slices ![0, 10000] S512x40000
  slices_S1x50000_S1x40000_0_10000 : S1x50000.Slices ![0, 10000] S1x40000
  pads_S512x40000_S512x40960_000_09600 : S512x40000.Pads (![0, 0] : Fin 2 → Nat) ![0, 960] ![0, 0] S512x40960
  pads_S1x40000_S1x40960_000_09600 : S1x40000.Pads (![0, 0] : Fin 2 → Nat) ![0, 960] ![0, 0] S1x40960
  slices_S4096x3_S4096x1_0_2 : S4096x3.Slices ![0, 2] S4096x1
  dot_S4096x512_S512x3_S4096x3_1_0_0_1_n_n_wf : DotDims.WF S4096x512 S512x3 S4096x3 [1] [0] [0] [1] [] []
  dot_S2048x512_S512x1024_S2048x1024_1_0_0_1_n_n_wf : DotDims.WF S2048x512 S512x1024 S2048x1024 [1] [0] [0] [1] [] []
  gather_S512x50000_S4096x1_S512x4096_0_1_n_n_1_1_5121_wf : GatherDims.WF S512x50000 S4096x1 S512x4096 [0] [1] [] [1] [] 1 ![512, 1]
  gather_S1x50000_S4096x2_S4096_n_01_n_n_01_1_11_wf : GatherDims.WF S1x50000 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .bf16 = 32 ∨ (Rect.block (s := S4096x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x2048.size a
  hwx0_1 : ∀ i : grid0.Coords, EltTy.bits .bf16 = 32 ∨ (Rect.block (s := S512x2048) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x512.size a
  hwx1_0 : ∀ i : grid1.Coords, EltTy.bits .bf16 = 32 ∨ (Rect.block (s := S4096x512) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x8192.size a
  hwx1_1 : ∀ i : grid1.Coords, EltTy.bits .bf16 = 32 ∨ (Rect.block (s := S512x8192) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .f32 = 32 ∨ (Rect.block (s := S4096x1) S2048x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S4096x512.size a
  hwx2_0 : ∀ i : grid2.Coords, EltTy.bits .bf16 = 32 ∨ (Rect.block (s := S4096x512) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x40960.size a
  hwx2_1 : ∀ i : grid2.Coords, EltTy.bits .bf16 = 32 ∨ (Rect.block (s := S512x40960) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x40960.size a
  hwx2_2 : ∀ i : grid2.Coords, EltTy.bits .f32 = 32 ∨ (Rect.block (s := S1x40960) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S4096x1.size a
  hwx2_3 : ∀ i : grid2.Coords, EltTy.bits .f32 = 32 ∨ (Rect.block (s := S4096x1) S2048x1.size (cc2_transform_3 i) (hinb2_3 i)).WholeWords (EltTy.packing .f32)

variable [Facts₀]

def dot_S4096x512_S512x3_S4096x3_1_0_0_1_n_n : DotDims S4096x512 S512x3 S4096x3 where
  lhsContracting := [1]
  rhsContracting := [0]
  lhsNonContracting := [0]
  rhsNonContracting := [1]
  lhsBatch := []
  rhsBatch := []
  wf := dot_S4096x512_S512x3_S4096x3_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def gather_S512x50000_S4096x1_S512x4096_0_1_n_n_1_1_5121 : GatherDims S512x50000 S4096x1 S512x4096 where
  offsetDims := [0]
  collapsedSliceDims := [1]
  operandBatchingDims := []
  startIndicesBatchingDims := []
  startIndexMap := [1]
  indexVectorDim := 1
  sliceSizes := ![512, 1]
  wf := gather_S512x50000_S4096x1_S512x4096_0_1_n_n_1_1_5121_wf
def gather_S1x50000_S4096x2_S4096_n_01_n_n_01_1_11 : GatherDims S1x50000 S4096x2 S4096 where
  offsetDims := []
  collapsedSliceDims := [0, 1]
  operandBatchingDims := []
  startIndicesBatchingDims := []
  startIndexMap := [0, 1]
  indexVectorDim := 1
  sliceSizes := ![1, 1]
  wf := gather_S1x50000_S4096x2_S4096_n_01_n_n_01_1_11_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev win1_0 : Pipeline.Window sig grid1 :=
  Pipeline.Window.ofSpec (Memref.whole main_v7) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v7) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v90) S2048x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond3 i == 1#1) | ⟨_ + 4, h⟩ => absurd h (Nat.not_lt.2 (Nat.le_add_left _ _))

class Facts : Prop extends Facts₀ where

variable [Facts]
-- ==== ReferenceIdeal.lean ====
abbrev S4x1025x512 : Shape := ⟨3, ![4, 1025, 512]⟩
abbrev S4x1024 : Shape := ⟨2, ![4, 1024]⟩
abbrev S512x3 : Shape := ⟨2, ![512, 3]⟩
abbrev S1x3 : Shape := ⟨2, ![1, 3]⟩
abbrev S512x50000 : Shape := ⟨2, ![512, 50000]⟩
abbrev S1x50000 : Shape := ⟨2, ![1, 50000]⟩
abbrev S4x1024x512 : Shape := ⟨3, ![4, 1024, 512]⟩
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩
abbrev S512x2000 : Shape := ⟨2, ![512, 2000]⟩
abbrev S4096x2000 : Shape := ⟨2, ![4096, 2000]⟩
abbrev S1x2000 : Shape := ⟨2, ![1, 2000]⟩
abbrev S4096x2 : Shape := ⟨2, ![4096, 2]⟩
abbrev S512x8000 : Shape := ⟨2, ![512, 8000]⟩
abbrev S4096x8000 : Shape := ⟨2, ![4096, 8000]⟩
abbrev S1x8000 : Shape := ⟨2, ![1, 8000]⟩
abbrev S512x40000 : Shape := ⟨2, ![512, 40000]⟩
abbrev S4096x40000 : Shape := ⟨2, ![4096, 40000]⟩
abbrev S1x40000 : Shape := ⟨2, ![1, 40000]⟩

abbrev nBuf : Space → Nat
  | .hbm => 213
  | .vmem => 0
  | .smem => 0
  | _ => 0

abbrev hbmTy0_0 (i : Nat) : BufTy := match i % 128 with
  | 0 => ⟨S4x1025x512, .f32⟩
  | 1 => ⟨S4x1024, .i32⟩
  | 2 => ⟨S512x3, .f32⟩
  | 3 => ⟨S1x3, .f32⟩
  | 4 => ⟨S512x50000, .f32⟩
  | 5 => ⟨S1x50000, .f32⟩
  | 6 => ⟨S4x1024x512, .f32⟩
  | 7 => ⟨S4096x512, .f32⟩
  | 8 => ⟨S4096, .i32⟩
  | 9 => ⟨S4096, .i32⟩
  | 10 => ⟨S4096x3, .f32⟩
  | 11 => ⟨S4096x3, .f32⟩
  | 12 => ⟨S4096x3, .f32⟩
  | 13 => ⟨S_, .f32⟩
  | 14 => ⟨S4096, .f32⟩
  | 15 => ⟨S_, .f32⟩
  | 16 => ⟨S4096, .f32⟩
  | 17 => ⟨S4096, .f32⟩
  | 18 => ⟨S4096x1, .f32⟩
  | 19 => ⟨S4096x3, .f32⟩
  | 20 => ⟨S4096x3, .f32⟩
  | 21 => ⟨S4096x3, .f32⟩
  | 22 => ⟨S_, .f32⟩
  | 23 => ⟨S4096, .f32⟩
  | 24 => ⟨S4096x1, .f32⟩
  | 25 => ⟨S4096x1, .f32⟩
  | 26 => ⟨S4096x3, .f32⟩
  | 27 => ⟨S4096x3, .f32⟩
  | 28 => ⟨S_, .f32⟩
  | 29 => ⟨S4096, .f32⟩
  | 30 => ⟨S_, .i32⟩
  | 31 => ⟨S4096, .i32⟩
  | 32 => ⟨S4096, .i1⟩
  | 33 => ⟨S_, .i32⟩
  | 34 => ⟨S4096, .i32⟩
  | 35 => ⟨S4096, .i1⟩
  | 36 => ⟨S4096, .i1⟩
  | 37 => ⟨S512x2000, .f32⟩
  | 38 => ⟨S4096x2000, .f32⟩
  | 39 => ⟨S1x2000, .f32⟩
  | 40 => ⟨S4096x2000, .f32⟩
  | 41 => ⟨S4096x2000, .f32⟩
  | 42 => ⟨S_, .f32⟩
  | 43 => ⟨S4096, .f32⟩
  | 44 => ⟨S_, .f32⟩
  | 45 => ⟨S4096, .f32⟩
  | 46 => ⟨S4096, .f32⟩
  | 47 => ⟨S4096x1, .f32⟩
  | 48 => ⟨S4096x2000, .f32⟩
  | 49 => ⟨S4096x2000, .f32⟩
  | 50 => ⟨S4096x2000, .f32⟩
  | 51 => ⟨S_, .f32⟩
  | 52 => ⟨S4096, .f32⟩
  | 53 => ⟨S4096x1, .f32⟩
  | 54 => ⟨S4096x1, .f32⟩
  | 55 => ⟨S4096x2000, .f32⟩
  | 56 => ⟨S4096x2000, .f32⟩
  | 57 => ⟨S_, .i32⟩
  | 58 => ⟨S4096, .i32⟩
  | 59 => ⟨S4096, .i32⟩
  | 60 => ⟨S_, .i32⟩
  | 61 => ⟨S_, .i32⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S4096x1, .f32⟩
  | 69 => ⟨S4096, .f32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x1, .i32⟩
  | 86 => ⟨S4096x2, .i32⟩
  | 87 => ⟨S4096, .f32⟩
  | 88 => ⟨S4096, .f32⟩
  | 89 => ⟨S4096, .f32⟩
  | 90 => ⟨S4096, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i1⟩
  | 97 => ⟨S4096, .i1⟩
  | 98 => ⟨S512x8000, .f32⟩
  | 99 => ⟨S4096x8000, .f32⟩
  | 100 => ⟨S1x8000, .f32⟩
  | 101 => ⟨S4096x8000, .f32⟩
  | 102 => ⟨S4096x8000, .f32⟩
  | 103 => ⟨S_, .f32⟩
  | 104 => ⟨S4096, .f32⟩
  | 105 => ⟨S_, .f32⟩
  | 106 => ⟨S4096, .f32⟩
  | 107 => ⟨S4096, .f32⟩
  | 108 => ⟨S4096x1, .f32⟩
  | 109 => ⟨S4096x8000, .f32⟩
  | 110 => ⟨S4096x8000, .f32⟩
  | 111 => ⟨S4096x8000, .f32⟩
  | 112 => ⟨S_, .f32⟩
  | 113 => ⟨S4096, .f32⟩
  | 114 => ⟨S4096x1, .f32⟩
  | 115 => ⟨S4096x1, .f32⟩
  | 116 => ⟨S4096x8000, .f32⟩
  | 117 => ⟨S4096x8000, .f32⟩
  | 118 => ⟨S_, .i32⟩
  | 119 => ⟨S4096, .i32⟩
  | 120 => ⟨S4096, .i32⟩
  | 121 => ⟨S_, .i32⟩
  | 122 => ⟨S_, .i32⟩
  | 123 => ⟨S_, .i32⟩
  | 124 => ⟨S4096, .i32⟩
  | 125 => ⟨S4096, .i32⟩
  | 126 => ⟨S_, .i32⟩
  | 127 => ⟨S4096, .i32⟩
  | _ => ⟨S4x1025x512, .f32⟩

abbrev hbmTy0_1 (i : Nat) : BufTy := match i % 128 with
  | 0 => ⟨S4096, .i32⟩
  | 1 => ⟨S4096x1, .f32⟩
  | 2 => ⟨S4096, .f32⟩
  | 3 => ⟨S_, .i32⟩
  | 4 => ⟨S4096, .i32⟩
  | 5 => ⟨S4096, .i1⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x1, .i32⟩
  | 19 => ⟨S4096x2, .i32⟩
  | 20 => ⟨S4096, .f32⟩
  | 21 => ⟨S4096, .f32⟩
  | 22 => ⟨S4096, .f32⟩
  | 23 => ⟨S4096, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i1⟩
  | 30 => ⟨S4096, .i1⟩
  | 31 => ⟨S512x40000, .f32⟩
  | 32 => ⟨S4096x40000, .f32⟩
  | 33 => ⟨S1x40000, .f32⟩
  | 34 => ⟨S4096x40000, .f32⟩
  | 35 => ⟨S4096x40000, .f32⟩
  | 36 => ⟨S_, .f32⟩
  | 37 => ⟨S4096, .f32⟩
  | 38 => ⟨S_, .f32⟩
  | 39 => ⟨S4096, .f32⟩
  | 40 => ⟨S4096, .f32⟩
  | 41 => ⟨S4096x1, .f32⟩
  | 42 => ⟨S4096x40000, .f32⟩
  | 43 => ⟨S4096x40000, .f32⟩
  | 44 => ⟨S4096x40000, .f32⟩
  | 45 => ⟨S_, .f32⟩
  | 46 => ⟨S4096, .f32⟩
  | 47 => ⟨S4096x1, .f32⟩
  | 48 => ⟨S4096x1, .f32⟩
  | 49 => ⟨S4096x40000, .f32⟩
  | 50 => ⟨S4096x40000, .f32⟩
  | 51 => ⟨S_, .i32⟩
  | 52 => ⟨S4096, .i32⟩
  | 53 => ⟨S4096, .i32⟩
  | 54 => ⟨S_, .i32⟩
  | 55 => ⟨S_, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096x1, .f32⟩
  | 63 => ⟨S4096, .f32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x1, .i32⟩
  | 80 => ⟨S4096x2, .i32⟩
  | 81 => ⟨S4096, .f32⟩
  | 82 => ⟨S4096, .f32⟩
  | 83 => ⟨S4096, .f32⟩
  | 84 => ⟨S4096, .f32⟩
  | _ => ⟨S4x1025x512, .f32⟩

abbrev hbmTy (i : Nat) : BufTy := match i / 128 with
  | 0 => hbmTy0_0 i
  | 1 => hbmTy0_1 i
  | _ => ⟨S4x1025x512, .f32⟩

abbrev bufTy : (tb : Table) → Fin (tcTables nBuf tb) → BufTy
  | .hbm, ⟨i, _⟩ => hbmTy i
  | _, _ => ⟨S4x1025x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_cst : Ref sig .tc := ⟨.hbm, 42, rfl⟩
abbrev main_call1_v0 : Ref sig .tc := ⟨.hbm, 43, rfl⟩
abbrev main_call1_cst_0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_cst_1 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_v19 : Ref sig .tc := ⟨.hbm, 56, rfl⟩
abbrev main_c_1 : Ref sig .tc := ⟨.hbm, 57, rfl⟩
abbrev main_v20 : Ref sig .tc := ⟨.hbm, 58, rfl⟩
abbrev main_v21 : Ref sig .tc := ⟨.hbm, 59, rfl⟩
abbrev main_c_2 : Ref sig .tc := ⟨.hbm, 60, rfl⟩
abbrev main_c_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c_4 : Ref sig .tc := ⟨.hbm, 70, rfl⟩
abbrev main_v25 : Ref sig .tc := ⟨.hbm, 71, rfl⟩
abbrev main_v26 : Ref sig .tc := ⟨.hbm, 72, rfl⟩
abbrev main_c_5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_c_6 : Ref sig .tc := ⟨.hbm, 77, rfl⟩
abbrev main_v30 : Ref sig .tc := ⟨.hbm, 78, rfl⟩
abbrev main_v31 : Ref sig .tc := ⟨.hbm, 79, rfl⟩
abbrev main_c_7 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_c_8 : Ref sig .tc := ⟨.hbm, 91, rfl⟩
abbrev main_v42 : Ref sig .tc := ⟨.hbm, 92, rfl⟩
abbrev main_v43 : Ref sig .tc := ⟨.hbm, 93, rfl⟩
abbrev main_c_9 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_call4_cst : Ref sig .tc := ⟨.hbm, 103, rfl⟩
abbrev main_call4_v0 : Ref sig .tc := ⟨.hbm, 104, rfl⟩
abbrev main_call4_cst_0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_cst_1 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_v52 : Ref sig .tc := ⟨.hbm, 117, rfl⟩
abbrev main_c_10 : Ref sig .tc := ⟨.hbm, 118, rfl⟩
abbrev main_v53 : Ref sig .tc := ⟨.hbm, 119, rfl⟩
abbrev main_v54 : Ref sig .tc := ⟨.hbm, 120, rfl⟩
abbrev main_c_11 : Ref sig .tc := ⟨.hbm, 121, rfl⟩
abbrev main_c_12 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_c_13 : Ref sig .tc := ⟨.hbm, 131, rfl⟩
abbrev main_v58 : Ref sig .tc := ⟨.hbm, 132, rfl⟩
abbrev main_v59 : Ref sig .tc := ⟨.hbm, 133, rfl⟩
abbrev main_c_14 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_c_15 : Ref sig .tc := ⟨.hbm, 138, rfl⟩
abbrev main_v63 : Ref sig .tc := ⟨.hbm, 139, rfl⟩
abbrev main_v64 : Ref sig .tc := ⟨.hbm, 140, rfl⟩
abbrev main_c_16 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_c_17 : Ref sig .tc := ⟨.hbm, 152, rfl⟩
abbrev main_v75 : Ref sig .tc := ⟨.hbm, 153, rfl⟩
abbrev main_v76 : Ref sig .tc := ⟨.hbm, 154, rfl⟩
abbrev main_c_18 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_call7_cst : Ref sig .tc := ⟨.hbm, 164, rfl⟩
abbrev main_call7_v0 : Ref sig .tc := ⟨.hbm, 165, rfl⟩
abbrev main_call7_cst_0 : Ref sig .tc := ⟨.hbm, 166, rfl⟩
abbrev main_call7_v1 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_v5 : Ref sig .tc := ⟨.hbm, 171, rfl⟩
abbrev main_call7_v6 : Ref sig .tc := ⟨.hbm, 172, rfl⟩
abbrev main_call7_cst_1 : Ref sig .tc := ⟨.hbm, 173, rfl⟩
abbrev main_call7_v7 : Ref sig .tc := ⟨.hbm, 174, rfl⟩
abbrev main_call7_v8 : Ref sig .tc := ⟨.hbm, 175, rfl⟩
abbrev main_call7_v9 : Ref sig .tc := ⟨.hbm, 176, rfl⟩
abbrev main_call7_v10 : Ref sig .tc := ⟨.hbm, 177, rfl⟩
abbrev main_v85 : Ref sig .tc := ⟨.hbm, 178, rfl⟩
abbrev main_c_19 : Ref sig .tc := ⟨.hbm, 179, rfl⟩
abbrev main_v86 : Ref sig .tc := ⟨.hbm, 180, rfl⟩
abbrev main_v87 : Ref sig .tc := ⟨.hbm, 181, rfl⟩
abbrev main_c_20 : Ref sig .tc := ⟨.hbm, 182, rfl⟩
abbrev main_c_21 : Ref sig .tc := ⟨.hbm, 183, rfl⟩
abbrev main_call8_v0 : Ref sig .tc := ⟨.hbm, 184, rfl⟩
abbrev main_call8_v1 : Ref sig .tc := ⟨.hbm, 185, rfl⟩
abbrev main_call8_v2 : Ref sig .tc := ⟨.hbm, 186, rfl⟩
abbrev main_call8_v3 : Ref sig .tc := ⟨.hbm, 187, rfl⟩
abbrev main_call8_v4 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_c_22 : Ref sig .tc := ⟨.hbm, 192, rfl⟩
abbrev main_v91 : Ref sig .tc := ⟨.hbm, 193, rfl⟩
abbrev main_v92 : Ref sig .tc := ⟨.hbm, 194, rfl⟩
abbrev main_c_23 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_c_24 : Ref sig .tc := ⟨.hbm, 199, rfl⟩
abbrev main_v96 : Ref sig .tc := ⟨.hbm, 200, rfl⟩
abbrev main_v97 : Ref sig .tc := ⟨.hbm, 201, rfl⟩
abbrev main_c_25 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩

abbrev nD : Nat := 1
abbrev τ : Topo := Topo.v7x

variable {F : FTy → Type} [FloatOps F]

class Facts₀ : Prop where
  slices_S4x1025x512_S4x1024x512_0_0_0 : S4x1025x512.Slices ![0, 0, 0] S4x1024x512
  shapeCasts_S4x1024x512_S4096x512 : S4x1024x512.ShapeCasts S4096x512
  shapeCasts_S4x1024_S4096 : S4x1024.ShapeCasts S4096
  bcast_S1x3_S4096x3_0_1 : S1x3.BroadcastsInDim S4096x3 (![0, 1] : Fin 2 → Fin S4096x3.rank)
  reducesTo_S4096x3_S4096_d1 : S4096x3.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  slices_S512x50000_S512x2000_0_0 : S512x50000.Slices ![0, 0] S512x2000
  slices_S1x50000_S1x2000_0_0 : S1x50000.Slices ![0, 0] S1x2000
  bcast_S1x2000_S4096x2000_0_1 : S1x2000.BroadcastsInDim S4096x2000 (![0, 1] : Fin 2 → Fin S4096x2000.rank)
  reducesTo_S4096x2000_S4096_d1 : S4096x2000.ReducesTo [1] S4096
  bcast_S4096x1_S4096x2000_0_1 : S4096x1.BroadcastsInDim S4096x2000 (![0, 1] : Fin 2 → Fin S4096x2000.rank)
  slices_S4096x3_S4096x1_0_0 : S4096x3.Slices ![0, 0] S4096x1
  shapeCasts_S4096x1_S4096 : S4096x1.ShapeCasts S4096
  concatenates_S4096x1_S4096x1_S4096x2_d1 : Shape.Concatenates [S4096x1, S4096x1] S4096x2 1
  slices_S512x50000_S512x8000_0_2000 : S512x50000.Slices ![0, 2000] S512x8000
  slices_S1x50000_S1x8000_0_2000 : S1x50000.Slices ![0, 2000] S1x8000
  bcast_S1x8000_S4096x8000_0_1 : S1x8000.BroadcastsInDim S4096x8000 (![0, 1] : Fin 2 → Fin S4096x8000.rank)
  reducesTo_S4096x8000_S4096_d1 : S4096x8000.ReducesTo [1] S4096
  bcast_S4096x1_S4096x8000_0_1 : S4096x1.BroadcastsInDim S4096x8000 (![0, 1] : Fin 2 → Fin S4096x8000.rank)
  slices_S4096x3_S4096x1_0_1 : S4096x3.Slices ![0, 1] S4096x1
  slices_S512x50000_S512x40000_0_10000 : S512x50000.Slices ![0, 10000] S512x40000
  slices_S1x50000_S1x40000_0_10000 : S1x50000.Slices ![0, 10000] S1x40000
  bcast_S1x40000_S4096x40000_0_1 : S1x40000.BroadcastsInDim S4096x40000 (![0, 1] : Fin 2 → Fin S4096x40000.rank)
  reducesTo_S4096x40000_S4096_d1 : S4096x40000.ReducesTo [1] S4096
  bcast_S4096x1_S4096x40000_0_1 : S4096x1.BroadcastsInDim S4096x40000 (![0, 1] : Fin 2 → Fin S4096x40000.rank)
  slices_S4096x3_S4096x1_0_2 : S4096x3.Slices ![0, 2] S4096x1
  dot_S4096x512_S512x3_S4096x3_1_0_0_1_n_n_wf : DotDims.WF S4096x512 S512x3 S4096x3 [1] [0] [0] [1] [] []
  dot_S4096x512_S512x2000_S4096x2000_1_0_0_1_n_n_wf : DotDims.WF S4096x512 S512x2000 S4096x2000 [1] [0] [0] [1] [] []
  gather_S4096x2000_S4096x2_S4096_n_01_n_n_01_1_11_wf : GatherDims.WF S4096x2000 S4096x2 S4096 [] [0, 1] [] [0, 1] [] 1 ![1, 1]
  dot_S4096x512_S512x8000_S4096x8000_1_0_0_1_n_n_wf : DotDims.WF S4096x512 S512x8000 S4096x8000 [1] [0] [0] [1] [] []
  gather_S4096x8000_S4096x2_S4096_n_01_n_n_01_1_11_wf : GatherDims.WF S4096x8000 S4096x2 S4096 [] [0, 1] [] [0, 1] [] 1 ![1, 1]
  dot_S4096x512_S512x40000_S4096x40000_1_0_0_1_n_n_wf : DotDims.WF S4096x512 S512x40000 S4096x40000 [1] [0] [0] [1] [] []
  gather_S4096x40000_S4096x2_S4096_n_01_n_n_01_1_11_wf : GatherDims.WF S4096x40000 S4096x2 S4096 [] [0, 1] [] [0, 1] [] 1 ![1, 1]

variable [Facts₀]

def dot_S4096x512_S512x3_S4096x3_1_0_0_1_n_n : DotDims S4096x512 S512x3 S4096x3 where
  lhsContracting := [1]
  rhsContracting := [0]
  lhsNonContracting := [0]
  rhsNonContracting := [1]
  lhsBatch := []
  rhsBatch := []
  wf := dot_S4096x512_S512x3_S4096x3_1_0_0_1_n_n_wf
def dot_S4096x512_S512x2000_S4096x2000_1_0_0_1_n_n : DotDims S4096x512 S512x2000 S4096x2000 where
  lhsContracting := [1]
  rhsContracting := [0]
  lhsNonContracting := [0]
  rhsNonContracting := [1]
  lhsBatch := []
  rhsBatch := []
  wf := dot_S4096x512_S512x2000_S4096x2000_1_0_0_1_n_n_wf
def gather_S4096x2000_S4096x2_S4096_n_01_n_n_01_1_11 : GatherDims S4096x2000 S4096x2 S4096 where
  offsetDims := []
  collapsedSliceDims := [0, 1]
  operandBatchingDims := []
  startIndicesBatchingDims := []
  startIndexMap := [0, 1]
  indexVectorDim := 1
  sliceSizes := ![1, 1]
  wf := gather_S4096x2000_S4096x2_S4096_n_01_n_n_01_1_11_wf
def dot_S4096x512_S512x8000_S4096x8000_1_0_0_1_n_n : DotDims S4096x512 S512x8000 S4096x8000 where
  lhsContracting := [1]
  rhsContracting := [0]
  lhsNonContracting := [0]
  rhsNonContracting := [1]
  lhsBatch := []
  rhsBatch := []
  wf := dot_S4096x512_S512x8000_S4096x8000_1_0_0_1_n_n_wf
def gather_S4096x8000_S4096x2_S4096_n_01_n_n_01_1_11 : GatherDims S4096x8000 S4096x2 S4096 where
  offsetDims := []
  collapsedSliceDims := [0, 1]
  operandBatchingDims := []
  startIndicesBatchingDims := []
  startIndexMap := [0, 1]
  indexVectorDim := 1
  sliceSizes := ![1, 1]
  wf := gather_S4096x8000_S4096x2_S4096_n_01_n_n_01_1_11_wf
def dot_S4096x512_S512x40000_S4096x40000_1_0_0_1_n_n : DotDims S4096x512 S512x40000 S4096x40000 where
  lhsContracting := [1]
  rhsContracting := [0]
  lhsNonContracting := [0]
  rhsNonContracting := [1]
  lhsBatch := []
  rhsBatch := []
  wf := dot_S4096x512_S512x40000_S4096x40000_1_0_0_1_n_n_wf
def gather_S4096x40000_S4096x2_S4096_n_01_n_n_01_1_11 : GatherDims S4096x40000 S4096x2 S4096 where
  offsetDims := []
  collapsedSliceDims := [0, 1]
  operandBatchingDims := []
  startIndicesBatchingDims := []
  startIndexMap := [0, 1]
  indexVectorDim := 1
  sliceSizes := ![1, 1]
  wf := gather_S4096x40000_S4096x2_S4096_n_01_n_n_01_1_11_wf

class Facts : Prop extends Facts₀ where

variable [Facts]
-- ==== Proof.Kernel.R0.Runs.lean ====
import proofs.«420015_j11879879541904_3_alg».proof.Proof.Kernel.Launch
import proofs.«420015_j11879879541904_3_alg».proof.Proof.Gen.Kernel.Skeleton
import proofs.«420015_j11879879541904_3_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 2 = 0 :=
  (by decide +kernel : ∀ t : Fin grid0.N, cond0_0 (grid0.coords t) ↔ t.val % 2 = 0)

abbrev cond0_1 (i : grid0.Coords) : Prop := (Scalar.cmpi .ne (Scalar.extui (Scalar.xori (Scalar.cmpi .eq (BitVec.ofNat 32 (i 1).val) 1#32) 1#1)) 0#32) = 1#1

theorem hcond0_1 : ∀ t : Fin cfg0.N, cond0_1 (grid0.coords t) ↔ ¬t.val % 2 = 1 :=
  (by decide +kernel : ∀ t : Fin grid0.N, cond0_1 (grid0.coords t) ↔ ¬t.val % 2 = 1)

abbrev cond0_2 (i : grid0.Coords) : Prop := k0_cond3 i = 1#1

theorem hcond0_2 : ∀ t : Fin cfg0.N, cond0_2 (grid0.coords t) ↔ t.val % 2 = 1 :=
  (by decide +kernel : ∀ t : Fin grid0.N, cond0_2 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3_A : ∀ t : Fin cfg0.N, cond0_0 (grid0.coords t) → cond0_1 (grid0.coords t) → ¬cond0_2 (grid0.coords t) → cfg0.idle 3 (grid0.coords t) = true := by decide +kernel

theorem noFlush0_3_A : ∀ t : Fin cfg0.N, cond0_0 (grid0.coords t) → cond0_1 (grid0.coords t) → ¬cond0_2 (grid0.coords t) → (cfg0.win 3).flush t = false := by decide +kernel

theorem idleAt0_3_B : ∀ t : Fin cfg0.N, ¬cond0_0 (grid0.coords t) → cond0_1 (grid0.coords t) → ¬cond0_2 (grid0.coords t) → cfg0.idle 3 (grid0.coords t) = true := by decide +kernel

theorem noFlush0_3_B : ∀ t : Fin cfg0.N, ¬cond0_0 (grid0.coords t) → cond0_1 (grid0.coords t) → ¬cond0_2 (grid0.coords t) → (cfg0.win 3).flush t = false := by decide +kernel

theorem liveAt0_3_C : ∀ t : Fin cfg0.N, ¬cond0_0 (grid0.coords t) → ¬cond0_1 (grid0.coords t) → cond0_2 (grid0.coords t) → cfg0.idle 3 (grid0.coords t) = false := by decide +kernel

abbrev VO0_3 : View sig .tc .vmem S2048x1 .f32 := (Memref.whole cc0_stg3_0 : Memref sig .tc .vmem S2048x1 .f32).view

abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)

abbrev scM0_0 : Memref sig .tc .vmem S2048x1 .f32 := Memref.whole cc0_scratch0
abbrev scM0_1 : Memref sig .tc .vmem S2048x1 .f32 := Memref.whole cc0_scratch1

abbrev VS0_0 : View sig .tc .vmem S2048x1 .f32 := scM0_0.view
abbrev VS0_1 : View sig .tc .vmem S2048x1 .f32 := scM0_1.view

abbrev But0 (c : Dev nD) : sProp 𝕄 :=
  Pipeline.scopedRestBut (Ix := Unit) (Name := ℕ) (U := UR sig nD τ) (Lvl := ℕ) (Val := Elt F) spec0 c [cc0_scratch0, cc0_scratch1]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ But0 c) :=
  Pipeline.scopedRest_split_of_list spec0 c [cc0_scratch0, cc0_scratch1] (by decide) (by decide)

def PhiAt0 (c : Dev nD) (P0 P1 : sProp 𝕄) : sProp 𝕄 :=
  iprop(iprop(iprop(P0 ∗ P1) ∗ But0 c) ∗ (∃ r, prngReg c r))

def Oth0 (c : Dev nD) : sProp 𝕄 :=
  iprop(But0 c ∗ (∃ r, prngReg c r))

theorem PhiA0_eq (c : Dev nD) :
    (Pipeline.ΦA spec0 c : sProp 𝕄)
      = PhiAt0 c (iprop(∃ d, owns (c : Thread nD τ) scM0_0 fullShare d)) (iprop(∃ d, owns (c : Thread nD τ) scM0_1 fullShare d)) := by
  unfold Pipeline.ΦA PhiAt0; rw [scopedRest0_split]; simp only [scM0_0, scM0_1, owns_whole]; try rfl

theorem PhiAt0_split (c : Dev nD) (P0 P1 : sProp 𝕄) : PhiAt0 c P0 P1 ⊢ iprop(P0 ∗ P1 ∗ Oth0 (F := F) c) := by
  unfold PhiAt0 Oth0
  iintro ⟨⟨⟨HS0, HS1⟩, HR⟩, Hg⟩
  isplitl [HS0]; · iexact HS0
  isplitl [HS1]; · iexact HS1
  isplitl [HR]; · iexact HR
  iexact Hg

theorem PhiAt0_join (c : Dev nD) (P0 P1 : sProp 𝕄) : iprop(P0 ∗ P1 ∗ Oth0 (F := F) c) ⊢ PhiAt0 c P0 P1 := by
  unfold PhiAt0 Oth0
  iintro ⟨HS0, HS1, HR, Hg⟩
  isplitl [HS0 HS1 HR]
  · isplitl [HS0 HS1]
    · isplitl [HS0]; · iexact HS0
      iexact HS1
    iexact HR
  iexact Hg

end Cert.Kernel.Fr

end
-- ==== Proof.Kernel.R0.RunA.lean ====
import proofs.«420015_j11879879541904_3_alg».proof.Proof.Kernel.R0.Runs

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first vocabulary tile): from the scratch buffers at anything, the body resets them and leaves the tile's maximum and shifted sum. -/
theorem kernelRun0_A (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : cond0_1 i) (hc2 : ¬cond0_2 i)
    (x0 : Vec F S2048x512 .bf16) (x1 : Vec F S512x1024 .bf16) (x2 : Vec F S1x1024 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay6 x0 x1 x2 (k0_pay1 (F := F))) ∗ owns (c : Thread nD τ) arg7 fullShare (k0_pay5 x0 x1 x2 (k0_pay1 (F := F)) (k0_pay1 (F := F)) (k0_pay2 (F := F)))) -∗ K ⟨⟩))
      ⊢ wp frame (wpE (defs₀ (F := F)) Variants.none c none) E (cc0__tail_logsumexp_kernel i arg2 harg2 arg3 harg3 arg4 harg4 arg5 harg5 arg6 harg6 arg7 harg7) K := by
  simp only [cc0__tail_logsumexp_kernel_eq_skeleton]; unfold cc0__tail_logsumexp_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz0]
  simp only [View.readAt_eq_ld, harg2.read_unread, harg3.read_unread, harg4.read_unread, harg6.read_unread, harg7.read_unread,
    View.ld_unit_zero (S := S2048x512) hz0, View.ld_unit_zero (S := S512x1024) hz0, View.ld_unit_zero (S := S1x1024) hz0,
    View.ld_unit_zero (S := S2048x1) hz0, View.readCov_unit_zero (S := S2048x1) _ hz0]

end Cert.Kernel.Fr

end
-- ==== Proof.Kernel.R0.RunB.lean ====
import proofs.«420015_j11879879541904_3_alg».proof.Proof.Kernel.R0.RunA

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (a middle tile): the running maximum and sum are updated with the tile's unmasked logits. -/
theorem kernelRun0_B (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (hc2 : ¬cond0_2 i)
    (x0 : Vec F S2048x512 .bf16) (x1 : Vec F S512x1024 .bf16) (x2 : Vec F S1x1024 .f32) (xs0 xs1 xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay6 x0 x1 x2 xs0) ∗ owns (c : Thread nD τ) arg7 fullShare (k0_pay5 x0 x1 x2 xs0 xs0 xs1)) -∗ K ⟨⟩))
      ⊢ wp frame (wpE (defs₀ (F := F)) Variants.none c none) E (cc0__tail_logsumexp_kernel i arg2 harg2 arg3 harg3 arg4 harg4 arg5 harg5 arg6 harg6 arg7 harg7) K := by
  simp only [cc0__tail_logsumexp_kernel_eq_skeleton]; unfold cc0__tail_logsumexp_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz0]
  simp only [View.readAt_eq_ld, harg2.read_unread, harg3.read_unread, harg4.read_unread, harg6.read_unread, harg7.read_unread,
    View.ld_unit_zero (S := S2048x512) hz0, View.ld_unit_zero (S := S512x1024) hz0, View.ld_unit_zero (S := S1x1024) hz0,
    View.ld_unit_zero (S := S2048x1) hz0, View.readCov_unit_zero (S := S2048x1) _ hz0]

end Cert.Kernel.Fr

end
-- ==== Proof.Kernel.R0.RunC.lean ====
import proofs.«420015_j11879879541904_3_alg».proof.Proof.Kernel.R0.RunB

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (last tile): the masked update, and the output block receives maximum + log sum. -/
theorem kernelRun0_C (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (hc2 : cond0_2 i)
    (x0 : Vec F S2048x512 .bf16) (x1 : Vec F S512x1024 .bf16) (x2 : Vec F S1x1024 .f32) (xs0 xs1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare (k0_pay11 (k0_pay10 i x0 x1 x2 xs0) (k0_pay9 i x0 x1 x2 xs0 xs0 xs1)) ∗ owns (c : Thread nD τ) arg6 fullShare (k0_pay10 i x0 x1 x2 xs0) ∗ owns (c : Thread nD τ) arg7 fullShare (k0_pay9 i x0 x1 x2 xs0 xs0 xs1)) -∗ K ⟨⟩))
      ⊢ wp frame (wpE (defs₀ (F := F)) Variants.none c none) E (cc0__tail_logsumexp_kernel i arg2 harg2 arg3 harg3 arg4 harg4 arg5 harg5 arg6 harg6 arg7 harg7) K := by
  simp only [cc0__tail_logsumexp_kernel_eq_skeleton]; unfold cc0__tail_logsumexp_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz0]
  simp only [View.readAt_eq_ld, harg2.read_unread, harg3.read_unread, harg4.read_unread, harg6.read_unread, harg7.read_unread,
    View.ld_unit_zero (S := S2048x512) hz0, View.ld_unit_zero (S := S512x1024) hz0, View.ld_unit_zero (S := S1x1024) hz0,
    View.ld_unit_zero (S := S2048x1) hz0, View.readCov_unit_zero (S := S2048x1) _ hz0]

end Cert.Kernel.Fr

end
-- ==== Proof.Kernel.R0.Frame.lean ====
import proofs.«420015_j11879879541904_3_alg».proof.Proof.Kernel.R0.RunC

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev xblk0 (c : Dev nD) (t : Fin cfg0.N) : Vec F S2048x512 .bf16 := iblk0 V c 0 t
abbrev wblk0 (c : Dev nD) (t : Fin cfg0.N) : Vec F S512x1024 .bf16 := iblk0 V c 1 t
abbrev bblk0 (c : Dev nD) (t : Fin cfg0.N) : Vec F S1x1024 .f32 := iblk0 V c 2 t

/-- What the body leaves at point `t`, by case, in (output block, running maximum, running sum), from the pair `(m, l)` it finds. -/
def stepA0 (c : Dev nD) (t : Fin cfg0.N) : Vec F S2048x1 .f32 × Vec F S2048x1 .f32 × Vec F S2048x1 .f32 :=
  (k0_pay1, k0_pay6 (xblk0 V c t) (wblk0 V c t) (bblk0 V c t) k0_pay1, k0_pay5 (xblk0 V c t) (wblk0 V c t) (bblk0 V c t) k0_pay1 k0_pay1 k0_pay2)
def stepB0 (c : Dev nD) (t : Fin cfg0.N) (m l : Vec F S2048x1 .f32) : Vec F S2048x1 .f32 × Vec F S2048x1 .f32 × Vec F S2048x1 .f32 :=
  (k0_pay1, k0_pay6 (xblk0 V c t) (wblk0 V c t) (bblk0 V c t) m, k0_pay5 (xblk0 V c t) (wblk0 V c t) (bblk0 V c t) m m l)
def stepC0 (c : Dev nD) (t : Fin cfg0.N) (m l : Vec F S2048x1 .f32) : Vec F S2048x1 .f32 × Vec F S2048x1 .f32 × Vec F S2048x1 .f32 :=
  (k0_pay11 (k0_pay10 (grid0.coords t) (xblk0 V c t) (wblk0 V c t) (bblk0 V c t) m) (k0_pay9 (grid0.coords t) (xblk0 V c t) (wblk0 V c t) (bblk0 V c t) m m l), k0_pay10 (grid0.coords t) (xblk0 V c t) (wblk0 V c t) (bblk0 V c t) m, k0_pay9 (grid0.coords t) (xblk0 V c t) (wblk0 V c t) (bblk0 V c t) m m l)

/-- The three buffers after position `n`: the first tile of a token tile restarts the pair, the last one also writes the output. -/
def outsAt0 (c : Dev nD) : (n : ℕ) → n < cfg0.N → Vec F S2048x1 .f32 × Vec F S2048x1 .f32 × Vec F S2048x1 .f32
  | 0, hn => stepA0 V c ⟨0, hn⟩
  | n + 1, hn =>
    if (n + 1) % 2 = 0 then stepA0 V c ⟨n + 1, hn⟩
    else if (n + 1) % 2 = 1 then stepC0 V c ⟨n + 1, hn⟩ (outsAt0 c n (Nat.lt_of_succ_lt hn)).2.1 (outsAt0 c n (Nat.lt_of_succ_lt hn)).2.2
    else stepB0 V c ⟨n + 1, hn⟩ (outsAt0 c n (Nat.lt_of_succ_lt hn)).2.1 (outsAt0 c n (Nat.lt_of_succ_lt hn)).2.2

abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 2 = 0) : outsAt0 V c t.val t.isLt = stepA0 V c t := by
  obtain ⟨n, hn⟩ := t
  cases n with
  | zero => rfl
  | succ n => exact if_pos h0

theorem outsAt0_B (c : Dev nD) (t : Fin cfg0.N) (h0 : ¬t.val % 2 = 0) (h7 : ¬t.val % 2 = 1) :
    outsAt0 V c t.val t.isLt = stepB0 V c t (prev0 V c t).2.1 (prev0 V c t).2.2 := by
  obtain ⟨n, hn⟩ := t
  cases n with
  | zero => exact absurd (Nat.zero_mod _) h0
  | succ n => exact (if_neg h0).trans (if_neg h7)

theorem outsAt0_C (c : Dev nD) (t : Fin cfg0.N) (h0 : ¬t.val % 2 = 0) (h7 : t.val % 2 = 1) :
    outsAt0 V c t.val t.isLt = stepC0 V c t (prev0 V c t).2.1 (prev0 V c t).2.2 := by
  obtain ⟨n, hn⟩ := t
  cases n with
  | zero => exact absurd (Nat.zero_mod _) h0
  | succ n => exact (if_neg h0).trans (if_pos h7)

/-- Before position `n`: the class invariant, with the two scratch buffers at what position `n - 1` left once `n > 0`. -/
def PhiS0 (c : Dev nD) : (n : ℕ) → n ≤ cfg0.N → sProp 𝕄
  | 0, _ => Pipeline.ΦA spec0 c
  | n + 1, hn => PhiAt0 c (owns (c : Thread nD τ) scM0_0 fullShare (outsAt0 V c n hn).2.1) (owns (c : Thread nD τ) scM0_1 fullShare (outsAt0 V c n hn).2.2)

theorem PhiS0_pos (c : Dev nD) (n : ℕ) (h : n ≤ cfg0.N) (hz : n ≠ 0) :
    PhiS0 V c n h = PhiAt0 c (owns (c : Thread nD τ) scM0_0 fullShare (outsAt0 V c (n - 1) (by omega)).2.1) (owns (c : Thread nD τ) scM0_1 fullShare (outsAt0 V c (n - 1) (by omega)).2.2) := by
  cases n with
  | zero => exact absurd rfl hz
  | succ n => rfl

/-- At every position the invariant holds the two scratch buffers at some contents. -/
theorem PhiS0_some (c : Dev nD) (n : ℕ) (h : n ≤ cfg0.N) :
    PhiS0 V c n h ⊢ PhiAt0 c (iprop(∃ d, owns (c : Thread nD τ) scM0_0 fullShare d)) (iprop(∃ d, owns (c : Thread nD τ) scM0_1 fullShare d)) := by
  cases n with
  | zero => rw [show PhiS0 V c 0 h = Pipeline.ΦA spec0 c from rfl, PhiA0_eq]
  | succ n =>
    rw [show PhiS0 V c (n + 1) h = PhiAt0 c (owns (c : Thread nD τ) scM0_0 fullShare (outsAt0 V c n h).2.1) (owns (c : Thread nD τ) scM0_1 fullShare (outsAt0 V c n h).2.2) from rfl]
    iintro HΦ
    ihave HΦ' := (PhiAt0_split c _ _) $$ HΦ
    icases HΦ' with ⟨HS0, HS1, HO⟩
    iapply (PhiAt0_join c _ _)
    isplitl [HS0]; · iexists _; iexact HS0
    isplitl [HS1]; · iexists _; iexact HS1
    iexact HO

/-- The region's proof data at the entry contents `V`: inputs at their blocks, the output at `outsAt0`, invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  before0_0_of V (dat0 V c) rfl (fun _ => rfl) t d
theorem before0_1 (c : Dev nD) (t : Fin cfg0.N) (d) : (dat0 V c).before 1 t d = iblk0 V c 1 t :=
  before0_1_of V (dat0 V c) rfl (fun _ => rfl) t d
theorem before0_2 (c : Dev nD) (t : Fin cfg0.N) (d) : (dat0 V c).before 2 t d = iblk0 V c 2 t :=
  before0_2_of V (dat0 V c) rfl (fun _ => rfl) t d

theorem leaves0_in (c : Dev nD) (t : Fin cfg0.N) (w : Fin cfg0.W) (hw : cfg0.idle w (grid0.coords t) = false) :
    (dat0 V c).leavesExact w t = owns (c : Thread nD τ) ((cfg0.win w).stage (cfg0.slots t w)) fullShare ((dat0 V c).after w t) := by
  unfold Dat.leavesExact; rw [hw]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the invariant lends the run the two scratch buffers and takes them back at what the run leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiAt0 c (owns (c : Thread nD τ) scM0_0 fullShare (outsAt0 V c t.val t.isLt).2.1) (owns (c : Thread nD τ) scM0_1 fullShare (outsAt0 V c t.val t.isLt).2.2) from rfl,
    show (dat0 V c).Φ t.castSucc = PhiS0 V c t.val (Nat.le_of_lt t.isLt) from rfl,
    leaves0_in V c t 0 (liveAt0_0 t), leaves0_in V c t 1 (liveAt0_1 t), leaves0_in V c t 2 (liveAt0_2 t)]
  have hN : t.val < 4 := lt_of_lt_of_eq t.isLt (show cfg0.N = 4 from N_0)
  by_cases h0 : t.val % 2 = 0
  · have h7 : ¬t.val % 2 = 1 := by omega
    rw [Dat.leavesExact_idle (dat0 V c) 3 t (idleAt0_3_A t ((hcond0_0 t).mpr h0) ((hcond0_1 t).mpr h7) (fun h => h7 ((hcond0_2 t).mp h))) (noFlush0_3_A t ((hcond0_0 t).mpr h0) ((hcond0_1 t).mpr h7) (fun h => h7 ((hcond0_2 t).mp h))), outsAt0_A V c t h0]
    dsimp only [stepA0]
    iintro ⟨HΦ, Ho, ⟨%d0, H0⟩, ⟨%d1, H1⟩, ⟨%d2, H2⟩, ⟨%d3, H3⟩⟩
    ihave HΦ' := (PhiS0_some V c _ _) $$ HΦ
    ihave HΦ'' := (PhiAt0_split c _ _) $$ HΦ'
    icases HΦ'' with ⟨HS0, HS1, HO⟩
    iapply (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h7) (fun h => h7 ((hcond0_2 t).mp h)) (xblk0 V c t) (wblk0 V c t) (bblk0 V c t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HO]
    · iapply (PhiAt0_join c _ _)
      isplitl [HS0]; · iexact HS0
      isplitl [HS1]; · iexact HS1
      iexact HO
    isplitl [Ho]; · iexact Ho
    isplitl [H0]; · iexact H0
    isplitl [H1]; · iexact H1
    isplitl [H2]; · iexact H2
    iexists _; iexact H3
  · have hz : t.val ≠ 0 := fun h => h0 (by rw [h])
    rw [PhiS0_pos V c _ _ hz]
    by_cases h7 : t.val % 2 = 1
    · rw [show (dat0 V c).leavesExact 3 t = owns (c : Thread nD τ) (ms0_3 t) fullShare ((dat0 V c).after 3 t) from by
          unfold Dat.leavesExact; rw [liveAt0_3_C t (fun h => h0 ((hcond0_0 t).mp h)) (fun h => (hcond0_1 t).mp h h7) ((hcond0_2 t).mpr h7)],
        after0_3, outsAt0_C V c t h0 h7]
      dsimp only [stepC0]
      iintro ⟨HΦ, Ho, ⟨%d0, H0⟩, ⟨%d1, H1⟩, ⟨%d2, H2⟩, ⟨%d3, H3⟩⟩
      ihave HΦ' := (PhiAt0_split c _ _) $$ HΦ
      icases HΦ' with ⟨HS0, HS1, HO⟩
      iapply (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => (hcond0_1 t).mp h h7) ((hcond0_2 t).mpr h7) (xblk0 V c t) (wblk0 V c t) (bblk0 V c t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HO]
      · iapply (PhiAt0_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexact H3
    · rw [Dat.leavesExact_idle (dat0 V c) 3 t (idleAt0_3_B t (fun h => h0 ((hcond0_0 t).mp h)) ((hcond0_1 t).mpr h7) (fun h => h7 ((hcond0_2 t).mp h))) (noFlush0_3_B t (fun h => h0 ((hcond0_0 t).mp h)) ((hcond0_1 t).mpr h7) (fun h => h7 ((hcond0_2 t).mp h))), outsAt0_B V c t h0 h7]
      dsimp only [stepB0]
      iintro ⟨HΦ, Ho, ⟨%d0, H0⟩, ⟨%d1, H1⟩, ⟨%d2, H2⟩, ⟨%d3, H3⟩⟩
      ihave HΦ' := (PhiAt0_split c _ _) $$ HΦ
      icases HΦ' with ⟨HS0, HS1, HO⟩
      iapply (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (fun h => h7 ((hcond0_2 t).mp h)) (xblk0 V c t) (wblk0 V c t) (bblk0 V c t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HO]
      · iapply (PhiAt0_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem Phi_out0 (c : Dev nD) (t : Fin (cfg0.N + 1)) : (dat0 V c).Φ t ⊢ Pipeline.ΦA spec0 c := by
  rw [PhiA0_eq]; exact PhiS0_some V c t.val (Nat.le_of_lt_succ t.isLt)

theorem hout0 (c : Dev nD) : (dat0 V c).Φ (Fin.last cfg0.N) ⊢ Pipeline.ΦA spec0 c := Phi_out0 V c _

end Cert.Kernel.Fr

end
-- ==== Proof.Kernel.R1.Runs.lean ====
import proofs.«420015_j11879879541904_3_alg».proof.Proof.Kernel.Launch
import proofs.«420015_j11879879541904_3_alg».proof.Proof.Gen.Kernel.Skeleton
import proofs.«420015_j11879879541904_3_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := (Scalar.cmpi .ne (Scalar.extui (Scalar.xori (Scalar.cmpi .eq (BitVec.ofNat 32 (i 1).val) 7#32) 1#1)) 0#32) = 1#1

theorem hcond1_1 : ∀ t : Fin cfg1.N, cond1_1 (grid1.coords t) ↔ ¬t.val % 8 = 7 :=
  (by decide +kernel : ∀ t : Fin grid1.N, cond1_1 (grid1.coords t) ↔ ¬t.val % 8 = 7)

abbrev cond1_2 (i : grid1.Coords) : Prop := k1_cond3 i = 1#1

theorem hcond1_2 : ∀ t : Fin cfg1.N, cond1_2 (grid1.coords t) ↔ t.val % 8 = 7 :=
  (by decide +kernel : ∀ t : Fin grid1.N, cond1_2 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → cond1_1 (grid1.coords t) → ¬cond1_2 (grid1.coords t) → cfg1.idle 3 (grid1.coords t) = true := by decide +kernel

theorem noFlush1_3_A : ∀ t : Fin cfg1.N, cond1_0 (grid1.coords t) → cond1_1 (grid1.coords t) → ¬cond1_2 (grid1.coords t) → (cfg1.win 3).flush t = false := by decide +kernel

theorem idleAt1_3_B : ∀ t : Fin cfg1.N, ¬cond1_0 (grid1.coords t) → cond1_1 (grid1.coords t) → ¬cond1_2 (grid1.coords t) → cfg1.idle 3 (grid1.coords t) = true := by decide +kernel

theorem noFlush1_3_B : ∀ t : Fin cfg1.N, ¬cond1_0 (grid1.coords t) → cond1_1 (grid1.coords t) → ¬cond1_2 (grid1.coords t) → (cfg1.win 3).flush t = false := by decide +kernel

theorem liveAt1_3_C : ∀ t : Fin cfg1.N, ¬cond1_0 (grid1.coords t) → ¬cond1_1 (grid1.coords t) → cond1_2 (grid1.coords t) → cfg1.idle 3 (grid1.coords t) = false := by decide +kernel

abbrev VO1_3 : View sig .tc .vmem S2048x1 .f32 := (Memref.whole cc1_stg3_0 : Memref sig .tc .vmem S2048x1 .f32).view

abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)

abbrev scM1_0 : Memref sig .tc .vmem S2048x1 .f32 := Memref.whole cc1_scratch0
abbrev scM1_1 : Memref sig .tc .vmem S2048x1 .f32 := Memref.whole cc1_scratch1

abbrev VS1_0 : View sig .tc .vmem S2048x1 .f32 := scM1_0.view
abbrev VS1_1 : View sig .tc .vmem S2048x1 .f32 := scM1_1.view

abbrev But1 (c : Dev nD) : sProp 𝕄 :=
  Pipeline.scopedRestBut (Ix := Unit) (Name := ℕ) (U := UR sig nD τ) (Lvl := ℕ) (Val := Elt F) spec1 c [cc1_scratch0, cc1_scratch1]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ But1 c) :=
  Pipeline.scopedRest_split_of_list spec1 c [cc1_scratch0, cc1_scratch1] (by decide) (by decide)

def PhiAt1 (c : Dev nD) (P0 P1 : sProp 𝕄) : sProp 𝕄 :=
  iprop(iprop(iprop(P0 ∗ P1) ∗ But1 c) ∗ (∃ r, prngReg c r))

def Oth1 (c : Dev nD) : sProp 𝕄 :=
  iprop(But1 c ∗ (∃ r, prngReg c r))

theorem PhiA1_eq (c : Dev nD) :
    (Pipeline.ΦA spec1 c : sProp 𝕄)
      = PhiAt1 c (iprop(∃ d, owns (c : Thread nD τ) scM1_0 fullShare d)) (iprop(∃ d, owns (c : Thread nD τ) scM1_1 fullShare d)) := by
  unfold Pipeline.ΦA PhiAt1; rw [scopedRest1_split]; simp only [scM1_0, scM1_1, owns_whole]; try rfl

theorem PhiAt1_split (c : Dev nD) (P0 P1 : sProp 𝕄) : PhiAt1 c P0 P1 ⊢ iprop(P0 ∗ P1 ∗ Oth1 (F := F) c) := by
  unfold PhiAt1 Oth1
  iintro ⟨⟨⟨HS0, HS1⟩, HR⟩, Hg⟩
  isplitl [HS0]; · iexact HS0
  isplitl [HS1]; · iexact HS1
  isplitl [HR]; · iexact HR
  iexact Hg

theorem PhiAt1_join (c : Dev nD) (P0 P1 : sProp 𝕄) : iprop(P0 ∗ P1 ∗ Oth1 (F := F) c) ⊢ PhiAt1 c P0 P1 := by
  unfold PhiAt1 Oth1
  iintro ⟨HS0, HS1, HR, Hg⟩
  isplitl [HS0 HS1 HR]
  · isplitl [HS0 HS1]
    · isplitl [HS0]; · iexact HS0
      iexact HS1
    iexact HR
  iexact Hg

end Cert.Kernel.Fr

end
-- ==== Proof.Kernel.R1.RunA.lean ====
import proofs.«420015_j11879879541904_3_alg».proof.Proof.Kernel.R1.Runs

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first vocabulary tile): from the scratch buffers at anything, the body resets them and leaves the tile's maximum and shifted sum. -/
theorem kernelRun1_A (c : Dev nD) (i : grid1.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : cond1_1 i) (hc2 : ¬cond1_2 i)
    (x0 : Vec F S2048x512 .bf16) (x1 : Vec F S512x1024 .bf16) (x2 : Vec F S1x1024 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay6 x0 x1 x2 (k1_pay1 (F := F))) ∗ owns (c : Thread nD τ) arg7 fullShare (k1_pay5 x0 x1 x2 (k1_pay1 (F := F)) (k1_pay1 (F := F)) (k1_pay2 (F := F)))) -∗ K ⟨⟩))
      ⊢ wp frame (wpE (defs₀ (F := F)) Variants.none c none) E (cc1__tail_logsumexp_kernel i arg2 harg2 arg3 harg3 arg4 harg4 arg5 harg5 arg6 harg6 arg7 harg7) K := by
  simp only [cc1__tail_logsumexp_kernel_eq_skeleton]; unfold cc1__tail_logsumexp_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz1]
  simp only [View.readAt_eq_ld, harg2.read_unread, harg3.read_unread, harg4.read_unread, harg6.read_unread, harg7.read_unread,
    View.ld_unit_zero (S := S2048x512) hz1, View.ld_unit_zero (S := S512x1024) hz1, View.ld_unit_zero (S := S1x1024) hz1,
    View.ld_unit_zero (S := S2048x1) hz1, View.readCov_unit_zero (S := S2048x1) _ hz1]

end Cert.Kernel.Fr

end
-- ==== Proof.Kernel.R1.RunB.lean ====
import proofs.«420015_j11879879541904_3_alg».proof.Proof.Kernel.R1.RunA

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (a middle tile): the running maximum and sum are updated with the tile's unmasked logits. -/
theorem kernelRun1_B (c : Dev nD) (i : grid1.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (hc2 : ¬cond1_2 i)
    (x0 : Vec F S2048x512 .bf16) (x1 : Vec F S512x1024 .bf16) (x2 : Vec F S1x1024 .f32) (xs0 xs1 xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay6 x0 x1 x2 xs0) ∗ owns (c : Thread nD τ) arg7 fullShare (k1_pay5 x0 x1 x2 xs0 xs0 xs1)) -∗ K ⟨⟩))
      ⊢ wp frame (wpE (defs₀ (F := F)) Variants.none c none) E (cc1__tail_logsumexp_kernel i arg2 harg2 arg3 harg3 arg4 harg4 arg5 harg5 arg6 harg6 arg7 harg7) K := by
  simp only [cc1__tail_logsumexp_kernel_eq_skeleton]; unfold cc1__tail_logsumexp_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz1]
  simp only [View.readAt_eq_ld, harg2.read_unread, harg3.read_unread, harg4.read_unread, harg6.read_unread, harg7.read_unread,
    View.ld_unit_zero (S := S2048x512) hz1, View.ld_unit_zero (S := S512x1024) hz1, View.ld_unit_zero (S := S1x1024) hz1,
    View.ld_unit_zero (S := S2048x1) hz1, View.readCov_unit_zero (S := S2048x1) _ hz1]

end Cert.Kernel.Fr

end
-- ==== Proof.Kernel.R1.RunC.lean ====
import proofs.«420015_j11879879541904_3_alg».proof.Proof.Kernel.R1.RunB

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (last tile): the masked update, and the output block receives maximum + log sum. -/
theorem kernelRun1_C (c : Dev nD) (i : grid1.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (hc2 : cond1_2 i)
    (x0 : Vec F S2048x512 .bf16) (x1 : Vec F S512x1024 .bf16) (x2 : Vec F S1x1024 .f32) (xs0 xs1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare (k1_pay11 (k1_pay10 i x0 x1 x2 xs0) (k1_pay9 i x0 x1 x2 xs0 xs0 xs1)) ∗ owns (c : Thread nD τ) arg6 fullShare (k1_pay10 i x0 x1 x2 xs0) ∗ owns (c : Thread nD τ) arg7 fullShare (k1_pay9 i x0 x1 x2 xs0 xs0 xs1)) -∗ K ⟨⟩))
      ⊢ wp frame (wpE (defs₀ (F := F)) Variants.none c none) E (cc1__tail_logsumexp_kernel i arg2 harg2 arg3 harg3 arg4 harg4 arg5 harg5 arg6 harg6 arg7 harg7) K := by
  simp only [cc1__tail_logsumexp_kernel_eq_skeleton]; unfold cc1__tail_logsumexp_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz1]
  simp only [View.readAt_eq_ld, harg2.read_unread, harg3.read_unread, harg4.read_unread, harg6.read_unread, harg7.read_unread,
    View.ld_unit_zero (S := S2048x512) hz1, View.ld_unit_zero (S := S512x1024) hz1, View.ld_unit_zero (S := S1x1024) hz1,
    View.ld_unit_zero (S := S2048x1) hz1, View.readCov_unit_zero (S := S2048x1) _ hz1]

end Cert.Kernel.Fr

end
-- ==== Proof.Kernel.R1.Frame.lean ====
import proofs.«420015_j11879879541904_3_alg».proof.Proof.Kernel.R1.RunC

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev xblk1 (c : Dev nD) (t : Fin cfg1.N) : Vec F S2048x512 .bf16 := iblk1 V c 0 t
abbrev wblk1 (c : Dev nD) (t : Fin cfg1.N) : Vec F S512x1024 .bf16 := iblk1 V c 1 t
abbrev bblk1 (c : Dev nD) (t : Fin cfg1.N) : Vec F S1x1024 .f32 := iblk1 V c 2 t

/-- What the body leaves at point `t`, by case, in (output block, running maximum, running sum), from the pair `(m, l)` it finds. -/
def stepA1 (c : Dev nD) (t : Fin cfg1.N) : Vec F S2048x1 .f32 × Vec F S2048x1 .f32 × Vec F S2048x1 .f32 :=
  (k1_pay1, k1_pay6 (xblk1 V c t) (wblk1 V c t) (bblk1 V c t) k1_pay1, k1_pay5 (xblk1 V c t) (wblk1 V c t) (bblk1 V c t) k1_pay1 k1_pay1 k1_pay2)
def stepB1 (c : Dev nD) (t : Fin cfg1.N) (m l : Vec F S2048x1 .f32) : Vec F S2048x1 .f32 × Vec F S2048x1 .f32 × Vec F S2048x1 .f32 :=
  (k1_pay1, k1_pay6 (xblk1 V c t) (wblk1 V c t) (bblk1 V c t) m, k1_pay5 (xblk1 V c t) (wblk1 V c t) (bblk1 V c t) m m l)
def stepC1 (c : Dev nD) (t : Fin cfg1.N) (m l : Vec F S2048x1 .f32) : Vec F S2048x1 .f32 × Vec F S2048x1 .f32 × Vec F S2048x1 .f32 :=
  (k1_pay11 (k1_pay10 (grid1.coords t) (xblk1 V c t) (wblk1 V c t) (bblk1 V c t) m) (k1_pay9 (grid1.coords t) (xblk1 V c t) (wblk1 V c t) (bblk1 V c t) m m l), k1_pay10 (grid1.coords t) (xblk1 V c t) (wblk1 V c t) (bblk1 V c t) m, k1_pay9 (grid1.coords t) (xblk1 V c t) (wblk1 V c t) (bblk1 V c t) m m l)

/-- The three buffers after position `n`: the first tile of a token tile restarts the pair, the last one also writes the output. -/
def outsAt1 (c : Dev nD) : (n : ℕ) → n < cfg1.N → Vec F S2048x1 .f32 × Vec F S2048x1 .f32 × Vec F S2048x1 .f32
  | 0, hn => stepA1 V c ⟨0, hn⟩
  | n + 1, hn =>
    if (n + 1) % 8 = 0 then stepA1 V c ⟨n + 1, hn⟩
    else if (n + 1) % 8 = 7 then stepC1 V c ⟨n + 1, hn⟩ (outsAt1 c n (Nat.lt_of_succ_lt hn)).2.1 (outsAt1 c n (Nat.lt_of_succ_lt hn)).2.2
    else stepB1 V c ⟨n + 1, hn⟩ (outsAt1 c n (Nat.lt_of_succ_lt hn)).2.1 (outsAt1 c n (Nat.lt_of_succ_lt hn)).2.2

abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 8 = 0) : outsAt1 V c t.val t.isLt = stepA1 V c t := by
  obtain ⟨n, hn⟩ := t
  cases n with
  | zero => rfl
  | succ n => exact if_pos h0

theorem outsAt1_B (c : Dev nD) (t : Fin cfg1.N) (h0 : ¬t.val % 8 = 0) (h7 : ¬t.val % 8 = 7) :
    outsAt1 V c t.val t.isLt = stepB1 V c t (prev1 V c t).2.1 (prev1 V c t).2.2 := by
  obtain ⟨n, hn⟩ := t
  cases n with
  | zero => exact absurd (Nat.zero_mod _) h0
  | succ n => exact (if_neg h0).trans (if_neg h7)

theorem outsAt1_C (c : Dev nD) (t : Fin cfg1.N) (h0 : ¬t.val % 8 = 0) (h7 : t.val % 8 = 7) :
    outsAt1 V c t.val t.isLt = stepC1 V c t (prev1 V c t).2.1 (prev1 V c t).2.2 := by
  obtain ⟨n, hn⟩ := t
  cases n with
  | zero => exact absurd (Nat.zero_mod _) h0
  | succ n => exact (if_neg h0).trans (if_pos h7)

/-- Before position `n`: the class invariant, with the two scratch buffers at what position `n - 1` left once `n > 0`. -/
def PhiS1 (c : Dev nD) : (n : ℕ) → n ≤ cfg1.N → sProp 𝕄
  | 0, _ => Pipeline.ΦA spec1 c
  | n + 1, hn => PhiAt1 c (owns (c : Thread nD τ) scM1_0 fullShare (outsAt1 V c n hn).2.1) (owns (c : Thread nD τ) scM1_1 fullShare (outsAt1 V c n hn).2.2)

theorem PhiS1_pos (c : Dev nD) (n : ℕ) (h : n ≤ cfg1.N) (hz : n ≠ 0) :
    PhiS1 V c n h = PhiAt1 c (owns (c : Thread nD τ) scM1_0 fullShare (outsAt1 V c (n - 1) (by omega)).2.1) (owns (c : Thread nD τ) scM1_1 fullShare (outsAt1 V c (n - 1) (by omega)).2.2) := by
  cases n with
  | zero => exact absurd rfl hz
  | succ n => rfl

/-- At every position the invariant holds the two scratch buffers at some contents. -/
theorem PhiS1_some (c : Dev nD) (n : ℕ) (h : n ≤ cfg1.N) :
    PhiS1 V c n h ⊢ PhiAt1 c (iprop(∃ d, owns (c : Thread nD τ) scM1_0 fullShare d)) (iprop(∃ d, owns (c : Thread nD τ) scM1_1 fullShare d)) := by
  cases n with
  | zero => rw [show PhiS1 V c 0 h = Pipeline.ΦA spec1 c from rfl, PhiA1_eq]
  | succ n =>
    rw [show PhiS1 V c (n + 1) h = PhiAt1 c (owns (c : Thread nD τ) scM1_0 fullShare (outsAt1 V c n h).2.1) (owns (c : Thread nD τ) scM1_1 fullShare (outsAt1 V c n h).2.2) from rfl]
    iintro HΦ
    ihave HΦ' := (PhiAt1_split c _ _) $$ HΦ
    icases HΦ' with ⟨HS0, HS1, HO⟩
    iapply (PhiAt1_join c _ _)
    isplitl [HS0]; · iexists _; iexact HS0
    isplitl [HS1]; · iexists _; iexact HS1
    iexact HO

/-- The region's proof data at the entry contents `V`: inputs at their blocks, the output at `outsAt1`, invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  before1_0_of V (dat1 V c) rfl (fun _ => rfl) t d
theorem before1_1 (c : Dev nD) (t : Fin cfg1.N) (d) : (dat1 V c).before 1 t d = iblk1 V c 1 t :=
  before1_1_of V (dat1 V c) rfl (fun _ => rfl) t d
theorem before1_2 (c : Dev nD) (t : Fin cfg1.N) (d) : (dat1 V c).before 2 t d = iblk1 V c 2 t :=
  before1_2_of V (dat1 V c) rfl (fun _ => rfl) t d

theorem leaves1_in (c : Dev nD) (t : Fin cfg1.N) (w : Fin cfg1.W) (hw : cfg1.idle w (grid1.coords t) = false) :
    (dat1 V c).leavesExact w t = owns (c : Thread nD τ) ((cfg1.win w).stage (cfg1.slots t w)) fullShare ((dat1 V c).after w t) := by
  unfold Dat.leavesExact; rw [hw]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the invariant lends the run the two scratch buffers and takes them back at what the run leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiAt1 c (owns (c : Thread nD τ) scM1_0 fullShare (outsAt1 V c t.val t.isLt).2.1) (owns (c : Thread nD τ) scM1_1 fullShare (outsAt1 V c t.val t.isLt).2.2) from rfl,
    show (dat1 V c).Φ t.castSucc = PhiS1 V c t.val (Nat.le_of_lt t.isLt) from rfl,
    leaves1_in V c t 0 (liveAt1_0 t), leaves1_in V c t 1 (liveAt1_1 t), leaves1_in V c t 2 (liveAt1_2 t)]
  have hN : t.val < 16 := lt_of_lt_of_eq t.isLt (show cfg1.N = 16 from N_1)
  by_cases h0 : t.val % 8 = 0
  · have h7 : ¬t.val % 8 = 7 := by omega
    rw [Dat.leavesExact_idle (dat1 V c) 3 t (idleAt1_3_A t ((hcond1_0 t).mpr h0) ((hcond1_1 t).mpr h7) (fun h => h7 ((hcond1_2 t).mp h))) (noFlush1_3_A t ((hcond1_0 t).mpr h0) ((hcond1_1 t).mpr h7) (fun h => h7 ((hcond1_2 t).mp h))), outsAt1_A V c t h0]
    dsimp only [stepA1]
    iintro ⟨HΦ, Ho, ⟨%d0, H0⟩, ⟨%d1, H1⟩, ⟨%d2, H2⟩, ⟨%d3, H3⟩⟩
    ihave HΦ' := (PhiS1_some V c _ _) $$ HΦ
    ihave HΦ'' := (PhiAt1_split c _ _) $$ HΦ'
    icases HΦ'' with ⟨HS0, HS1, HO⟩
    iapply (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h7) (fun h => h7 ((hcond1_2 t).mp h)) (xblk1 V c t) (wblk1 V c t) (bblk1 V c t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HO]
    · iapply (PhiAt1_join c _ _)
      isplitl [HS0]; · iexact HS0
      isplitl [HS1]; · iexact HS1
      iexact HO
    isplitl [Ho]; · iexact Ho
    isplitl [H0]; · iexact H0
    isplitl [H1]; · iexact H1
    isplitl [H2]; · iexact H2
    iexists _; iexact H3
  · have hz : t.val ≠ 0 := fun h => h0 (by rw [h])
    rw [PhiS1_pos V c _ _ hz]
    by_cases h7 : t.val % 8 = 7
    · rw [show (dat1 V c).leavesExact 3 t = owns (c : Thread nD τ) (ms1_3 t) fullShare ((dat1 V c).after 3 t) from by
          unfold Dat.leavesExact; rw [liveAt1_3_C t (fun h => h0 ((hcond1_0 t).mp h)) (fun h => (hcond1_1 t).mp h h7) ((hcond1_2 t).mpr h7)],
        after1_3, outsAt1_C V c t h0 h7]
      dsimp only [stepC1]
      iintro ⟨HΦ, Ho, ⟨%d0, H0⟩, ⟨%d1, H1⟩, ⟨%d2, H2⟩, ⟨%d3, H3⟩⟩
      ihave HΦ' := (PhiAt1_split c _ _) $$ HΦ
      icases HΦ' with ⟨HS0, HS1, HO⟩
      iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => (hcond1_1 t).mp h h7) ((hcond1_2 t).mpr h7) (xblk1 V c t) (wblk1 V c t) (bblk1 V c t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HO]
      · iapply (PhiAt1_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexact H3
    · rw [Dat.leavesExact_idle (dat1 V c) 3 t (idleAt1_3_B t (fun h => h0 ((hcond1_0 t).mp h)) ((hcond1_1 t).mpr h7) (fun h => h7 ((hcond1_2 t).mp h))) (noFlush1_3_B t (fun h => h0 ((hcond1_0 t).mp h)) ((hcond1_1 t).mpr h7) (fun h => h7 ((hcond1_2 t).mp h))), outsAt1_B V c t h0 h7]
      dsimp only [stepB1]
      iintro ⟨HΦ, Ho, ⟨%d0, H0⟩, ⟨%d1, H1⟩, ⟨%d2, H2⟩, ⟨%d3, H3⟩⟩
      ihave HΦ' := (PhiAt1_split c _ _) $$ HΦ
      icases HΦ' with ⟨HS0, HS1, HO⟩
      iapply (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h7) (fun h => h7 ((hcond1_2 t).mp h)) (xblk1 V c t) (wblk1 V c t) (bblk1 V c t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HO]
      · iapply (PhiAt1_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem Phi_out1 (c : Dev nD) (t : Fin (cfg1.N + 1)) : (dat1 V c).Φ t ⊢ Pipeline.ΦA spec1 c := by
  rw [PhiA1_eq]; exact PhiS1_some V c t.val (Nat.le_of_lt_succ t.isLt)

theorem hout1 (c : Dev nD) : (dat1 V c).Φ (Fin.last cfg1.N) ⊢ Pipeline.ΦA spec1 c := Phi_out1 V c _

end Cert.Kernel.Fr

end
-- ==== Proof.Kernel.R2.Runs.lean ====
import proofs.«420015_j11879879541904_3_alg».proof.Proof.Kernel.Launch
import proofs.«420015_j11879879541904_3_alg».proof.Proof.Gen.Kernel.Skeleton
import proofs.«420015_j11879879541904_3_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 40 = 0 :=
  (by decide +kernel : ∀ t : Fin grid2.N, cond2_0 (grid2.coords t) ↔ t.val % 40 = 0)

abbrev cond2_1 (i : grid2.Coords) : Prop := (Scalar.cmpi .ne (Scalar.extui (Scalar.xori (Scalar.cmpi .eq (BitVec.ofNat 32 (i 1).val) 39#32) 1#1)) 0#32) = 1#1

theorem hcond2_1 : ∀ t : Fin cfg2.N, cond2_1 (grid2.coords t) ↔ ¬t.val % 40 = 39 :=
  (by decide +kernel : ∀ t : Fin grid2.N, cond2_1 (grid2.coords t) ↔ ¬t.val % 40 = 39)

abbrev cond2_2 (i : grid2.Coords) : Prop := k2_cond3 i = 1#1

theorem hcond2_2 : ∀ t : Fin cfg2.N, cond2_2 (grid2.coords t) ↔ t.val % 40 = 39 :=
  (by decide +kernel : ∀ t : Fin grid2.N, cond2_2 (grid2.coords t) ↔ t.val % 40 = 39)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3_A : ∀ t : Fin cfg2.N, cond2_0 (grid2.coords t) → cond2_1 (grid2.coords t) → ¬cond2_2 (grid2.coords t) → cfg2.idle 3 (grid2.coords t) = true := by decide +kernel

theorem noFlush2_3_A : ∀ t : Fin cfg2.N, cond2_0 (grid2.coords t) → cond2_1 (grid2.coords t) → ¬cond2_2 (grid2.coords t) → (cfg2.win 3).flush t = false := by decide +kernel

theorem idleAt2_3_B : ∀ t : Fin cfg2.N, ¬cond2_0 (grid2.coords t) → cond2_1 (grid2.coords t) → ¬cond2_2 (grid2.coords t) → cfg2.idle 3 (grid2.coords t) = true := by decide +kernel

theorem noFlush2_3_B : ∀ t : Fin cfg2.N, ¬cond2_0 (grid2.coords t) → cond2_1 (grid2.coords t) → ¬cond2_2 (grid2.coords t) → (cfg2.win 3).flush t = false := by decide +kernel

theorem liveAt2_3_C : ∀ t : Fin cfg2.N, ¬cond2_0 (grid2.coords t) → ¬cond2_1 (grid2.coords t) → cond2_2 (grid2.coords t) → cfg2.idle 3 (grid2.coords t) = false := by decide +kernel

abbrev VO2_3 : View sig .tc .vmem S2048x1 .f32 := (Memref.whole cc2_stg3_0 : Memref sig .tc .vmem S2048x1 .f32).view

abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)

abbrev scM2_0 : Memref sig .tc .vmem S2048x1 .f32 := Memref.whole cc2_scratch0
abbrev scM2_1 : Memref sig .tc .vmem S2048x1 .f32 := Memref.whole cc2_scratch1

abbrev VS2_0 : View sig .tc .vmem S2048x1 .f32 := scM2_0.view
abbrev VS2_1 : View sig .tc .vmem S2048x1 .f32 := scM2_1.view

abbrev But2 (c : Dev nD) : sProp 𝕄 :=
  Pipeline.scopedRestBut (Ix := Unit) (Name := ℕ) (U := UR sig nD τ) (Lvl := ℕ) (Val := Elt F) spec2 c [cc2_scratch0, cc2_scratch1]

theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ But2 c) :=
  Pipeline.scopedRest_split_of_list spec2 c [cc2_scratch0, cc2_scratch1] (by decide) (by decide)

def PhiAt2 (c : Dev nD) (P0 P1 : sProp 𝕄) : sProp 𝕄 :=
  iprop(iprop(iprop(P0 ∗ P1) ∗ But2 c) ∗ (∃ r, prngReg c r))

def Oth2 (c : Dev nD) : sProp 𝕄 :=
  iprop(But2 c ∗ (∃ r, prngReg c r))

theorem PhiA2_eq (c : Dev nD) :
    (Pipeline.ΦA spec2 c : sProp 𝕄)
      = PhiAt2 c (iprop(∃ d, owns (c : Thread nD τ) scM2_0 fullShare d)) (iprop(∃ d, owns (c : Thread nD τ) scM2_1 fullShare d)) := by
  unfold Pipeline.ΦA PhiAt2; rw [scopedRest2_split]; simp only [scM2_0, scM2_1, owns_whole]; try rfl

theorem PhiAt2_split (c : Dev nD) (P0 P1 : sProp 𝕄) : PhiAt2 c P0 P1 ⊢ iprop(P0 ∗ P1 ∗ Oth2 (F := F) c) := by
  unfold PhiAt2 Oth2
  iintro ⟨⟨⟨HS0, HS1⟩, HR⟩, Hg⟩
  isplitl [HS0]; · iexact HS0
  isplitl [HS1]; · iexact HS1
  isplitl [HR]; · iexact HR
  iexact Hg

theorem PhiAt2_join (c : Dev nD) (P0 P1 : sProp 𝕄) : iprop(P0 ∗ P1 ∗ Oth2 (F := F) c) ⊢ PhiAt2 c P0 P1 := by
  unfold PhiAt2 Oth2
  iintro ⟨HS0, HS1, HR, Hg⟩
  isplitl [HS0 HS1 HR]
  · isplitl [HS0 HS1]
    · isplitl [HS0]; · iexact HS0
      iexact HS1
    iexact HR
  iexact Hg

end Cert.Kernel.Fr

end
-- ==== Proof.Kernel.R2.RunA.lean ====
import proofs.«420015_j11879879541904_3_alg».proof.Proof.Kernel.R2.Runs

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first vocabulary tile): from the scratch buffers at anything, the body resets them and leaves the tile's maximum and shifted sum. -/
theorem kernelRun2_A (c : Dev nD) (i : grid2.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond2_0 i) (hc1 : cond2_1 i) (hc2 : ¬cond2_2 i)
    (x0 : Vec F S2048x512 .bf16) (x1 : Vec F S512x1024 .bf16) (x2 : Vec F S1x1024 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay6 x0 x1 x2 (k2_pay1 (F := F))) ∗ owns (c : Thread nD τ) arg7 fullShare (k2_pay5 x0 x1 x2 (k2_pay1 (F := F)) (k2_pay1 (F := F)) (k2_pay2 (F := F)))) -∗ K ⟨⟩))
      ⊢ wp frame (wpE (defs₀ (F := F)) Variants.none c none) E (cc2__tail_logsumexp_kernel i arg2 harg2 arg3 harg3 arg4 harg4 arg5 harg5 arg6 harg6 arg7 harg7) K := by
  simp only [cc2__tail_logsumexp_kernel_eq_skeleton]; unfold cc2__tail_logsumexp_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz2]
  simp only [View.readAt_eq_ld, harg2.read_unread, harg3.read_unread, harg4.read_unread, harg6.read_unread, harg7.read_unread,
    View.ld_unit_zero (S := S2048x512) hz2, View.ld_unit_zero (S := S512x1024) hz2, View.ld_unit_zero (S := S1x1024) hz2,
    View.ld_unit_zero (S := S2048x1) hz2, View.readCov_unit_zero (S := S2048x1) _ hz2]

end Cert.Kernel.Fr

end
-- ==== Proof.Kernel.R2.RunB.lean ====
import proofs.«420015_j11879879541904_3_alg».proof.Proof.Kernel.R2.RunA

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (a middle tile): the running maximum and sum are updated with the tile's unmasked logits. -/
theorem kernelRun2_B (c : Dev nD) (i : grid2.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond2_0 i) (hc1 : cond2_1 i) (hc2 : ¬cond2_2 i)
    (x0 : Vec F S2048x512 .bf16) (x1 : Vec F S512x1024 .bf16) (x2 : Vec F S1x1024 .f32) (xs0 xs1 xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay6 x0 x1 x2 xs0) ∗ owns (c : Thread nD τ) arg7 fullShare (k2_pay5 x0 x1 x2 xs0 xs0 xs1)) -∗ K ⟨⟩))
      ⊢ wp frame (wpE (defs₀ (F := F)) Variants.none c none) E (cc2__tail_logsumexp_kernel i arg2 harg2 arg3 harg3 arg4 harg4 arg5 harg5 arg6 harg6 arg7 harg7) K := by
  simp only [cc2__tail_logsumexp_kernel_eq_skeleton]; unfold cc2__tail_logsumexp_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz2]
  simp only [View.readAt_eq_ld, harg2.read_unread, harg3.read_unread, harg4.read_unread, harg6.read_unread, harg7.read_unread,
    View.ld_unit_zero (S := S2048x512) hz2, View.ld_unit_zero (S := S512x1024) hz2, View.ld_unit_zero (S := S1x1024) hz2,
    View.ld_unit_zero (S := S2048x1) hz2, View.readCov_unit_zero (S := S2048x1) _ hz2]

end Cert.Kernel.Fr

end
-- ==== Proof.Kernel.R2.RunC.lean ====
import proofs.«420015_j11879879541904_3_alg».proof.Proof.Kernel.R2.RunB

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (last tile): the masked update, and the output block receives maximum + log sum. -/
theorem kernelRun2_C (c : Dev nD) (i : grid2.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond2_0 i) (hc1 : ¬cond2_1 i) (hc2 : cond2_2 i)
    (x0 : Vec F S2048x512 .bf16) (x1 : Vec F S512x1024 .bf16) (x2 : Vec F S1x1024 .f32) (xs0 xs1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare (k2_pay11 (k2_pay10 i x0 x1 x2 xs0) (k2_pay9 i x0 x1 x2 xs0 xs0 xs1)) ∗ owns (c : Thread nD τ) arg6 fullShare (k2_pay10 i x0 x1 x2 xs0) ∗ owns (c : Thread nD τ) arg7 fullShare (k2_pay9 i x0 x1 x2 xs0 xs0 xs1)) -∗ K ⟨⟩))
      ⊢ wp frame (wpE (defs₀ (F := F)) Variants.none c none) E (cc2__tail_logsumexp_kernel i arg2 harg2 arg3 harg3 arg4 harg4 arg5 harg5 arg6 harg6 arg7 harg7) K := by
  simp only [cc2__tail_logsumexp_kernel_eq_skeleton]; unfold cc2__tail_logsumexp_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz2]
  simp only [View.readAt_eq_ld, harg2.read_unread, harg3.read_unread, harg4.read_unread, harg6.read_unread, harg7.read_unread,
    View.ld_unit_zero (S := S2048x512) hz2, View.ld_unit_zero (S := S512x1024) hz2, View.ld_unit_zero (S := S1x1024) hz2,
    View.ld_unit_zero (S := S2048x1) hz2, View.readCov_unit_zero (S := S2048x1) _ hz2]

end Cert.Kernel.Fr

end
-- ==== Proof.Kernel.R2.Frame.lean ====
import proofs.«420015_j11879879541904_3_alg».proof.Proof.Kernel.R2.RunC

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev xblk2 (c : Dev nD) (t : Fin cfg2.N) : Vec F S2048x512 .bf16 := iblk2 V c 0 t
abbrev wblk2 (c : Dev nD) (t : Fin cfg2.N) : Vec F S512x1024 .bf16 := iblk2 V c 1 t
abbrev bblk2 (c : Dev nD) (t : Fin cfg2.N) : Vec F S1x1024 .f32 := iblk2 V c 2 t

/-- What the body leaves at point `t`, by case, in (output block, running maximum, running sum), from the pair `(m, l)` it finds. -/
def stepA2 (c : Dev nD) (t : Fin cfg2.N) : Vec F S2048x1 .f32 × Vec F S2048x1 .f32 × Vec F S2048x1 .f32 :=
  (k2_pay1, k2_pay6 (xblk2 V c t) (wblk2 V c t) (bblk2 V c t) k2_pay1, k2_pay5 (xblk2 V c t) (wblk2 V c t) (bblk2 V c t) k2_pay1 k2_pay1 k2_pay2)
def stepB2 (c : Dev nD) (t : Fin cfg2.N) (m l : Vec F S2048x1 .f32) : Vec F S2048x1 .f32 × Vec F S2048x1 .f32 × Vec F S2048x1 .f32 :=
  (k2_pay1, k2_pay6 (xblk2 V c t) (wblk2 V c t) (bblk2 V c t) m, k2_pay5 (xblk2 V c t) (wblk2 V c t) (bblk2 V c t) m m l)
def stepC2 (c : Dev nD) (t : Fin cfg2.N) (m l : Vec F S2048x1 .f32) : Vec F S2048x1 .f32 × Vec F S2048x1 .f32 × Vec F S2048x1 .f32 :=
  (k2_pay11 (k2_pay10 (grid2.coords t) (xblk2 V c t) (wblk2 V c t) (bblk2 V c t) m) (k2_pay9 (grid2.coords t) (xblk2 V c t) (wblk2 V c t) (bblk2 V c t) m m l), k2_pay10 (grid2.coords t) (xblk2 V c t) (wblk2 V c t) (bblk2 V c t) m, k2_pay9 (grid2.coords t) (xblk2 V c t) (wblk2 V c t) (bblk2 V c t) m m l)

/-- The three buffers after position `n`: the first tile of a token tile restarts the pair, the last one also writes the output. -/
def outsAt2 (c : Dev nD) : (n : ℕ) → n < cfg2.N → Vec F S2048x1 .f32 × Vec F S2048x1 .f32 × Vec F S2048x1 .f32
  | 0, hn => stepA2 V c ⟨0, hn⟩
  | n + 1, hn =>
    if (n + 1) % 40 = 0 then stepA2 V c ⟨n + 1, hn⟩
    else if (n + 1) % 40 = 39 then stepC2 V c ⟨n + 1, hn⟩ (outsAt2 c n (Nat.lt_of_succ_lt hn)).2.1 (outsAt2 c n (Nat.lt_of_succ_lt hn)).2.2
    else stepB2 V c ⟨n + 1, hn⟩ (outsAt2 c n (Nat.lt_of_succ_lt hn)).2.1 (outsAt2 c n (Nat.lt_of_succ_lt hn)).2.2

abbrev prev2 (c : Dev nD) (t : Fin cfg2.N) := outsAt2 V c (t.val - 1) (Nat.lt_of_le_of_lt (Nat.sub_le _ _) t.isLt)

theorem outsAt2_A (c : Dev nD) (t : Fin cfg2.N) (h0 : t.val % 40 = 0) : outsAt2 V c t.val t.isLt = stepA2 V c t := by
  obtain ⟨n, hn⟩ := t
  cases n with
  | zero => rfl
  | succ n => exact if_pos h0

theorem outsAt2_B (c : Dev nD) (t : Fin cfg2.N) (h0 : ¬t.val % 40 = 0) (h7 : ¬t.val % 40 = 39) :
    outsAt2 V c t.val t.isLt = stepB2 V c t (prev2 V c t).2.1 (prev2 V c t).2.2 := by
  obtain ⟨n, hn⟩ := t
  cases n with
  | zero => exact absurd (Nat.zero_mod _) h0
  | succ n => exact (if_neg h0).trans (if_neg h7)

theorem outsAt2_C (c : Dev nD) (t : Fin cfg2.N) (h0 : ¬t.val % 40 = 0) (h7 : t.val % 40 = 39) :
    outsAt2 V c t.val t.isLt = stepC2 V c t (prev2 V c t).2.1 (prev2 V c t).2.2 := by
  obtain ⟨n, hn⟩ := t
  cases n with
  | zero => exact absurd (Nat.zero_mod _) h0
  | succ n => exact (if_neg h0).trans (if_pos h7)

/-- Before position `n`: the class invariant, with the two scratch buffers at what position `n - 1` left once `n > 0`. -/
def PhiS2 (c : Dev nD) : (n : ℕ) → n ≤ cfg2.N → sProp 𝕄
  | 0, _ => Pipeline.ΦA spec2 c
  | n + 1, hn => PhiAt2 c (owns (c : Thread nD τ) scM2_0 fullShare (outsAt2 V c n hn).2.1) (owns (c : Thread nD τ) scM2_1 fullShare (outsAt2 V c n hn).2.2)

theorem PhiS2_pos (c : Dev nD) (n : ℕ) (h : n ≤ cfg2.N) (hz : n ≠ 0) :
    PhiS2 V c n h = PhiAt2 c (owns (c : Thread nD τ) scM2_0 fullShare (outsAt2 V c (n - 1) (by omega)).2.1) (owns (c : Thread nD τ) scM2_1 fullShare (outsAt2 V c (n - 1) (by omega)).2.2) := by
  cases n with
  | zero => exact absurd rfl hz
  | succ n => rfl

/-- At every position the invariant holds the two scratch buffers at some contents. -/
theorem PhiS2_some (c : Dev nD) (n : ℕ) (h : n ≤ cfg2.N) :
    PhiS2 V c n h ⊢ PhiAt2 c (iprop(∃ d, owns (c : Thread nD τ) scM2_0 fullShare d)) (iprop(∃ d, owns (c : Thread nD τ) scM2_1 fullShare d)) := by
  cases n with
  | zero => rw [show PhiS2 V c 0 h = Pipeline.ΦA spec2 c from rfl, PhiA2_eq]
  | succ n =>
    rw [show PhiS2 V c (n + 1) h = PhiAt2 c (owns (c : Thread nD τ) scM2_0 fullShare (outsAt2 V c n h).2.1) (owns (c : Thread nD τ) scM2_1 fullShare (outsAt2 V c n h).2.2) from rfl]
    iintro HΦ
    ihave HΦ' := (PhiAt2_split c _ _) $$ HΦ
    icases HΦ' with ⟨HS0, HS1, HO⟩
    iapply (PhiAt2_join c _ _)
    isplitl [HS0]; · iexists _; iexact HS0
    isplitl [HS1]; · iexists _; iexact HS1
    iexact HO

/-- The region's proof data at the entry contents `V`: inputs at their blocks, the output at `outsAt2`, invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  before2_0_of V (dat2 V c) rfl (fun _ => rfl) t d
theorem before2_1 (c : Dev nD) (t : Fin cfg2.N) (d) : (dat2 V c).before 1 t d = iblk2 V c 1 t :=
  before2_1_of V (dat2 V c) rfl (fun _ => rfl) t d
theorem before2_2 (c : Dev nD) (t : Fin cfg2.N) (d) : (dat2 V c).before 2 t d = iblk2 V c 2 t :=
  before2_2_of V (dat2 V c) rfl (fun _ => rfl) t d

theorem leaves2_in (c : Dev nD) (t : Fin cfg2.N) (w : Fin cfg2.W) (hw : cfg2.idle w (grid2.coords t) = false) :
    (dat2 V c).leavesExact w t = owns (c : Thread nD τ) ((cfg2.win w).stage (cfg2.slots t w)) fullShare ((dat2 V c).after w t) := by
  unfold Dat.leavesExact; rw [hw]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4800000 in
/-- The body at any point: the invariant lends the run the two scratch buffers and takes them back at what the run leaves. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiAt2 c (owns (c : Thread nD τ) scM2_0 fullShare (outsAt2 V c t.val t.isLt).2.1) (owns (c : Thread nD τ) scM2_1 fullShare (outsAt2 V c t.val t.isLt).2.2) from rfl,
    show (dat2 V c).Φ t.castSucc = PhiS2 V c t.val (Nat.le_of_lt t.isLt) from rfl,
    leaves2_in V c t 0 (liveAt2_0 t), leaves2_in V c t 1 (liveAt2_1 t), leaves2_in V c t 2 (liveAt2_2 t)]
  have hN : t.val < 80 := lt_of_lt_of_eq t.isLt (show cfg2.N = 80 from N_2)
  by_cases h0 : t.val % 40 = 0
  · have h7 : ¬t.val % 40 = 39 := by omega
    rw [Dat.leavesExact_idle (dat2 V c) 3 t (idleAt2_3_A t ((hcond2_0 t).mpr h0) ((hcond2_1 t).mpr h7) (fun h => h7 ((hcond2_2 t).mp h))) (noFlush2_3_A t ((hcond2_0 t).mpr h0) ((hcond2_1 t).mpr h7) (fun h => h7 ((hcond2_2 t).mp h))), outsAt2_A V c t h0]
    dsimp only [stepA2]
    iintro ⟨HΦ, Ho, ⟨%d0, H0⟩, ⟨%d1, H1⟩, ⟨%d2, H2⟩, ⟨%d3, H3⟩⟩
    ihave HΦ' := (PhiS2_some V c _ _) $$ HΦ
    ihave HΦ'' := (PhiAt2_split c _ _) $$ HΦ'
    icases HΦ'' with ⟨HS0, HS1, HO⟩
    iapply (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) ((hcond2_1 t).mpr h7) (fun h => h7 ((hcond2_2 t).mp h)) (xblk2 V c t) (wblk2 V c t) (bblk2 V c t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HO]
    · iapply (PhiAt2_join c _ _)
      isplitl [HS0]; · iexact HS0
      isplitl [HS1]; · iexact HS1
      iexact HO
    isplitl [Ho]; · iexact Ho
    isplitl [H0]; · iexact H0
    isplitl [H1]; · iexact H1
    isplitl [H2]; · iexact H2
    iexists _; iexact H3
  · have hz : t.val ≠ 0 := fun h => h0 (by rw [h])
    rw [PhiS2_pos V c _ _ hz]
    by_cases h7 : t.val % 40 = 39
    · rw [show (dat2 V c).leavesExact 3 t = owns (c : Thread nD τ) (ms2_3 t) fullShare ((dat2 V c).after 3 t) from by
          unfold Dat.leavesExact; rw [liveAt2_3_C t (fun h => h0 ((hcond2_0 t).mp h)) (fun h => (hcond2_1 t).mp h h7) ((hcond2_2 t).mpr h7)],
        after2_3, outsAt2_C V c t h0 h7]
      dsimp only [stepC2]
      iintro ⟨HΦ, Ho, ⟨%d0, H0⟩, ⟨%d1, H1⟩, ⟨%d2, H2⟩, ⟨%d3, H3⟩⟩
      ihave HΦ' := (PhiAt2_split c _ _) $$ HΦ
      icases HΦ' with ⟨HS0, HS1, HO⟩
      iapply (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => (hcond2_1 t).mp h h7) ((hcond2_2 t).mpr h7) (xblk2 V c t) (wblk2 V c t) (bblk2 V c t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HO]
      · iapply (PhiAt2_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexact H3
    · rw [Dat.leavesExact_idle (dat2 V c) 3 t (idleAt2_3_B t (fun h => h0 ((hcond2_0 t).mp h)) ((hcond2_1 t).mpr h7) (fun h => h7 ((hcond2_2 t).mp h))) (noFlush2_3_B t (fun h => h0 ((hcond2_0 t).mp h)) ((hcond2_1 t).mpr h7) (fun h => h7 ((hcond2_2 t).mp h))), outsAt2_B V c t h0 h7]
      dsimp only [stepB2]
      iintro ⟨HΦ, Ho, ⟨%d0, H0⟩, ⟨%d1, H1⟩, ⟨%d2, H2⟩, ⟨%d3, H3⟩⟩
      ihave HΦ' := (PhiAt2_split c _ _) $$ HΦ
      icases HΦ' with ⟨HS0, HS1, HO⟩
      iapply (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h7) (fun h => h7 ((hcond2_2 t).mp h)) (xblk2 V c t) (wblk2 V c t) (bblk2 V c t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HO]
      · iapply (PhiAt2_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem Phi_out2 (c : Dev nD) (t : Fin (cfg2.N + 1)) : (dat2 V c).Φ t ⊢ Pipeline.ΦA spec2 c := by
  rw [PhiA2_eq]; exact PhiS2_some V c t.val (Nat.le_of_lt_succ t.isLt)

theorem hout2 (c : Dev nD) : (dat2 V c).Φ (Fin.last cfg2.N) ⊢ Pipeline.ΦA spec2 c := Phi_out2 V c _

end Cert.Kernel.Fr

end
-- ==== Proof.Kernel.Regs.lean ====
import proofs.«420015_j11879879541904_3_alg».proof.Proof.Kernel.Regions
import proofs.«420015_j11879879541904_3_alg».proof.Proof.Kernel.R0.Frame
import proofs.«420015_j11879879541904_3_alg».proof.Proof.Kernel.R1.Frame
import proofs.«420015_j11879879541904_3_alg».proof.Proof.Kernel.R2.Frame
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev base (c : Dev nD) : (r : Ref sig .tc) → Buf (Elt F) ((c : Thread nD τ).loc r) := fun r => m ((c : Thread nD τ).loc r)

abbrev ent0 : (c : Dev nD) → (b : Ref sig .tc) → Buf (Elt F) ((c : Thread nD τ).loc b) := fun c b => Gen.V6 m c b

def o0 (c : Dev nD) : Buf (Elt F) ((c : Thread nD τ).loc main_v14) := (dat0 (ent0 m) c).arrAt 3 cfg0.N

def outsA : Gen.Outs (F := F) := fun _ r c => Function.update (base m c) main_v14 (o0 m c) r

abbrev ent1 : (c : Dev nD) → (b : Ref sig .tc) → Buf (Elt F) ((c : Thread nD τ).loc b) := fun c b => Gen.V17 m (outsA m) c b

def o1 (c : Dev nD) : Buf (Elt F) ((c : Thread nD τ).loc main_v52) := (dat1 (ent1 m) c).arrAt 3 cfg1.N

def outsB : Gen.Outs (F := F) := fun _ r c =>
  Function.update (Function.update (base m c) main_v14 (o0 m c)) main_v52 (o1 m c) r

abbrev ent2 : (c : Dev nD) → (b : Ref sig .tc) → Buf (Elt F) ((c : Thread nD τ).loc b) := fun c b => Gen.V28 m (outsB m) c b

def o2 (c : Dev nD) : Buf (Elt F) ((c : Thread nD τ).loc main_v90) := (dat2 (ent2 m) c).arrAt 3 cfg2.N

def outs : Gen.Outs (F := F) := fun _ r c =>
  Function.update (Function.update (Function.update (base m c) main_v14 (o0 m c)) main_v52 (o1 m c)) main_v90 (o2 m c) r

theorem outsA_0 (j : ℕ) (c : Dev nD) : outsA m j main_v14 c = o0 m c := Function.update_self _ _ _
theorem outsB_0 (j : ℕ) (c : Dev nD) : outsB m j main_v14 c = o0 m c := by
  unfold outsB; rw [Function.update_of_ne (by decide), Function.update_self]
theorem outsB_1 (j : ℕ) (c : Dev nD) : outsB m j main_v52 c = o1 m c := Function.update_self _ _ _
theorem outs_0 (j : ℕ) (c : Dev nD) : outs m j main_v14 c = o0 m c := by
  unfold outs; rw [Function.update_of_ne (by decide), Function.update_of_ne (by decide), Function.update_self]
theorem outs_1 (j : ℕ) (c : Dev nD) : outs m j main_v52 c = o1 m c := by
  unfold outs; rw [Function.update_of_ne (by decide), Function.update_self]
theorem outs_2 (j : ℕ) (c : Dev nD) : outs m j main_v90 c = o2 m c := Function.update_self _ _ _

/-- Past region 0's output the valuation before region 1 reads the unknowns only at that output. -/
theorem V17_o0 (o : Gen.Outs (F := F)) (c : Dev nD) (h : o 7 main_v14 c = o0 m c) :
    Gen.V17 m o c = Gen.V17 m (outsA m) c :=
  congrArg (fun x => StableHlo.after hostOps1_9 (StableHlo.after hostOps1_8 (StableHlo.after hostOps1_7
    (StableHlo.after hostOps1_6 (StableHlo.after hostOps1_5 (StableHlo.after hostOps1_4 (StableHlo.after hostOps1_3
    (StableHlo.after hostOps1_2 (StableHlo.after hostOps1_1 (StableHlo.after hostOps1
    (Function.update (Gen.V6 m c) main_v14 x))))))))))) (h.trans (outsA_0 m 7 c).symm)

theorem V17_outs (c : Dev nD) : Gen.V17 m (outs m) c = Gen.V17 m (outsA m) c := V17_o0 m _ c (outs_0 m 7 c)

theorem V28_outs (c : Dev nD) : Gen.V28 m (outs m) c = Gen.V28 m (outsB m) c :=
  congrArg₂ (fun v x => StableHlo.after hostOps2_9 (StableHlo.after hostOps2_8 (StableHlo.after hostOps2_7
    (StableHlo.after hostOps2_6 (StableHlo.after hostOps2_5 (StableHlo.after hostOps2_4 (StableHlo.after hostOps2_3
    (StableHlo.after hostOps2_2 (StableHlo.after hostOps2_1 (StableHlo.after hostOps2
    (Function.update v main_v52 x))))))))))) ((V17_outs m c).trans (V17_o0 m _ c (outsB_0 m 7 c)).symm)
    ((outs_1 m 18 c).trans (outsB_1 m 18 c).symm)

def pdats : (p : Fin 3) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c

abbrev noVar : Variants := Variants.none

abbrev noL : GSem nD τ sig → Finset Unit := fun _ => ∅
abbrev noLv : GSem nD τ sig → Unit → ℕ := fun _ _ => 0

abbrev restR (c : Dev nD) : sProp 𝕄 :=
  iprop((∃ r, prngReg c r) ∗ ∃ W, owes (c : Thread nD τ) (0 : CellTallies nD τ sig Unit) W)

/-- If `ext` is `ent` updated at the one output array with its final contents, region `p` takes `ent` held to `ext` held. -/
def reg (p : Fin 3) (lf : Pipeline.LaunchFacts (nD := nD) (τ := τ) cfgs p) (ent ext : Dev nD → Valuation τ sig (Elt F))
    (wo : Fin (cfgs p).W) (hio : ∀ w, w ≠ wo → ((cfgs p).win w).isOut = false)
    (hx : ∀ c, ext c = Function.update (ent c) (Pipeline.arrRef (cfgs p).spec wo) ((pdats m p c).arrAt wo (cfgs p).N))
    (hb : ∀ c, BodyObligation (pdats m p c) (defs₀ (F := F)) noVar () Set.univ)
    (hd : ∀ c, ((pdats m p c).q = fun _ => fullShare) ∧ ((pdats m p c).owed = fun _ => 0) ∧ (pdats m p c).recorded 0 = Set.univ)
    (hA : ∀ c w, (pdats m p c).A w = ent c (Pipeline.arrRef (cfgs p).spec w))
    (hi : ∀ c, Pipeline.ΦA (cfgs p).spec c ⊢ (pdats m p c).Φ 0)
    (ho : ∀ c, (pdats m p c).Φ (Fin.last (cfgs p).N) ⊢ Pipeline.ΦA (cfgs p).spec c) :
    Pipeline.RegionSeg (pcfgs (F := F)) adm (pdats m) () defs₀ noVar noL noLv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noL noLv p fun c => congrFun (hd c).2.1
  pre c := iprop(StableHlo.held (c : Thread nD τ) (Pipeline.ucRefs τ sig) (ent c) ∗ restR c)
  post c := iprop(StableHlo.held (c : Thread nD τ) (Pipeline.ucRefs τ sig) (ext c) ∗ restR c)
  X c := iprop(∃ r, prngReg c r)
  Y c := iprop(∃ r, prngReg c r)
  Z c := Pipeline.unscopedRest (cfgs p).spec c fun b => ent c b
  hentry c := by
    unfold Pipeline.Dat.owesAt Pipeline.owesWithin
    rw [Pipeline.ownSems0_none, (hd c).2.1]
    have hsplit := Pipeline.arrays_of_unscopedBufs (p := p) (pcfgs (F := F)) adm (pdats m) lf.win lf.arr_whole c
      ((pdats m p c).share_full (congrFun (hd c).1)) (fun b => ent c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hd c).2.2 ▸ trivial)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (congrFun (hd c).1))
      (fun b => ent c b) (fun b => ext c b) ((pdats m p c).arrAt · (cfgs p).N)
      (fun w => by
        show _ = ext c (Pipeline.arrRef (cfgs p).spec w)
        rw [hx c]
        by_cases h : w = wo
        · subst h; rw [Function.update_self]
        · rw [Function.update_of_ne (StableHlo.devRef_ne_of_ne (lf.win.arr_inj.ne h))]
          exact ((pdats m p c).arrAt_in w (hio w h) _).trans (hA c w))
      (fun b hb => by
        show ext c b = ent c b
        rw [hx c]
        exact Function.update_of_ne (StableHlo.devRef_ne_of_ne fun e => hb (Finset.mem_image.mpr ⟨wo, Finset.mem_univ _, e.symm⟩)) _ _)
    rw [Pipeline.unscopedBufs_held] at hjoin
    unfold Pipeline.Dat.owesAt Pipeline.owesWithin
    rw [(hd c).2.1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := reg m 0 launch0 (Gen.V6 m) (Gen.V7 m (outs m)) 3 (by decide)
  (fun c => congrArg (Function.update _ _) (outs_0 m 7 c))
  (body_obligation0 _) (fun _ => ⟨rfl, rfl, rfl⟩) (A_eq0 _) (hin0 _) (hout0 _)

def reg1 := reg m 1 launch1 (Gen.V17 m (outs m)) (Gen.V18 m (outs m)) 3 (by decide)
  (fun c => congrArg (Function.update _ _) (outs_1 m 18 c))
  (body_obligation1 _) (fun _ => ⟨rfl, rfl, rfl⟩) (fun c _ => (congrFun (V17_outs m c) _).symm) (hin1 _) (hout1 _)

def reg2 := reg m 2 launch2 (Gen.V28 m (outs m)) (Gen.V29 m (outs m)) 3 (by decide)
  (fun c => congrArg (Function.update _ _) (outs_2 m 29 c))
  (body_obligation2 _) (fun _ => ⟨rfl, rfl, rfl⟩) (fun c _ => (congrFun (V28_outs m c) _).symm) (hin2 _) (hout2 _)

theorem hu0 (a : UR sig nD τ) :
    (ownU a : sProp 𝕄) ⊢ |={Set.univ}=> iprop(BI.own (emb₁ a) ∗ bigSep Finset.univ fun _ : Dev nD => (BI.emp : sProp 𝕄)) := by
  rw [BI.bigSep_emp_const, ownU_emb₁]
  iintro Hu; imodintro
  isplitl [Hu]; · iexact Hu
  iempintro

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () noVar noL noLv (fun _ _ => rfl) ρ (outs m) (pdats m) (O₀ := 0) (G := _) (u₀ := _) (hu₀ := hu0 _)
    (E := fun _ c => restR c) (hE0 := Pipeline.initEach noL noLv fun c => by
      iintro ⟨⟨-, HO, -, Hp, -⟩, -⟩; imodintro
      isplitl [Hp]; · iexists _; iexact Hp
      iexists ∅; iexact HO) (hE3 := fun c => by iintro ⟨-, HO⟩; iexact HO)
    (reg0 m) (fun c => .rfl) (fun c => .rfl) (reg1 m) (fun c => .rfl) (fun c => .rfl) (reg2 m) (fun c => .rfl) (fun c => .rfl)

end Cert.Kernel.Fr

end
-- ==== Proof.KernelIdeal.R0.Runs.lean ====
import proofs.«420015_j11879879541904_3_alg».proof.Proof.KernelIdeal.Launch
import proofs.«420015_j11879879541904_3_alg».proof.Proof.Gen.KernelIdeal.Skeleton
import proofs.«420015_j11879879541904_3_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz0 : (![0, 0] : Fin 2 → Nat) = fun _ => 0 := funext fun a => by fin_cases a <;> rfl

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 2 = 0 :=
  (by decide +kernel : ∀ t : Fin grid0.N, cond0_0 (grid0.coords t) ↔ t.val % 2 = 0)

abbrev cond0_1 (i : grid0.Coords) : Prop := (Scalar.cmpi .ne (Scalar.extui (Scalar.xori (Scalar.cmpi .eq (BitVec.ofNat 32 (i 1).val) 1#32) 1#1)) 0#32) = 1#1

theorem hcond0_1 : ∀ t : Fin cfg0.N, cond0_1 (grid0.coords t) ↔ ¬t.val % 2 = 1 :=
  (by decide +kernel : ∀ t : Fin grid0.N, cond0_1 (grid0.coords t) ↔ ¬t.val % 2 = 1)

abbrev cond0_2 (i : grid0.Coords) : Prop := k0_cond3 i = 1#1

theorem hcond0_2 : ∀ t : Fin cfg0.N, cond0_2 (grid0.coords t) ↔ t.val % 2 = 1 :=
  (by decide +kernel : ∀ t : Fin grid0.N, cond0_2 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3_A : ∀ t : Fin cfg0.N, cond0_0 (grid0.coords t) → cond0_1 (grid0.coords t) → ¬cond0_2 (grid0.coords t) → cfg0.idle 3 (grid0.coords t) = true := by decide +kernel

theorem noFlush0_3_A : ∀ t : Fin cfg0.N, cond0_0 (grid0.coords t) → cond0_1 (grid0.coords t) → ¬cond0_2 (grid0.coords t) → (cfg0.win 3).flush t = false := by decide +kernel

theorem idleAt0_3_B : ∀ t : Fin cfg0.N, ¬cond0_0 (grid0.coords t) → cond0_1 (grid0.coords t) → ¬cond0_2 (grid0.coords t) → cfg0.idle 3 (grid0.coords t) = true := by decide +kernel

theorem noFlush0_3_B : ∀ t : Fin cfg0.N, ¬cond0_0 (grid0.coords t) → cond0_1 (grid0.coords t) → ¬cond0_2 (grid0.coords t) → (cfg0.win 3).flush t = false := by decide +kernel

theorem liveAt0_3_C : ∀ t : Fin cfg0.N, ¬cond0_0 (grid0.coords t) → ¬cond0_1 (grid0.coords t) → cond0_2 (grid0.coords t) → cfg0.idle 3 (grid0.coords t) = false := by decide +kernel

abbrev VO0_3 : View sig .tc .vmem S2048x1 .f32 := (Memref.whole cc0_stg3_0 : Memref sig .tc .vmem S2048x1 .f32).view

abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)

abbrev scM0_0 : Memref sig .tc .vmem S2048x1 .f32 := Memref.whole cc0_scratch0
abbrev scM0_1 : Memref sig .tc .vmem S2048x1 .f32 := Memref.whole cc0_scratch1

abbrev VS0_0 : View sig .tc .vmem S2048x1 .f32 := scM0_0.view
abbrev VS0_1 : View sig .tc .vmem S2048x1 .f32 := scM0_1.view

abbrev But0 (c : Dev nD) : sProp 𝕄 :=
  Pipeline.scopedRestBut (Ix := Unit) (Name := ℕ) (U := UR sig nD τ) (Lvl := ℕ) (Val := Elt F) spec0 c [cc0_scratch0, cc0_scratch1]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ But0 c) :=
  Pipeline.scopedRest_split_of_list spec0 c [cc0_scratch0, cc0_scratch1] (by decide) (by decide)

def PhiAt0 (c : Dev nD) (P0 P1 : sProp 𝕄) : sProp 𝕄 :=
  iprop(iprop(iprop(P0 ∗ P1) ∗ But0 c) ∗ (∃ r, prngReg c r))

def Oth0 (c : Dev nD) : sProp 𝕄 :=
  iprop(But0 c ∗ (∃ r, prngReg c r))

theorem PhiA0_eq (c : Dev nD) :
    (Pipeline.ΦA spec0 c : sProp 𝕄)
      = PhiAt0 c (iprop(∃ d, owns (c : Thread nD τ) scM0_0 fullShare d)) (iprop(∃ d, owns (c : Thread nD τ) scM0_1 fullShare d)) := by
  unfold Pipeline.ΦA PhiAt0; rw [scopedRest0_split]; simp only [scM0_0, scM0_1, owns_whole]; try rfl

theorem PhiAt0_split (c : Dev nD) (P0 P1 : sProp 𝕄) : PhiAt0 c P0 P1 ⊢ iprop(P0 ∗ P1 ∗ Oth0 (F := F) c) := by
  unfold PhiAt0 Oth0
  iintro ⟨⟨⟨HS0, HS1⟩, HR⟩, Hg⟩
  isplitl [HS0]; · iexact HS0
  isplitl [HS1]; · iexact HS1
  isplitl [HR]; · iexact HR
  iexact Hg

theorem PhiAt0_join (c : Dev nD) (P0 P1 : sProp 𝕄) : iprop(P0 ∗ P1 ∗ Oth0 (F := F) c) ⊢ PhiAt0 c P0 P1 := by
  unfold PhiAt0 Oth0
  iintro ⟨HS0, HS1, HR, Hg⟩
  isplitl [HS0 HS1 HR]
  · isplitl [HS0 HS1]
    · isplitl [HS0]; · iexact HS0
      iexact HS1
    iexact HR
  iexact Hg

end Cert.KernelIdeal.Fr

end
-- ==== Proof.KernelIdeal.R0.RunA.lean ====
import proofs.«420015_j11879879541904_3_alg».proof.Proof.KernelIdeal.R0.Runs

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case A (first vocabulary tile): from the scratch buffers at anything, the body resets them and leaves the tile's maximum and shifted sum. -/
theorem kernelRun0_A (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : cond0_1 i) (hc2 : ¬cond0_2 i)
    (x0 : Vec F S2048x512 .bf16) (x1 : Vec F S512x1024 .bf16) (x2 : Vec F S1x1024 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay6 x0 x1 x2 (k0_pay1 (F := F))) ∗ owns (c : Thread nD τ) arg7 fullShare (k0_pay5 x0 x1 x2 (k0_pay1 (F := F)) (k0_pay1 (F := F)) (k0_pay2 (F := F)))) -∗ K ⟨⟩))
      ⊢ wp frame (wpE (defs₀ (F := F)) Variants.none c none) E (cc0__tail_logsumexp_kernel i arg2 harg2 arg3 harg3 arg4 harg4 arg5 harg5 arg6 harg6 arg7 harg7) K := by
  simp only [cc0__tail_logsumexp_kernel_eq_skeleton]; unfold cc0__tail_logsumexp_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz0]
  simp only [View.readAt_eq_ld, harg2.read_unread, harg3.read_unread, harg4.read_unread, harg6.read_unread, harg7.read_unread,
    View.ld_unit_zero (S := S2048x512) hz0, View.ld_unit_zero (S := S512x1024) hz0, View.ld_unit_zero (S := S1x1024) hz0,
    View.ld_unit_zero (S := S2048x1) hz0, View.readCov_unit_zero (S := S2048x1) _ hz0]

end Cert.KernelIdeal.Fr

end
-- ==== Proof.KernelIdeal.R0.RunB.lean ====
import proofs.«420015_j11879879541904_3_alg».proof.Proof.KernelIdeal.R0.RunA

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case B (a middle tile): the running maximum and sum are updated with the tile's unmasked logits. -/
theorem kernelRun0_B (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (hc2 : ¬cond0_2 i)
    (x0 : Vec F S2048x512 .bf16) (x1 : Vec F S512x1024 .bf16) (x2 : Vec F S1x1024 .f32) (xs0 xs1 xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay6 x0 x1 x2 xs0) ∗ owns (c : Thread nD τ) arg7 fullShare (k0_pay5 x0 x1 x2 xs0 xs0 xs1)) -∗ K ⟨⟩))
      ⊢ wp frame (wpE (defs₀ (F := F)) Variants.none c none) E (cc0__tail_logsumexp_kernel i arg2 harg2 arg3 harg3 arg4 harg4 arg5 harg5 arg6 harg6 arg7 harg7) K := by
  simp only [cc0__tail_logsumexp_kernel_eq_skeleton]; unfold cc0__tail_logsumexp_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz0]
  simp only [View.readAt_eq_ld, harg2.read_unread, harg3.read_unread, harg4.read_unread, harg6.read_unread, harg7.read_unread,
    View.ld_unit_zero (S := S2048x512) hz0, View.ld_unit_zero (S := S512x1024) hz0, View.ld_unit_zero (S := S1x1024) hz0,
    View.ld_unit_zero (S := S2048x1) hz0, View.readCov_unit_zero (S := S2048x1) _ hz0]

end Cert.KernelIdeal.Fr

end
-- ==== Proof.KernelIdeal.R0.RunC.lean ====
import proofs.«420015_j11879879541904_3_alg».proof.Proof.KernelIdeal.R0.RunB

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case C (last tile): the masked update, and the output block receives maximum + log sum. -/
theorem kernelRun0_C (c : Dev nD) (i : grid0.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (hc2 : cond0_2 i)
    (x0 : Vec F S2048x512 .bf16) (x1 : Vec F S512x1024 .bf16) (x2 : Vec F S1x1024 .f32) (xs0 xs1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare (k0_pay11 (k0_pay10 i x0 x1 x2 xs0) (k0_pay9 i x0 x1 x2 xs0 xs0 xs1)) ∗ owns (c : Thread nD τ) arg6 fullShare (k0_pay10 i x0 x1 x2 xs0) ∗ owns (c : Thread nD τ) arg7 fullShare (k0_pay9 i x0 x1 x2 xs0 xs0 xs1)) -∗ K ⟨⟩))
      ⊢ wp frame (wpE (defs₀ (F := F)) Variants.none c none) E (cc0__tail_logsumexp_kernel i arg2 harg2 arg3 harg3 arg4 harg4 arg5 harg5 arg6 harg6 arg7 harg7) K := by
  simp only [cc0__tail_logsumexp_kernel_eq_skeleton]; unfold cc0__tail_logsumexp_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz0]
    simp only [View.readAt_eq_ld, harg2.read_unread, harg3.read_unread, harg4.read_unread, harg6.read_unread, harg7.read_unread,
      View.ld_unit_zero (S := S2048x512) hz0, View.ld_unit_zero (S := S512x1024) hz0, View.ld_unit_zero (S := S1x1024) hz0,
      View.ld_unit_zero (S := S2048x1) hz0, View.readCov_unit_zero (S := S2048x1) _ hz0]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz0]
  simp only [View.readAt_eq_ld, harg2.read_unread, harg3.read_unread, harg4.read_unread, harg6.read_unread, harg7.read_unread,
    View.ld_unit_zero (S := S2048x512) hz0, View.ld_unit_zero (S := S512x1024) hz0, View.ld_unit_zero (S := S1x1024) hz0,
    View.ld_unit_zero (S := S2048x1) hz0, View.readCov_unit_zero (S := S2048x1) _ hz0]

end Cert.KernelIdeal.Fr

end
-- ==== Proof.KernelIdeal.R0.Frame.lean ====
import proofs.«420015_j11879879541904_3_alg».proof.Proof.KernelIdeal.R0.RunC

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev xblk0 (c : Dev nD) (t : Fin cfg0.N) : Vec F S2048x512 .bf16 := iblk0 V c 0 t
abbrev wblk0 (c : Dev nD) (t : Fin cfg0.N) : Vec F S512x1024 .bf16 := iblk0 V c 1 t
abbrev bblk0 (c : Dev nD) (t : Fin cfg0.N) : Vec F S1x1024 .f32 := iblk0 V c 2 t

/-- What the body leaves at point `t`, by case, in (output block, running maximum, running sum), from the pair `(m, l)` it finds. -/
def stepA0 (c : Dev nD) (t : Fin cfg0.N) : Vec F S2048x1 .f32 × Vec F S2048x1 .f32 × Vec F S2048x1 .f32 :=
  (k0_pay1, k0_pay6 (xblk0 V c t) (wblk0 V c t) (bblk0 V c t) k0_pay1, k0_pay5 (xblk0 V c t) (wblk0 V c t) (bblk0 V c t) k0_pay1 k0_pay1 k0_pay2)
def stepB0 (c : Dev nD) (t : Fin cfg0.N) (m l : Vec F S2048x1 .f32) : Vec F S2048x1 .f32 × Vec F S2048x1 .f32 × Vec F S2048x1 .f32 :=
  (k0_pay1, k0_pay6 (xblk0 V c t) (wblk0 V c t) (bblk0 V c t) m, k0_pay5 (xblk0 V c t) (wblk0 V c t) (bblk0 V c t) m m l)
def stepC0 (c : Dev nD) (t : Fin cfg0.N) (m l : Vec F S2048x1 .f32) : Vec F S2048x1 .f32 × Vec F S2048x1 .f32 × Vec F S2048x1 .f32 :=
  (k0_pay11 (k0_pay10 (grid0.coords t) (xblk0 V c t) (wblk0 V c t) (bblk0 V c t) m) (k0_pay9 (grid0.coords t) (xblk0 V c t) (wblk0 V c t) (bblk0 V c t) m m l), k0_pay10 (grid0.coords t) (xblk0 V c t) (wblk0 V c t) (bblk0 V c t) m, k0_pay9 (grid0.coords t) (xblk0 V c t) (wblk0 V c t) (bblk0 V c t) m m l)

/-- The three buffers after position `n`: the first tile of a token tile restarts the pair, the last one also writes the output. -/
def outsAt0 (c : Dev nD) : (n : ℕ) → n < cfg0.N → Vec F S2048x1 .f32 × Vec F S2048x1 .f32 × Vec F S2048x1 .f32
  | 0, hn => stepA0 V c ⟨0, hn⟩
  | n + 1, hn =>
    if (n + 1) % 2 = 0 then stepA0 V c ⟨n + 1, hn⟩
    else if (n + 1) % 2 = 1 then stepC0 V c ⟨n + 1, hn⟩ (outsAt0 c n (Nat.lt_of_succ_lt hn)).2.1 (outsAt0 c n (Nat.lt_of_succ_lt hn)).2.2
    else stepB0 V c ⟨n + 1, hn⟩ (outsAt0 c n (Nat.lt_of_succ_lt hn)).2.1 (outsAt0 c n (Nat.lt_of_succ_lt hn)).2.2

abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 2 = 0) : outsAt0 V c t.val t.isLt = stepA0 V c t := by
  obtain ⟨n, hn⟩ := t
  cases n with
  | zero => rfl
  | succ n => exact if_pos h0

theorem outsAt0_B (c : Dev nD) (t : Fin cfg0.N) (h0 : ¬t.val % 2 = 0) (h7 : ¬t.val % 2 = 1) :
    outsAt0 V c t.val t.isLt = stepB0 V c t (prev0 V c t).2.1 (prev0 V c t).2.2 := by
  obtain ⟨n, hn⟩ := t
  cases n with
  | zero => exact absurd (Nat.zero_mod _) h0
  | succ n => exact (if_neg h0).trans (if_neg h7)

theorem outsAt0_C (c : Dev nD) (t : Fin cfg0.N) (h0 : ¬t.val % 2 = 0) (h7 : t.val % 2 = 1) :
    outsAt0 V c t.val t.isLt = stepC0 V c t (prev0 V c t).2.1 (prev0 V c t).2.2 := by
  obtain ⟨n, hn⟩ := t
  cases n with
  | zero => exact absurd (Nat.zero_mod _) h0
  | succ n => exact (if_neg h0).trans (if_pos h7)

/-- Before position `n`: the class invariant, with the two scratch buffers at what position `n - 1` left once `n > 0`. -/
def PhiS0 (c : Dev nD) : (n : ℕ) → n ≤ cfg0.N → sProp 𝕄
  | 0, _ => Pipeline.ΦA spec0 c
  | n + 1, hn => PhiAt0 c (owns (c : Thread nD τ) scM0_0 fullShare (outsAt0 V c n hn).2.1) (owns (c : Thread nD τ) scM0_1 fullShare (outsAt0 V c n hn).2.2)

theorem PhiS0_pos (c : Dev nD) (n : ℕ) (h : n ≤ cfg0.N) (hz : n ≠ 0) :
    PhiS0 V c n h = PhiAt0 c (owns (c : Thread nD τ) scM0_0 fullShare (outsAt0 V c (n - 1) (by omega)).2.1) (owns (c : Thread nD τ) scM0_1 fullShare (outsAt0 V c (n - 1) (by omega)).2.2) := by
  cases n with
  | zero => exact absurd rfl hz
  | succ n => rfl

/-- At every position the invariant holds the two scratch buffers at some contents. -/
theorem PhiS0_some (c : Dev nD) (n : ℕ) (h : n ≤ cfg0.N) :
    PhiS0 V c n h ⊢ PhiAt0 c (iprop(∃ d, owns (c : Thread nD τ) scM0_0 fullShare d)) (iprop(∃ d, owns (c : Thread nD τ) scM0_1 fullShare d)) := by
  cases n with
  | zero => rw [show PhiS0 V c 0 h = Pipeline.ΦA spec0 c from rfl, PhiA0_eq]
  | succ n =>
    rw [show PhiS0 V c (n + 1) h = PhiAt0 c (owns (c : Thread nD τ) scM0_0 fullShare (outsAt0 V c n h).2.1) (owns (c : Thread nD τ) scM0_1 fullShare (outsAt0 V c n h).2.2) from rfl]
    iintro HΦ
    ihave HΦ' := (PhiAt0_split c _ _) $$ HΦ
    icases HΦ' with ⟨HS0, HS1, HO⟩
    iapply (PhiAt0_join c _ _)
    isplitl [HS0]; · iexists _; iexact HS0
    isplitl [HS1]; · iexists _; iexact HS1
    iexact HO

/-- The region's proof data at the entry contents `V`: inputs at their blocks, the output at `outsAt0`, invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = (outsAt0 V c t.val t.isLt).1 := rfl

theorem before0_0 (c : Dev nD) (t : Fin cfg0.N) (d) : (dat0 V c).before 0 t d = iblk0 V c 0 t :=
  before0_0_of V (dat0 V c) rfl (fun _ => rfl) t d
theorem before0_1 (c : Dev nD) (t : Fin cfg0.N) (d) : (dat0 V c).before 1 t d = iblk0 V c 1 t :=
  before0_1_of V (dat0 V c) rfl (fun _ => rfl) t d
theorem before0_2 (c : Dev nD) (t : Fin cfg0.N) (d) : (dat0 V c).before 2 t d = iblk0 V c 2 t :=
  before0_2_of V (dat0 V c) rfl (fun _ => rfl) t d

theorem leaves0_in (c : Dev nD) (t : Fin cfg0.N) (w : Fin cfg0.W) (hw : cfg0.idle w (grid0.coords t) = false) :
    (dat0 V c).leavesExact w t = owns (c : Thread nD τ) ((cfg0.win w).stage (cfg0.slots t w)) fullShare ((dat0 V c).after w t) := by
  unfold Dat.leavesExact; rw [hw]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the invariant lends the run the two scratch buffers and takes them back at what the run leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiAt0 c (owns (c : Thread nD τ) scM0_0 fullShare (outsAt0 V c t.val t.isLt).2.1) (owns (c : Thread nD τ) scM0_1 fullShare (outsAt0 V c t.val t.isLt).2.2) from rfl,
    show (dat0 V c).Φ t.castSucc = PhiS0 V c t.val (Nat.le_of_lt t.isLt) from rfl,
    leaves0_in V c t 0 (liveAt0_0 t), leaves0_in V c t 1 (liveAt0_1 t), leaves0_in V c t 2 (liveAt0_2 t)]
  have hN : t.val < 4 := lt_of_lt_of_eq t.isLt (show cfg0.N = 4 from N_0)
  by_cases h0 : t.val % 2 = 0
  · have h7 : ¬t.val % 2 = 1 := by omega
    rw [Dat.leavesExact_idle (dat0 V c) 3 t (idleAt0_3_A t ((hcond0_0 t).mpr h0) ((hcond0_1 t).mpr h7) (fun h => h7 ((hcond0_2 t).mp h))) (noFlush0_3_A t ((hcond0_0 t).mpr h0) ((hcond0_1 t).mpr h7) (fun h => h7 ((hcond0_2 t).mp h))), outsAt0_A V c t h0]
    dsimp only [stepA0]
    iintro ⟨HΦ, Ho, ⟨%d0, H0⟩, ⟨%d1, H1⟩, ⟨%d2, H2⟩, ⟨%d3, H3⟩⟩
    ihave HΦ' := (PhiS0_some V c _ _) $$ HΦ
    ihave HΦ'' := (PhiAt0_split c _ _) $$ HΦ'
    icases HΦ'' with ⟨HS0, HS1, HO⟩
    iapply (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h7) (fun h => h7 ((hcond0_2 t).mp h)) (xblk0 V c t) (wblk0 V c t) (bblk0 V c t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HO]
    · iapply (PhiAt0_join c _ _)
      isplitl [HS0]; · iexact HS0
      isplitl [HS1]; · iexact HS1
      iexact HO
    isplitl [Ho]; · iexact Ho
    isplitl [H0]; · iexact H0
    isplitl [H1]; · iexact H1
    isplitl [H2]; · iexact H2
    iexists _; iexact H3
  · have hz : t.val ≠ 0 := fun h => h0 (by rw [h])
    rw [PhiS0_pos V c _ _ hz]
    by_cases h7 : t.val % 2 = 1
    · rw [show (dat0 V c).leavesExact 3 t = owns (c : Thread nD τ) (ms0_3 t) fullShare ((dat0 V c).after 3 t) from by
          unfold Dat.leavesExact; rw [liveAt0_3_C t (fun h => h0 ((hcond0_0 t).mp h)) (fun h => (hcond0_1 t).mp h h7) ((hcond0_2 t).mpr h7)],
        after0_3, outsAt0_C V c t h0 h7]
      dsimp only [stepC0]
      iintro ⟨HΦ, Ho, ⟨%d0, H0⟩, ⟨%d1, H1⟩, ⟨%d2, H2⟩, ⟨%d3, H3⟩⟩
      ihave HΦ' := (PhiAt0_split c _ _) $$ HΦ
      icases HΦ' with ⟨HS0, HS1, HO⟩
      iapply (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => (hcond0_1 t).mp h h7) ((hcond0_2 t).mpr h7) (xblk0 V c t) (wblk0 V c t) (bblk0 V c t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HO]
      · iapply (PhiAt0_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexact H3
    · rw [Dat.leavesExact_idle (dat0 V c) 3 t (idleAt0_3_B t (fun h => h0 ((hcond0_0 t).mp h)) ((hcond0_1 t).mpr h7) (fun h => h7 ((hcond0_2 t).mp h))) (noFlush0_3_B t (fun h => h0 ((hcond0_0 t).mp h)) ((hcond0_1 t).mpr h7) (fun h => h7 ((hcond0_2 t).mp h))), outsAt0_B V c t h0 h7]
      dsimp only [stepB0]
      iintro ⟨HΦ, Ho, ⟨%d0, H0⟩, ⟨%d1, H1⟩, ⟨%d2, H2⟩, ⟨%d3, H3⟩⟩
      ihave HΦ' := (PhiAt0_split c _ _) $$ HΦ
      icases HΦ' with ⟨HS0, HS1, HO⟩
      iapply (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (fun h => h7 ((hcond0_2 t).mp h)) (xblk0 V c t) (wblk0 V c t) (bblk0 V c t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HO]
      · iapply (PhiAt0_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem Phi_out0 (c : Dev nD) (t : Fin (cfg0.N + 1)) : (dat0 V c).Φ t ⊢ Pipeline.ΦA spec0 c := by
  rw [PhiA0_eq]; exact PhiS0_some V c t.val (Nat.le_of_lt_succ t.isLt)

theorem hout0 (c : Dev nD) : (dat0 V c).Φ (Fin.last cfg0.N) ⊢ Pipeline.ΦA spec0 c := Phi_out0 V c _

end Cert.KernelIdeal.Fr

end
-- ==== Proof.KernelIdeal.R1.Runs.lean ====
import proofs.«420015_j11879879541904_3_alg».proof.Proof.KernelIdeal.Launch
import proofs.«420015_j11879879541904_3_alg».proof.Proof.Gen.KernelIdeal.Skeleton
import proofs.«420015_j11879879541904_3_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz1 : (![0, 0] : Fin 2 → Nat) = fun _ => 0 := funext fun a => by fin_cases a <;> rfl

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := (Scalar.cmpi .ne (Scalar.extui (Scalar.xori (Scalar.cmpi .eq (BitVec.ofNat 32 (i 1).val) 7#32) 1#1)) 0#32) = 1#1

theorem hcond1_1 : ∀ t : Fin cfg1.N, cond1_1 (grid1.coords t) ↔ ¬t.val % 8 = 7 :=
  (by decide +kernel : ∀ t : Fin grid1.N, cond1_1 (grid1.coords t) ↔ ¬t.val % 8 = 7)

abbrev cond1_2 (i : grid1.Coords) : Prop := k1_cond3 i = 1#1

theorem hcond1_2 : ∀ t : Fin cfg1.N, cond1_2 (grid1.coords t) ↔ t.val % 8 = 7 :=
  (by decide +kernel : ∀ t : Fin grid1.N, cond1_2 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → cond1_1 (grid1.coords t) → ¬cond1_2 (grid1.coords t) → cfg1.idle 3 (grid1.coords t) = true := by decide +kernel

theorem noFlush1_3_A : ∀ t : Fin cfg1.N, cond1_0 (grid1.coords t) → cond1_1 (grid1.coords t) → ¬cond1_2 (grid1.coords t) → (cfg1.win 3).flush t = false := by decide +kernel

theorem idleAt1_3_B : ∀ t : Fin cfg1.N, ¬cond1_0 (grid1.coords t) → cond1_1 (grid1.coords t) → ¬cond1_2 (grid1.coords t) → cfg1.idle 3 (grid1.coords t) = true := by decide +kernel

theorem noFlush1_3_B : ∀ t : Fin cfg1.N, ¬cond1_0 (grid1.coords t) → cond1_1 (grid1.coords t) → ¬cond1_2 (grid1.coords t) → (cfg1.win 3).flush t = false := by decide +kernel

theorem liveAt1_3_C : ∀ t : Fin cfg1.N, ¬cond1_0 (grid1.coords t) → ¬cond1_1 (grid1.coords t) → cond1_2 (grid1.coords t) → cfg1.idle 3 (grid1.coords t) = false := by decide +kernel

abbrev VO1_3 : View sig .tc .vmem S2048x1 .f32 := (Memref.whole cc1_stg3_0 : Memref sig .tc .vmem S2048x1 .f32).view

abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)

abbrev scM1_0 : Memref sig .tc .vmem S2048x1 .f32 := Memref.whole cc1_scratch0
abbrev scM1_1 : Memref sig .tc .vmem S2048x1 .f32 := Memref.whole cc1_scratch1

abbrev VS1_0 : View sig .tc .vmem S2048x1 .f32 := scM1_0.view
abbrev VS1_1 : View sig .tc .vmem S2048x1 .f32 := scM1_1.view

abbrev But1 (c : Dev nD) : sProp 𝕄 :=
  Pipeline.scopedRestBut (Ix := Unit) (Name := ℕ) (U := UR sig nD τ) (Lvl := ℕ) (Val := Elt F) spec1 c [cc1_scratch0, cc1_scratch1]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ But1 c) :=
  Pipeline.scopedRest_split_of_list spec1 c [cc1_scratch0, cc1_scratch1] (by decide) (by decide)

def PhiAt1 (c : Dev nD) (P0 P1 : sProp 𝕄) : sProp 𝕄 :=
  iprop(iprop(iprop(P0 ∗ P1) ∗ But1 c) ∗ (∃ r, prngReg c r))

def Oth1 (c : Dev nD) : sProp 𝕄 :=
  iprop(But1 c ∗ (∃ r, prngReg c r))

theorem PhiA1_eq (c : Dev nD) :
    (Pipeline.ΦA spec1 c : sProp 𝕄)
      = PhiAt1 c (iprop(∃ d, owns (c : Thread nD τ) scM1_0 fullShare d)) (iprop(∃ d, owns (c : Thread nD τ) scM1_1 fullShare d)) := by
  unfold Pipeline.ΦA PhiAt1; rw [scopedRest1_split]; simp only [scM1_0, scM1_1, owns_whole]; try rfl

theorem PhiAt1_split (c : Dev nD) (P0 P1 : sProp 𝕄) : PhiAt1 c P0 P1 ⊢ iprop(P0 ∗ P1 ∗ Oth1 (F := F) c) := by
  unfold PhiAt1 Oth1
  iintro ⟨⟨⟨HS0, HS1⟩, HR⟩, Hg⟩
  isplitl [HS0]; · iexact HS0
  isplitl [HS1]; · iexact HS1
  isplitl [HR]; · iexact HR
  iexact Hg

theorem PhiAt1_join (c : Dev nD) (P0 P1 : sProp 𝕄) : iprop(P0 ∗ P1 ∗ Oth1 (F := F) c) ⊢ PhiAt1 c P0 P1 := by
  unfold PhiAt1 Oth1
  iintro ⟨HS0, HS1, HR, Hg⟩
  isplitl [HS0 HS1 HR]
  · isplitl [HS0 HS1]
    · isplitl [HS0]; · iexact HS0
      iexact HS1
    iexact HR
  iexact Hg

end Cert.KernelIdeal.Fr

end
-- ==== Proof.KernelIdeal.R1.RunA.lean ====
import proofs.«420015_j11879879541904_3_alg».proof.Proof.KernelIdeal.R1.Runs

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case A (first vocabulary tile): from the scratch buffers at anything, the body resets them and leaves the tile's maximum and shifted sum. -/
theorem kernelRun1_A (c : Dev nD) (i : grid1.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : cond1_1 i) (hc2 : ¬cond1_2 i)
    (x0 : Vec F S2048x512 .bf16) (x1 : Vec F S512x1024 .bf16) (x2 : Vec F S1x1024 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay6 x0 x1 x2 (k1_pay1 (F := F))) ∗ owns (c : Thread nD τ) arg7 fullShare (k1_pay5 x0 x1 x2 (k1_pay1 (F := F)) (k1_pay1 (F := F)) (k1_pay2 (F := F)))) -∗ K ⟨⟩))
      ⊢ wp frame (wpE (defs₀ (F := F)) Variants.none c none) E (cc1__tail_logsumexp_kernel i arg2 harg2 arg3 harg3 arg4 harg4 arg5 harg5 arg6 harg6 arg7 harg7) K := by
  simp only [cc1__tail_logsumexp_kernel_eq_skeleton]; unfold cc1__tail_logsumexp_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz1]
  simp only [View.readAt_eq_ld, harg2.read_unread, harg3.read_unread, harg4.read_unread, harg6.read_unread, harg7.read_unread,
    View.ld_unit_zero (S := S2048x512) hz1, View.ld_unit_zero (S := S512x1024) hz1, View.ld_unit_zero (S := S1x1024) hz1,
    View.ld_unit_zero (S := S2048x1) hz1, View.readCov_unit_zero (S := S2048x1) _ hz1]

end Cert.KernelIdeal.Fr

end
-- ==== Proof.KernelIdeal.R1.RunB.lean ====
import proofs.«420015_j11879879541904_3_alg».proof.Proof.KernelIdeal.R1.RunA

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case B (a middle tile): the running maximum and sum are updated with the tile's unmasked logits. -/
theorem kernelRun1_B (c : Dev nD) (i : grid1.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (hc2 : ¬cond1_2 i)
    (x0 : Vec F S2048x512 .bf16) (x1 : Vec F S512x1024 .bf16) (x2 : Vec F S1x1024 .f32) (xs0 xs1 xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay6 x0 x1 x2 xs0) ∗ owns (c : Thread nD τ) arg7 fullShare (k1_pay5 x0 x1 x2 xs0 xs0 xs1)) -∗ K ⟨⟩))
      ⊢ wp frame (wpE (defs₀ (F := F)) Variants.none c none) E (cc1__tail_logsumexp_kernel i arg2 harg2 arg3 harg3 arg4 harg4 arg5 harg5 arg6 harg6 arg7 harg7) K := by
  simp only [cc1__tail_logsumexp_kernel_eq_skeleton]; unfold cc1__tail_logsumexp_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz1]
  simp only [View.readAt_eq_ld, harg2.read_unread, harg3.read_unread, harg4.read_unread, harg6.read_unread, harg7.read_unread,
    View.ld_unit_zero (S := S2048x512) hz1, View.ld_unit_zero (S := S512x1024) hz1, View.ld_unit_zero (S := S1x1024) hz1,
    View.ld_unit_zero (S := S2048x1) hz1, View.readCov_unit_zero (S := S2048x1) _ hz1]

end Cert.KernelIdeal.Fr

end
-- ==== Proof.KernelIdeal.R1.RunC.lean ====
import proofs.«420015_j11879879541904_3_alg».proof.Proof.KernelIdeal.R1.RunB

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case C (last tile): the masked update, and the output block receives maximum + log sum. -/
theorem kernelRun1_C (c : Dev nD) (i : grid1.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (hc2 : cond1_2 i)
    (x0 : Vec F S2048x512 .bf16) (x1 : Vec F S512x1024 .bf16) (x2 : Vec F S1x1024 .f32) (xs0 xs1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare (k1_pay11 (k1_pay10 i x0 x1 x2 xs0) (k1_pay9 i x0 x1 x2 xs0 xs0 xs1)) ∗ owns (c : Thread nD τ) arg6 fullShare (k1_pay10 i x0 x1 x2 xs0) ∗ owns (c : Thread nD τ) arg7 fullShare (k1_pay9 i x0 x1 x2 xs0 xs0 xs1)) -∗ K ⟨⟩))
      ⊢ wp frame (wpE (defs₀ (F := F)) Variants.none c none) E (cc1__tail_logsumexp_kernel i arg2 harg2 arg3 harg3 arg4 harg4 arg5 harg5 arg6 harg6 arg7 harg7) K := by
  simp only [cc1__tail_logsumexp_kernel_eq_skeleton]; unfold cc1__tail_logsumexp_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz1]
    simp only [View.readAt_eq_ld, harg2.read_unread, harg3.read_unread, harg4.read_unread, harg6.read_unread, harg7.read_unread,
      View.ld_unit_zero (S := S2048x512) hz1, View.ld_unit_zero (S := S512x1024) hz1, View.ld_unit_zero (S := S1x1024) hz1,
      View.ld_unit_zero (S := S2048x1) hz1, View.readCov_unit_zero (S := S2048x1) _ hz1]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz1]
  simp only [View.readAt_eq_ld, harg2.read_unread, harg3.read_unread, harg4.read_unread, harg6.read_unread, harg7.read_unread,
    View.ld_unit_zero (S := S2048x512) hz1, View.ld_unit_zero (S := S512x1024) hz1, View.ld_unit_zero (S := S1x1024) hz1,
    View.ld_unit_zero (S := S2048x1) hz1, View.readCov_unit_zero (S := S2048x1) _ hz1]

end Cert.KernelIdeal.Fr

end
-- ==== Proof.KernelIdeal.R1.Frame.lean ====
import proofs.«420015_j11879879541904_3_alg».proof.Proof.KernelIdeal.R1.RunC

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev xblk1 (c : Dev nD) (t : Fin cfg1.N) : Vec F S2048x512 .bf16 := iblk1 V c 0 t
abbrev wblk1 (c : Dev nD) (t : Fin cfg1.N) : Vec F S512x1024 .bf16 := iblk1 V c 1 t
abbrev bblk1 (c : Dev nD) (t : Fin cfg1.N) : Vec F S1x1024 .f32 := iblk1 V c 2 t

/-- What the body leaves at point `t`, by case, in (output block, running maximum, running sum), from the pair `(m, l)` it finds. -/
def stepA1 (c : Dev nD) (t : Fin cfg1.N) : Vec F S2048x1 .f32 × Vec F S2048x1 .f32 × Vec F S2048x1 .f32 :=
  (k1_pay1, k1_pay6 (xblk1 V c t) (wblk1 V c t) (bblk1 V c t) k1_pay1, k1_pay5 (xblk1 V c t) (wblk1 V c t) (bblk1 V c t) k1_pay1 k1_pay1 k1_pay2)
def stepB1 (c : Dev nD) (t : Fin cfg1.N) (m l : Vec F S2048x1 .f32) : Vec F S2048x1 .f32 × Vec F S2048x1 .f32 × Vec F S2048x1 .f32 :=
  (k1_pay1, k1_pay6 (xblk1 V c t) (wblk1 V c t) (bblk1 V c t) m, k1_pay5 (xblk1 V c t) (wblk1 V c t) (bblk1 V c t) m m l)
def stepC1 (c : Dev nD) (t : Fin cfg1.N) (m l : Vec F S2048x1 .f32) : Vec F S2048x1 .f32 × Vec F S2048x1 .f32 × Vec F S2048x1 .f32 :=
  (k1_pay11 (k1_pay10 (grid1.coords t) (xblk1 V c t) (wblk1 V c t) (bblk1 V c t) m) (k1_pay9 (grid1.coords t) (xblk1 V c t) (wblk1 V c t) (bblk1 V c t) m m l), k1_pay10 (grid1.coords t) (xblk1 V c t) (wblk1 V c t) (bblk1 V c t) m, k1_pay9 (grid1.coords t) (xblk1 V c t) (wblk1 V c t) (bblk1 V c t) m m l)

/-- The three buffers after position `n`: the first tile of a token tile restarts the pair, the last one also writes the output. -/
def outsAt1 (c : Dev nD) : (n : ℕ) → n < cfg1.N → Vec F S2048x1 .f32 × Vec F S2048x1 .f32 × Vec F S2048x1 .f32
  | 0, hn => stepA1 V c ⟨0, hn⟩
  | n + 1, hn =>
    if (n + 1) % 8 = 0 then stepA1 V c ⟨n + 1, hn⟩
    else if (n + 1) % 8 = 7 then stepC1 V c ⟨n + 1, hn⟩ (outsAt1 c n (Nat.lt_of_succ_lt hn)).2.1 (outsAt1 c n (Nat.lt_of_succ_lt hn)).2.2
    else stepB1 V c ⟨n + 1, hn⟩ (outsAt1 c n (Nat.lt_of_succ_lt hn)).2.1 (outsAt1 c n (Nat.lt_of_succ_lt hn)).2.2

abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 8 = 0) : outsAt1 V c t.val t.isLt = stepA1 V c t := by
  obtain ⟨n, hn⟩ := t
  cases n with
  | zero => rfl
  | succ n => exact if_pos h0

theorem outsAt1_B (c : Dev nD) (t : Fin cfg1.N) (h0 : ¬t.val % 8 = 0) (h7 : ¬t.val % 8 = 7) :
    outsAt1 V c t.val t.isLt = stepB1 V c t (prev1 V c t).2.1 (prev1 V c t).2.2 := by
  obtain ⟨n, hn⟩ := t
  cases n with
  | zero => exact absurd (Nat.zero_mod _) h0
  | succ n => exact (if_neg h0).trans (if_neg h7)

theorem outsAt1_C (c : Dev nD) (t : Fin cfg1.N) (h0 : ¬t.val % 8 = 0) (h7 : t.val % 8 = 7) :
    outsAt1 V c t.val t.isLt = stepC1 V c t (prev1 V c t).2.1 (prev1 V c t).2.2 := by
  obtain ⟨n, hn⟩ := t
  cases n with
  | zero => exact absurd (Nat.zero_mod _) h0
  | succ n => exact (if_neg h0).trans (if_pos h7)

/-- Before position `n`: the class invariant, with the two scratch buffers at what position `n - 1` left once `n > 0`. -/
def PhiS1 (c : Dev nD) : (n : ℕ) → n ≤ cfg1.N → sProp 𝕄
  | 0, _ => Pipeline.ΦA spec1 c
  | n + 1, hn => PhiAt1 c (owns (c : Thread nD τ) scM1_0 fullShare (outsAt1 V c n hn).2.1) (owns (c : Thread nD τ) scM1_1 fullShare (outsAt1 V c n hn).2.2)

theorem PhiS1_pos (c : Dev nD) (n : ℕ) (h : n ≤ cfg1.N) (hz : n ≠ 0) :
    PhiS1 V c n h = PhiAt1 c (owns (c : Thread nD τ) scM1_0 fullShare (outsAt1 V c (n - 1) (by omega)).2.1) (owns (c : Thread nD τ) scM1_1 fullShare (outsAt1 V c (n - 1) (by omega)).2.2) := by
  cases n with
  | zero => exact absurd rfl hz
  | succ n => rfl

/-- At every position the invariant holds the two scratch buffers at some contents. -/
theorem PhiS1_some (c : Dev nD) (n : ℕ) (h : n ≤ cfg1.N) :
    PhiS1 V c n h ⊢ PhiAt1 c (iprop(∃ d, owns (c : Thread nD τ) scM1_0 fullShare d)) (iprop(∃ d, owns (c : Thread nD τ) scM1_1 fullShare d)) := by
  cases n with
  | zero => rw [show PhiS1 V c 0 h = Pipeline.ΦA spec1 c from rfl, PhiA1_eq]
  | succ n =>
    rw [show PhiS1 V c (n + 1) h = PhiAt1 c (owns (c : Thread nD τ) scM1_0 fullShare (outsAt1 V c n h).2.1) (owns (c : Thread nD τ) scM1_1 fullShare (outsAt1 V c n h).2.2) from rfl]
    iintro HΦ
    ihave HΦ' := (PhiAt1_split c _ _) $$ HΦ
    icases HΦ' with ⟨HS0, HS1, HO⟩
    iapply (PhiAt1_join c _ _)
    isplitl [HS0]; · iexists _; iexact HS0
    isplitl [HS1]; · iexists _; iexact HS1
    iexact HO

/-- The region's proof data at the entry contents `V`: inputs at their blocks, the output at `outsAt1`, invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  before1_0_of V (dat1 V c) rfl (fun _ => rfl) t d
theorem before1_1 (c : Dev nD) (t : Fin cfg1.N) (d) : (dat1 V c).before 1 t d = iblk1 V c 1 t :=
  before1_1_of V (dat1 V c) rfl (fun _ => rfl) t d
theorem before1_2 (c : Dev nD) (t : Fin cfg1.N) (d) : (dat1 V c).before 2 t d = iblk1 V c 2 t :=
  before1_2_of V (dat1 V c) rfl (fun _ => rfl) t d

theorem leaves1_in (c : Dev nD) (t : Fin cfg1.N) (w : Fin cfg1.W) (hw : cfg1.idle w (grid1.coords t) = false) :
    (dat1 V c).leavesExact w t = owns (c : Thread nD τ) ((cfg1.win w).stage (cfg1.slots t w)) fullShare ((dat1 V c).after w t) := by
  unfold Dat.leavesExact; rw [hw]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the invariant lends the run the two scratch buffers and takes them back at what the run leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiAt1 c (owns (c : Thread nD τ) scM1_0 fullShare (outsAt1 V c t.val t.isLt).2.1) (owns (c : Thread nD τ) scM1_1 fullShare (outsAt1 V c t.val t.isLt).2.2) from rfl,
    show (dat1 V c).Φ t.castSucc = PhiS1 V c t.val (Nat.le_of_lt t.isLt) from rfl,
    leaves1_in V c t 0 (liveAt1_0 t), leaves1_in V c t 1 (liveAt1_1 t), leaves1_in V c t 2 (liveAt1_2 t)]
  have hN : t.val < 16 := lt_of_lt_of_eq t.isLt (show cfg1.N = 16 from N_1)
  by_cases h0 : t.val % 8 = 0
  · have h7 : ¬t.val % 8 = 7 := by omega
    rw [Dat.leavesExact_idle (dat1 V c) 3 t (idleAt1_3_A t ((hcond1_0 t).mpr h0) ((hcond1_1 t).mpr h7) (fun h => h7 ((hcond1_2 t).mp h))) (noFlush1_3_A t ((hcond1_0 t).mpr h0) ((hcond1_1 t).mpr h7) (fun h => h7 ((hcond1_2 t).mp h))), outsAt1_A V c t h0]
    dsimp only [stepA1]
    iintro ⟨HΦ, Ho, ⟨%d0, H0⟩, ⟨%d1, H1⟩, ⟨%d2, H2⟩, ⟨%d3, H3⟩⟩
    ihave HΦ' := (PhiS1_some V c _ _) $$ HΦ
    ihave HΦ'' := (PhiAt1_split c _ _) $$ HΦ'
    icases HΦ'' with ⟨HS0, HS1, HO⟩
    iapply (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h7) (fun h => h7 ((hcond1_2 t).mp h)) (xblk1 V c t) (wblk1 V c t) (bblk1 V c t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HO]
    · iapply (PhiAt1_join c _ _)
      isplitl [HS0]; · iexact HS0
      isplitl [HS1]; · iexact HS1
      iexact HO
    isplitl [Ho]; · iexact Ho
    isplitl [H0]; · iexact H0
    isplitl [H1]; · iexact H1
    isplitl [H2]; · iexact H2
    iexists _; iexact H3
  · have hz : t.val ≠ 0 := fun h => h0 (by rw [h])
    rw [PhiS1_pos V c _ _ hz]
    by_cases h7 : t.val % 8 = 7
    · rw [show (dat1 V c).leavesExact 3 t = owns (c : Thread nD τ) (ms1_3 t) fullShare ((dat1 V c).after 3 t) from by
          unfold Dat.leavesExact; rw [liveAt1_3_C t (fun h => h0 ((hcond1_0 t).mp h)) (fun h => (hcond1_1 t).mp h h7) ((hcond1_2 t).mpr h7)],
        after1_3, outsAt1_C V c t h0 h7]
      dsimp only [stepC1]
      iintro ⟨HΦ, Ho, ⟨%d0, H0⟩, ⟨%d1, H1⟩, ⟨%d2, H2⟩, ⟨%d3, H3⟩⟩
      ihave HΦ' := (PhiAt1_split c _ _) $$ HΦ
      icases HΦ' with ⟨HS0, HS1, HO⟩
      iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => (hcond1_1 t).mp h h7) ((hcond1_2 t).mpr h7) (xblk1 V c t) (wblk1 V c t) (bblk1 V c t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HO]
      · iapply (PhiAt1_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexact H3
    · rw [Dat.leavesExact_idle (dat1 V c) 3 t (idleAt1_3_B t (fun h => h0 ((hcond1_0 t).mp h)) ((hcond1_1 t).mpr h7) (fun h => h7 ((hcond1_2 t).mp h))) (noFlush1_3_B t (fun h => h0 ((hcond1_0 t).mp h)) ((hcond1_1 t).mpr h7) (fun h => h7 ((hcond1_2 t).mp h))), outsAt1_B V c t h0 h7]
      dsimp only [stepB1]
      iintro ⟨HΦ, Ho, ⟨%d0, H0⟩, ⟨%d1, H1⟩, ⟨%d2, H2⟩, ⟨%d3, H3⟩⟩
      ihave HΦ' := (PhiAt1_split c _ _) $$ HΦ
      icases HΦ' with ⟨HS0, HS1, HO⟩
      iapply (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h7) (fun h => h7 ((hcond1_2 t).mp h)) (xblk1 V c t) (wblk1 V c t) (bblk1 V c t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HO]
      · iapply (PhiAt1_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem Phi_out1 (c : Dev nD) (t : Fin (cfg1.N + 1)) : (dat1 V c).Φ t ⊢ Pipeline.ΦA spec1 c := by
  rw [PhiA1_eq]; exact PhiS1_some V c t.val (Nat.le_of_lt_succ t.isLt)

theorem hout1 (c : Dev nD) : (dat1 V c).Φ (Fin.last cfg1.N) ⊢ Pipeline.ΦA spec1 c := Phi_out1 V c _

end Cert.KernelIdeal.Fr

end
-- ==== Proof.KernelIdeal.R2.Runs.lean ====
import proofs.«420015_j11879879541904_3_alg».proof.Proof.KernelIdeal.Launch
import proofs.«420015_j11879879541904_3_alg».proof.Proof.Gen.KernelIdeal.Skeleton
import proofs.«420015_j11879879541904_3_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 40 = 0 :=
  (by decide +kernel : ∀ t : Fin grid2.N, cond2_0 (grid2.coords t) ↔ t.val % 40 = 0)

abbrev cond2_1 (i : grid2.Coords) : Prop := (Scalar.cmpi .ne (Scalar.extui (Scalar.xori (Scalar.cmpi .eq (BitVec.ofNat 32 (i 1).val) 39#32) 1#1)) 0#32) = 1#1

theorem hcond2_1 : ∀ t : Fin cfg2.N, cond2_1 (grid2.coords t) ↔ ¬t.val % 40 = 39 :=
  (by decide +kernel : ∀ t : Fin grid2.N, cond2_1 (grid2.coords t) ↔ ¬t.val % 40 = 39)

abbrev cond2_2 (i : grid2.Coords) : Prop := k2_cond3 i = 1#1

theorem hcond2_2 : ∀ t : Fin cfg2.N, cond2_2 (grid2.coords t) ↔ t.val % 40 = 39 :=
  (by decide +kernel : ∀ t : Fin grid2.N, cond2_2 (grid2.coords t) ↔ t.val % 40 = 39)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem idleAt2_3_A : ∀ t : Fin cfg2.N, cond2_0 (grid2.coords t) → cond2_1 (grid2.coords t) → ¬cond2_2 (grid2.coords t) → cfg2.idle 3 (grid2.coords t) = true := by decide +kernel

theorem noFlush2_3_A : ∀ t : Fin cfg2.N, cond2_0 (grid2.coords t) → cond2_1 (grid2.coords t) → ¬cond2_2 (grid2.coords t) → (cfg2.win 3).flush t = false := by decide +kernel

theorem idleAt2_3_B : ∀ t : Fin cfg2.N, ¬cond2_0 (grid2.coords t) → cond2_1 (grid2.coords t) → ¬cond2_2 (grid2.coords t) → cfg2.idle 3 (grid2.coords t) = true := by decide +kernel

theorem noFlush2_3_B : ∀ t : Fin cfg2.N, ¬cond2_0 (grid2.coords t) → cond2_1 (grid2.coords t) → ¬cond2_2 (grid2.coords t) → (cfg2.win 3).flush t = false := by decide +kernel

theorem liveAt2_3_C : ∀ t : Fin cfg2.N, ¬cond2_0 (grid2.coords t) → ¬cond2_1 (grid2.coords t) → cond2_2 (grid2.coords t) → cfg2.idle 3 (grid2.coords t) = false := by decide +kernel

abbrev VO2_3 : View sig .tc .vmem S2048x1 .f32 := (Memref.whole cc2_stg3_0 : Memref sig .tc .vmem S2048x1 .f32).view

abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)

abbrev scM2_0 : Memref sig .tc .vmem S2048x1 .f32 := Memref.whole cc2_scratch0
abbrev scM2_1 : Memref sig .tc .vmem S2048x1 .f32 := Memref.whole cc2_scratch1

abbrev VS2_0 : View sig .tc .vmem S2048x1 .f32 := scM2_0.view
abbrev VS2_1 : View sig .tc .vmem S2048x1 .f32 := scM2_1.view

abbrev But2 (c : Dev nD) : sProp 𝕄 :=
  Pipeline.scopedRestBut (Ix := Unit) (Name := ℕ) (U := UR sig nD τ) (Lvl := ℕ) (Val := Elt F) spec2 c [cc2_scratch0, cc2_scratch1]

theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ But2 c) :=
  Pipeline.scopedRest_split_of_list spec2 c [cc2_scratch0, cc2_scratch1] (by decide) (by decide)

def PhiAt2 (c : Dev nD) (P0 P1 : sProp 𝕄) : sProp 𝕄 :=
  iprop(iprop(iprop(P0 ∗ P1) ∗ But2 c) ∗ (∃ r, prngReg c r))

def Oth2 (c : Dev nD) : sProp 𝕄 :=
  iprop(But2 c ∗ (∃ r, prngReg c r))

theorem PhiA2_eq (c : Dev nD) :
    (Pipeline.ΦA spec2 c : sProp 𝕄)
      = PhiAt2 c (iprop(∃ d, owns (c : Thread nD τ) scM2_0 fullShare d)) (iprop(∃ d, owns (c : Thread nD τ) scM2_1 fullShare d)) := by
  unfold Pipeline.ΦA PhiAt2; rw [scopedRest2_split]; simp only [scM2_0, scM2_1, owns_whole]; try rfl

theorem PhiAt2_split (c : Dev nD) (P0 P1 : sProp 𝕄) : PhiAt2 c P0 P1 ⊢ iprop(P0 ∗ P1 ∗ Oth2 (F := F) c) := by
  unfold PhiAt2 Oth2
  iintro ⟨⟨⟨HS0, HS1⟩, HR⟩, Hg⟩
  isplitl [HS0]; · iexact HS0
  isplitl [HS1]; · iexact HS1
  isplitl [HR]; · iexact HR
  iexact Hg

theorem PhiAt2_join (c : Dev nD) (P0 P1 : sProp 𝕄) : iprop(P0 ∗ P1 ∗ Oth2 (F := F) c) ⊢ PhiAt2 c P0 P1 := by
  unfold PhiAt2 Oth2
  iintro ⟨HS0, HS1, HR, Hg⟩
  isplitl [HS0 HS1 HR]
  · isplitl [HS0 HS1]
    · isplitl [HS0]; · iexact HS0
      iexact HS1
    iexact HR
  iexact Hg

end Cert.KernelIdeal.Fr

end
-- ==== Proof.KernelIdeal.R2.RunA.lean ====
import proofs.«420015_j11879879541904_3_alg».proof.Proof.KernelIdeal.R2.Runs

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case A (first vocabulary tile): from the scratch buffers at anything, the body resets them and leaves the tile's maximum and shifted sum. -/
theorem kernelRun2_A (c : Dev nD) (i : grid2.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond2_0 i) (hc1 : cond2_1 i) (hc2 : ¬cond2_2 i)
    (x0 : Vec F S2048x512 .bf16) (x1 : Vec F S512x1024 .bf16) (x2 : Vec F S1x1024 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay6 x0 x1 x2 (k2_pay1 (F := F))) ∗ owns (c : Thread nD τ) arg7 fullShare (k2_pay5 x0 x1 x2 (k2_pay1 (F := F)) (k2_pay1 (F := F)) (k2_pay2 (F := F)))) -∗ K ⟨⟩))
      ⊢ wp frame (wpE (defs₀ (F := F)) Variants.none c none) E (cc2__tail_logsumexp_kernel i arg2 harg2 arg3 harg3 arg4 harg4 arg5 harg5 arg6 harg6 arg7 harg7) K := by
  simp only [cc2__tail_logsumexp_kernel_eq_skeleton]; unfold cc2__tail_logsumexp_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz2]
  simp only [View.readAt_eq_ld, harg2.read_unread, harg3.read_unread, harg4.read_unread, harg6.read_unread, harg7.read_unread,
    View.ld_unit_zero (S := S2048x512) hz2, View.ld_unit_zero (S := S512x1024) hz2, View.ld_unit_zero (S := S1x1024) hz2,
    View.ld_unit_zero (S := S2048x1) hz2, View.readCov_unit_zero (S := S2048x1) _ hz2]

end Cert.KernelIdeal.Fr

end
-- ==== Proof.KernelIdeal.R2.RunB.lean ====
import proofs.«420015_j11879879541904_3_alg».proof.Proof.KernelIdeal.R2.RunA

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case B (a middle tile): the running maximum and sum are updated with the tile's unmasked logits. -/
theorem kernelRun2_B (c : Dev nD) (i : grid2.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond2_0 i) (hc1 : cond2_1 i) (hc2 : ¬cond2_2 i)
    (x0 : Vec F S2048x512 .bf16) (x1 : Vec F S512x1024 .bf16) (x2 : Vec F S1x1024 .f32) (xs0 xs1 xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay6 x0 x1 x2 xs0) ∗ owns (c : Thread nD τ) arg7 fullShare (k2_pay5 x0 x1 x2 xs0 xs0 xs1)) -∗ K ⟨⟩))
      ⊢ wp frame (wpE (defs₀ (F := F)) Variants.none c none) E (cc2__tail_logsumexp_kernel i arg2 harg2 arg3 harg3 arg4 harg4 arg5 harg5 arg6 harg6 arg7 harg7) K := by
  simp only [cc2__tail_logsumexp_kernel_eq_skeleton]; unfold cc2__tail_logsumexp_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz2]
  simp only [View.readAt_eq_ld, harg2.read_unread, harg3.read_unread, harg4.read_unread, harg6.read_unread, harg7.read_unread,
    View.ld_unit_zero (S := S2048x512) hz2, View.ld_unit_zero (S := S512x1024) hz2, View.ld_unit_zero (S := S1x1024) hz2,
    View.ld_unit_zero (S := S2048x1) hz2, View.readCov_unit_zero (S := S2048x1) _ hz2]

end Cert.KernelIdeal.Fr

end
-- ==== Proof.KernelIdeal.R2.RunC.lean ====
import proofs.«420015_j11879879541904_3_alg».proof.Proof.KernelIdeal.R2.RunB

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Case C (last tile): the masked update, and the output block receives maximum + log sum. -/
theorem kernelRun2_C (c : Dev nD) (i : grid2.Coords) (arg2 : Memref sig .tc .vmem S2048x512 .bf16) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond2_0 i) (hc1 : ¬cond2_1 i) (hc2 : cond2_2 i)
    (x0 : Vec F S2048x512 .bf16) (x1 : Vec F S512x1024 .bf16) (x2 : Vec F S1x1024 .f32) (xs0 xs1 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
        ∗ (iprop(owns (c : Thread nD τ) arg2 fullShare x0 ∗ owns (c : Thread nD τ) arg3 fullShare x1 ∗ owns (c : Thread nD τ) arg4 fullShare x2 ∗ owns (c : Thread nD τ) arg5 fullShare (k2_pay11 (k2_pay10 i x0 x1 x2 xs0) (k2_pay9 i x0 x1 x2 xs0 xs0 xs1)) ∗ owns (c : Thread nD τ) arg6 fullShare (k2_pay10 i x0 x1 x2 xs0) ∗ owns (c : Thread nD τ) arg7 fullShare (k2_pay9 i x0 x1 x2 xs0 xs0 xs1)) -∗ K ⟨⟩))
      ⊢ wp frame (wpE (defs₀ (F := F)) Variants.none c none) E (cc2__tail_logsumexp_kernel i arg2 harg2 arg3 harg3 arg4 harg4 arg5 harg5 arg6 harg6 arg7 harg7) K := by
  simp only [cc2__tail_logsumexp_kernel_eq_skeleton]; unfold cc2__tail_logsumexp_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  isplitl [HS0]
  · iexists _; isplitr; swap; · iexact HS0
    ipureintro
    rw [View.read_writes_eq_canon _ _ _ (View.cover_of_tiledL _ S2048x1.size (by sl_kernel_rfl))]
    try sl_unfold_words
    rw [View.canon_cons_unit_zero (S := S2048x1) hz2]
    simp only [View.readAt_eq_ld, harg2.read_unread, harg3.read_unread, harg4.read_unread, harg6.read_unread, harg7.read_unread,
      View.ld_unit_zero (S := S2048x512) hz2, View.ld_unit_zero (S := S512x1024) hz2, View.ld_unit_zero (S := S1x1024) hz2,
      View.ld_unit_zero (S := S2048x1) hz2, View.readCov_unit_zero (S := S2048x1) _ hz2]
  iexists _; isplitr; swap; · iexact HS1
  ipureintro
  rw [View.read_writes_eq_canon _ _ _ (View.cover_of_tiledL _ S2048x1.size (by sl_kernel_rfl))]
  try sl_unfold_words
  rw [View.canon_cons_unit_zero (S := S2048x1) hz2]
  simp only [View.readAt_eq_ld, harg2.read_unread, harg3.read_unread, harg4.read_unread, harg6.read_unread, harg7.read_unread,
    View.ld_unit_zero (S := S2048x512) hz2, View.ld_unit_zero (S := S512x1024) hz2, View.ld_unit_zero (S := S1x1024) hz2,
    View.ld_unit_zero (S := S2048x1) hz2, View.readCov_unit_zero (S := S2048x1) _ hz2]

end Cert.KernelIdeal.Fr

end
-- ==== Proof.KernelIdeal.R2.Frame.lean ====
import proofs.«420015_j11879879541904_3_alg».proof.Proof.KernelIdeal.R2.RunC

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev xblk2 (c : Dev nD) (t : Fin cfg2.N) : Vec F S2048x512 .bf16 := iblk2 V c 0 t
abbrev wblk2 (c : Dev nD) (t : Fin cfg2.N) : Vec F S512x1024 .bf16 := iblk2 V c 1 t
abbrev bblk2 (c : Dev nD) (t : Fin cfg2.N) : Vec F S1x1024 .f32 := iblk2 V c 2 t

/-- What the body leaves at point `t`, by case, in (output block, running maximum, running sum), from the pair `(m, l)` it finds. -/
def stepA2 (c : Dev nD) (t : Fin cfg2.N) : Vec F S2048x1 .f32 × Vec F S2048x1 .f32 × Vec F S2048x1 .f32 :=
  (k2_pay1, k2_pay6 (xblk2 V c t) (wblk2 V c t) (bblk2 V c t) k2_pay1, k2_pay5 (xblk2 V c t) (wblk2 V c t) (bblk2 V c t) k2_pay1 k2_pay1 k2_pay2)
def stepB2 (c : Dev nD) (t : Fin cfg2.N) (m l : Vec F S2048x1 .f32) : Vec F S2048x1 .f32 × Vec F S2048x1 .f32 × Vec F S2048x1 .f32 :=
  (k2_pay1, k2_pay6 (xblk2 V c t) (wblk2 V c t) (bblk2 V c t) m, k2_pay5 (xblk2 V c t) (wblk2 V c t) (bblk2 V c t) m m l)
def stepC2 (c : Dev nD) (t : Fin cfg2.N) (m l : Vec F S2048x1 .f32) : Vec F S2048x1 .f32 × Vec F S2048x1 .f32 × Vec F S2048x1 .f32 :=
  (k2_pay11 (k2_pay10 (grid2.coords t) (xblk2 V c t) (wblk2 V c t) (bblk2 V c t) m) (k2_pay9 (grid2.coords t) (xblk2 V c t) (wblk2 V c t) (bblk2 V c t) m m l), k2_pay10 (grid2.coords t) (xblk2 V c t) (wblk2 V c t) (bblk2 V c t) m, k2_pay9 (grid2.coords t) (xblk2 V c t) (wblk2 V c t) (bblk2 V c t) m m l)

/-- The three buffers after position `n`: the first tile of a token tile restarts the pair, the last one also writes the output. -/
def outsAt2 (c : Dev nD) : (n : ℕ) → n < cfg2.N → Vec F S2048x1 .f32 × Vec F S2048x1 .f32 × Vec F S2048x1 .f32
  | 0, hn => stepA2 V c ⟨0, hn⟩
  | n + 1, hn =>
    if (n + 1) % 40 = 0 then stepA2 V c ⟨n + 1, hn⟩
    else if (n + 1) % 40 = 39 then stepC2 V c ⟨n + 1, hn⟩ (outsAt2 c n (Nat.lt_of_succ_lt hn)).2.1 (outsAt2 c n (Nat.lt_of_succ_lt hn)).2.2
    else stepB2 V c ⟨n + 1, hn⟩ (outsAt2 c n (Nat.lt_of_succ_lt hn)).2.1 (outsAt2 c n (Nat.lt_of_succ_lt hn)).2.2

abbrev prev2 (c : Dev nD) (t : Fin cfg2.N) := outsAt2 V c (t.val - 1) (Nat.lt_of_le_of_lt (Nat.sub_le _ _) t.isLt)

theorem outsAt2_A (c : Dev nD) (t : Fin cfg2.N) (h0 : t.val % 40 = 0) : outsAt2 V c t.val t.isLt = stepA2 V c t := by
  obtain ⟨n, hn⟩ := t
  cases n with
  | zero => rfl
  | succ n => exact if_pos h0

theorem outsAt2_B (c : Dev nD) (t : Fin cfg2.N) (h0 : ¬t.val % 40 = 0) (h7 : ¬t.val % 40 = 39) :
    outsAt2 V c t.val t.isLt = stepB2 V c t (prev2 V c t).2.1 (prev2 V c t).2.2 := by
  obtain ⟨n, hn⟩ := t
  cases n with
  | zero => exact absurd (Nat.zero_mod _) h0
  | succ n => exact (if_neg h0).trans (if_neg h7)

theorem outsAt2_C (c : Dev nD) (t : Fin cfg2.N) (h0 : ¬t.val % 40 = 0) (h7 : t.val % 40 = 39) :
    outsAt2 V c t.val t.isLt = stepC2 V c t (prev2 V c t).2.1 (prev2 V c t).2.2 := by
  obtain ⟨n, hn⟩ := t
  cases n with
  | zero => exact absurd (Nat.zero_mod _) h0
  | succ n => exact (if_neg h0).trans (if_pos h7)

/-- Before position `n`: the class invariant, with the two scratch buffers at what position `n - 1` left once `n > 0`. -/
def PhiS2 (c : Dev nD) : (n : ℕ) → n ≤ cfg2.N → sProp 𝕄
  | 0, _ => Pipeline.ΦA spec2 c
  | n + 1, hn => PhiAt2 c (owns (c : Thread nD τ) scM2_0 fullShare (outsAt2 V c n hn).2.1) (owns (c : Thread nD τ) scM2_1 fullShare (outsAt2 V c n hn).2.2)

theorem PhiS2_pos (c : Dev nD) (n : ℕ) (h : n ≤ cfg2.N) (hz : n ≠ 0) :
    PhiS2 V c n h = PhiAt2 c (owns (c : Thread nD τ) scM2_0 fullShare (outsAt2 V c (n - 1) (by omega)).2.1) (owns (c : Thread nD τ) scM2_1 fullShare (outsAt2 V c (n - 1) (by omega)).2.2) := by
  cases n with
  | zero => exact absurd rfl hz
  | succ n => rfl

/-- At every position the invariant holds the two scratch buffers at some contents. -/
theorem PhiS2_some (c : Dev nD) (n : ℕ) (h : n ≤ cfg2.N) :
    PhiS2 V c n h ⊢ PhiAt2 c (iprop(∃ d, owns (c : Thread nD τ) scM2_0 fullShare d)) (iprop(∃ d, owns (c : Thread nD τ) scM2_1 fullShare d)) := by
  cases n with
  | zero => rw [show PhiS2 V c 0 h = Pipeline.ΦA spec2 c from rfl, PhiA2_eq]
  | succ n =>
    rw [show PhiS2 V c (n + 1) h = PhiAt2 c (owns (c : Thread nD τ) scM2_0 fullShare (outsAt2 V c n h).2.1) (owns (c : Thread nD τ) scM2_1 fullShare (outsAt2 V c n h).2.2) from rfl]
    iintro HΦ
    ihave HΦ' := (PhiAt2_split c _ _) $$ HΦ
    icases HΦ' with ⟨HS0, HS1, HO⟩
    iapply (PhiAt2_join c _ _)
    isplitl [HS0]; · iexists _; iexact HS0
    isplitl [HS1]; · iexists _; iexact HS1
    iexact HO

/-- The region's proof data at the entry contents `V`: inputs at their blocks, the output at `outsAt2`, invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  before2_0_of V (dat2 V c) rfl (fun _ => rfl) t d
theorem before2_1 (c : Dev nD) (t : Fin cfg2.N) (d) : (dat2 V c).before 1 t d = iblk2 V c 1 t :=
  before2_1_of V (dat2 V c) rfl (fun _ => rfl) t d
theorem before2_2 (c : Dev nD) (t : Fin cfg2.N) (d) : (dat2 V c).before 2 t d = iblk2 V c 2 t :=
  before2_2_of V (dat2 V c) rfl (fun _ => rfl) t d

theorem leaves2_in (c : Dev nD) (t : Fin cfg2.N) (w : Fin cfg2.W) (hw : cfg2.idle w (grid2.coords t) = false) :
    (dat2 V c).leavesExact w t = owns (c : Thread nD τ) ((cfg2.win w).stage (cfg2.slots t w)) fullShare ((dat2 V c).after w t) := by
  unfold Dat.leavesExact; rw [hw]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4800000 in
/-- The body at any point: the invariant lends the run the two scratch buffers and takes them back at what the run leaves. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiAt2 c (owns (c : Thread nD τ) scM2_0 fullShare (outsAt2 V c t.val t.isLt).2.1) (owns (c : Thread nD τ) scM2_1 fullShare (outsAt2 V c t.val t.isLt).2.2) from rfl,
    show (dat2 V c).Φ t.castSucc = PhiS2 V c t.val (Nat.le_of_lt t.isLt) from rfl,
    leaves2_in V c t 0 (liveAt2_0 t), leaves2_in V c t 1 (liveAt2_1 t), leaves2_in V c t 2 (liveAt2_2 t)]
  have hN : t.val < 80 := lt_of_lt_of_eq t.isLt (show cfg2.N = 80 from N_2)
  by_cases h0 : t.val % 40 = 0
  · have h7 : ¬t.val % 40 = 39 := by omega
    rw [Dat.leavesExact_idle (dat2 V c) 3 t (idleAt2_3_A t ((hcond2_0 t).mpr h0) ((hcond2_1 t).mpr h7) (fun h => h7 ((hcond2_2 t).mp h))) (noFlush2_3_A t ((hcond2_0 t).mpr h0) ((hcond2_1 t).mpr h7) (fun h => h7 ((hcond2_2 t).mp h))), outsAt2_A V c t h0]
    dsimp only [stepA2]
    iintro ⟨HΦ, Ho, ⟨%d0, H0⟩, ⟨%d1, H1⟩, ⟨%d2, H2⟩, ⟨%d3, H3⟩⟩
    ihave HΦ' := (PhiS2_some V c _ _) $$ HΦ
    ihave HΦ'' := (PhiAt2_split c _ _) $$ HΦ'
    icases HΦ'' with ⟨HS0, HS1, HO⟩
    iapply (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) ((hcond2_1 t).mpr h7) (fun h => h7 ((hcond2_2 t).mp h)) (xblk2 V c t) (wblk2 V c t) (bblk2 V c t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HO]
    · iapply (PhiAt2_join c _ _)
      isplitl [HS0]; · iexact HS0
      isplitl [HS1]; · iexact HS1
      iexact HO
    isplitl [Ho]; · iexact Ho
    isplitl [H0]; · iexact H0
    isplitl [H1]; · iexact H1
    isplitl [H2]; · iexact H2
    iexists _; iexact H3
  · have hz : t.val ≠ 0 := fun h => h0 (by rw [h])
    rw [PhiS2_pos V c _ _ hz]
    by_cases h7 : t.val % 40 = 39
    · rw [show (dat2 V c).leavesExact 3 t = owns (c : Thread nD τ) (ms2_3 t) fullShare ((dat2 V c).after 3 t) from by
          unfold Dat.leavesExact; rw [liveAt2_3_C t (fun h => h0 ((hcond2_0 t).mp h)) (fun h => (hcond2_1 t).mp h h7) ((hcond2_2 t).mpr h7)],
        after2_3, outsAt2_C V c t h0 h7]
      dsimp only [stepC2]
      iintro ⟨HΦ, Ho, ⟨%d0, H0⟩, ⟨%d1, H1⟩, ⟨%d2, H2⟩, ⟨%d3, H3⟩⟩
      ihave HΦ' := (PhiAt2_split c _ _) $$ HΦ
      icases HΦ' with ⟨HS0, HS1, HO⟩
      iapply (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => (hcond2_1 t).mp h h7) ((hcond2_2 t).mpr h7) (xblk2 V c t) (wblk2 V c t) (bblk2 V c t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 HO]
      · iapply (PhiAt2_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexact H3
    · rw [Dat.leavesExact_idle (dat2 V c) 3 t (idleAt2_3_B t (fun h => h0 ((hcond2_0 t).mp h)) ((hcond2_1 t).mpr h7) (fun h => h7 ((hcond2_2 t).mp h))) (noFlush2_3_B t (fun h => h0 ((hcond2_0 t).mp h)) ((hcond2_1 t).mpr h7) (fun h => h7 ((hcond2_2 t).mp h))), outsAt2_B V c t h0 h7]
      dsimp only [stepB2]
      iintro ⟨HΦ, Ho, ⟨%d0, H0⟩, ⟨%d1, H1⟩, ⟨%d2, H2⟩, ⟨%d3, H3⟩⟩
      ihave HΦ' := (PhiAt2_split c _ _) $$ HΦ
      icases HΦ' with ⟨HS0, HS1, HO⟩
      iapply (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h7) (fun h => h7 ((hcond2_2 t).mp h)) (xblk2 V c t) (wblk2 V c t) (bblk2 V c t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HO]
      · iapply (PhiAt2_join c _ _)
        isplitl [HS0]; · iexact HS0
        isplitl [HS1]; · iexact HS1
        iexact HO
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem Phi_out2 (c : Dev nD) (t : Fin (cfg2.N + 1)) : (dat2 V c).Φ t ⊢ Pipeline.ΦA spec2 c := by
  rw [PhiA2_eq]; exact PhiS2_some V c t.val (Nat.le_of_lt_succ t.isLt)

theorem hout2 (c : Dev nD) : (dat2 V c).Φ (Fin.last cfg2.N) ⊢ Pipeline.ΦA spec2 c := Phi_out2 V c _

end Cert.KernelIdeal.Fr

end
-- ==== Proof.KernelIdeal.Regs.lean ====
import proofs.«420015_j11879879541904_3_alg».proof.Proof.KernelIdeal.Regions
import proofs.«420015_j11879879541904_3_alg».proof.Proof.KernelIdeal.R0.Frame
import proofs.«420015_j11879879541904_3_alg».proof.Proof.KernelIdeal.R1.Frame
import proofs.«420015_j11879879541904_3_alg».proof.Proof.KernelIdeal.R2.Frame
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev base (c : Dev nD) : (r : Ref sig .tc) → Buf (Elt F) ((c : Thread nD τ).loc r) := fun r => m ((c : Thread nD τ).loc r)

abbrev ent0 : (c : Dev nD) → (b : Ref sig .tc) → Buf (Elt F) ((c : Thread nD τ).loc b) := fun c b => Gen.V6 m c b

def o0 (c : Dev nD) : Buf (Elt F) ((c : Thread nD τ).loc main_v14) := (dat0 (ent0 m) c).arrAt 3 cfg0.N

def outsA : Gen.Outs (F := F) := fun _ r c => Function.update (base m c) main_v14 (o0 m c) r

abbrev ent1 : (c : Dev nD) → (b : Ref sig .tc) → Buf (Elt F) ((c : Thread nD τ).loc b) := fun c b => Gen.V17 m (outsA m) c b

def o1 (c : Dev nD) : Buf (Elt F) ((c : Thread nD τ).loc main_v52) := (dat1 (ent1 m) c).arrAt 3 cfg1.N

def outsB : Gen.Outs (F := F) := fun _ r c =>
  Function.update (Function.update (base m c) main_v14 (o0 m c)) main_v52 (o1 m c) r

abbrev ent2 : (c : Dev nD) → (b : Ref sig .tc) → Buf (Elt F) ((c : Thread nD τ).loc b) := fun c b => Gen.V28 m (outsB m) c b

def o2 (c : Dev nD) : Buf (Elt F) ((c : Thread nD τ).loc main_v90) := (dat2 (ent2 m) c).arrAt 3 cfg2.N

def outs : Gen.Outs (F := F) := fun _ r c =>
  Function.update (Function.update (Function.update (base m c) main_v14 (o0 m c)) main_v52 (o1 m c)) main_v90 (o2 m c) r

theorem outsA_0 (j : ℕ) (c : Dev nD) : outsA m j main_v14 c = o0 m c := Function.update_self _ _ _
theorem outsB_0 (j : ℕ) (c : Dev nD) : outsB m j main_v14 c = o0 m c := by
  unfold outsB; rw [Function.update_of_ne (by decide), Function.update_self]
theorem outsB_1 (j : ℕ) (c : Dev nD) : outsB m j main_v52 c = o1 m c := Function.update_self _ _ _
theorem outs_0 (j : ℕ) (c : Dev nD) : outs m j main_v14 c = o0 m c := by
  unfold outs; rw [Function.update_of_ne (by decide), Function.update_of_ne (by decide), Function.update_self]
theorem outs_1 (j : ℕ) (c : Dev nD) : outs m j main_v52 c = o1 m c := by
  unfold outs; rw [Function.update_of_ne (by decide), Function.update_self]
theorem outs_2 (j : ℕ) (c : Dev nD) : outs m j main_v90 c = o2 m c := Function.update_self _ _ _

/-- Past region 0's output the valuation before region 1 reads the unknowns only at that output. -/
theorem V17_o0 (o : Gen.Outs (F := F)) (c : Dev nD) (h : o 7 main_v14 c = o0 m c) :
    Gen.V17 m o c = Gen.V17 m (outsA m) c :=
  congrArg (fun x => StableHlo.after hostOps1_9 (StableHlo.after hostOps1_8 (StableHlo.after hostOps1_7
    (StableHlo.after hostOps1_6 (StableHlo.after hostOps1_5 (StableHlo.after hostOps1_4 (StableHlo.after hostOps1_3
    (StableHlo.after hostOps1_2 (StableHlo.after hostOps1_1 (StableHlo.after hostOps1
    (Function.update (Gen.V6 m c) main_v14 x))))))))))) (h.trans (outsA_0 m 7 c).symm)

theorem V17_outs (c : Dev nD) : Gen.V17 m (outs m) c = Gen.V17 m (outsA m) c := V17_o0 m _ c (outs_0 m 7 c)

theorem V28_outs (c : Dev nD) : Gen.V28 m (outs m) c = Gen.V28 m (outsB m) c :=
  congrArg₂ (fun v x => StableHlo.after hostOps2_9 (StableHlo.after hostOps2_8 (StableHlo.after hostOps2_7
    (StableHlo.after hostOps2_6 (StableHlo.after hostOps2_5 (StableHlo.after hostOps2_4 (StableHlo.after hostOps2_3
    (StableHlo.after hostOps2_2 (StableHlo.after hostOps2_1 (StableHlo.after hostOps2
    (Function.update v main_v52 x))))))))))) ((V17_outs m c).trans (V17_o0 m _ c (outsB_0 m 7 c)).symm)
    ((outs_1 m 18 c).trans (outsB_1 m 18 c).symm)

def pdats : (p : Fin 3) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c

abbrev noVar : Variants := Variants.none

abbrev noL : GSem nD τ sig → Finset Unit := fun _ => ∅
abbrev noLv : GSem nD τ sig → Unit → ℕ := fun _ _ => 0

abbrev restR (c : Dev nD) : sProp 𝕄 :=
  iprop((∃ r, prngReg c r) ∗ ∃ W, owes (c : Thread nD τ) (0 : CellTallies nD τ sig Unit) W)

/-- If `ext` is `ent` updated at the one output array with its final contents, region `p` takes `ent` held to `ext` held. -/
def reg (p : Fin 3) (lf : Pipeline.LaunchFacts (nD := nD) (τ := τ) cfgs p) (ent ext : Dev nD → Valuation τ sig (Elt F))
    (wo : Fin (cfgs p).W) (hio : ∀ w, w ≠ wo → ((cfgs p).win w).isOut = false)
    (hx : ∀ c, ext c = Function.update (ent c) (Pipeline.arrRef (cfgs p).spec wo) ((pdats m p c).arrAt wo (cfgs p).N))
    (hb : ∀ c, BodyObligation (pdats m p c) (defs₀ (F := F)) noVar () Set.univ)
    (hd : ∀ c, ((pdats m p c).q = fun _ => fullShare) ∧ ((pdats m p c).owed = fun _ => 0) ∧ (pdats m p c).recorded 0 = Set.univ)
    (hA : ∀ c w, (pdats m p c).A w = ent c (Pipeline.arrRef (cfgs p).spec w))
    (hi : ∀ c, Pipeline.ΦA (cfgs p).spec c ⊢ (pdats m p c).Φ 0)
    (ho : ∀ c, (pdats m p c).Φ (Fin.last (cfgs p).N) ⊢ Pipeline.ΦA (cfgs p).spec c) :
    Pipeline.RegionSeg (pcfgs (F := F)) adm (pdats m) () defs₀ noVar noL noLv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noL noLv p fun c => congrFun (hd c).2.1
  pre c := iprop(StableHlo.held (c : Thread nD τ) (Pipeline.ucRefs τ sig) (ent c) ∗ restR c)
  post c := iprop(StableHlo.held (c : Thread nD τ) (Pipeline.ucRefs τ sig) (ext c) ∗ restR c)
  X c := iprop(∃ r, prngReg c r)
  Y c := iprop(∃ r, prngReg c r)
  Z c := Pipeline.unscopedRest (cfgs p).spec c fun b => ent c b
  hentry c := by
    unfold Pipeline.Dat.owesAt Pipeline.owesWithin
    rw [Pipeline.ownSems0_none, (hd c).2.1]
    have hsplit := Pipeline.arrays_of_unscopedBufs (p := p) (pcfgs (F := F)) adm (pdats m) lf.win lf.arr_whole c
      ((pdats m p c).share_full (congrFun (hd c).1)) (fun b => ent c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hd c).2.2 ▸ trivial)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (congrFun (hd c).1))
      (fun b => ent c b) (fun b => ext c b) ((pdats m p c).arrAt · (cfgs p).N)
      (fun w => by
        show _ = ext c (Pipeline.arrRef (cfgs p).spec w)
        rw [hx c]
        by_cases h : w = wo
        · subst h; rw [Function.update_self]
        · rw [Function.update_of_ne (StableHlo.devRef_ne_of_ne (lf.win.arr_inj.ne h))]
          exact ((pdats m p c).arrAt_in w (hio w h) _).trans (hA c w))
      (fun b hb => by
        show ext c b = ent c b
        rw [hx c]
        exact Function.update_of_ne (StableHlo.devRef_ne_of_ne fun e => hb (Finset.mem_image.mpr ⟨wo, Finset.mem_univ _, e.symm⟩)) _ _)
    rw [Pipeline.unscopedBufs_held] at hjoin
    unfold Pipeline.Dat.owesAt Pipeline.owesWithin
    rw [(hd c).2.1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := reg m 0 launch0 (Gen.V6 m) (Gen.V7 m (outs m)) 3 (by decide)
  (fun c => congrArg (Function.update _ _) (outs_0 m 7 c))
  (body_obligation0 _) (fun _ => ⟨rfl, rfl, rfl⟩) (A_eq0 _) (hin0 _) (hout0 _)

def reg1 := reg m 1 launch1 (Gen.V17 m (outs m)) (Gen.V18 m (outs m)) 3 (by decide)
  (fun c => congrArg (Function.update _ _) (outs_1 m 18 c))
  (body_obligation1 _) (fun _ => ⟨rfl, rfl, rfl⟩) (fun c _ => (congrFun (V17_outs m c) _).symm) (hin1 _) (hout1 _)

def reg2 := reg m 2 launch2 (Gen.V28 m (outs m)) (Gen.V29 m (outs m)) 3 (by decide)
  (fun c => congrArg (Function.update _ _) (outs_2 m 29 c))
  (body_obligation2 _) (fun _ => ⟨rfl, rfl, rfl⟩) (fun c _ => (congrFun (V28_outs m c) _).symm) (hin2 _) (hout2 _)

theorem hu0 (a : UR sig nD τ) :
    (ownU a : sProp 𝕄) ⊢ |={Set.univ}=> iprop(BI.own (emb₁ a) ∗ bigSep Finset.univ fun _ : Dev nD => (BI.emp : sProp 𝕄)) := by
  rw [BI.bigSep_emp_const, ownU_emb₁]
  iintro Hu; imodintro
  isplitl [Hu]; · iexact Hu
  iempintro

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () noVar noL noLv (fun _ _ => rfl) ρ (outs m) (pdats m) (O₀ := 0) (G := _) (u₀ := _) (hu₀ := hu0 _)
    (E := fun _ c => restR c) (hE0 := Pipeline.initEach noL noLv fun c => by
      iintro ⟨⟨-, HO, -, Hp, -⟩, -⟩; imodintro
      isplitl [Hp]; · iexists _; iexact Hp
      iexists ∅; iexact HO) (hE3 := fun c => by iintro ⟨-, HO⟩; iexact HO)
    (reg0 m) (fun c => .rfl) (fun c => .rfl) (reg1 m) (fun c => .rfl) (fun c => .rfl) (reg2 m) (fun c => .rfl) (fun c => .rfl)

end Cert.KernelIdeal.Fr

end
-- ==== Proof.ReferenceIdeal.Casts.lean ====
import proofs.«420015_j11879879541904_3_alg».proof.Proof.ReferenceIdeal.Cut
import proofs.«420015_j11879879541904_3_alg».proof.Proof.ReferenceIdeal.Stages

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev Dst {τ : Topo} {sig : RefSig} {Val : EltTy → Type} (l : List (HloOp τ sig Val)) (w : List (Ref sig .tc)) : Prop :=
  List.Forall₂ (fun op r => op.writes = {Proc.devRef .tc r}) l w

-- an operation changes only the buffer it writes, and `w` lists those of `l`
theorem kept {τ : Topo} {sig : RefSig} {Val : EltTy → Type} {l : List (HloOp τ sig Val)} {w : List (Ref sig .tc)}
    (h : Dst l w) (V : Valuation τ sig Val) {r : Ref sig .tc} (hr : r ∉ w) :
    after l V (Proc.devRef .tc r) = V (Proc.devRef .tc r) := by
  induction h generalizing V with
  | nil => rfl
  | cons hy _ ih =>
    rw [after_cons, ih _ fun m => hr (List.mem_cons_of_mem _ m), HloOp.result_of_not_mem]
    rw [hy, Finset.mem_singleton]
    exact fun e => hr (Proc.devRef_injective _ e ▸ List.mem_cons_self)

theorem after_take_drop {τ : Topo} {sig : RefSig} {Val : EltTy → Type} (n : Nat) (l : List (HloOp τ sig Val)) (V : Valuation τ sig Val) :
    after l V = after (l.drop n) (after (l.take n) V) := by
  rw [← after_append, List.take_append_drop]

theorem after_window {τ : Topo} {sig : RefSig} {Val : EltTy → Type} (m n k : Nat) (h : m + n = k) (l : List (HloOp τ sig Val)) (V : Valuation τ sig Val) :
    after (l.drop m) V = after (l.drop k) (after ((l.drop m).take n) V) := by
  rw [after_take_drop n (l.drop m), List.drop_drop, h]

structure Reads (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  v1 : W (Proc.devRef .tc main_v1) = val_main_v1 (F := F) (V (Proc.devRef .tc main_arg0))
  v2 : W (Proc.devRef .tc main_v2) = val_main_v2 (F := F) (V (Proc.devRef .tc main_arg1))
  v3 : W (Proc.devRef .tc main_v3) = val_main_v3 (F := F)
  v7 : W (Proc.devRef .tc main_v7) = val_main_v7 (F := F) (V (Proc.devRef .tc main_arg0)) (V (Proc.devRef .tc main_arg2)) (V (Proc.devRef .tc main_arg3))

-- what every cluster reads survives a line that writes none of it
theorem Reads.step {V W : Valuation τ sig (Elt F)} (k : Reads V W) {l : List (HloOp τ sig (Elt F))} {w : List (Ref sig .tc)} (d : Dst l w)
    (h : ∀ r ∈ [main_arg0, main_arg1, main_arg2, main_arg3, main_arg4, main_arg5, main_v1, main_v2, main_v3, main_v7], r ∉ w) :
    Reads V (after l W) :=
  ⟨(kept d W (h _ (by decide))).trans k.a0, (kept d W (h _ (by decide))).trans k.a1, (kept d W (h _ (by decide))).trans k.a2,
    (kept d W (h _ (by decide))).trans k.a3, (kept d W (h _ (by decide))).trans k.a4, (kept d W (h _ (by decide))).trans k.a5,
    (kept d W (h _ (by decide))).trans k.v1, (kept d W (h _ (by decide))).trans k.v2, (kept d W (h _ (by decide))).trans k.v3,
    (kept d W (h _ (by decide))).trans k.v7⟩

theorem ofBuf_toBuf {T : BufTy} (x : TRef sig T) (v : T.Contents (Elt F)) : x.ofBuf (x.toBuf v) = v := by
  obtain ⟨r, h, h', h''⟩ := x
  subst h
  rfl

end Cert.ReferenceIdeal.Value

end
-- ==== Proof.ReferenceIdeal.StretchH.lean ====
import proofs.«420015_j11879879541904_3_alg».proof.Proof.ReferenceIdeal.Casts

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev wH : List (Ref sig .tc) := [main_v0, main_v1, main_v2, main_v3, main_v4, main_v5, main_v6, main_call0_cst, main_call0_v0, main_call0_cst_0, main_call0_v1, main_call0_v2, main_call0_v3, main_call0_v4, main_call0_v5, main_call0_v6, main_call0_cst_1, main_call0_v7, main_call0_v8, main_call0_v9, main_call0_v10, main_v7]

theorem dH : Dst (opsH (F := F)) wH := by
  simp only [opsH, wH, List.forall₂_cons, nullary_writes, unary_writes, binary_writes, ternary_writes, reshape_writes, List.Forall₂.nil, and_self]

variable (W : Valuation τ sig (Elt F))

theorem H_v1 : after opsH W (Proc.devRef .tc main_v1) = val_main_v1 (W (Proc.devRef .tc main_arg0)) := by
  simp only [opsH]
  after_results_simp
  rfl

theorem H_v2 : after opsH W (Proc.devRef .tc main_v2) = val_main_v2 (W (Proc.devRef .tc main_arg1)) := by
  simp only [opsH]
  after_results_simp
  rfl

theorem H_v3 : after opsH W (Proc.devRef .tc main_v3) = val_main_v3 (F := F) := by
  simp only [opsH]
  after_results_simp
  rfl

theorem H_v7 : after opsH W (Proc.devRef .tc main_v7)
    = val_main_v7 (W (Proc.devRef .tc main_arg0)) (W (Proc.devRef .tc main_arg2)) (W (Proc.devRef .tc main_arg3)) := by
  simp only [opsH]
  after_results_simp
  simp only [ofBuf_toBuf]
  simp only [TRef.ofBuf, TRef.toBuf, cast_eq]
  rfl

theorem reads_H : Reads W (after opsH W) :=
  ⟨kept dH W (by decide), kept dH W (by decide), kept dH W (by decide), kept dH W (by decide), kept dH W (by decide), kept dH W (by decide),
    H_v1 W, H_v2 W, H_v3 W, H_v7 W⟩

end Cert.ReferenceIdeal.Value

end
-- ==== Proof.ReferenceIdeal.StretchC0.lean ====
import proofs.«420015_j11879879541904_3_alg».proof.Proof.ReferenceIdeal.Casts

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev wC0 : List (Ref sig .tc) := [main_cst, main_v8, main_c, main_v9, main_v10, main_c_0, main_v11, main_v12, main_v13, main_v14, main_v15, main_v16, main_v17, main_v18, main_call1_cst, main_call1_v0, main_call1_cst_0, main_call1_v1, main_call1_v2, main_call1_v3, main_call1_v4, main_call1_v5, main_call1_v6, main_call1_cst_1, main_call1_v7, main_call1_v8, main_call1_v9, main_call1_v10, main_v19, main_c_1, main_v20, main_v21, main_c_2, main_c_3, main_call2_v0, main_call2_v1, main_call2_v2, main_call2_v3, main_call2_v4, main_v22, main_v23, main_v24, main_c_4, main_v25, main_v26, main_c_5, main_v27, main_v28, main_v29, main_c_6, main_v30, main_v31, main_c_7, main_v32, main_v33, main_v34, main_v35, main_v36, main_v37, main_v38, main_v39, main_v40, main_v41]

theorem dC0 : Dst (opsC0 (F := F)) wC0 := by
  simp only [opsC0, wC0, List.forall₂_cons, nullary_writes, unary_writes, binary_writes, ternary_writes, reshape_writes, List.Forall₂.nil, and_self]

abbrev opsC0a : List (HloOp τ sig (Elt F)) := opsC0.take 29
abbrev opsC0b : List (HloOp τ sig (Elt F)) := (opsC0.drop 29).take 29
abbrev opsC0c : List (HloOp τ sig (Elt F)) := opsC0.drop 58

variable (W : Valuation τ sig (Elt F)) (x0 : (⟨S4x1025x512, .f32⟩ : BufTy).Contents (Elt F)) (x1 : (⟨S4x1024, .i32⟩ : BufTy).Contents (Elt F)) (x2 : (⟨S512x3, .f32⟩ : BufTy).Contents (Elt F)) (x3 : (⟨S1x3, .f32⟩ : BufTy).Contents (Elt F)) (x4 : (⟨S512x50000, .f32⟩ : BufTy).Contents (Elt F)) (x5 : (⟨S1x50000, .f32⟩ : BufTy).Contents (Elt F))

theorem C0a_v8 : after opsC0a W (Proc.devRef .tc main_v8) = val_main_v8 (F := F) := by
  dsimp only [opsC0a, opsC0, List.take, List.drop]
  after_results_simp
  rfl

theorem C0a_v13 (h2 : W (Proc.devRef .tc main_v2) = val_main_v2 x1) :
    after opsC0a W (Proc.devRef .tc main_v13) = val_main_v13 x1 := by
  dsimp only [opsC0a, opsC0, List.take, List.drop]
  after_results_simp
  rw [h2]
  rfl

theorem C0a_v19 (h1 : W (Proc.devRef .tc main_v1) = val_main_v1 x0) (h4 : W (Proc.devRef .tc main_arg4) = x4) (h5 : W (Proc.devRef .tc main_arg5) = x5) :
    after opsC0a W (Proc.devRef .tc main_v19) = val_main_v19 x0 x4 x5 := by
  dsimp only [opsC0a, opsC0, List.take, List.drop]
  after_results_simp
  simp only [ofBuf_toBuf]
  simp only [TRef.ofBuf, TRef.toBuf, cast_eq]
  rw [h1, h4, h5]
  rfl

theorem C0b_v24 (h7 : W (Proc.devRef .tc main_v7) = val_main_v7 x0 x2 x3) :
    after opsC0b W (Proc.devRef .tc main_v24) = val_main_v24 x0 x2 x3 := by
  dsimp only [opsC0b, opsC0, List.take, List.drop]
  after_results_simp
  rw [h7]
  rfl

theorem C0b_v35 (h3 : W (Proc.devRef .tc main_v3) = val_main_v3 (F := F)) :
    after opsC0b W (Proc.devRef .tc main_v35) = val_main_v35 (F := F) := by
  dsimp only [opsC0b, opsC0, List.take, List.drop]
  after_results_simp
  rw [h3]
  rfl

theorem C0b_v36 (h2 : W (Proc.devRef .tc main_v2) = val_main_v2 x1) :
    after opsC0b W (Proc.devRef .tc main_v36) = val_main_v36 x1 := by
  dsimp only [opsC0b, opsC0, List.take, List.drop]
  after_results_simp
  simp only [ofBuf_toBuf]
  simp only [TRef.ofBuf, TRef.toBuf, cast_eq]
  rw [h2]
  rfl

theorem C0c_v41 (h8 : W (Proc.devRef .tc main_v8) = val_main_v8 (F := F)) (h13 : W (Proc.devRef .tc main_v13) = val_main_v13 x1)
    (h19 : W (Proc.devRef .tc main_v19) = val_main_v19 x0 x4 x5) (h24 : W (Proc.devRef .tc main_v24) = val_main_v24 x0 x2 x3)
    (h35 : W (Proc.devRef .tc main_v35) = val_main_v35 (F := F)) (h36 : W (Proc.devRef .tc main_v36) = val_main_v36 x1) :
    after opsC0c W (Proc.devRef .tc main_v41) = val_main_v41 x0 x1 x2 x3 x4 x5 := by
  dsimp only [opsC0c, opsC0, List.take, List.drop]
  after_results_simp
  simp only [TRef.ofBuf, TRef.toBuf, cast_eq]
  rw [h8, h13, h19, h24, h35, h36]
  rfl

theorem C0_v41 {V : Valuation τ sig (Elt F)} (k : Reads V W) :
    after opsC0 W (Proc.devRef .tc main_v41) = val_main_v41 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_take_drop 29, after_window 29 29 58 rfl]
  have da := List.forall₂_take 29 (dC0 (F := F))
  have db := List.forall₂_take 29 (List.forall₂_drop 29 (dC0 (F := F)))
  have k1 := k.step da (by decide)
  exact C0c_v41 _ _ _ _ _ _ _
    ((kept db _ (by decide)).trans (C0a_v8 W))
    ((kept db _ (by decide)).trans (C0a_v13 W _ k.v2))
    ((kept db _ (by decide)).trans (C0a_v19 W _ _ _ k.v1 k.a4 k.a5))
    (C0b_v24 _ _ _ _ k1.v7)
    (C0b_v35 _ k1.v3)
    (C0b_v36 _ _ k1.v2)

end Cert.ReferenceIdeal.Value

end
-- ==== Proof.ReferenceIdeal.StretchC1.lean ====
import proofs.«420015_j11879879541904_3_alg».proof.Proof.ReferenceIdeal.Casts

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev wC1 : List (Ref sig .tc) := [main_c_8, main_v42, main_v43, main_c_9, main_v44, main_v45, main_v46, main_v47, main_v48, main_v49, main_v50, main_v51, main_call4_cst, main_call4_v0, main_call4_cst_0, main_call4_v1, main_call4_v2, main_call4_v3, main_call4_v4, main_call4_v5, main_call4_v6, main_call4_cst_1, main_call4_v7, main_call4_v8, main_call4_v9, main_call4_v10, main_v52, main_c_10, main_v53, main_v54, main_c_11, main_c_12, main_call5_v0, main_call5_v1, main_call5_v2, main_call5_v3, main_call5_v4, main_v55, main_v56, main_v57, main_c_13, main_v58, main_v59, main_c_14, main_v60, main_v61, main_v62, main_c_15, main_v63, main_v64, main_c_16, main_v65, main_v66, main_v67, main_v68, main_v69, main_v70, main_v71, main_v72, main_v73, main_v74]

theorem dC1 : Dst (opsC1 (F := F)) wC1 := by
  simp only [opsC1, wC1, List.forall₂_cons, nullary_writes, unary_writes, binary_writes, ternary_writes, reshape_writes, List.Forall₂.nil, and_self]

abbrev opsC1M : List (HloOp τ sig (Elt F)) := opsC1.take 7
abbrev opsC1L1 : List (HloOp τ sig (Elt F)) := (opsC1.drop 7).take 5
abbrev opsC1L2 : List (HloOp τ sig (Elt F)) := (opsC1.drop 12).take 15
abbrev opsC1K : List (HloOp τ sig (Elt F)) := (opsC1.drop 27).take 11
abbrev opsC1G1 : List (HloOp τ sig (Elt F)) := (opsC1.drop 38).take 18
abbrev opsC1G2 : List (HloOp τ sig (Elt F)) := opsC1.drop 56

variable (W : Valuation τ sig (Elt F)) (x0 : (⟨S4x1025x512, .f32⟩ : BufTy).Contents (Elt F)) (x1 : (⟨S4x1024, .i32⟩ : BufTy).Contents (Elt F)) (x2 : (⟨S512x3, .f32⟩ : BufTy).Contents (Elt F)) (x3 : (⟨S1x3, .f32⟩ : BufTy).Contents (Elt F)) (x4 : (⟨S512x50000, .f32⟩ : BufTy).Contents (Elt F)) (x5 : (⟨S1x50000, .f32⟩ : BufTy).Contents (Elt F))

theorem resM (h2 : W (Proc.devRef .tc main_v2) = val_main_v2 x1) :
    after opsC1M W (Proc.devRef .tc main_v46) = val_main_v46 x1 := by
  dsimp only [opsC1M, opsC1, List.take, List.drop]; after_results_simp; rw [h2]; rfl

theorem resL1 (h1 : W (Proc.devRef .tc main_v1) = val_main_v1 x0) (h4 : W (Proc.devRef .tc main_arg4) = x4) (h5 : W (Proc.devRef .tc main_arg5) = x5) :
    after opsC1L1 W (Proc.devRef .tc main_v51) = val_main_v51 x0 x4 x5 := by
  dsimp only [opsC1L1, opsC1, List.take, List.drop]; after_results_simp; rw [h1, h4, h5]; rfl

theorem resL2 (h51 : W (Proc.devRef .tc main_v51) = val_main_v51 x0 x4 x5) :
    after opsC1L2 W (Proc.devRef .tc main_v52) = val_main_v52 x0 x4 x5 := by
  dsimp only [opsC1L2, opsC1, List.take, List.drop]; after_results_simp; simp only [ofBuf_toBuf]; simp only [TRef.ofBuf, TRef.toBuf, cast_eq]; rw [h51]; rfl

theorem resK (h2 : W (Proc.devRef .tc main_v2) = val_main_v2 x1) :
    after opsC1K W (Proc.devRef .tc main_v55) = val_main_v55 x1 := by
  dsimp only [opsC1K, opsC1, List.take, List.drop]; after_results_simp; rw [h2]; rfl

theorem resG57 (h7 : W (Proc.devRef .tc main_v7) = val_main_v7 x0 x2 x3) :
    after opsC1G1 W (Proc.devRef .tc main_v57) = val_main_v57 x0 x2 x3 := by
  dsimp only [opsC1G1, opsC1, List.take, List.drop]; after_results_simp; rw [h7]; rfl

theorem resG68 (h3 : W (Proc.devRef .tc main_v3) = val_main_v3 (F := F)) :
    after opsC1G1 W (Proc.devRef .tc main_v68) = val_main_v68 (F := F) := by
  dsimp only [opsC1G1, opsC1, List.take, List.drop]; after_results_simp; rw [h3]; rfl

theorem resG69 (h55 : W (Proc.devRef .tc main_v55) = val_main_v55 x1) :
    after opsC1G1 W (Proc.devRef .tc main_v69) = val_main_v69 x1 := by
  dsimp only [opsC1G1, opsC1, List.take, List.drop]; after_results_simp; rw [h55]; rfl

theorem resG74 (h68 : W (Proc.devRef .tc main_v68) = val_main_v68 (F := F)) (h69 : W (Proc.devRef .tc main_v69) = val_main_v69 x1) (h52 : W (Proc.devRef .tc main_v52) = val_main_v52 x0 x4 x5)
    (h57 : W (Proc.devRef .tc main_v57) = val_main_v57 x0 x2 x3) (h46 : W (Proc.devRef .tc main_v46) = val_main_v46 x1) (h41 : W (Proc.devRef .tc main_v41) = val_main_v41 x0 x1 x2 x3 x4 x5) :
    after opsC1G2 W (Proc.devRef .tc main_v74) = val_main_v74 x0 x1 x2 x3 x4 x5 := by
  dsimp only [opsC1G2, opsC1, List.take, List.drop]; after_results_simp; rw [h68, h69, h52, h57, h46, h41]; rfl

theorem C1_v74 {V : Valuation τ sig (Elt F)} (k : Reads V W)
    (h41 : W (Proc.devRef .tc main_v41) = val_main_v41 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after opsC1 W (Proc.devRef .tc main_v74) = val_main_v74 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_take_drop 7, after_window 7 5 12 rfl, after_window 12 15 27 rfl, after_window 27 11 38 rfl, after_window 38 18 56 rfl]
  have dM := List.forall₂_take 7 (dC1 (F := F))
  have dL1 := List.forall₂_take 5 (List.forall₂_drop 7 (dC1 (F := F)))
  have dL2 := List.forall₂_take 15 (List.forall₂_drop 12 (dC1 (F := F)))
  have dK := List.forall₂_take 11 (List.forall₂_drop 27 (dC1 (F := F)))
  have dG1 := List.forall₂_take 18 (List.forall₂_drop 38 (dC1 (F := F)))
  have k1 := k.step dM (by decide)
  have k3 := (k1.step dL1 (by decide)).step dL2 (by decide)
  have k4 := k3.step dK (by decide)
  exact resG74 _ _ _ _ _ _ _
    (resG68 _ k4.v3)
    (resG69 _ _ (resK _ _ k3.v2))
    ((kept dG1 _ (by decide)).trans ((kept dK _ (by decide)).trans (resL2 _ _ _ _ (resL1 _ _ _ _ k1.v1 k1.a4 k1.a5))))
    (resG57 _ _ _ _ k4.v7)
    ((kept dG1 _ (by decide)).trans ((kept dK _ (by decide)).trans ((kept dL2 _ (by decide)).trans ((kept dL1 _ (by decide)).trans (resM W _ k.v2)))))
    ((kept dG1 _ (by decide)).trans ((kept dK _ (by decide)).trans ((kept dL2 _ (by decide)).trans ((kept dL1 _ (by decide)).trans ((kept dM _ (by decide)).trans h41)))))

end Cert.ReferenceIdeal.Value

end
-- ==== Proof.ReferenceIdeal.StretchC2.lean ====
import proofs.«420015_j11879879541904_3_alg».proof.Proof.ReferenceIdeal.Casts

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev wC2 : List (Ref sig .tc) := [main_c_17, main_v75, main_v76, main_c_18, main_v77, main_v78, main_v79, main_v80, main_v81, main_v82, main_v83, main_v84, main_call7_cst, main_call7_v0, main_call7_cst_0, main_call7_v1, main_call7_v2, main_call7_v3, main_call7_v4, main_call7_v5, main_call7_v6, main_call7_cst_1, main_call7_v7, main_call7_v8, main_call7_v9, main_call7_v10, main_v85, main_c_19, main_v86, main_v87, main_c_20, main_c_21, main_call8_v0, main_call8_v1, main_call8_v2, main_call8_v3, main_call8_v4, main_v88, main_v89, main_v90, main_c_22, main_v91, main_v92, main_c_23, main_v93, main_v94, main_v95, main_c_24, main_v96, main_v97, main_c_25, main_v98, main_v99, main_v100, main_v101, main_v102, main_v103, main_v104, main_v105, main_v106, main_v107]

theorem dC2 : Dst (opsC2 (F := F)) wC2 := by
  simp only [opsC2, wC2, List.forall₂_cons, nullary_writes, unary_writes, binary_writes, ternary_writes, reshape_writes, List.Forall₂.nil, and_self]

abbrev cM : List (HloOp τ sig (Elt F)) := opsC2.take 7
abbrev cL : List (HloOp τ sig (Elt F)) := (opsC2.drop 7).take 20
abbrev cI : List (HloOp τ sig (Elt F)) := (opsC2.drop 27).take 30
abbrev cG : List (HloOp τ sig (Elt F)) := opsC2.drop 57

variable (W : Valuation τ sig (Elt F)) (x0 : (⟨S4x1025x512, .f32⟩ : BufTy).Contents (Elt F)) (x1 : (⟨S4x1024, .i32⟩ : BufTy).Contents (Elt F)) (x2 : (⟨S512x3, .f32⟩ : BufTy).Contents (Elt F)) (x3 : (⟨S1x3, .f32⟩ : BufTy).Contents (Elt F)) (x4 : (⟨S512x50000, .f32⟩ : BufTy).Contents (Elt F)) (x5 : (⟨S1x50000, .f32⟩ : BufTy).Contents (Elt F))

theorem cM_mask (h2 : W (Proc.devRef .tc main_v2) = val_main_v2 x1) :
    after cM W (Proc.devRef .tc main_v79) = val_main_v79 x1 := by
  dsimp only [cM, opsC2, List.take, List.drop]
  after_results_simp
  rw [h2]
  rfl

theorem cL_lsm (h1 : W (Proc.devRef .tc main_v1) = val_main_v1 x0) (h4 : W (Proc.devRef .tc main_arg4) = x4) (h5 : W (Proc.devRef .tc main_arg5) = x5) :
    after cL W (Proc.devRef .tc main_v85) = val_main_v85 x0 x4 x5 := by
  dsimp only [cL, opsC2, List.take, List.drop]
  after_results_simp
  simp only [ofBuf_toBuf]
  simp only [TRef.ofBuf, TRef.toBuf, cast_eq]
  rw [h1, h4, h5]
  rfl

theorem cI_head (h7 : W (Proc.devRef .tc main_v7) = val_main_v7 x0 x2 x3) :
    after cI W (Proc.devRef .tc main_v90) = val_main_v90 x0 x2 x3 := by
  dsimp only [cI, opsC2, List.take, List.drop]
  after_results_simp
  rw [h7]
  rfl

set_option maxRecDepth 8192 in
set_option maxHeartbeats 4000000 in
theorem cI_pairs (h2 : W (Proc.devRef .tc main_v2) = val_main_v2 x1) (h3 : W (Proc.devRef .tc main_v3) = val_main_v3 (F := F)) :
    after cI W (Proc.devRef .tc main_v103) = val_main_v103 x1 := by
  dsimp only [cI, opsC2, List.take, List.drop]
  after_results
  simp only [ofBuf_toBuf, TRef.ofBuf, TRef.toBuf, cast_eq]
  rw [h2, h3]
  rfl

theorem cG_result (h79 : W (Proc.devRef .tc main_v79) = val_main_v79 x1) (h85 : W (Proc.devRef .tc main_v85) = val_main_v85 x0 x4 x5)
    (h90 : W (Proc.devRef .tc main_v90) = val_main_v90 x0 x2 x3) (h103 : W (Proc.devRef .tc main_v103) = val_main_v103 x1)
    (h74 : W (Proc.devRef .tc main_v74) = val_main_v74 x0 x1 x2 x3 x4 x5) :
    after cG W (Proc.devRef .tc main_v107) = val_main_v107 x0 x1 x2 x3 x4 x5 := by
  dsimp only [cG, opsC2, List.take, List.drop]
  after_results_simp
  simp only [TRef.ofBuf, TRef.toBuf, cast_eq]
  rw [h79, h85, h90, h103, h74]
  rfl

theorem C2_v107 {V : Valuation τ sig (Elt F)} (k : Reads V W)
    (h74 : W (Proc.devRef .tc main_v74) = val_main_v74 (V (Proc.devRef .tc main_arg0)) (V (Proc.devRef .tc main_arg1)) (V (Proc.devRef .tc main_arg2)) (V (Proc.devRef .tc main_arg3)) (V (Proc.devRef .tc main_arg4)) (V (Proc.devRef .tc main_arg5))) :
    after opsC2 W (Proc.devRef .tc main_v107) = val_main_v107 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_take_drop 7, after_window 7 20 27 rfl, after_window 27 30 57 rfl]
  have dM := List.forall₂_take 7 (dC2 (F := F))
  have dL := List.forall₂_take 20 (List.forall₂_drop 7 (dC2 (F := F)))
  have dI := List.forall₂_take 30 (List.forall₂_drop 27 (dC2 (F := F)))
  have k1 := k.step dM (by decide)
  have k2 := k1.step dL (by decide)
  exact cG_result _ _ _ _ _ _ _
    ((kept dI _ (by decide)).trans ((kept dL _ (by decide)).trans (cM_mask W _ k.v2)))
    ((kept dI _ (by decide)).trans (cL_lsm _ _ _ _ k1.v1 k1.a4 k1.a5))
    (cI_head _ _ _ _ k2.v7)
    (cI_pairs _ _ k2.v2 k2.v3)
    ((kept dI _ (by decide)).trans ((kept dL _ (by decide)).trans ((kept dM _ (by decide)).trans h74)))

end Cert.ReferenceIdeal.Value

end
-- ==== Proof.ReferenceIdeal.Run.lean ====
import proofs.«420015_j11879879541904_3_alg».proof.Proof.ReferenceIdeal.StretchH
import proofs.«420015_j11879879541904_3_alg».proof.Proof.ReferenceIdeal.StretchC0
import proofs.«420015_j11879879541904_3_alg».proof.Proof.ReferenceIdeal.StretchC1
import proofs.«420015_j11879879541904_3_alg».proof.Proof.ReferenceIdeal.StretchC2

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

-- no operation of the line allocates, so each result is determined
theorem ops_fresh : (ops : List (HloOp τ sig (Elt F))).Forall fun op => op.fresh = ∅ := by
  simp only [List.Forall]; repeat' constructor

theorem reads_ops (V : Valuation τ sig (Elt F)) : Reads V (after ops V) := by
  rw [after_ops]
  exact (((reads_H V).step dC0 (by decide)).step dC1 (by decide)).step dC2 (by decide)

theorem result_eq (V : Valuation τ sig (Elt F)) :
    after ops V (Proc.devRef .tc main_v107) = val_main_v107 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  have k0 := (reads_H V).step dC0 (by decide)
  exact C2_v107 _ (k0.step dC1 (by decide)) (C1_v74 _ k0 (C0_v41 _ (reads_H V)))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107)
        = val_main_v107 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v107).trans (result_eq (launchContents m c)),
        (h c main_arg0).trans (reads_ops (launchContents m c)).a0,
        (h c main_arg1).trans (reads_ops (launchContents m c)).a1,
        (h c main_arg2).trans (reads_ops (launchContents m c)).a2,
        (h c main_arg3).trans (reads_ops (launchContents m c)).a3,
        (h c main_arg4).trans (reads_ops (launchContents m c)).a4,
        (h c main_arg5).trans (reads_ops (launchContents m c)).a5⟩)
    (run_seq scopedRefs_eq scopedSems_eq defs main (fun _ => ops) main_eq (fun _ => ops_sub) m ρ
      fun _ => List.forall_iff_forall_mem.mp ops_fresh)

end Cert.ReferenceIdeal.Value

end
-- ==== Proof.KernelIdeal.RegsValue.lean ====
import proofs.«420015_j11879879541904_3_alg».proof.Proof.KernelIdeal.Regs

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_value : θ_run defs (onTc (τ := τ) (main (F := F))) ⟨m, fun _ => 0, ρ⟩ (fun r => ∀ c : Dev nD,
      r.2.mem ((c.tc : Thread nD τ).loc main_v123) = Gen.V35 m (outs m) c main_v123
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ noVar noL noLv m ρ main
    (Gen.segs m (outs m) noVar noL noLv (fun _ c => restR c) () (pdats m) (reg0 m) (reg1 m) (reg2 m))
    (fun c Q => by
      rw [show main (F := F) c = Seg.run (Gen.segs m (outs m) noVar noL noLv (fun _ c => restR c) () (pdats m) (reg0 m) (reg1 m) (reg2 m) c) from by
        rewrite [main_chain c, Seg.run_eq_chain]; rfl])
    (fun c => by simp only [Gen.segs, Seg.pipes_host, Seg.pipes_region, Seg.pipes_nil]; decide) 0 (fun _ _ => rfl) _ _ (hu0 _)
    (T₀ := fun c => iprop(StableHlo.held (c : Thread nD τ) (Pipeline.ucRefs τ sig) (Gen.V0 m c) ∗ restR c))
    (Tₙ := fun c => StableHlo.held (c : Thread nD τ) (Pipeline.ucRefs τ sig) (Gen.V35 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := Pipeline.initEach noL noLv fun c => ?_) (QY := _) (hfin := fun c s' => ?_) (hQ := fun _ h => h)
  · rw [← Pipeline.unscopedBufs_held c (Gen.V0 m c)]
    iintro ⟨⟨Hb, -, HO, -, Hp, -⟩, -⟩; imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V35 m (outs m) c) s') $$ [Hh HSI]
    · isplitl [Hh] <;> iassumption
    icases Hr with ⟨%h, HSI⟩
    imodintro
    isplitr
    · ipureintro
      have hr (r : Ref sig .tc) (hs : ¬(Proc.devRef .tc r : DevRef τ sig).isScoped) :=
        h _ (Finset.mem_filter.mpr ⟨StableHlo.devRef_mem_tcRefs r, hs⟩)
      exact ⟨hr main_v123 (by decide), (hr main_arg0 (by decide)).trans (Gen.V35_main_arg0 m _ c),
        (hr main_arg1 (by decide)).trans (Gen.V35_main_arg1 m _ c), (hr main_arg2 (by decide)).trans (Gen.V35_main_arg2 m _ c),
        (hr main_arg3 (by decide)).trans (Gen.V35_main_arg3 m _ c), (hr main_arg4 (by decide)).trans (Gen.V35_main_arg4 m _ c),
        (hr main_arg5 (by decide)).trans (Gen.V35_main_arg5 m _ c)⟩
    · iexact HSI

end Cert.KernelIdeal.Fr

end
-- ==== Proof.KernelIdeal.R0.Pieces.lean ====
import proofs.«420015_j11879879541904_3_alg».proof.Proof.KernelIdeal.R0.Frame

noncomputable section

namespace Cert.KernelIdeal.Fr

open Cert.KernelIdeal Cert.KernelIdeal.Gen
open Idealize.ShloMosaic Idealize.ShloMosaic.TcCoe Idealize.SL.Sem

variable {F : FTy → Type} [FloatOps F] [Named F]
variable (V : (c : Dev nD) → (b : Ref sig .tc) → Buf (Elt F) ((c : Thread nD τ).loc b))

/-- What a point leaves in the running maximum, the running sum and (last tile) the output block, by case. -/
theorem carried0_A (c : Dev nD) (t : Fin cfg0.N) (h0 : t.val % 2 = 0) (h7 : ¬t.val % 2 = 1) :
    (outsAt0 V c t.val t.isLt).2.1 = k0_pay6 (xblk0 V c t) (wblk0 V c t) (bblk0 V c t) (k0_pay1 (F := F))
      ∧ (outsAt0 V c t.val t.isLt).2.2 = k0_pay5 (xblk0 V c t) (wblk0 V c t) (bblk0 V c t) (k0_pay1 (F := F)) (k0_pay1 (F := F)) (k0_pay2 (F := F)) := by
  rw [outsAt0_A V c t h0]; exact ⟨rfl, rfl⟩

theorem carried0_B (c : Dev nD) (t : Fin cfg0.N) (h0 : ¬t.val % 2 = 0) (h7 : ¬t.val % 2 = 1) :
    (outsAt0 V c t.val t.isLt).2.1 = k0_pay6 (xblk0 V c t) (wblk0 V c t) (bblk0 V c t) (prev0 V c t).2.1
      ∧ (outsAt0 V c t.val t.isLt).2.2 = k0_pay5 (xblk0 V c t) (wblk0 V c t) (bblk0 V c t) (prev0 V c t).2.1 (prev0 V c t).2.1 (prev0 V c t).2.2 := by
  rw [outsAt0_B V c t h0 h7]; exact ⟨rfl, rfl⟩

theorem carried0_C (c : Dev nD) (t : Fin cfg0.N) (h0 : ¬t.val % 2 = 0) (h7 : t.val % 2 = 1) :
    (outsAt0 V c t.val t.isLt).1 = k0_pay11 (k0_pay10 (grid0.coords t) (xblk0 V c t) (wblk0 V c t) (bblk0 V c t) (prev0 V c t).2.1) (k0_pay9 (grid0.coords t) (xblk0 V c t) (wblk0 V c t) (bblk0 V c t) (prev0 V c t).2.1 (prev0 V c t).2.1 (prev0 V c t).2.2)
      ∧ (outsAt0 V c t.val t.isLt).2.1 = k0_pay10 (grid0.coords t) (xblk0 V c t) (wblk0 V c t) (bblk0 V c t) (prev0 V c t).2.1
      ∧ (outsAt0 V c t.val t.isLt).2.2 = k0_pay9 (grid0.coords t) (xblk0 V c t) (wblk0 V c t) (bblk0 V c t) (prev0 V c t).2.1 (prev0 V c t).2.1 (prev0 V c t).2.2 := by
  rw [outsAt0_C V c t h0 h7]; exact ⟨rfl, rfl, rfl⟩

end Cert.KernelIdeal.Fr

end
-- ==== Proof.LibOnlineLse.lean ====
import Idealize.ShloMosaic.PureOps.Ideal

noncomputable section

namespace Cert.LibOnlineLse

open Idealize.ShloMosaic
open scoped BigOperators

variable {ι κ : Type*} [Fintype ι]

theorem coe_max (a b : ℝ) : ((max a b : ℝ) : EReal) = max (a : EReal) (b : EReal) :=
  EReal.coe_strictMono.monotone.map_max

theorem coe_sum (s : Finset κ) (f : κ → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem fold_max_eq_sup (s : Finset κ) (x : κ → EReal) : s.fold max ⊥ x = s.sup x := rfl

theorem exists_coe_eq_sup (s : Finset κ) (x : κ → EReal) (hx : ∀ v ∈ s, x v ≠ ⊤) (hne : ∃ v ∈ s, x v ≠ ⊥) :
    ∃ t : ℝ, (t : EReal) = s.sup x := by
  have htop : s.sup x ≠ ⊤ :=
    ((Finset.sup_lt_iff (bot_lt_top)).mpr fun v hv => lt_top_iff_ne_top.mpr (hx v hv)).ne
  have hbot : s.sup x ≠ ⊥ := by
    obtain ⟨v, hv, hb⟩ := hne
    exact (lt_of_lt_of_le (bot_lt_iff_ne_bot.mpr hb) (Finset.le_sup hv)).ne'
  exact ⟨(s.sup x).toReal, EReal.coe_toReal htop hbot⟩

def expR (x : EReal) : ℝ := (Ideal.exp x).toReal

@[simp] theorem expR_bot : expR ⊥ = 0 := by simp [expR]
@[simp] theorem expR_top : expR ⊤ = 0 := by simp [expR]
@[simp] theorem expR_coe (r : ℝ) : expR (r : EReal) = Real.exp r := by simp [expR]

theorem exp_eq_coe {x : EReal} (hx : x ≠ ⊤) : Ideal.exp x = ((expR x : ℝ) : EReal) := by
  induction x using EReal.rec with
  | bot => simp
  | coe r => simp
  | top => exact absurd rfl hx

theorem expR_nonneg (x : EReal) : 0 ≤ expR x := by
  induction x using EReal.rec with
  | bot => simp
  | coe r => simpa using (Real.exp_pos r).le
  | top => simp

theorem expR_pos {x : EReal} (hx : x ≠ ⊤) (hb : x ≠ ⊥) : 0 < expR x := by
  induction x using EReal.rec with
  | bot => exact absurd rfl hb
  | coe r => simpa using Real.exp_pos r
  | top => exact absurd rfl hx

theorem expR_sub_coe (x : EReal) (a : ℝ) : expR (x - (a : EReal)) = expR x * Real.exp (-a) := by
  induction x using EReal.rec with
  | bot => simp [EReal.bot_sub]
  | coe r => rw [← EReal.coe_sub, expR_coe, expR_coe, ← Real.exp_add, sub_eq_add_neg]
  | top => simp [EReal.top_sub_coe]

theorem sub_coe_ne_top {x : EReal} (hx : x ≠ ⊤) (a : ℝ) : x - (a : EReal) ≠ ⊤ := by
  induction x using EReal.rec with
  | bot => simp [EReal.bot_sub]
  | coe r => rw [← EReal.coe_sub]; exact EReal.coe_ne_top _
  | top => exact absurd rfl hx

theorem sum_exp_eq_coe (s : Finset κ) (x : κ → EReal) (hx : ∀ v ∈ s, x v ≠ ⊤) :
    ∑ v ∈ s, Ideal.exp (x v) = ((∑ v ∈ s, expR (x v) : ℝ) : EReal) := by
  rw [coe_sum]
  exact Finset.sum_congr rfl fun v hv => exp_eq_coe (hx v hv)

theorem sum_expR_sub (s : Finset κ) (x : κ → EReal) (a : ℝ) :
    ∑ v ∈ s, expR (x v - (a : EReal)) = (∑ v ∈ s, expR (x v)) * Real.exp (-a) := by
  rw [Finset.sum_mul]
  exact Finset.sum_congr rfl fun v _ => expR_sub_coe (x v) a

theorem sum_expR_pos (s : Finset κ) (x : κ → EReal) (hx : ∀ v ∈ s, x v ≠ ⊤) (hne : ∃ v ∈ s, x v ≠ ⊥) :
    0 < ∑ v ∈ s, expR (x v) := by
  obtain ⟨v, hv, hb⟩ := hne
  exact Finset.sum_pos' (fun w _ => expR_nonneg (x w)) ⟨v, hv, expR_pos (hx v hv) hb⟩

theorem log_coe_pos {S : ℝ} (hS : 0 < S) : Ideal.log (S : EReal) = ((Real.log S : ℝ) : EReal) := by
  rw [Ideal.log_coe, if_neg (not_le.mpr hS)]

def step (x : ι → EReal) (p : EReal × EReal) : EReal × EReal :=
  (max p.1 (Finset.univ.fold max ⊥ x),
   p.2 * Ideal.exp (p.1 - max p.1 (Finset.univ.fold max ⊥ x))
     + ∑ j, Ideal.exp (x j - max p.1 (Finset.univ.fold max ⊥ x)))

def run (x : ℕ → ι → EReal) : ℕ → EReal × EReal
  | 0 => (⊥, 0)
  | k + 1 => step (x k) (run x k)

@[simp] theorem run_zero (x : ℕ → ι → EReal) : run x 0 = (⊥, 0) := rfl
theorem run_succ (x : ℕ → ι → EReal) (k : ℕ) : run x (k + 1) = step (x k) (run x k) := rfl

def W (x : ℕ → ι → EReal) (T : ℕ) : ℝ := ∑ k ∈ Finset.range T, ∑ j, expR (x k j)

theorem W_succ (x : ℕ → ι → EReal) (T : ℕ) : W x (T + 1) = W x T + ∑ j, expR (x T j) :=
  Finset.sum_range_succ _ _

theorem step_bot (x : ι → EReal) (hx : ∀ j, x j ≠ ⊤) (hne : ∃ j, x j ≠ ⊥) :
    ∃ t : ℝ, (t : EReal) = Finset.univ.sup x ∧
      step x (⊥, 0) = ((t : EReal), ((∑ j, expR (x j - (t : EReal)) : ℝ) : EReal)) := by
  obtain ⟨t, ht⟩ := exists_coe_eq_sup Finset.univ x (fun j _ => hx j)
    (by obtain ⟨j, hj⟩ := hne; exact ⟨j, Finset.mem_univ j, hj⟩)
  refine ⟨t, ht, ?_⟩
  have hf : Finset.univ.fold max ⊥ x = (t : EReal) := by rw [fold_max_eq_sup, ht]
  show (max ⊥ (Finset.univ.fold max ⊥ x),
    (0 : EReal) * Ideal.exp (⊥ - max ⊥ (Finset.univ.fold max ⊥ x))
      + ∑ j, Ideal.exp (x j - max ⊥ (Finset.univ.fold max ⊥ x))) = _
  rw [hf, max_eq_right bot_le, zero_mul, zero_add,
    sum_exp_eq_coe _ _ fun j _ => sub_coe_ne_top (hx j) t]

theorem step_coe (x : ι → EReal) (hx : ∀ j, x j ≠ ⊤) (hne : ∃ j, x j ≠ ⊥) (m l : ℝ) :
    ∃ t : ℝ, (t : EReal) = Finset.univ.sup x ∧
      step x ((m : EReal), (l : EReal)) =
        (((max m t : ℝ) : EReal),
         ((l * Real.exp (m - max m t) + ∑ j, expR (x j - ((max m t : ℝ) : EReal)) : ℝ) : EReal)) := by
  obtain ⟨t, ht⟩ := exists_coe_eq_sup Finset.univ x (fun j _ => hx j)
    (by obtain ⟨j, hj⟩ := hne; exact ⟨j, Finset.mem_univ j, hj⟩)
  refine ⟨t, ht, ?_⟩
  have hf : Finset.univ.fold max ⊥ x = (t : EReal) := by rw [fold_max_eq_sup, ht]
  show (max (m : EReal) (Finset.univ.fold max ⊥ x),
    (l : EReal) * Ideal.exp ((m : EReal) - max (m : EReal) (Finset.univ.fold max ⊥ x))
      + ∑ j, Ideal.exp (x j - max (m : EReal) (Finset.univ.fold max ⊥ x))) = _
  rw [hf, ← coe_max, ← EReal.coe_sub, Ideal.exp_coe, ← EReal.coe_mul,
    sum_exp_eq_coe _ _ fun j _ => sub_coe_ne_top (hx j) (max m t), ← EReal.coe_add]

theorem run_invariant_succ (x : ℕ → ι → EReal) (n : ℕ)
    (hx : ∀ k, k < n + 1 → ∀ j, x k j ≠ ⊤) (hne : ∀ k, k < n + 1 → ∃ j, x k j ≠ ⊥) :
    ∃ M : ℝ, (M : EReal) = (Finset.range (n + 1)).sup (fun k => Finset.univ.sup (x k)) ∧
      run x (n + 1) = ((M : EReal), ((W x (n + 1) * Real.exp (-M) : ℝ) : EReal)) ∧ 0 < W x (n + 1) := by
  induction n with
  | zero =>
    obtain ⟨t, ht, hs⟩ := step_bot (x 0) (hx 0 (by omega)) (hne 0 (by omega))
    have hW : W x (0 + 1) = ∑ j, expR (x 0 j) := by rw [W_succ]; simp [W]
    refine ⟨t, ?_, ?_, ?_⟩
    · rw [Finset.range_one, Finset.sup_singleton]; exact ht
    · rw [run_succ, run_zero, hs, sum_expR_sub, hW]
    · rw [hW]
      obtain ⟨j, hj⟩ := hne 0 (by omega)
      exact sum_expR_pos _ _ (fun j _ => hx 0 (by omega) j) ⟨j, Finset.mem_univ j, hj⟩
  | succ n ih =>
    obtain ⟨M, hM, hrun, hWpos⟩ := ih (fun k hk => hx k (by omega)) (fun k hk => hne k (by omega))
    obtain ⟨t, ht, hs⟩ := step_coe (x (n + 1)) (hx (n + 1) (by omega)) (hne (n + 1) (by omega)) M
      (W x (n + 1) * Real.exp (-M))
    refine ⟨max M t, ?_, ?_, ?_⟩
    · rw [Finset.range_add_one, Finset.sup_insert, ← ht, ← hM, coe_max, max_comm]
    · have he : -M + (M - max M t) = -max M t := by ring
      rw [run_succ, hrun, hs, sum_expR_sub, W_succ (T := n + 1), add_mul, mul_assoc, ← Real.exp_add, he]
    · rw [W_succ]
      obtain ⟨j, hj⟩ := hne (n + 1) (by omega)
      exact add_pos hWpos
        (sum_expR_pos _ _ (fun j _ => hx (n + 1) (by omega) j) ⟨j, Finset.mem_univ j, hj⟩)

theorem run_invariant (x : ℕ → ι → EReal) (T : ℕ) (hT : 0 < T)
    (hx : ∀ k, k < T → ∀ j, x k j ≠ ⊤) (hne : ∀ k, k < T → ∃ j, x k j ≠ ⊥) :
    ∃ M : ℝ, (M : EReal) = (Finset.range T).sup (fun k => Finset.univ.sup (x k)) ∧
      run x T = ((M : EReal), ((W x T * Real.exp (-M) : ℝ) : EReal)) ∧ 0 < W x T := by
  obtain ⟨n, rfl⟩ : ∃ n, T = n + 1 := ⟨T - 1, by omega⟩
  exact run_invariant_succ x n hx hne

theorem sum_sum_exp_eq_coe (x : ℕ → ι → EReal) (T : ℕ) (hx : ∀ k, k < T → ∀ j, x k j ≠ ⊤) :
    ∑ k ∈ Finset.range T, ∑ j, Ideal.exp (x k j) = ((W x T : ℝ) : EReal) := by
  rw [W, coe_sum]
  exact Finset.sum_congr rfl fun k hk =>
    sum_exp_eq_coe _ _ fun j _ => hx k (Finset.mem_range.mp hk) j

theorem run_lse (x : ℕ → ι → EReal) (T : ℕ) (hT : 0 < T)
    (hx : ∀ k, k < T → ∀ j, x k j ≠ ⊤) (hne : ∀ k, k < T → ∃ j, x k j ≠ ⊥) :
    (run x T).1 + Ideal.log (run x T).2
      = Ideal.log (∑ k ∈ Finset.range T, ∑ j, Ideal.exp (x k j)) := by
  obtain ⟨M, -, hrun, hW⟩ := run_invariant x T hT hx hne
  rw [hrun, sum_sum_exp_eq_coe x T hx]
  show (M : EReal) + Ideal.log ((W x T * Real.exp (-M) : ℝ) : EReal) = Ideal.log ((W x T : ℝ) : EReal)
  rw [log_coe_pos (mul_pos hW (Real.exp_pos _)), log_coe_pos hW, Real.log_mul hW.ne' (Real.exp_pos _).ne',
    Real.log_exp, ← EReal.coe_add]
  congr 1
  ring

variable (s : Finset κ) (x : κ → EReal)
theorem log_sum_exp_eq (hx : ∀ v ∈ s, x v ≠ ⊤) (hne : ∃ v ∈ s, x v ≠ ⊥) :
    Ideal.log (∑ v ∈ s, Ideal.exp (x v)) = ((Real.log (∑ v ∈ s, expR (x v)) : ℝ) : EReal) := by
  rw [sum_exp_eq_coe s x hx, log_coe_pos (sum_expR_pos s x hx hne)]

theorem log_sum_exp_sub (hx : ∀ v ∈ s, x v ≠ ⊤) (hne : ∃ v ∈ s, x v ≠ ⊥) (M : ℝ) :
    Ideal.log (∑ v ∈ s, Ideal.exp (x v - (M : EReal)))
      = ((Real.log (∑ v ∈ s, expR (x v)) - M : ℝ) : EReal) := by
  have hpos := sum_expR_pos s x hx hne
  rw [sum_exp_eq_coe s (fun v => x v - (M : EReal)) fun v hv => sub_coe_ne_top (hx v hv) M, sum_expR_sub,
    log_coe_pos (mul_pos hpos (Real.exp_pos _)), Real.log_mul hpos.ne' (Real.exp_pos _).ne', Real.log_exp,
    sub_eq_add_neg]

theorem logsoftmax_shift (hx : ∀ v ∈ s, x v ≠ ⊤) (hne : ∃ v ∈ s, x v ≠ ⊥) (a M : ℝ) :
    ((a : EReal) - (M : EReal)) - Ideal.log (∑ v ∈ s, Ideal.exp (x v - (M : EReal)))
      = (a : EReal) - Ideal.log (∑ v ∈ s, Ideal.exp (x v)) := by
  rw [log_sum_exp_sub s x hx hne M, log_sum_exp_eq s x hx hne, ← EReal.coe_sub, ← EReal.coe_sub,
    ← EReal.coe_sub]
  congr 1
  ring

def tiles (n width : ℕ) (g : Fin width → EReal) (k : ℕ) (j : Fin n) : EReal :=
  if h : k * n + j.val < width then g ⟨k * n + j.val, h⟩ else ⊥

theorem tiles_ne_top {n width : ℕ} (g : Fin width → EReal) (hg : ∀ v, g v ≠ ⊤) (k : ℕ) (j : Fin n) :
    tiles n width g k j ≠ ⊤ := by
  unfold tiles
  split_ifs with h
  · exact hg _
  · exact bot_ne_top

theorem exists_tiles_ne_bot {n width : ℕ} (hn : 0 < n) (g : Fin width → EReal) (hg : ∀ v, g v ≠ ⊥)
    (T : ℕ) (hpos : (T - 1) * n < width) (k : ℕ) (hk : k < T) : ∃ j, tiles n width g k j ≠ ⊥ := by
  have hkn : k * n + (⟨0, hn⟩ : Fin n).val < width := by
    have : k * n ≤ (T - 1) * n := Nat.mul_le_mul_right n (by omega)
    show k * n + 0 < width
    omega
  refine ⟨⟨0, hn⟩, ?_⟩
  unfold tiles
  rw [dif_pos hkn]
  exact hg _

theorem sum_exp_tiles {n width : ℕ} (g : Fin width → EReal) (T : ℕ) (hw : width ≤ T * n) :
    ∑ k ∈ Finset.range T, ∑ j : Fin n, Ideal.exp (tiles n width g k j)
      = ∑ v : Fin width, Ideal.exp (g v) := by

  let F : ℕ → EReal := fun v => if h : v < width then Ideal.exp (g ⟨v, h⟩) else 0
  have h1 : ∀ (k : ℕ) (j : Fin n), Ideal.exp (tiles n width g k j) = F (k * n + j.val) := by
    intro k j
    show Ideal.exp (if h : k * n + j.val < width then g ⟨k * n + j.val, h⟩ else ⊥)
      = if h : k * n + j.val < width then Ideal.exp (g ⟨k * n + j.val, h⟩) else 0
    split_ifs with h
    · rfl
    · exact Ideal.exp_bot
  have h2 : ∀ T : ℕ, ∑ k ∈ Finset.range T, ∑ j : Fin n, F (k * n + j.val)
      = ∑ v ∈ Finset.range (T * n), F v := by
    intro T
    induction T with
    | zero => simp
    | succ T ih =>
      rw [Finset.sum_range_succ, ih, add_mul, one_mul, Finset.sum_range_add,
        Finset.sum_range fun i => F (T * n + i)]
  have h3 : ∑ v ∈ Finset.range (T * n), F v = ∑ v ∈ Finset.range width, F v := by
    symm
    refine Finset.sum_subset (Finset.range_subset_range.mpr hw) ?_
    intro v _ hv
    rw [Finset.mem_range] at hv
    exact dif_neg hv
  rw [Finset.sum_congr rfl fun k _ => Finset.sum_congr rfl fun j _ => h1 k j, h2, h3, Finset.sum_range]
  exact Finset.sum_congr rfl fun v _ => dif_pos v.isLt

theorem run_tiles_lse {n width : ℕ} (hn : 0 < n) (g : Fin width → EReal)
    (hg : ∀ v, ∃ r : ℝ, g v = (r : EReal)) (T : ℕ) (hw : width ≤ T * n) (hpos : (T - 1) * n < width) :
    (run (tiles n width g) T).1 + Ideal.log (run (tiles n width g) T).2
      = Ideal.log (∑ v : Fin width, Ideal.exp (g v)) := by
  have hT : 0 < T := by
    rcases Nat.eq_zero_or_pos T with h | h
    · subst h; omega
    · exact h
  have hgt : ∀ v, g v ≠ ⊤ := fun v => by obtain ⟨r, hr⟩ := hg v; rw [hr]; exact EReal.coe_ne_top r
  have hgb : ∀ v, g v ≠ ⊥ := fun v => by obtain ⟨r, hr⟩ := hg v; rw [hr]; exact EReal.coe_ne_bot r
  rw [run_lse (tiles n width g) T hT (fun k _ j => tiles_ne_top g hgt k j)
    (fun k hk => exists_tiles_ne_bot hn g hgb T hpos k hk), sum_exp_tiles g T hw]

theorem tiles_of_lt {n width : ℕ} (g : Fin width → EReal) (k : ℕ) (j : Fin n) (h : k * n + j.val < width) :
    tiles n width g k j = g ⟨k * n + j.val, h⟩ := dif_pos h

theorem tiles_of_not_lt {n width : ℕ} (g : Fin width → EReal) (k : ℕ) (j : Fin n) (h : ¬ k * n + j.val < width) :
    tiles n width g k j = ⊥ := dif_neg h

theorem exists_coe_eq_max_bot_fold (s : Finset κ) (x : κ → EReal) (hs : s.Nonempty)
    (hx : ∀ v ∈ s, ∃ r : ℝ, x v = (r : EReal)) :
    ∃ t : ℝ, max ⊥ (s.fold max ⊥ x) = (t : EReal) := by
  obtain ⟨v, hv⟩ := hs
  obtain ⟨t, ht⟩ := exists_coe_eq_sup s x
    (fun w hw => by obtain ⟨r, hr⟩ := hx w hw; rw [hr]; exact EReal.coe_ne_top r)
    ⟨v, hv, by obtain ⟨r, hr⟩ := hx v hv; rw [hr]; exact EReal.coe_ne_bot r⟩
  exact ⟨t, by rw [fold_max_eq_sup, ← ht, max_eq_right bot_le]⟩

theorem logsoftmax_max_shift (s : Finset κ) (x : κ → EReal) (hs : s.Nonempty)
    (hx : ∀ v ∈ s, ∃ r : ℝ, x v = (r : EReal)) (a : EReal) (ha : ∃ r : ℝ, a = (r : EReal)) :
    (a - max ⊥ (s.fold max ⊥ x)) - Ideal.log (∑ w ∈ s, Ideal.exp (x w - max ⊥ (s.fold max ⊥ x)))
      = a - Ideal.log (∑ w ∈ s, Ideal.exp (x w)) := by
  obtain ⟨t, ht⟩ := exists_coe_eq_max_bot_fold s x hs hx
  obtain ⟨r, rfl⟩ := ha
  obtain ⟨v, hv⟩ := hs
  rw [ht]
  exact logsoftmax_shift s x
    (fun w hw => by obtain ⟨r', hr⟩ := hx w hw; rw [hr]; exact EReal.coe_ne_top r')
    ⟨v, hv, by obtain ⟨r', hr⟩ := hx v hv; rw [hr]; exact EReal.coe_ne_bot r'⟩ r t

theorem logsoftmax_max_shift_mem (s : Finset κ) (x : κ → EReal)
    (hx : ∀ v ∈ s, ∃ r : ℝ, x v = (r : EReal)) (v : κ) (hv : v ∈ s) :
    (x v - max ⊥ (s.fold max ⊥ x)) - Ideal.log (∑ w ∈ s, Ideal.exp (x w - max ⊥ (s.fold max ⊥ x)))
      = x v - Ideal.log (∑ w ∈ s, Ideal.exp (x w)) :=
  logsoftmax_max_shift s x ⟨v, hv⟩ hx (x v) (hx v hv)

end Cert.LibOnlineLse
-- ==== Proof.KernelIdeal.PayValue.lean ====
import proofs.«420015_j11879879541904_3_alg».proof.Proof.Gen.KernelIdeal.Skeleton
import proofs.«420015_j11879879541904_3_alg».proof.Proof.LibOnlineLse
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Idealize.ShloMosaic Idealize.ShloMosaic.ValueIdx Cert.KernelIdeal Cert.KernelIdeal.Gen Cert.LibOnlineLse
open scoped BigOperators

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row (h : S2048x1024.Reduces [1] S2048) (r : Fin 2048) (k : Fin 1024) :
    h.lift (ix1 r) k = ix2 r k := by
  funext c
  apply Fin.ext
  match c with
  | ⟨0, _⟩ => rfl
  | ⟨1, _⟩ => rfl

theorem ofBits_neg_inf : Ideal.ofBits .f32 0xFF800000#32 = ⊥ := by simp [Ideal.ofBits, Ideal.ieee]

theorem rowMax_apply (src : FVec Ideal S2048x1024 .f32) (r : Fin 2048) :
    shapeCast S2048x1 (multiReduction (F := Ideal) .maximumf [1] S2048 src 0xFF800000#32 reduces_S2048x1024_S2048 (.inl rfl) rfl)
        shapeCasts_S2048_S2048x1 (ix2 r 0)
      = Finset.univ.fold max (⊥ : EReal) (fun j : Fin 1024 => src (ix2 r j)) := by
  refine (shapeCast_a_a1_apply _ _ r 0).trans ?_
  refine (Ideal.multiReduction_maximumf_single src _ reduces_S2048x1024_S2048 _ _ (ix1 r)).trans ?_
  have e : src ∘ reduces_S2048x1024_S2048.lift (ix1 r) = fun j : Fin 1024 => src (ix2 r j) :=
    funext fun j => congrArg src (lift_row _ r j)
  rw [e]
  show Finset.univ.fold max (Ideal.ofBits .f32 0xFF800000#32) _ = _
  rw [ofBits_neg_inf]
  rfl

theorem rowSum_apply (src : FVec Ideal S2048x1024 .f32) (r : Fin 2048) :
    shapeCast S2048x1 (multiReduction (F := Ideal) .add [1] S2048 src 0x00000000#32 reduces_S2048x1024_S2048 (.inl rfl) rfl)
        shapeCasts_S2048_S2048x1 (ix2 r 0)
      = ∑ j : Fin 1024, src (ix2 r j) := by
  refine (shapeCast_a_a1_apply _ _ r 0).trans ?_
  refine (Ideal.multiReduction_add_single src _ reduces_S2048x1024_S2048 _ _ (ix1 r)).trans ?_
  exact Finset.sum_congr rfl fun j _ => congrArg src (lift_row _ r j)

theorem exp_apply {s : Shape} {φ : FTy} (a : FVec Ideal s φ) (i : s.Idx) : exp a i = Ideal.exp (a i) := rfl

abbrev rowMaxUpd (src : FVec Ideal S2048x1024 .f32) (mp : FVec Ideal S2048x1 .f32) : FVec Ideal S2048x1 .f32 :=
  maximumf mp (shapeCast S2048x1 (multiReduction (F := Ideal) .maximumf [1] S2048 src 0xFF800000#32 reduces_S2048x1024_S2048 (.inl rfl) rfl)
    shapeCasts_S2048_S2048x1)

theorem maxUpdate_apply (src : FVec Ideal S2048x1024 .f32) (mp : FVec Ideal S2048x1 .f32) (r : Fin 2048) :
    rowMaxUpd src mp (ix2 r 0) = max (mp (ix2 r 0)) (Finset.univ.fold max (⊥ : EReal) (fun j : Fin 1024 => src (ix2 r j))) := by
  rw [rowMaxUpd, maximumf_apply, rowMax_apply]

theorem sumUpdate_apply (src : FVec Ideal S2048x1024 .f32) (m mp' lp : FVec Ideal S2048x1 .f32) (r : Fin 2048) :
    shapeCast S2048x1 (addf (mulf lp (exp (subf mp' m)))
        (shapeCast S2048x1 (multiReduction (F := Ideal) .add [1] S2048
          (exp (subf src (broadcastTo S2048x1024 m broadcasts_S2048x1_S2048x1024))) 0x00000000#32 reduces_S2048x1024_S2048 (.inl rfl) rfl)
          shapeCasts_S2048_S2048x1)) shapeCasts_S2048x1_S2048x1 (ix2 r 0)
      = lp (ix2 r 0) * Ideal.exp (mp' (ix2 r 0) - m (ix2 r 0)) + ∑ j : Fin 1024, Ideal.exp (src (ix2 r j) - m (ix2 r 0)) := by
  rw [shapeCast_self, addf_apply, rowSum_apply, mulf_apply, exp_apply, subf_apply]
  refine congrArg (_ + ·) (Finset.sum_congr rfl fun j _ => ?_)
  rw [exp_apply, subf_apply, broadcastTo_a1_ab_apply]

-- The new maximum and the rescaled sum plus the tile's sum are one step of the running pair over the row's tile.
theorem pair_step (src : FVec Ideal S2048x1024 .f32) (mp lp : FVec Ideal S2048x1 .f32) (r : Fin 2048) :
    ((shapeCast S2048x1 (rowMaxUpd src mp) shapeCasts_S2048x1_S2048x1 (ix2 r 0),
      shapeCast S2048x1 (addf (mulf lp (exp (subf mp (rowMaxUpd src mp))))
        (shapeCast S2048x1 (multiReduction (F := Ideal) .add [1] S2048
          (exp (subf src (broadcastTo S2048x1024 (rowMaxUpd src mp) broadcasts_S2048x1_S2048x1024))) 0x00000000#32 reduces_S2048x1024_S2048 (.inl rfl) rfl)
          shapeCasts_S2048_S2048x1)) shapeCasts_S2048x1_S2048x1 (ix2 r 0)) : EReal × EReal)
      = step (fun j : Fin 1024 => src (ix2 r j)) (mp (ix2 r 0), lp (ix2 r 0)) := by
  rw [shapeCast_self, sumUpdate_apply, maxUpdate_apply]
  rfl

theorem lhs_mm_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl

theorem lhs_mm_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q

theorem rhs_mm_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q

theorem rhs_mm_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

theorem matmul_zero_apply (x : FVec Ideal S2048x512 .bf16) (w : FVec Ideal S512x1024 .bf16) (r : Fin 2048) (j : Fin 1024) :
    matmul dot_S2048x512_S512x1024_S2048x1024_1_0_0_1_n_n none x w (constant (F := Ideal) S2048x1024 .f32 0x00000000#32) (ix2 r j)
      = ∑ k : Fin 512, x (ix2 r k) * w (ix2 k j) := by
  simp only [matmul]
  rw [Ideal.matmul_constant_zero_apply, ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 r j) ((ValueIdx.contrEquiv1 dot_S2048x512_S512x1024_S2048x1024_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S2048x512_S512x1024_S2048x1024_1_0_0_1_n_n.rhsIdx (ix2 r j) ((ValueIdx.contrEquiv1 dot_S2048x512_S512x1024_S2048x1024_1_0_0_1_n_n 512 rfl rfl).symm k) = ix2 k j := funext fun a => Fin.ext (by
    match a with
    | ⟨0, _⟩ => exact (rhs_mm_0 _ _).trans hk
    | ⟨1, _⟩ => exact rhs_mm_1 _ _)
  rw [el, er]

theorem neg_big : Named.named (F := Ideal) Cert.KernelIdeal.κ "neg_big" (φ := .f32) 0xF149F2CA#32 = ⊥ :=
  IdealRules.named_const.ideal_named_scalar _ _ _ _ rfl

theorem slt_bound (W v c : ℕ) (hv : 1024 * v ≤ W) (hW : W < 2147483648) (hc : c < 2147483648) :
    (BitVec.ofNat 32 c).slt (BitVec.ofNat 32 W - BitVec.ofNat 32 v * 1024#32) = decide (c < W - 1024 * v) := by
  rw [BitVec.slt_eq_decide, BitVec.toInt_eq_toNat_cond, BitVec.toInt_eq_toNat_cond]
  simp only [BitVec.toNat_sub, BitVec.toNat_mul, BitVec.toNat_ofNat]
  congr 1
  apply propext
  omega

-- The mask keeps column j of a tile when j lies below the columns left, W - 1024 v, and puts ⊥ elsewhere.
theorem mask_apply (W v : ℕ) (hv : 1024 * v ≤ W) (hW : W < 2147483648) (p : FVec Ideal S2048x1024 .f32) (r : Fin 2048) (j : Fin 1024) :
    select (cmpi .slt (iota .tc S2048x1024 32 [1] iota_S2048x1024_d1_w32)
        (broadcast S2048x1024 (Scalar.subi (BitVec.ofNat 32 W) (Scalar.muli (BitVec.ofNat 32 v) 1024#32))))
      p (broadcast S2048x1024 (Named.named (F := Ideal) κ "neg_big" (φ := .f32) 0xF149F2CA#32)) (ix2 r j)
      = if j.val < W - 1024 * v then p (ix2 r j) else ⊥ := by
  have hj : j.val < 1024 := j.isLt
  show Scalar.select (IntOp.cmpi .slt (iota .tc S2048x1024 32 [1] iota_S2048x1024_d1_w32 (ix2 r j))
      (Scalar.subi (BitVec.ofNat 32 W) (Scalar.muli (BitVec.ofNat 32 v) 1024#32)))
      (p (ix2 r j)) (Named.named (F := Ideal) κ "neg_big" (φ := .f32) 0xF149F2CA#32) = _
  rw [iota_single_apply, neg_big]
  show (if BitVec.ofBool ((BitVec.ofNat 32 j.val).slt (BitVec.ofNat 32 W - BitVec.ofNat 32 v * 1024#32)) = 1#1
      then p (ix2 r j) else ⊥) = _
  rw [slt_bound W v j.val hv hW (by omega)]
  by_cases h : j.val < W - 1024 * v
  · rw [if_pos h, decide_eq_true h]; rfl
  · rw [if_neg h, decide_eq_false h]; rfl

variable (i0 : grid0.Coords) (i1 : grid1.Coords) (i2 : grid2.Coords)
  (x : Vec Ideal S2048x512 .bf16) (w : Vec Ideal S512x1024 .bf16) (b : Vec Ideal S1x1024 .f32)
  (m l : Vec Ideal S2048x1 .f32) (r : Fin 2048) (j : Fin 1024)

theorem k0_pay1_apply : (k0_pay1 (F := Ideal)) (ix2 r 0) = ⊥ := by
  unfold k0_pay1
  rw [shapeCast_self, broadcast_apply, neg_big]

theorem k0_pay2_apply : (k0_pay2 (F := Ideal)) (ix2 r 0) = 0 := by
  unfold k0_pay2
  rw [shapeCast_self, broadcast_apply]
  exact Ideal.ofBits_zero_f32

theorem k0_pay3_apply :
    k0_pay3 x w b (ix2 r j) = (∑ k : Fin 512, x (ix2 r k) * w (ix2 k j)) + b (ix2 0 j) := by
  unfold k0_pay3
  simp only [shapeCast_self]
  rw [addf_apply, matmul_zero_apply, broadcastTo_1b_ab_apply]

theorem k0_pay7_apply : k0_pay7 i0 x w b (ix2 r j)
    = if j.val < 2000 - 1024 * (i0 1).val then k0_pay3 x w b (ix2 r j) else ⊥ :=
  mask_apply 2000 (i0 1).val (by have h : (i0 1).val < 2 := (i0 1).isLt; omega) (by omega) (k0_pay3 x w b) r j

theorem k0_pay11_apply : k0_pay11 m l (ix2 r 0) = m (ix2 r 0) + Ideal.log (l (ix2 r 0)) := rfl

theorem k1_pay1_apply : (k1_pay1 (F := Ideal)) (ix2 r 0) = ⊥ := k0_pay1_apply r

theorem k1_pay2_apply : (k1_pay2 (F := Ideal)) (ix2 r 0) = 0 := k0_pay2_apply r

theorem k1_pay3_apply :
    k1_pay3 x w b (ix2 r j) = (∑ k : Fin 512, x (ix2 r k) * w (ix2 k j)) + b (ix2 0 j) :=
  k0_pay3_apply x w b r j

theorem k1_pay7_apply : k1_pay7 i1 x w b (ix2 r j)
    = if j.val < 8000 - 1024 * (i1 1).val then k1_pay3 x w b (ix2 r j) else ⊥ :=
  mask_apply 8000 (i1 1).val (by have h : (i1 1).val < 8 := (i1 1).isLt; omega) (by omega) (k1_pay3 x w b) r j

theorem k1_pay11_apply : k1_pay11 m l (ix2 r 0) = m (ix2 r 0) + Ideal.log (l (ix2 r 0)) := rfl

theorem k2_pay1_apply : (k2_pay1 (F := Ideal)) (ix2 r 0) = ⊥ := k0_pay1_apply r

theorem k2_pay2_apply : (k2_pay2 (F := Ideal)) (ix2 r 0) = 0 := k0_pay2_apply r

theorem k2_pay3_apply :
    k2_pay3 x w b (ix2 r j) = (∑ k : Fin 512, x (ix2 r k) * w (ix2 k j)) + b (ix2 0 j) :=
  k0_pay3_apply x w b r j

theorem k2_pay7_apply : k2_pay7 i2 x w b (ix2 r j)
    = if j.val < 40000 - 1024 * (i2 1).val then k2_pay3 x w b (ix2 r j) else ⊥ :=
  mask_apply 40000 (i2 1).val (by have h : (i2 1).val < 40 := (i2 1).isLt; omega) (by omega) (k2_pay3 x w b) r j

theorem k2_pay11_apply : k2_pay11 m l (ix2 r 0) = m (ix2 r 0) + Ideal.log (l (ix2 r 0)) := rfl

end Cert.KernelIdeal.PayValue

end
-- ==== Proof.KernelIdeal.R0.LseValue.lean ====
import proofs.«420015_j11879879541904_3_alg».proof.Proof.KernelIdeal.R0.Pieces
import proofs.«420015_j11879879541904_3_alg».proof.Proof.KernelIdeal.PayValue
import proofs.«420015_j11879879541904_3_alg».proof.Proof.LibOnlineLse
import Idealize.ShloMosaic.PureOps.Ideal.Laws
import Idealize.ShloMosaic.Lib.ValueIdx
import Idealize.ShloMosaic.Lib.Pipeline.Value

noncomputable section

namespace Cert.KernelIdeal.Fr

open Cert.KernelIdeal Cert.KernelIdeal.Gen Cert.KernelIdeal.PayValue Cert.LibOnlineLse
open Idealize.ShloMosaic Idealize.ShloMosaic.TcCoe Idealize.ShloMosaic.ValueIdx Idealize.SL.Sem
open Idealize.ShloMosaic.Pipeline (Dat)
open scoped BigOperators

theorem idx0_0 : ∀ t : Fin cfg0.N, win0_0.index t 0 = t.val / 2 ∧ win0_0.index t 1 = 0 :=
  (by decide +kernel : ∀ t : Fin grid0.N, _)

theorem idx0_1 : ∀ t : Fin cfg0.N, win0_1.index t 0 = 0 ∧ win0_1.index t 1 = t.val % 2 :=
  (by decide +kernel : ∀ t : Fin grid0.N, _)

theorem idx0_2 : ∀ t : Fin cfg0.N, win0_2.index t 0 = 0 ∧ win0_2.index t 1 = t.val % 2 :=
  (by decide +kernel : ∀ t : Fin grid0.N, _)

theorem coord0_1 : ∀ t : Fin cfg0.N, ((grid0.coords t) 1).val = t.val % 2 :=
  (by decide +kernel : ∀ t : Fin grid0.N, _)

theorem xread0 (A : Vec Ideal S4096x512 .bf16) (t : Fin cfg0.N) (r : Fin 2048) (k : Fin 512) (n : Fin 4096)
    (hn : n.val = t.val / 2 * 2048 + r.val) :
    (((cfg0.win 0).blk t).view.read (Elt Ideal) A : Vec Ideal S2048x512 .bf16) (ix2 r k) = A (ix2 n k) := by
  rw [View.read_apply]
  exact congrArg A (funext fun a => Fin.ext (match a with
    | ⟨0, _⟩ => by show win0_0.index t 0 * 2048 + 1 * r.val = n.val; rw [(idx0_0 t).1, hn]; omega
    | ⟨1, _⟩ => by show win0_0.index t 1 * 512 + 1 * k.val = k.val; rw [(idx0_0 t).2]; omega))

theorem wread0 (A : Vec Ideal S512x2048 .bf16) (t : Fin cfg0.N) (k : Fin 512) (j : Fin 1024) (v : Fin 2048)
    (hv : v.val = t.val % 2 * 1024 + j.val) :
    (((cfg0.win 1).blk t).view.read (Elt Ideal) A : Vec Ideal S512x1024 .bf16) (ix2 k j) = A (ix2 k v) := by
  rw [View.read_apply]
  exact congrArg A (funext fun a => Fin.ext (match a with
    | ⟨0, _⟩ => by show win0_1.index t 0 * 512 + 1 * k.val = k.val; rw [(idx0_1 t).1]; omega
    | ⟨1, _⟩ => by show win0_1.index t 1 * 1024 + 1 * j.val = v.val; rw [(idx0_1 t).2, hv]; omega))

theorem bread0 (A : Vec Ideal S1x2048 .f32) (t : Fin cfg0.N) (j : Fin 1024) (v : Fin 2048)
    (hv : v.val = t.val % 2 * 1024 + j.val) :
    (((cfg0.win 2).blk t).view.read (Elt Ideal) A : Vec Ideal S1x1024 .f32) (ix2 0 j) = A (ix2 0 v) := by
  rw [View.read_apply]
  exact congrArg A (funext fun a => Fin.ext (match a with
    | ⟨0, _⟩ => by show win0_2.index t 0 * 1 + 1 * (0 : Fin 1).val = (0 : Fin 1).val; rw [(idx0_2 t).1]; rfl
    | ⟨1, _⟩ => by show win0_2.index t 1 * 1024 + 1 * j.val = v.val; rw [(idx0_2 t).2, hv]; omega))

variable (V : (c : Dev nD) → (b : Ref sig .tc) → Buf (Elt Ideal) ((c : Thread nD τ).loc b))

abbrev Xarr0 (c : Dev nD) : Vec Ideal S4096x512 .bf16 := V c (Pipeline.arrRef spec0 0)

abbrev Warr0 (c : Dev nD) : Vec Ideal S512x2048 .bf16 := V c (Pipeline.arrRef spec0 1)

abbrev Barr0 (c : Dev nD) : Vec Ideal S1x2048 .f32 := V c (Pipeline.arrRef spec0 2)

def row0 (c : Dev nD) (n : Fin 4096) (v : Fin 2000) : EReal :=
  (∑ kk : Fin 512, Xarr0 V c (ix2 n kk) * Warr0 V c (ix2 kk ⟨v.val, by have := v.isLt; omega⟩))
    + Barr0 V c (ix2 0 ⟨v.val, by have := v.isLt; omega⟩)

theorem row0_real (c : Dev nD) (hX : ∀ i, ∃ s : ℝ, Xarr0 V c i = (s : EReal)) (hW : ∀ i, ∃ s : ℝ, Warr0 V c i = (s : EReal))
    (hB : ∀ i, ∃ s : ℝ, Barr0 V c i = (s : EReal)) (n : Fin 4096) (v : Fin 2000) : ∃ s : ℝ, row0 V c n v = (s : EReal) := by
  choose fX hfX using hX
  choose fW hfW using hW
  choose fB hfB using hB
  refine ⟨(∑ kk : Fin 512, fX (ix2 n kk) * fW (ix2 kk ⟨v.val, by have := v.isLt; omega⟩)) + fB (ix2 0 ⟨v.val, by have := v.isLt; omega⟩), ?_⟩
  unfold row0
  rw [EReal.coe_add, coe_sum]
  refine congrArg₂ (· + ·) (Finset.sum_congr rfl fun kk _ => ?_) (hfB _)
  rw [EReal.coe_mul, hfX, hfW]

theorem logit_tile0 (c : Dev nD) (t : Fin cfg0.N) (r : Fin 2048) (n : Fin 4096) (hn : n.val = t.val / 2 * 2048 + r.val)
    (j : Fin 1024) (hlt : t.val % 2 * 1024 + j.val < 2000) :
    k0_pay3 (F := Ideal) (xblk0 V c t) (wblk0 V c t) (bblk0 V c t) (ix2 r j) = tiles 1024 2000 (row0 V c n) (t.val % 2) j := by
  rw [tiles_of_lt (row0 V c n) (t.val % 2) j hlt]
  refine (k0_pay3_apply (xblk0 V c t) (wblk0 V c t) (bblk0 V c t) r j).trans ?_
  unfold row0
  refine congrArg₂ (· + ·) (Finset.sum_congr rfl fun kk _ => congrArg₂ (· * ·) ?_ ?_) ?_
  · exact xread0 (Xarr0 V c) t r kk n hn
  · exact wread0 (Warr0 V c) t kk j ⟨t.val % 2 * 1024 + j.val, by omega⟩ rfl
  · exact bread0 (Barr0 V c) t j ⟨t.val % 2 * 1024 + j.val, by omega⟩ rfl

theorem logit_tiles0 (c : Dev nD) (t : Fin cfg0.N) (h7 : ¬t.val % 2 = 1) (r : Fin 2048) (n : Fin 4096)
    (hn : n.val = t.val / 2 * 2048 + r.val) :
    (fun j : Fin 1024 => k0_pay3 (F := Ideal) (xblk0 V c t) (wblk0 V c t) (bblk0 V c t) (ix2 r j))
      = tiles 1024 2000 (row0 V c n) (t.val % 2) :=
  funext fun j => logit_tile0 V c t r n hn j (by have := j.isLt; omega)

theorem masked_tiles0 (c : Dev nD) (t : Fin cfg0.N) (r : Fin 2048) (n : Fin 4096) (hn : n.val = t.val / 2 * 2048 + r.val) :
    (fun j : Fin 1024 => k0_pay7 (F := Ideal) (grid0.coords t) (xblk0 V c t) (wblk0 V c t) (bblk0 V c t) (ix2 r j))
      = tiles 1024 2000 (row0 V c n) (t.val % 2) := by
  funext j
  refine (k0_pay7_apply (grid0.coords t) (xblk0 V c t) (wblk0 V c t) (bblk0 V c t) r j).trans ?_
  rw [coord0_1 t]
  have h8 : t.val % 2 < 2 := Nat.mod_lt _ (by decide)
  by_cases h : t.val % 2 * 1024 + j.val < 2000
  · rw [if_pos (by omega)]; exact logit_tile0 V c t r n hn j h
  · rw [if_neg (by omega), tiles_of_not_lt (row0 V c n) (t.val % 2) j h]

def pair0 (c : Dev nD) (p : ℕ) (hp : p < cfg0.N) (r : Fin 2048) : EReal × EReal :=
  ((outsAt0 V c p hp).2.1 (ix2 r 0), (outsAt0 V c p hp).2.2 (ix2 r 0))

-- Every grid point advances the pair by one step over its tile of the row, afresh at the row's first tile.
theorem pair0_step (c : Dev nD) (t : Fin cfg0.N) (r : Fin 2048) (n : Fin 4096) (hn : n.val = t.val / 2 * 2048 + r.val) :
    pair0 V c t.val t.isLt r = step (tiles 1024 2000 (row0 V c n) (t.val % 2))
      (if t.val % 2 = 0 then (⊥, 0) else ((prev0 V c t).2.1 (ix2 r 0), (prev0 V c t).2.2 (ix2 r 0))) := by
  unfold pair0
  by_cases h0 : t.val % 2 = 0
  · have h7 : ¬t.val % 2 = 1 := by omega
    rw [if_pos h0, (carried0_A V c t h0 h7).1, (carried0_A V c t h0 h7).2, ← logit_tiles0 V c t h7 r n hn]
    exact (pair_step _ _ _ r).trans (by rw [k0_pay1_apply, k0_pay2_apply])
  · rw [if_neg h0]
    by_cases h7 : t.val % 2 = 1
    · rw [(carried0_C V c t h0 h7).2.1, (carried0_C V c t h0 h7).2.2, ← masked_tiles0 V c t r n hn]
      exact pair_step _ _ _ r
    · rw [(carried0_B V c t h0 h7).1, (carried0_B V c t h0 h7).2, ← logit_tiles0 V c t h7 r n hn]
      exact pair_step _ _ _ r

theorem pair0_run (c : Dev nD) : ∀ (p : ℕ) (hp : p < cfg0.N) (r : Fin 2048) (n : Fin 4096), n.val = p / 2 * 2048 + r.val →
    pair0 V c p hp r = run (tiles 1024 2000 (row0 V c n)) (p % 2 + 1) := by
  intro p
  induction p with
  | zero => intro hp r n hn; exact (pair0_step V c ⟨0, hp⟩ r n hn).trans (by rw [if_pos (show (⟨0, hp⟩ : Fin cfg0.N).val % 2 = 0 from rfl)]; rfl)
  | succ p ih =>
    intro hp r n hn
    refine (pair0_step V c ⟨p + 1, hp⟩ r n hn).trans ?_
    show step (tiles 1024 2000 (row0 V c n) ((p + 1) % 2))
      (if (p + 1) % 2 = 0 then (⊥, 0) else pair0 V c p (Nat.lt_of_succ_lt hp) r) = _
    rw [run_succ]
    congr 1
    by_cases h0 : (p + 1) % 2 = 0
    · rw [if_pos h0, h0]; rfl
    · rw [if_neg h0, ih (Nat.lt_of_succ_lt hp) r n (by omega), show p % 2 + 1 = (p + 1) % 2 by omega]

theorem out_flush0 (c : Dev nD) (hX : ∀ i, ∃ s : ℝ, Xarr0 V c i = (s : EReal)) (hW : ∀ i, ∃ s : ℝ, Warr0 V c i = (s : EReal))
    (hB : ∀ i, ∃ s : ℝ, Barr0 V c i = (s : EReal)) (t : Fin cfg0.N) (h7 : t.val % 2 = 1) (r : Fin 2048) (n : Fin 4096)
    (hn : n.val = t.val / 2 * 2048 + r.val) :
    (outsAt0 V c t.val t.isLt).1 (ix2 r 0) = Ideal.log (∑ v : Fin 2000, Ideal.exp (row0 V c n v)) := by
  have hp : pair0 V c t.val t.isLt r = run (tiles 1024 2000 (row0 V c n)) 2 := by
    have := pair0_run V c t.val t.isLt r n hn
    rwa [h7] at this
  obtain ⟨e, em, el⟩ := carried0_C V c t (by omega) h7
  rw [e, ← em, ← el]
  refine (k0_pay11_apply _ _ r).trans ?_
  show (pair0 V c t.val t.isLt r).1 + Ideal.log (pair0 V c t.val t.isLt r).2 = _
  rw [hp]
  exact run_tiles_lse (by decide) (row0 V c n) (row0_real V c hX hW hB n) 2 (by decide) (by decide)

end Cert.KernelIdeal.Fr

end
-- ==== Proof.KernelIdeal.R0.ArrValue.lean ====
import proofs.«420015_j11879879541904_3_alg».proof.Proof.KernelIdeal.R0.Frame
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F] [Named F]
variable (V : (c : Dev nD) → (b : Ref sig .tc) → Buf (Elt F) ((c : Thread nD τ).loc b))

theorem out_index0 : ∀ t : Fin cfg0.N, win0_3.index t (0 : Fin 2) = t.val / 2 ∧ win0_3.index t (1 : Fin 2) = 0 :=
  (by decide +kernel : ∀ t : Fin grid0.N, _)

variable (c : Dev nD) (G : Fin 4096 → F .f32)
  (hflush : ∀ (t : Fin cfg0.N), t.val % 2 = 1 → ∀ (r : Fin 2048) (n : Fin 4096), n.val = t.val / 2 * 2048 + r.val →
    (outsAt0 V c t.val t.isLt).1 (ix2 r 0) = G n)
include hflush

theorem flushed0_eq (t : Fin cfg0.N) (hf : (cfg0.win 3).flush t = true) :
    (dat0 V c).flushed 3 t = ((cfg0.win 3).blk t).view.read (Elt F) (fun i : S4096x1.Idx => G (i 0)) := by
  show (cfg0.win 3).cut (grid0.coords t) ((dat0 V c).after 3 t) = _
  rw [after0_3]
  funext j
  have hj0 : (j 0).val < 2048 := (j 0).isLt
  have hj1 : (j 1).val < 1 := (j 1).isLt
  have hx : win0_3.xinj (grid0.coords t) j = ix2 (⟨(j 0).val, hj0⟩ : Fin 2048) (0 : Fin 1) := by
    funext a
    match a with
    | ⟨0, _⟩ => rfl
    | ⟨1, _⟩ => exact Fin.ext (by show (j 1).val = 0; omega)
  show (outsAt0 V c t.val t.isLt).1 (win0_3.xinj (grid0.coords t) j) = G ((((cfg0.win 3).blk t).view.emb j) 0)
  rw [hx]
  refine hflush t ((flush0_3 t).mp hf) _ _ ?_
  show win0_3.index t (0 : Fin 2) * 2048 + 1 * (j 0).val = t.val / 2 * 2048 + (j 0).val
  rw [(out_index0 t).1]
  omega

-- Every row lies in the block written at the last tile of its group of rows.
theorem arr0_apply (n : Fin 4096) : (dat0 V c).arrAt 3 cfg0.N (ix2 n 0) = G n :=
  congrFun ((dat0 V c).arrAt_eq_of_cover 3 _ (flushed0_eq V c G hflush) fun i => by
    have hi0 : (i 0).val < 4096 := (i 0).isLt
    have hi1 : (i 1).val < 1 := (i 1).isLt
    obtain ⟨t, ht⟩ : ∃ t : Fin cfg0.N, t.val = (i 0).val / 2048 * 2 + 1 := ⟨⟨_, by have hN : cfg0.N = 4 := N_0; omega⟩, rfl⟩
    obtain ⟨e0, e1⟩ := out_index0 t
    refine ⟨t, (flush0_3 t).mpr (by omega), ?_⟩
    show i ∈ ((View.whole main_v14).slice (win0_3.rect t)).set
    rw [View.set_slice_whole, Rect.mem_set_unit]
    intro a
    match a with
    | ⟨0, _⟩ =>
      show win0_3.index t (0 : Fin 2) * 2048 ≤ (i 0).val ∧ (i 0).val < win0_3.index t (0 : Fin 2) * 2048 + 2048
      rw [e0]
      omega
    | ⟨1, _⟩ =>
      show win0_3.index t (1 : Fin 2) * 1 ≤ (i 1).val ∧ (i 1).val < win0_3.index t (1 : Fin 2) * 1 + 1
      rw [e1]
      omega) (ix2 n 0)

end Cert.KernelIdeal.Fr

end
-- ==== Proof.RefValue.Views.lean ====
import Idealize.ShloMosaic.Lib.ValueIdx
import Idealize.ShloMosaic.PureOps.Ideal

noncomputable section

namespace Cert.RefValue

open Idealize.ShloMosaic Idealize.ShloMosaic.ValueIdx

def tokRow (n : Fin 4096) : Fin 4 := ⟨n.val / 1024, by have := n.isLt; omega⟩

def tokStep (n : Fin 4096) : Fin 1025 := ⟨n.val % 1024, by omega⟩

def tokLabel (n : Fin 4096) : Fin 1024 := ⟨n.val % 1024, by omega⟩

def xfOf (x : FVec Ideal ⟨3, ![4, 1025, 512]⟩ .f32) : Fin 4096 → Fin 512 → EReal :=
  fun n k => x (ix3 (tokRow n) (tokStep n) k)

def yOf (y : IVec ⟨2, ![4, 1024]⟩ 32) : Fin 4096 → BitVec 32 :=
  fun n => y (ix2 (tokRow n) (tokLabel n))

def cwOf (w : FVec Ideal ⟨2, ![512, 3]⟩ .f32) : Fin 512 → Fin 3 → EReal := fun k j => w (ix2 k j)

def cbOf (c : FVec Ideal ⟨2, ![1, 3]⟩ .f32) : Fin 3 → EReal := fun j => c (ix2 0 j)

def WOf (w : FVec Ideal ⟨2, ![512, 50000]⟩ .f32) : Fin 512 → Fin 50000 → EReal := fun k v => w (ix2 k v)

def bOf (c : FVec Ideal ⟨2, ![1, 50000]⟩ .f32) : Fin 50000 → EReal := fun v => c (ix2 0 v)

theorem xfOf_real (x : FVec Ideal ⟨3, ![4, 1025, 512]⟩ .f32) (hx : ∀ i, ∃ r : ℝ, x i = (r : EReal)) (n : Fin 4096)
    (k : Fin 512) : ∃ r : ℝ, xfOf x n k = (r : EReal) := hx _

theorem cwOf_real (w : FVec Ideal ⟨2, ![512, 3]⟩ .f32) (hw : ∀ i, ∃ r : ℝ, w i = (r : EReal)) (k : Fin 512) (j : Fin 3) :
    ∃ r : ℝ, cwOf w k j = (r : EReal) := hw _

theorem cbOf_real (c : FVec Ideal ⟨2, ![1, 3]⟩ .f32) (hc : ∀ i, ∃ r : ℝ, c i = (r : EReal)) (j : Fin 3) :
    ∃ r : ℝ, cbOf c j = (r : EReal) := hc _

theorem WOf_real (w : FVec Ideal ⟨2, ![512, 50000]⟩ .f32) (hw : ∀ i, ∃ r : ℝ, w i = (r : EReal)) (k : Fin 512)
    (v : Fin 50000) : ∃ r : ℝ, WOf w k v = (r : EReal) := hw _

theorem bOf_real (c : FVec Ideal ⟨2, ![1, 50000]⟩ .f32) (hc : ∀ i, ∃ r : ℝ, c i = (r : EReal)) (v : Fin 50000) :
    ∃ r : ℝ, bOf c v = (r : EReal) := hc _

end Cert.RefValue

end
-- ==== Proof.KernelIdeal.EntryValue.lean ====
import proofs.«420015_j11879879541904_3_alg».proof.Proof.KernelIdeal.Regions
import proofs.«420015_j11879879541904_3_alg».proof.Proof.RefValue.Views
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.EntryValue

open Cert.KernelIdeal Cert.KernelIdeal.Gen
open Idealize.ShloMosaic Idealize.ShloMosaic.TcCoe Idealize.ShloMosaic.ValueIdx Idealize.ShloMosaic.StableHlo

abbrev tok (n : Fin 4096) (k : Fin 512) : S4x1025x512.Idx :=
  ix3 (⟨n.val / 1024, by have := n.isLt; omega⟩ : Fin 4) (⟨n.val % 1024, by omega⟩ : Fin 1025) k

theorem flatten_drop_last (x : S4x1025x512.Idx → EReal) (n : Fin 4096) (k : Fin 512) :
    shapeCast S4096x512 (extractStridedSlice S4x1024x512 ![0, 0, 0] x slices_S4x1025x512_S4x1024x512_0_0_0)
      shapeCasts_S4x1024x512_S4096x512 (ix2 n k) = x (tok n k) := by
  have hn := n.isLt
  refine (shapeCast_apply _ shapeCasts_S4x1024x512_S4096x512 (ix2 n k)
    (ix3 (⟨n.val / 1024, by omega⟩ : Fin 4) (⟨n.val % 1024, by omega⟩ : Fin 1024) k) ?_).trans
    (slice3_axis1_apply 0 x _ _ _ k _ (Nat.zero_add _).symm)
  rw [Shape.rowMajor_val_three, Shape.rowMajor_val_two]
  show (n.val / 1024 * 1024 + n.val % 1024) * 512 + k.val = n.val * 512 + k.val
  omega

theorem pad_value_zero (φ : FTy) (i : S_.Idx) :
    (sitofp φ (constantI S_ 32 0#32 : IVec S_ 32) : FVec Ideal S_ φ) i = 0 := by
  show (((0#32 : BitVec 32).toInt : ℝ) : EReal) = 0
  simp

-- Columns lo .. lo + w of x, padded on the right with the zero word, read x inside the cut and 0 beyond it.
theorem cols_of (r N w Wd lo hi : ℕ) (φ : FTy) (hN : lo + w ≤ N) {x x0 : (⟨2, ![r, N]⟩ : Shape).Idx → EReal}
    {y : (⟨2, ![r, Wd]⟩ : Shape).Idx → EReal} {hs : (⟨2, ![r, N]⟩ : Shape).Slices ![0, lo] ⟨2, ![r, w]⟩}
    {hp : (⟨2, ![r, w]⟩ : Shape).Pads ![0, 0] ![0, hi] ![0, 0] ⟨2, ![r, Wd]⟩}
    (hy : y = pad ⟨2, ![r, Wd]⟩ ![0, 0] ![0, hi] ![0, 0] (extractStridedSlice ⟨2, ![r, w]⟩ ![0, lo] x0 hs)
      (sitofp φ (constantI S_ 32 0#32 : IVec S_ 32) : FVec Ideal S_ φ) hp h_S_) (hx : x0 = x)
    (k : Fin r) (j : Fin Wd) :
    y (ix2 k j) = if h : j.val < w then x (ix2 k (⟨lo + j.val, by omega⟩ : Fin N)) else 0 := by
  subst hy hx
  by_cases h : j.val < w
  · rw [dif_pos h]
    refine (pad_apply_of_inside ![0, 0] ![0, hi] ![0, 0] _ _ hp h_S_ (ix2 k j) (ix2 k (⟨j.val, h⟩ : Fin w)) fun a =>
      match a with
      | ⟨0, _⟩ => by show k.val = 0 + k.val * (0 + 1); omega
      | ⟨1, _⟩ => by show j.val = 0 + j.val * (0 + 1); omega).trans (slice2_axis1_apply lo _ hs k ⟨j.val, h⟩ _ rfl)
  · rw [dif_neg h]
    refine (pad_apply_of_not_inside (s := ⟨2, ![r, w]⟩) ![0, 0] ![0, hi] ![0, 0] _ _ hp h_S_ (ix2 k j) (1 : Fin 2)
      fun hin => h ?_).trans (pad_value_zero φ _)
    have h3 : (j.val - 0) / (0 + 1) < w := hin.2.2
    simpa using h3

section Stretches
variable (V : Valuation τ sig (Elt Ideal))

theorem pre_rows : (StableHlo.after (hostOps0 (F := Ideal)) V main_v1 : S4096x512.Idx → EReal)
    = shapeCast S4096x512 (extractStridedSlice S4x1024x512 ![0, 0, 0] (V main_arg0 : S4x1025x512.Idx → EReal)
        slices_S4x1025x512_S4x1024x512_0_0_0) shapeCasts_S4x1024x512_S4096x512 := by
  dsimp only [hostOps0]; after_results <;> rfl

theorem pre_rows_bf16 : (StableHlo.after (hostOps0_2 (F := Ideal)) V main_v7 : S4096x512.Idx → EReal) = (V main_v1 : S4096x512.Idx → EReal) := by
  dsimp only [hostOps0_2]; after_results <;> rfl

theorem pre_weights_bf16 : (StableHlo.after (hostOps0_2 (F := Ideal)) V main_v8 : S512x50000.Idx → EReal) = (V main_arg4 : S512x50000.Idx → EReal) := by
  dsimp only [hostOps0_2]; after_results <;> rfl

theorem r0_w : (StableHlo.after (hostOps0_3 (F := Ideal)) (StableHlo.after (hostOps0_2 (F := Ideal)) V) main_v12 : S512x2048.Idx → EReal)
    = pad S512x2048 ![0, 0] ![0, 48] ![0, 0] (extractStridedSlice S512x2000 ![0, 0] (V main_arg4 : S512x50000.Idx → EReal) slices_S512x50000_S512x2000_0_0)
        (sitofp .bf16 (constantI S_ 32 0#32 : IVec S_ 32) : FVec Ideal S_ .bf16) pads_S512x2000_S512x2048_000_0480 h_S_ := by
  dsimp only [hostOps0_3, hostOps0_2]; after_results <;> rfl

theorem r0_b : (StableHlo.after (hostOps0_5 (F := Ideal)) (StableHlo.after (hostOps0_4 (F := Ideal)) (StableHlo.after (hostOps0_3 (F := Ideal))
      (StableHlo.after (hostOps0_2 (F := Ideal)) V))) main_v13 : S1x2048.Idx → EReal)
    = pad S1x2048 ![0, 0] ![0, 48] ![0, 0] (extractStridedSlice S1x2000 ![0, 0] (V main_arg5 : S1x50000.Idx → EReal) slices_S1x50000_S1x2000_0_0)
        (sitofp .f32 (constantI S_ 32 0#32 : IVec S_ 32) : FVec Ideal S_ .f32) pads_S1x2000_S1x2048_000_0480 h_S_ := by
  dsimp only [hostOps0_5, hostOps0_4, hostOps0_3, hostOps0_2]; after_results <;> rfl

theorem r1_w : (StableHlo.after (hostOps1_7 (F := Ideal)) (StableHlo.after (hostOps1_6 (F := Ideal)) V) main_v50 : S512x8192.Idx → EReal)
    = pad S512x8192 ![0, 0] ![0, 192] ![0, 0] (extractStridedSlice S512x8000 ![0, 2000] (V main_v8 : S512x50000.Idx → EReal) slices_S512x50000_S512x8000_0_2000)
        (sitofp .bf16 (constantI S_ 32 0#32 : IVec S_ 32) : FVec Ideal S_ .bf16) pads_S512x8000_S512x8192_000_01920 h_S_ := by
  dsimp only [hostOps1_7, hostOps1_6]; after_results <;> rfl

theorem r1_b : (StableHlo.after (hostOps1_9 (F := Ideal)) (StableHlo.after (hostOps1_8 (F := Ideal)) (StableHlo.after (hostOps1_7 (F := Ideal))
      (StableHlo.after (hostOps1_6 (F := Ideal)) V))) main_v51 : S1x8192.Idx → EReal)
    = pad S1x8192 ![0, 0] ![0, 192] ![0, 0] (extractStridedSlice S1x8000 ![0, 2000] (V main_arg5 : S1x50000.Idx → EReal) slices_S1x50000_S1x8000_0_2000)
        (sitofp .f32 (constantI S_ 32 0#32 : IVec S_ 32) : FVec Ideal S_ .f32) pads_S1x8000_S1x8192_000_01920 h_S_ := by
  dsimp only [hostOps1_9, hostOps1_8, hostOps1_7, hostOps1_6]; after_results <;> rfl

theorem r2_w : (StableHlo.after (hostOps2_7 (F := Ideal)) (StableHlo.after (hostOps2_6 (F := Ideal)) V) main_v88 : S512x40960.Idx → EReal)
    = pad S512x40960 ![0, 0] ![0, 960] ![0, 0] (extractStridedSlice S512x40000 ![0, 10000] (V main_v8 : S512x50000.Idx → EReal) slices_S512x50000_S512x40000_0_10000)
        (sitofp .bf16 (constantI S_ 32 0#32 : IVec S_ 32) : FVec Ideal S_ .bf16) pads_S512x40000_S512x40960_000_09600 h_S_ := by
  dsimp only [hostOps2_7, hostOps2_6]; after_results <;> rfl

theorem r2_b : (StableHlo.after (hostOps2_9 (F := Ideal)) (StableHlo.after (hostOps2_8 (F := Ideal)) (StableHlo.after (hostOps2_7 (F := Ideal))
      (StableHlo.after (hostOps2_6 (F := Ideal)) V))) main_v89 : S1x40960.Idx → EReal)
    = pad S1x40960 ![0, 0] ![0, 960] ![0, 0] (extractStridedSlice S1x40000 ![0, 10000] (V main_arg5 : S1x50000.Idx → EReal) slices_S1x50000_S1x40000_0_10000)
        (sitofp .f32 (constantI S_ 32 0#32 : IVec S_ 32) : FVec Ideal S_ .f32) pads_S1x40000_S1x40960_000_09600 h_S_ := by
  dsimp only [hostOps2_9, hostOps2_8, hostOps2_7, hostOps2_6]; after_results <;> rfl

end Stretches

section Entry
variable (m : (ℓ : Loc nD τ sig) → Buf (Elt Ideal) ℓ) (outs : Gen.Outs (F := Ideal)) (c : Dev nD)

abbrev X : S4x1025x512.Idx → EReal := m ((c : Thread nD τ).loc main_arg0)

abbrev Wt : S512x50000.Idx → EReal := m ((c : Thread nD τ).loc main_arg4)

abbrev Bs : S1x50000.Idx → EReal := m ((c : Thread nD τ).loc main_arg5)

theorem rows_V3 : (Gen.V3 m c main_v7 : S4096x512.Idx → EReal)
    = shapeCast S4096x512 (extractStridedSlice S4x1024x512 ![0, 0, 0] (X m c) slices_S4x1025x512_S4x1024x512_0_0_0)
        shapeCasts_S4x1024x512_S4096x512 :=
  (pre_rows_bf16 (Gen.V2 m c)).trans ((Gen.V2_of m c main_v1 (by decide)).trans (pre_rows (Gen.V0 m c)))

theorem weights_V2 : (Gen.V2 m c main_arg4 : S512x50000.Idx → EReal) = Wt m c :=
  (Gen.V2_of m c main_arg4 (by decide)).trans (Gen.V1_of m c main_arg4 (by decide))

theorem weights_V3 : (Gen.V3 m c main_v8 : S512x50000.Idx → EReal) = Wt m c :=
  (pre_weights_bf16 (Gen.V2 m c)).trans (weights_V2 m c)

theorem bias_V2 : (Gen.V2 m c main_arg5 : S1x50000.Idx → EReal) = Bs m c :=
  (Gen.V2_of m c main_arg5 (by decide)).trans (Gen.V1_of m c main_arg5 (by decide))

section Carried
variable {r : Ref sig .tc} (h : r = main_v7 ∨ r = main_v8 ∨ r = main_arg5)
include h

theorem not_written (W : List (Ref sig .tc)) (hW : main_v7 ∉ W ∧ main_v8 ∉ W ∧ main_arg5 ∉ W) : r ∉ W := by
  rcases h with rfl | rfl | rfl
  exacts [hW.1, hW.2.1, hW.2.2]

-- None of the three names is among the results of stages 4 to 28, so each keeps its stage-3 value.
theorem carried0 : Gen.V6 m c r = Gen.V3 m c r :=
  have nw := not_written h
  (Gen.V6_of m c r (nw _ (by decide))).trans ((Gen.V5_of m c r (nw _ (by decide))).trans (Gen.V4_of m c r (nw _ (by decide))))

theorem carried : Gen.V13 m outs c r = Gen.V3 m c r ∧ Gen.V17 m outs c r = Gen.V3 m c r
    ∧ Gen.V24 m outs c r = Gen.V3 m c r ∧ Gen.V28 m outs c r = Gen.V3 m c r := by
  have nw := not_written h
  have h13 := (Gen.V13_of m outs c r (nw _ (by decide))).trans ((Gen.V12_of m outs c r (nw _ (by decide))).trans
    ((Gen.V11_of m outs c r (nw _ (by decide))).trans ((Gen.V10_of m outs c r (nw _ (by decide))).trans
    ((Gen.V9_of m outs c r (nw _ (by decide))).trans ((Gen.V8_of m outs c r (nw _ (by decide))).trans
    ((Gen.V7_of m outs c r (nw _ (by decide))).trans (carried0 m c h)))))))
  have h17 := (Gen.V17_of m outs c r (nw _ (by decide))).trans ((Gen.V16_of m outs c r (nw _ (by decide))).trans
    ((Gen.V15_of m outs c r (nw _ (by decide))).trans ((Gen.V14_of m outs c r (nw _ (by decide))).trans h13)))
  have h24 := (Gen.V24_of m outs c r (nw _ (by decide))).trans ((Gen.V23_of m outs c r (nw _ (by decide))).trans
    ((Gen.V22_of m outs c r (nw _ (by decide))).trans ((Gen.V21_of m outs c r (nw _ (by decide))).trans
    ((Gen.V20_of m outs c r (nw _ (by decide))).trans ((Gen.V19_of m outs c r (nw _ (by decide))).trans
    ((Gen.V18_of m outs c r (nw _ (by decide))).trans h17))))))
  exact ⟨h13, h17, h24, (Gen.V28_of m outs c r (nw _ (by decide))).trans
    ((Gen.V27_of m outs c r (nw _ (by decide))).trans ((Gen.V26_of m outs c r (nw _ (by decide))).trans
    ((Gen.V25_of m outs c r (nw _ (by decide))).trans h24)))⟩

end Carried

theorem rows_of {y : S4096x512.Idx → EReal} (hy : y = Gen.V3 m c main_v7) (n : Fin 4096) (k : Fin 512) :
    y (ix2 n k) = X m c (tok n k) := by
  rw [hy, rows_V3 m c]
  exact flatten_drop_last _ n k

theorem weights_of : (Gen.V13 m outs c main_v8 : S512x50000.Idx → EReal) = Wt m c
    ∧ (Gen.V24 m outs c main_v8 : S512x50000.Idx → EReal) = Wt m c :=
  have hc := carried m outs c (.inr (.inl rfl))
  ⟨hc.1.trans (weights_V3 m c), hc.2.2.1.trans (weights_V3 m c)⟩

theorem bias_of : (Gen.V13 m outs c main_arg5 : S1x50000.Idx → EReal) = Bs m c
    ∧ (Gen.V24 m outs c main_arg5 : S1x50000.Idx → EReal) = Bs m c :=
  have hc := carried m outs c (.inr (.inr rfl))
  have h3 := (Gen.V3_of m c main_arg5 (by decide)).trans (bias_V2 m c)
  ⟨hc.1.trans h3, hc.2.2.1.trans h3⟩

theorem rows_R0 (n : Fin 4096) (k : Fin 512) : (Gen.V6 m c main_v7 : S4096x512.Idx → EReal) (ix2 n k) = X m c (tok n k) :=
  rows_of m c (carried0 m c (.inl rfl)) n k

theorem wcols_R0 (k : Fin 512) (j : Fin 2048) : (Gen.V6 m c main_v12 : S512x2048.Idx → EReal) (ix2 k j)
    = if h : j.val < 2000 then Wt m c (ix2 k (⟨j.val, by omega⟩ : Fin 50000)) else 0 :=
  (cols_of 512 50000 2000 2048 0 48 .bf16 (by omega)
    ((Gen.V6_of m c main_v12 (by decide)).trans ((Gen.V5_of m c main_v12 (by decide)).trans (r0_w (Gen.V2 m c))))
    (weights_V2 m c) k j).trans (by simp only [Nat.zero_add])

theorem bcols_R0 (j : Fin 2048) : (Gen.V6 m c main_v13 : S1x2048.Idx → EReal) (ix2 0 j)
    = if h : j.val < 2000 then Bs m c (ix2 0 (⟨j.val, by omega⟩ : Fin 50000)) else 0 :=
  (cols_of 1 50000 2000 2048 0 48 .f32 (by omega) (r0_b (Gen.V2 m c)) (bias_V2 m c) 0 j).trans (by simp only [Nat.zero_add])

theorem rows_R1 (n : Fin 4096) (k : Fin 512) : (Gen.V17 m outs c main_v7 : S4096x512.Idx → EReal) (ix2 n k) = X m c (tok n k) :=
  rows_of m c (carried m outs c (.inl rfl)).2.1 n k

theorem wcols_R1 (k : Fin 512) (j : Fin 8192) : (Gen.V17 m outs c main_v50 : S512x8192.Idx → EReal) (ix2 k j)
    = if h : j.val < 8000 then Wt m c (ix2 k (⟨2000 + j.val, by omega⟩ : Fin 50000)) else 0 :=
  cols_of 512 50000 8000 8192 2000 192 .bf16 (by omega)
    ((Gen.V17_of m outs c main_v50 (by decide)).trans ((Gen.V16_of m outs c main_v50 (by decide)).trans (r1_w (Gen.V13 m outs c))))
    (weights_of m outs c).1 k j

theorem bcols_R1 (j : Fin 8192) : (Gen.V17 m outs c main_v51 : S1x8192.Idx → EReal) (ix2 0 j)
    = if h : j.val < 8000 then Bs m c (ix2 0 (⟨2000 + j.val, by omega⟩ : Fin 50000)) else 0 :=
  cols_of 1 50000 8000 8192 2000 192 .f32 (by omega) (r1_b (Gen.V13 m outs c)) (bias_of m outs c).1 0 j

theorem rows_R2 (n : Fin 4096) (k : Fin 512) : (Gen.V28 m outs c main_v7 : S4096x512.Idx → EReal) (ix2 n k) = X m c (tok n k) :=
  rows_of m c (carried m outs c (.inl rfl)).2.2.2 n k

theorem wcols_R2 (k : Fin 512) (j : Fin 40960) : (Gen.V28 m outs c main_v88 : S512x40960.Idx → EReal) (ix2 k j)
    = if h : j.val < 40000 then Wt m c (ix2 k (⟨10000 + j.val, by omega⟩ : Fin 50000)) else 0 :=
  cols_of 512 50000 40000 40960 10000 960 .bf16 (by omega)
    ((Gen.V28_of m outs c main_v88 (by decide)).trans ((Gen.V27_of m outs c main_v88 (by decide)).trans (r2_w (Gen.V24 m outs c))))
    (weights_of m outs c).2 k j

theorem bcols_R2 (j : Fin 40960) : (Gen.V28 m outs c main_v89 : S1x40960.Idx → EReal) (ix2 0 j)
    = if h : j.val < 40000 then Bs m c (ix2 0 (⟨10000 + j.val, by omega⟩ : Fin 50000)) else 0 :=
  cols_of 1 50000 40000 40960 10000 960 .f32 (by omega) (r2_b (Gen.V24 m outs c)) (bias_of m outs c).2 0 j

end Entry

end Cert.KernelIdeal.EntryValue
end
-- ==== Proof.Spec.lean ====
import Idealize.ShloMosaic.PureOps.Ideal

noncomputable section

namespace Cert.Spec

open Idealize.ShloMosaic

variable (xf : Fin 4096 → Fin 512 → EReal) (y : Fin 4096 → BitVec 32)
  (cw : Fin 512 → Fin 3 → EReal) (cb : Fin 3 → EReal) (W : Fin 512 → Fin 50000 → EReal) (b : Fin 50000 → EReal)

def cl (n : Fin 4096) (j : Fin 3) : EReal := (∑ k : Fin 512, xf n k * cw k j) + cb j

def cll (n : Fin 4096) (j : Fin 3) : EReal := cl xf cw cb n j - Ideal.log (∑ j' : Fin 3, Ideal.exp (cl xf cw cb n j'))

def logit (n : Fin 4096) (v : Fin 50000) : EReal := (∑ k : Fin 512, xf n k * W k v) + b v

def tgt (lo width : ℕ) (yv : BitVec 32) : ℕ := (max 0 (min ((width : ℤ) - 1) (yv - BitVec.ofNat 32 lo).toInt)).toNat

def owns (lo hi : ℕ) (yv : BitVec 32) : Prop := (lo : ℤ) ≤ yv.toInt ∧ yv.toInt < (hi : ℤ)

instance (lo hi : ℕ) (yv : BitVec 32) : Decidable (owns lo hi yv) := by unfold owns; infer_instance

def col (lo v : ℕ) : Fin 50000 := ⟨min (lo + v) 49999, by omega⟩

def tailLp (lo width : ℕ) (n : Fin 4096) : EReal :=
  logit xf W b n (col lo (tgt lo width (y n))) - Ideal.log (∑ v : Fin width, Ideal.exp (logit xf W b n (col lo v.val)))

def nll (n : Fin 4096) : EReal :=
  if owns 10000 50000 (y n) then -(cll xf cw cb n 2 + tailLp xf y W b 10000 40000 n)
  else if owns 2000 10000 (y n) then -(cll xf cw cb n 1 + tailLp xf y W b 2000 8000 n)
  else if owns 0 2000 (y n) then -(cll xf cw cb n 0 + tailLp xf y W b 0 2000 n)
  else 0

end Cert.Spec

end
-- ==== Proof.KernelIdeal.R0.SpecValue.lean ====
import proofs.«420015_j11879879541904_3_alg».proof.Proof.KernelIdeal.R0.LseValue
import proofs.«420015_j11879879541904_3_alg».proof.Proof.KernelIdeal.R0.ArrValue
import proofs.«420015_j11879879541904_3_alg».proof.Proof.KernelIdeal.EntryValue
import proofs.«420015_j11879879541904_3_alg».proof.Proof.RefValue.Views
import proofs.«420015_j11879879541904_3_alg».proof.Proof.Spec

noncomputable section

namespace Cert.KernelIdeal.Fr

open Cert.KernelIdeal Cert.KernelIdeal.Gen Cert.KernelIdeal.EntryValue
open Idealize.ShloMosaic Idealize.ShloMosaic.TcCoe Idealize.ShloMosaic.ValueIdx
open scoped BigOperators

variable (m : (ℓ : Loc nD τ sig) → Buf (Elt Ideal) ℓ) (outs : Gen.Outs (F := Ideal)) (c : Dev nD)

abbrev entry0 (m : (ℓ : Loc nD τ sig) → Buf (Elt Ideal) ℓ) (outs : Gen.Outs (F := Ideal)) :
    (c : Dev nD) → (b : Ref sig .tc) → Buf (Elt Ideal) ((c : Thread nD τ).loc b) :=
  fun c b => Gen.V6 m c b

theorem Xarr0_entry (n : Fin 4096) (k : Fin 512) :
    Xarr0 (entry0 m outs) c (ix2 n k) = RefValue.xfOf (X m c) n k :=
  rows_R0 m c n k

theorem Warr0_entry (k : Fin 512) (v : Fin 2000) :
    Warr0 (entry0 m outs) c (ix2 k (⟨v.val, by have := v.isLt; omega⟩ : Fin 2048))
      = RefValue.WOf (Wt m c) k (Spec.col 0 v.val) :=
  ((wcols_R0 m c k _).trans (dif_pos v.isLt)).trans
    (congrArg (fun a => Wt m c (ix2 k a)) (Fin.ext (by have := v.isLt; simp only [Spec.col]; omega)))

theorem Barr0_entry (v : Fin 2000) :
    Barr0 (entry0 m outs) c (ix2 0 (⟨v.val, by have := v.isLt; omega⟩ : Fin 2048))
      = RefValue.bOf (Bs m c) (Spec.col 0 v.val) :=
  ((bcols_R0 m c _).trans (dif_pos v.isLt)).trans
    (congrArg (fun a => Bs m c (ix2 0 a)) (Fin.ext (by have := v.isLt; simp only [Spec.col]; omega)))

theorem row0_entry (n : Fin 4096) (v : Fin 2000) :
    row0 (entry0 m outs) c n v
      = Spec.logit (RefValue.xfOf (X m c)) (RefValue.WOf (Wt m c)) (RefValue.bOf (Bs m c)) n (Spec.col 0 v.val) := by
  unfold row0 Spec.logit
  exact congrArg₂ (· + ·)
    (Finset.sum_congr rfl fun k _ => congrArg₂ (· * ·) (Xarr0_entry m outs c n k) (Warr0_entry m outs c k v))
    (Barr0_entry m outs c v)

theorem Xarr0_real (hx : ∀ i, ∃ r : ℝ, X m c i = (r : EReal)) (i : S4096x512.Idx) :
    ∃ s : ℝ, Xarr0 (entry0 m outs) c i = (s : EReal) := by
  obtain ⟨n, k, rfl⟩ : ∃ (n : Fin 4096) (k : Fin 512), i = ix2 n k := ⟨i 0, i 1, eq_ix2 i⟩
  rw [Xarr0_entry m outs c n k]
  exact hx _

theorem Warr0_real (hw : ∀ i, ∃ r : ℝ, Wt m c i = (r : EReal)) (i : S512x2048.Idx) :
    ∃ s : ℝ, Warr0 (entry0 m outs) c i = (s : EReal) := by
  obtain ⟨k, j, rfl⟩ : ∃ (k : Fin 512) (j : Fin 2048), i = ix2 k j := ⟨i 0, i 1, eq_ix2 i⟩
  rw [show Warr0 (entry0 m outs) c (ix2 k j) = _ from wcols_R0 m c k j]
  split
  · exact hw _
  · exact ⟨0, rfl⟩

theorem Barr0_real (hb : ∀ i, ∃ r : ℝ, Bs m c i = (r : EReal)) (i : S1x2048.Idx) :
    ∃ s : ℝ, Barr0 (entry0 m outs) c i = (s : EReal) := by
  obtain ⟨j, rfl⟩ : ∃ j : Fin 2048, i = ix2 (0 : Fin 1) j :=
    ⟨i 1, (eq_ix2 i).trans (congrArg (fun a : Fin 1 => ix2 a (i 1)) (Subsingleton.elim _ _))⟩
  rw [show Barr0 (entry0 m outs) c (ix2 0 j) = _ from bcols_R0 m c j]
  split
  · exact hb _
  · exact ⟨0, rfl⟩

theorem lse0_value (hx : ∀ i, ∃ r : ℝ, X m c i = (r : EReal)) (hw : ∀ i, ∃ r : ℝ, Wt m c i = (r : EReal))
    (hb : ∀ i, ∃ r : ℝ, Bs m c i = (r : EReal)) (n : Fin 4096) :
    ((dat0 (entry0 m outs) c).arrAt 3 cfg0.N : S4096x1.Idx → EReal) (ix2 n 0)
      = Ideal.log (∑ v : Fin 2000, Ideal.exp (Spec.logit (RefValue.xfOf (X m c)) (RefValue.WOf (Wt m c))
          (RefValue.bOf (Bs m c)) n (Spec.col 0 v.val))) := by
  refine (arr0_apply (entry0 m outs) c (fun n => Ideal.log (∑ v : Fin 2000, Ideal.exp (row0 (entry0 m outs) c n v)))
    (fun t hlast r n hn => out_flush0 (entry0 m outs) c (Xarr0_real m outs c hx) (Warr0_real m outs c hw)
      (Barr0_real m outs c hb) t hlast r n hn) n).trans ?_
  exact congrArg Ideal.log (Finset.sum_congr rfl fun v _ => congrArg Ideal.exp (row0_entry m outs c n v))

end Cert.KernelIdeal.Fr

end
-- ==== Proof.KernelIdeal.R1.Pieces.lean ====
import proofs.«420015_j11879879541904_3_alg».proof.Proof.KernelIdeal.R1.Frame

noncomputable section

namespace Cert.KernelIdeal.Fr

open Cert.KernelIdeal Cert.KernelIdeal.Gen
open Idealize.ShloMosaic Idealize.ShloMosaic.TcCoe Idealize.SL.Sem

variable {F : FTy → Type} [FloatOps F] [Named F]
variable (V : (c : Dev nD) → (b : Ref sig .tc) → Buf (Elt F) ((c : Thread nD τ).loc b))

/-- What a point leaves in the running maximum, the running sum and (last tile) the output block, by case. -/
theorem carried1_A (c : Dev nD) (t : Fin cfg1.N) (h0 : t.val % 8 = 0) (h7 : ¬t.val % 8 = 7) :
    (outsAt1 V c t.val t.isLt).2.1 = k1_pay6 (xblk1 V c t) (wblk1 V c t) (bblk1 V c t) (k1_pay1 (F := F))
      ∧ (outsAt1 V c t.val t.isLt).2.2 = k1_pay5 (xblk1 V c t) (wblk1 V c t) (bblk1 V c t) (k1_pay1 (F := F)) (k1_pay1 (F := F)) (k1_pay2 (F := F)) := by
  rw [outsAt1_A V c t h0]; exact ⟨rfl, rfl⟩

theorem carried1_B (c : Dev nD) (t : Fin cfg1.N) (h0 : ¬t.val % 8 = 0) (h7 : ¬t.val % 8 = 7) :
    (outsAt1 V c t.val t.isLt).2.1 = k1_pay6 (xblk1 V c t) (wblk1 V c t) (bblk1 V c t) (prev1 V c t).2.1
      ∧ (outsAt1 V c t.val t.isLt).2.2 = k1_pay5 (xblk1 V c t) (wblk1 V c t) (bblk1 V c t) (prev1 V c t).2.1 (prev1 V c t).2.1 (prev1 V c t).2.2 := by
  rw [outsAt1_B V c t h0 h7]; exact ⟨rfl, rfl⟩

theorem carried1_C (c : Dev nD) (t : Fin cfg1.N) (h0 : ¬t.val % 8 = 0) (h7 : t.val % 8 = 7) :
    (outsAt1 V c t.val t.isLt).1 = k1_pay11 (k1_pay10 (grid1.coords t) (xblk1 V c t) (wblk1 V c t) (bblk1 V c t) (prev1 V c t).2.1) (k1_pay9 (grid1.coords t) (xblk1 V c t) (wblk1 V c t) (bblk1 V c t) (prev1 V c t).2.1 (prev1 V c t).2.1 (prev1 V c t).2.2)
      ∧ (outsAt1 V c t.val t.isLt).2.1 = k1_pay10 (grid1.coords t) (xblk1 V c t) (wblk1 V c t) (bblk1 V c t) (prev1 V c t).2.1
      ∧ (outsAt1 V c t.val t.isLt).2.2 = k1_pay9 (grid1.coords t) (xblk1 V c t) (wblk1 V c t) (bblk1 V c t) (prev1 V c t).2.1 (prev1 V c t).2.1 (prev1 V c t).2.2 := by
  rw [outsAt1_C V c t h0 h7]; exact ⟨rfl, rfl, rfl⟩

end Cert.KernelIdeal.Fr

end
-- ==== Proof.KernelIdeal.R1.LseValue.lean ====
import proofs.«420015_j11879879541904_3_alg».proof.Proof.KernelIdeal.R1.Pieces
import proofs.«420015_j11879879541904_3_alg».proof.Proof.KernelIdeal.PayValue
import proofs.«420015_j11879879541904_3_alg».proof.Proof.LibOnlineLse
import Idealize.ShloMosaic.PureOps.Ideal.Laws
import Idealize.ShloMosaic.Lib.ValueIdx
import Idealize.ShloMosaic.Lib.Pipeline.Value

noncomputable section

namespace Cert.KernelIdeal.Fr

open Cert.KernelIdeal Cert.KernelIdeal.Gen Cert.KernelIdeal.PayValue Cert.LibOnlineLse
open Idealize.ShloMosaic Idealize.ShloMosaic.TcCoe Idealize.ShloMosaic.ValueIdx Idealize.SL.Sem
open Idealize.ShloMosaic.Pipeline (Dat)
open scoped BigOperators

theorem idx1_0 : ∀ t : Fin cfg1.N, win1_0.index t 0 = t.val / 8 ∧ win1_0.index t 1 = 0 :=
  (by decide +kernel : ∀ t : Fin grid1.N, _)

theorem idx1_1 : ∀ t : Fin cfg1.N, win1_1.index t 0 = 0 ∧ win1_1.index t 1 = t.val % 8 :=
  (by decide +kernel : ∀ t : Fin grid1.N, _)

theorem idx1_2 : ∀ t : Fin cfg1.N, win1_2.index t 0 = 0 ∧ win1_2.index t 1 = t.val % 8 :=
  (by decide +kernel : ∀ t : Fin grid1.N, _)

theorem coord1_1 : ∀ t : Fin cfg1.N, ((grid1.coords t) 1).val = t.val % 8 :=
  (by decide +kernel : ∀ t : Fin grid1.N, _)

theorem xread1 (A : Vec Ideal S4096x512 .bf16) (t : Fin cfg1.N) (r : Fin 2048) (k : Fin 512) (n : Fin 4096)
    (hn : n.val = t.val / 8 * 2048 + r.val) :
    (((cfg1.win 0).blk t).view.read (Elt Ideal) A : Vec Ideal S2048x512 .bf16) (ix2 r k) = A (ix2 n k) := by
  rw [View.read_apply]
  exact congrArg A (funext fun a => Fin.ext (match a with
    | ⟨0, _⟩ => by show win1_0.index t 0 * 2048 + 1 * r.val = n.val; rw [(idx1_0 t).1, hn]; omega
    | ⟨1, _⟩ => by show win1_0.index t 1 * 512 + 1 * k.val = k.val; rw [(idx1_0 t).2]; omega))

theorem wread1 (A : Vec Ideal S512x8192 .bf16) (t : Fin cfg1.N) (k : Fin 512) (j : Fin 1024) (v : Fin 8192)
    (hv : v.val = t.val % 8 * 1024 + j.val) :
    (((cfg1.win 1).blk t).view.read (Elt Ideal) A : Vec Ideal S512x1024 .bf16) (ix2 k j) = A (ix2 k v) := by
  rw [View.read_apply]
  exact congrArg A (funext fun a => Fin.ext (match a with
    | ⟨0, _⟩ => by show win1_1.index t 0 * 512 + 1 * k.val = k.val; rw [(idx1_1 t).1]; omega
    | ⟨1, _⟩ => by show win1_1.index t 1 * 1024 + 1 * j.val = v.val; rw [(idx1_1 t).2, hv]; omega))

theorem bread1 (A : Vec Ideal S1x8192 .f32) (t : Fin cfg1.N) (j : Fin 1024) (v : Fin 8192)
    (hv : v.val = t.val % 8 * 1024 + j.val) :
    (((cfg1.win 2).blk t).view.read (Elt Ideal) A : Vec Ideal S1x1024 .f32) (ix2 0 j) = A (ix2 0 v) := by
  rw [View.read_apply]
  exact congrArg A (funext fun a => Fin.ext (match a with
    | ⟨0, _⟩ => by show win1_2.index t 0 * 1 + 1 * (0 : Fin 1).val = (0 : Fin 1).val; rw [(idx1_2 t).1]; rfl
    | ⟨1, _⟩ => by show win1_2.index t 1 * 1024 + 1 * j.val = v.val; rw [(idx1_2 t).2, hv]; omega))

variable (V : (c : Dev nD) → (b : Ref sig .tc) → Buf (Elt Ideal) ((c : Thread nD τ).loc b))

abbrev Xarr1 (c : Dev nD) : Vec Ideal S4096x512 .bf16 := V c (Pipeline.arrRef spec1 0)

abbrev Warr1 (c : Dev nD) : Vec Ideal S512x8192 .bf16 := V c (Pipeline.arrRef spec1 1)

abbrev Barr1 (c : Dev nD) : Vec Ideal S1x8192 .f32 := V c (Pipeline.arrRef spec1 2)

def row1 (c : Dev nD) (n : Fin 4096) (v : Fin 8000) : EReal :=
  (∑ kk : Fin 512, Xarr1 V c (ix2 n kk) * Warr1 V c (ix2 kk ⟨v.val, by have := v.isLt; omega⟩))
    + Barr1 V c (ix2 0 ⟨v.val, by have := v.isLt; omega⟩)

theorem row1_real (c : Dev nD) (hX : ∀ i, ∃ s : ℝ, Xarr1 V c i = (s : EReal)) (hW : ∀ i, ∃ s : ℝ, Warr1 V c i = (s : EReal))
    (hB : ∀ i, ∃ s : ℝ, Barr1 V c i = (s : EReal)) (n : Fin 4096) (v : Fin 8000) : ∃ s : ℝ, row1 V c n v = (s : EReal) := by
  choose fX hfX using hX
  choose fW hfW using hW
  choose fB hfB using hB
  refine ⟨(∑ kk : Fin 512, fX (ix2 n kk) * fW (ix2 kk ⟨v.val, by have := v.isLt; omega⟩)) + fB (ix2 0 ⟨v.val, by have := v.isLt; omega⟩), ?_⟩
  unfold row1
  rw [EReal.coe_add, coe_sum]
  refine congrArg₂ (· + ·) (Finset.sum_congr rfl fun kk _ => ?_) (hfB _)
  rw [EReal.coe_mul, hfX, hfW]

theorem logit_tile1 (c : Dev nD) (t : Fin cfg1.N) (r : Fin 2048) (n : Fin 4096) (hn : n.val = t.val / 8 * 2048 + r.val)
    (j : Fin 1024) (hlt : t.val % 8 * 1024 + j.val < 8000) :
    k1_pay3 (F := Ideal) (xblk1 V c t) (wblk1 V c t) (bblk1 V c t) (ix2 r j) = tiles 1024 8000 (row1 V c n) (t.val % 8) j := by
  rw [tiles_of_lt (row1 V c n) (t.val % 8) j hlt]
  refine (k1_pay3_apply (xblk1 V c t) (wblk1 V c t) (bblk1 V c t) r j).trans ?_
  unfold row1
  refine congrArg₂ (· + ·) (Finset.sum_congr rfl fun kk _ => congrArg₂ (· * ·) ?_ ?_) ?_
  · exact xread1 (Xarr1 V c) t r kk n hn
  · exact wread1 (Warr1 V c) t kk j ⟨t.val % 8 * 1024 + j.val, by omega⟩ rfl
  · exact bread1 (Barr1 V c) t j ⟨t.val % 8 * 1024 + j.val, by omega⟩ rfl

theorem logit_tiles1 (c : Dev nD) (t : Fin cfg1.N) (h7 : ¬t.val % 8 = 7) (r : Fin 2048) (n : Fin 4096)
    (hn : n.val = t.val / 8 * 2048 + r.val) :
    (fun j : Fin 1024 => k1_pay3 (F := Ideal) (xblk1 V c t) (wblk1 V c t) (bblk1 V c t) (ix2 r j))
      = tiles 1024 8000 (row1 V c n) (t.val % 8) :=
  funext fun j => logit_tile1 V c t r n hn j (by have := j.isLt; omega)

theorem masked_tiles1 (c : Dev nD) (t : Fin cfg1.N) (r : Fin 2048) (n : Fin 4096) (hn : n.val = t.val / 8 * 2048 + r.val) :
    (fun j : Fin 1024 => k1_pay7 (F := Ideal) (grid1.coords t) (xblk1 V c t) (wblk1 V c t) (bblk1 V c t) (ix2 r j))
      = tiles 1024 8000 (row1 V c n) (t.val % 8) := by
  funext j
  refine (k1_pay7_apply (grid1.coords t) (xblk1 V c t) (wblk1 V c t) (bblk1 V c t) r j).trans ?_
  rw [coord1_1 t]
  have h8 : t.val % 8 < 8 := Nat.mod_lt _ (by decide)
  by_cases h : t.val % 8 * 1024 + j.val < 8000
  · rw [if_pos (by omega)]; exact logit_tile1 V c t r n hn j h
  · rw [if_neg (by omega), tiles_of_not_lt (row1 V c n) (t.val % 8) j h]

def pair1 (c : Dev nD) (p : ℕ) (hp : p < cfg1.N) (r : Fin 2048) : EReal × EReal :=
  ((outsAt1 V c p hp).2.1 (ix2 r 0), (outsAt1 V c p hp).2.2 (ix2 r 0))

-- Every grid point advances the pair by one step over its tile of the row, afresh at the row's first tile.
theorem pair1_step (c : Dev nD) (t : Fin cfg1.N) (r : Fin 2048) (n : Fin 4096) (hn : n.val = t.val / 8 * 2048 + r.val) :
    pair1 V c t.val t.isLt r = step (tiles 1024 8000 (row1 V c n) (t.val % 8))
      (if t.val % 8 = 0 then (⊥, 0) else ((prev1 V c t).2.1 (ix2 r 0), (prev1 V c t).2.2 (ix2 r 0))) := by
  unfold pair1
  by_cases h0 : t.val % 8 = 0
  · have h7 : ¬t.val % 8 = 7 := by omega
    rw [if_pos h0, (carried1_A V c t h0 h7).1, (carried1_A V c t h0 h7).2, ← logit_tiles1 V c t h7 r n hn]
    exact (pair_step _ _ _ r).trans (by rw [k1_pay1_apply, k1_pay2_apply])
  · rw [if_neg h0]
    by_cases h7 : t.val % 8 = 7
    · rw [(carried1_C V c t h0 h7).2.1, (carried1_C V c t h0 h7).2.2, ← masked_tiles1 V c t r n hn]
      exact pair_step _ _ _ r
    · rw [(carried1_B V c t h0 h7).1, (carried1_B V c t h0 h7).2, ← logit_tiles1 V c t h7 r n hn]
      exact pair_step _ _ _ r

theorem pair1_run (c : Dev nD) : ∀ (p : ℕ) (hp : p < cfg1.N) (r : Fin 2048) (n : Fin 4096), n.val = p / 8 * 2048 + r.val →
    pair1 V c p hp r = run (tiles 1024 8000 (row1 V c n)) (p % 8 + 1) := by
  intro p
  induction p with
  | zero => intro hp r n hn; exact (pair1_step V c ⟨0, hp⟩ r n hn).trans (by rw [if_pos (show (⟨0, hp⟩ : Fin cfg1.N).val % 8 = 0 from rfl)]; rfl)
  | succ p ih =>
    intro hp r n hn
    refine (pair1_step V c ⟨p + 1, hp⟩ r n hn).trans ?_
    show step (tiles 1024 8000 (row1 V c n) ((p + 1) % 8))
      (if (p + 1) % 8 = 0 then (⊥, 0) else pair1 V c p (Nat.lt_of_succ_lt hp) r) = _
    rw [run_succ]
    congr 1
    by_cases h0 : (p + 1) % 8 = 0
    · rw [if_pos h0, h0]; rfl
    · rw [if_neg h0, ih (Nat.lt_of_succ_lt hp) r n (by omega), show p % 8 + 1 = (p + 1) % 8 by omega]

theorem out_flush1 (c : Dev nD) (hX : ∀ i, ∃ s : ℝ, Xarr1 V c i = (s : EReal)) (hW : ∀ i, ∃ s : ℝ, Warr1 V c i = (s : EReal))
    (hB : ∀ i, ∃ s : ℝ, Barr1 V c i = (s : EReal)) (t : Fin cfg1.N) (h7 : t.val % 8 = 7) (r : Fin 2048) (n : Fin 4096)
    (hn : n.val = t.val / 8 * 2048 + r.val) :
    (outsAt1 V c t.val t.isLt).1 (ix2 r 0) = Ideal.log (∑ v : Fin 8000, Ideal.exp (row1 V c n v)) := by
  have hp : pair1 V c t.val t.isLt r = run (tiles 1024 8000 (row1 V c n)) 8 := by
    have := pair1_run V c t.val t.isLt r n hn
    rwa [h7] at this
  obtain ⟨e, em, el⟩ := carried1_C V c t (by omega) h7
  rw [e, ← em, ← el]
  refine (k1_pay11_apply _ _ r).trans ?_
  show (pair1 V c t.val t.isLt r).1 + Ideal.log (pair1 V c t.val t.isLt r).2 = _
  rw [hp]
  exact run_tiles_lse (by decide) (row1 V c n) (row1_real V c hX hW hB n) 8 (by decide) (by decide)

end Cert.KernelIdeal.Fr

end
-- ==== Proof.KernelIdeal.R1.ArrValue.lean ====
import proofs.«420015_j11879879541904_3_alg».proof.Proof.KernelIdeal.R1.Frame
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F] [Named F]
variable (V : (c : Dev nD) → (b : Ref sig .tc) → Buf (Elt F) ((c : Thread nD τ).loc b))

theorem out_index1 : ∀ t : Fin cfg1.N, win1_3.index t (0 : Fin 2) = t.val / 8 ∧ win1_3.index t (1 : Fin 2) = 0 :=
  (by decide +kernel : ∀ t : Fin grid1.N, _)

variable (c : Dev nD) (G : Fin 4096 → F .f32)
  (hflush : ∀ (t : Fin cfg1.N), t.val % 8 = 7 → ∀ (r : Fin 2048) (n : Fin 4096), n.val = t.val / 8 * 2048 + r.val →
    (outsAt1 V c t.val t.isLt).1 (ix2 r 0) = G n)
include hflush

theorem flushed1_eq (t : Fin cfg1.N) (hf : (cfg1.win 3).flush t = true) :
    (dat1 V c).flushed 3 t = ((cfg1.win 3).blk t).view.read (Elt F) (fun i : S4096x1.Idx => G (i 0)) := by
  show (cfg1.win 3).cut (grid1.coords t) ((dat1 V c).after 3 t) = _
  rw [after1_3]
  funext j
  have hj0 : (j 0).val < 2048 := (j 0).isLt
  have hj1 : (j 1).val < 1 := (j 1).isLt
  have hx : win1_3.xinj (grid1.coords t) j = ix2 (⟨(j 0).val, hj0⟩ : Fin 2048) (0 : Fin 1) := by
    funext a
    match a with
    | ⟨0, _⟩ => rfl
    | ⟨1, _⟩ => exact Fin.ext (by show (j 1).val = 0; omega)
  show (outsAt1 V c t.val t.isLt).1 (win1_3.xinj (grid1.coords t) j) = G ((((cfg1.win 3).blk t).view.emb j) 0)
  rw [hx]
  refine hflush t ((flush1_3 t).mp hf) _ _ ?_
  show win1_3.index t (0 : Fin 2) * 2048 + 1 * (j 0).val = t.val / 8 * 2048 + (j 0).val
  rw [(out_index1 t).1]
  omega

-- Every row lies in the block written at the last tile of its group of rows.
theorem arr1_apply (n : Fin 4096) : (dat1 V c).arrAt 3 cfg1.N (ix2 n 0) = G n :=
  congrFun ((dat1 V c).arrAt_eq_of_cover 3 _ (flushed1_eq V c G hflush) fun i => by
    have hi0 : (i 0).val < 4096 := (i 0).isLt
    have hi1 : (i 1).val < 1 := (i 1).isLt
    obtain ⟨t, ht⟩ : ∃ t : Fin cfg1.N, t.val = (i 0).val / 2048 * 8 + 7 := ⟨⟨_, by have hN : cfg1.N = 16 := N_1; omega⟩, rfl⟩
    obtain ⟨e0, e1⟩ := out_index1 t
    refine ⟨t, (flush1_3 t).mpr (by omega), ?_⟩
    show i ∈ ((View.whole main_v52).slice (win1_3.rect t)).set
    rw [View.set_slice_whole, Rect.mem_set_unit]
    intro a
    match a with
    | ⟨0, _⟩ =>
      show win1_3.index t (0 : Fin 2) * 2048 ≤ (i 0).val ∧ (i 0).val < win1_3.index t (0 : Fin 2) * 2048 + 2048
      rw [e0]
      omega
    | ⟨1, _⟩ =>
      show win1_3.index t (1 : Fin 2) * 1 ≤ (i 1).val ∧ (i 1).val < win1_3.index t (1 : Fin 2) * 1 + 1
      rw [e1]
      omega) (ix2 n 0)

end Cert.KernelIdeal.Fr

end
-- ==== Proof.KernelIdeal.R1.SpecValue.lean ====
import proofs.«420015_j11879879541904_3_alg».proof.Proof.KernelIdeal.R1.LseValue
import proofs.«420015_j11879879541904_3_alg».proof.Proof.KernelIdeal.R1.ArrValue
import proofs.«420015_j11879879541904_3_alg».proof.Proof.KernelIdeal.EntryValue
import proofs.«420015_j11879879541904_3_alg».proof.Proof.RefValue.Views
import proofs.«420015_j11879879541904_3_alg».proof.Proof.Spec

noncomputable section

namespace Cert.KernelIdeal.Fr

open Cert.KernelIdeal Cert.KernelIdeal.Gen Cert.KernelIdeal.EntryValue
open Idealize.ShloMosaic Idealize.ShloMosaic.TcCoe Idealize.ShloMosaic.ValueIdx
open scoped BigOperators

variable (m : (ℓ : Loc nD τ sig) → Buf (Elt Ideal) ℓ) (outs : Gen.Outs (F := Ideal)) (c : Dev nD)

abbrev entry1 (m : (ℓ : Loc nD τ sig) → Buf (Elt Ideal) ℓ) (outs : Gen.Outs (F := Ideal)) :
    (c : Dev nD) → (b : Ref sig .tc) → Buf (Elt Ideal) ((c : Thread nD τ).loc b) :=
  fun c b => Gen.V17 m outs c b

theorem Xarr1_entry (n : Fin 4096) (k : Fin 512) :
    Xarr1 (entry1 m outs) c (ix2 n k) = RefValue.xfOf (X m c) n k :=
  rows_R1 m outs c n k

theorem Warr1_entry (k : Fin 512) (v : Fin 8000) :
    Warr1 (entry1 m outs) c (ix2 k (⟨v.val, by have := v.isLt; omega⟩ : Fin 8192))
      = RefValue.WOf (Wt m c) k (Spec.col 2000 v.val) :=
  ((wcols_R1 m outs c k _).trans (dif_pos v.isLt)).trans
    (congrArg (fun a => Wt m c (ix2 k a)) (Fin.ext (by have := v.isLt; simp only [Spec.col]; omega)))

theorem Barr1_entry (v : Fin 8000) :
    Barr1 (entry1 m outs) c (ix2 0 (⟨v.val, by have := v.isLt; omega⟩ : Fin 8192))
      = RefValue.bOf (Bs m c) (Spec.col 2000 v.val) :=
  ((bcols_R1 m outs c _).trans (dif_pos v.isLt)).trans
    (congrArg (fun a => Bs m c (ix2 0 a)) (Fin.ext (by have := v.isLt; simp only [Spec.col]; omega)))

theorem row1_entry (n : Fin 4096) (v : Fin 8000) :
    row1 (entry1 m outs) c n v
      = Spec.logit (RefValue.xfOf (X m c)) (RefValue.WOf (Wt m c)) (RefValue.bOf (Bs m c)) n (Spec.col 2000 v.val) := by
  unfold row1 Spec.logit
  exact congrArg₂ (· + ·)
    (Finset.sum_congr rfl fun k _ => congrArg₂ (· * ·) (Xarr1_entry m outs c n k) (Warr1_entry m outs c k v))
    (Barr1_entry m outs c v)

theorem Xarr1_real (hx : ∀ i, ∃ r : ℝ, X m c i = (r : EReal)) (i : S4096x512.Idx) :
    ∃ s : ℝ, Xarr1 (entry1 m outs) c i = (s : EReal) := by
  obtain ⟨n, k, rfl⟩ : ∃ (n : Fin 4096) (k : Fin 512), i = ix2 n k := ⟨i 0, i 1, eq_ix2 i⟩
  rw [Xarr1_entry m outs c n k]
  exact hx _

theorem Warr1_real (hw : ∀ i, ∃ r : ℝ, Wt m c i = (r : EReal)) (i : S512x8192.Idx) :
    ∃ s : ℝ, Warr1 (entry1 m outs) c i = (s : EReal) := by
  obtain ⟨k, j, rfl⟩ : ∃ (k : Fin 512) (j : Fin 8192), i = ix2 k j := ⟨i 0, i 1, eq_ix2 i⟩
  rw [show Warr1 (entry1 m outs) c (ix2 k j) = _ from wcols_R1 m outs c k j]
  split
  · exact hw _
  · exact ⟨0, rfl⟩

theorem Barr1_real (hb : ∀ i, ∃ r : ℝ, Bs m c i = (r : EReal)) (i : S1x8192.Idx) :
    ∃ s : ℝ, Barr1 (entry1 m outs) c i = (s : EReal) := by
  obtain ⟨j, rfl⟩ : ∃ j : Fin 8192, i = ix2 (0 : Fin 1) j :=
    ⟨i 1, (eq_ix2 i).trans (congrArg (fun a : Fin 1 => ix2 a (i 1)) (Subsingleton.elim _ _))⟩
  rw [show Barr1 (entry1 m outs) c (ix2 0 j) = _ from bcols_R1 m outs c j]
  split
  · exact hb _
  · exact ⟨0, rfl⟩

theorem lse1_value (hx : ∀ i, ∃ r : ℝ, X m c i = (r : EReal)) (hw : ∀ i, ∃ r : ℝ, Wt m c i = (r : EReal))
    (hb : ∀ i, ∃ r : ℝ, Bs m c i = (r : EReal)) (n : Fin 4096) :
    ((dat1 (entry1 m outs) c).arrAt 3 cfg1.N : S4096x1.Idx → EReal) (ix2 n 0)
      = Ideal.log (∑ v : Fin 8000, Ideal.exp (Spec.logit (RefValue.xfOf (X m c)) (RefValue.WOf (Wt m c))
          (RefValue.bOf (Bs m c)) n (Spec.col 2000 v.val))) := by
  refine (arr1_apply (entry1 m outs) c (fun n => Ideal.log (∑ v : Fin 8000, Ideal.exp (row1 (entry1 m outs) c n v)))
    (fun t hlast r n hn => out_flush1 (entry1 m outs) c (Xarr1_real m outs c hx) (Warr1_real m outs c hw)
      (Barr1_real m outs c hb) t hlast r n hn) n).trans ?_
  exact congrArg Ideal.log (Finset.sum_congr rfl fun v _ => congrArg Ideal.exp (row1_entry m outs c n v))

end Cert.KernelIdeal.Fr

end
-- ==== Proof.KernelIdeal.R2.Pieces.lean ====
import proofs.«420015_j11879879541904_3_alg».proof.Proof.KernelIdeal.R2.Frame

noncomputable section

namespace Cert.KernelIdeal.Fr

open Cert.KernelIdeal Cert.KernelIdeal.Gen
open Idealize.ShloMosaic Idealize.ShloMosaic.TcCoe Idealize.SL.Sem

variable {F : FTy → Type} [FloatOps F] [Named F]
variable (V : (c : Dev nD) → (b : Ref sig .tc) → Buf (Elt F) ((c : Thread nD τ).loc b))

/-- What a point leaves in the running maximum, the running sum and (last tile) the output block, by case. -/
theorem carried2_A (c : Dev nD) (t : Fin cfg2.N) (h0 : t.val % 40 = 0) (h7 : ¬t.val % 40 = 39) :
    (outsAt2 V c t.val t.isLt).2.1 = k2_pay6 (xblk2 V c t) (wblk2 V c t) (bblk2 V c t) (k2_pay1 (F := F))
      ∧ (outsAt2 V c t.val t.isLt).2.2 = k2_pay5 (xblk2 V c t) (wblk2 V c t) (bblk2 V c t) (k2_pay1 (F := F)) (k2_pay1 (F := F)) (k2_pay2 (F := F)) := by
  rw [outsAt2_A V c t h0]; exact ⟨rfl, rfl⟩

theorem carried2_B (c : Dev nD) (t : Fin cfg2.N) (h0 : ¬t.val % 40 = 0) (h7 : ¬t.val % 40 = 39) :
    (outsAt2 V c t.val t.isLt).2.1 = k2_pay6 (xblk2 V c t) (wblk2 V c t) (bblk2 V c t) (prev2 V c t).2.1
      ∧ (outsAt2 V c t.val t.isLt).2.2 = k2_pay5 (xblk2 V c t) (wblk2 V c t) (bblk2 V c t) (prev2 V c t).2.1 (prev2 V c t).2.1 (prev2 V c t).2.2 := by
  rw [outsAt2_B V c t h0 h7]; exact ⟨rfl, rfl⟩

theorem carried2_C (c : Dev nD) (t : Fin cfg2.N) (h0 : ¬t.val % 40 = 0) (h7 : t.val % 40 = 39) :
    (outsAt2 V c t.val t.isLt).1 = k2_pay11 (k2_pay10 (grid2.coords t) (xblk2 V c t) (wblk2 V c t) (bblk2 V c t) (prev2 V c t).2.1) (k2_pay9 (grid2.coords t) (xblk2 V c t) (wblk2 V c t) (bblk2 V c t) (prev2 V c t).2.1 (prev2 V c t).2.1 (prev2 V c t).2.2)
      ∧ (outsAt2 V c t.val t.isLt).2.1 = k2_pay10 (grid2.coords t) (xblk2 V c t) (wblk2 V c t) (bblk2 V c t) (prev2 V c t).2.1
      ∧ (outsAt2 V c t.val t.isLt).2.2 = k2_pay9 (grid2.coords t) (xblk2 V c t) (wblk2 V c t) (bblk2 V c t) (prev2 V c t).2.1 (prev2 V c t).2.1 (prev2 V c t).2.2 := by
  rw [outsAt2_C V c t h0 h7]; exact ⟨rfl, rfl, rfl⟩

end Cert.KernelIdeal.Fr

end
-- ==== Proof.KernelIdeal.R2.LseValue.lean ====
import proofs.«420015_j11879879541904_3_alg».proof.Proof.KernelIdeal.R2.Pieces
import proofs.«420015_j11879879541904_3_alg».proof.Proof.KernelIdeal.PayValue
import proofs.«420015_j11879879541904_3_alg».proof.Proof.LibOnlineLse
import Idealize.ShloMosaic.PureOps.Ideal.Laws
import Idealize.ShloMosaic.Lib.ValueIdx
import Idealize.ShloMosaic.Lib.Pipeline.Value

noncomputable section

namespace Cert.KernelIdeal.Fr

open Cert.KernelIdeal Cert.KernelIdeal.Gen Cert.KernelIdeal.PayValue Cert.LibOnlineLse
open Idealize.ShloMosaic Idealize.ShloMosaic.TcCoe Idealize.ShloMosaic.ValueIdx Idealize.SL.Sem
open Idealize.ShloMosaic.Pipeline (Dat)
open scoped BigOperators

theorem idx2_0 : ∀ t : Fin cfg2.N, win2_0.index t 0 = t.val / 40 ∧ win2_0.index t 1 = 0 :=
  (by decide +kernel : ∀ t : Fin grid2.N, _)

theorem idx2_1 : ∀ t : Fin cfg2.N, win2_1.index t 0 = 0 ∧ win2_1.index t 1 = t.val % 40 :=
  (by decide +kernel : ∀ t : Fin grid2.N, _)

theorem idx2_2 : ∀ t : Fin cfg2.N, win2_2.index t 0 = 0 ∧ win2_2.index t 1 = t.val % 40 :=
  (by decide +kernel : ∀ t : Fin grid2.N, _)

theorem coord2_1 : ∀ t : Fin cfg2.N, ((grid2.coords t) 1).val = t.val % 40 :=
  (by decide +kernel : ∀ t : Fin grid2.N, _)

theorem xread2 (A : Vec Ideal S4096x512 .bf16) (t : Fin cfg2.N) (r : Fin 2048) (k : Fin 512) (n : Fin 4096)
    (hn : n.val = t.val / 40 * 2048 + r.val) :
    (((cfg2.win 0).blk t).view.read (Elt Ideal) A : Vec Ideal S2048x512 .bf16) (ix2 r k) = A (ix2 n k) := by
  rw [View.read_apply]
  exact congrArg A (funext fun a => Fin.ext (match a with
    | ⟨0, _⟩ => by show win2_0.index t 0 * 2048 + 1 * r.val = n.val; rw [(idx2_0 t).1, hn]; omega
    | ⟨1, _⟩ => by show win2_0.index t 1 * 512 + 1 * k.val = k.val; rw [(idx2_0 t).2]; omega))

theorem wread2 (A : Vec Ideal S512x40960 .bf16) (t : Fin cfg2.N) (k : Fin 512) (j : Fin 1024) (v : Fin 40960)
    (hv : v.val = t.val % 40 * 1024 + j.val) :
    (((cfg2.win 1).blk t).view.read (Elt Ideal) A : Vec Ideal S512x1024 .bf16) (ix2 k j) = A (ix2 k v) := by
  rw [View.read_apply]
  exact congrArg A (funext fun a => Fin.ext (match a with
    | ⟨0, _⟩ => by show win2_1.index t 0 * 512 + 1 * k.val = k.val; rw [(idx2_1 t).1]; omega
    | ⟨1, _⟩ => by show win2_1.index t 1 * 1024 + 1 * j.val = v.val; rw [(idx2_1 t).2, hv]; omega))

theorem bread2 (A : Vec Ideal S1x40960 .f32) (t : Fin cfg2.N) (j : Fin 1024) (v : Fin 40960)
    (hv : v.val = t.val % 40 * 1024 + j.val) :
    (((cfg2.win 2).blk t).view.read (Elt Ideal) A : Vec Ideal S1x1024 .f32) (ix2 0 j) = A (ix2 0 v) := by
  rw [View.read_apply]
  exact congrArg A (funext fun a => Fin.ext (match a with
    | ⟨0, _⟩ => by show win2_2.index t 0 * 1 + 1 * (0 : Fin 1).val = (0 : Fin 1).val; rw [(idx2_2 t).1]; rfl
    | ⟨1, _⟩ => by show win2_2.index t 1 * 1024 + 1 * j.val = v.val; rw [(idx2_2 t).2, hv]; omega))

variable (V : (c : Dev nD) → (b : Ref sig .tc) → Buf (Elt Ideal) ((c : Thread nD τ).loc b))

abbrev Xarr2 (c : Dev nD) : Vec Ideal S4096x512 .bf16 := V c (Pipeline.arrRef spec2 0)

abbrev Warr2 (c : Dev nD) : Vec Ideal S512x40960 .bf16 := V c (Pipeline.arrRef spec2 1)

abbrev Barr2 (c : Dev nD) : Vec Ideal S1x40960 .f32 := V c (Pipeline.arrRef spec2 2)

def row2 (c : Dev nD) (n : Fin 4096) (v : Fin 40000) : EReal :=
  (∑ kk : Fin 512, Xarr2 V c (ix2 n kk) * Warr2 V c (ix2 kk ⟨v.val, by have := v.isLt; omega⟩))
    + Barr2 V c (ix2 0 ⟨v.val, by have := v.isLt; omega⟩)

theorem row2_real (c : Dev nD) (hX : ∀ i, ∃ s : ℝ, Xarr2 V c i = (s : EReal)) (hW : ∀ i, ∃ s : ℝ, Warr2 V c i = (s : EReal))
    (hB : ∀ i, ∃ s : ℝ, Barr2 V c i = (s : EReal)) (n : Fin 4096) (v : Fin 40000) : ∃ s : ℝ, row2 V c n v = (s : EReal) := by
  choose fX hfX using hX
  choose fW hfW using hW
  choose fB hfB using hB
  refine ⟨(∑ kk : Fin 512, fX (ix2 n kk) * fW (ix2 kk ⟨v.val, by have := v.isLt; omega⟩)) + fB (ix2 0 ⟨v.val, by have := v.isLt; omega⟩), ?_⟩
  unfold row2
  rw [EReal.coe_add, coe_sum]
  refine congrArg₂ (· + ·) (Finset.sum_congr rfl fun kk _ => ?_) (hfB _)
  rw [EReal.coe_mul, hfX, hfW]

theorem logit_tile2 (c : Dev nD) (t : Fin cfg2.N) (r : Fin 2048) (n : Fin 4096) (hn : n.val = t.val / 40 * 2048 + r.val)
    (j : Fin 1024) (hlt : t.val % 40 * 1024 + j.val < 40000) :
    k2_pay3 (F := Ideal) (xblk2 V c t) (wblk2 V c t) (bblk2 V c t) (ix2 r j) = tiles 1024 40000 (row2 V c n) (t.val % 40) j := by
  rw [tiles_of_lt (row2 V c n) (t.val % 40) j hlt]
  refine (k2_pay3_apply (xblk2 V c t) (wblk2 V c t) (bblk2 V c t) r j).trans ?_
  unfold row2
  refine congrArg₂ (· + ·) (Finset.sum_congr rfl fun kk _ => congrArg₂ (· * ·) ?_ ?_) ?_
  · exact xread2 (Xarr2 V c) t r kk n hn
  · exact wread2 (Warr2 V c) t kk j ⟨t.val % 40 * 1024 + j.val, by omega⟩ rfl
  · exact bread2 (Barr2 V c) t j ⟨t.val % 40 * 1024 + j.val, by omega⟩ rfl

theorem logit_tiles2 (c : Dev nD) (t : Fin cfg2.N) (h7 : ¬t.val % 40 = 39) (r : Fin 2048) (n : Fin 4096)
    (hn : n.val = t.val / 40 * 2048 + r.val) :
    (fun j : Fin 1024 => k2_pay3 (F := Ideal) (xblk2 V c t) (wblk2 V c t) (bblk2 V c t) (ix2 r j))
      = tiles 1024 40000 (row2 V c n) (t.val % 40) :=
  funext fun j => logit_tile2 V c t r n hn j (by have := j.isLt; omega)

theorem masked_tiles2 (c : Dev nD) (t : Fin cfg2.N) (r : Fin 2048) (n : Fin 4096) (hn : n.val = t.val / 40 * 2048 + r.val) :
    (fun j : Fin 1024 => k2_pay7 (F := Ideal) (grid2.coords t) (xblk2 V c t) (wblk2 V c t) (bblk2 V c t) (ix2 r j))
      = tiles 1024 40000 (row2 V c n) (t.val % 40) := by
  funext j
  refine (k2_pay7_apply (grid2.coords t) (xblk2 V c t) (wblk2 V c t) (bblk2 V c t) r j).trans ?_
  rw [coord2_1 t]
  have h8 : t.val % 40 < 40 := Nat.mod_lt _ (by decide)
  by_cases h : t.val % 40 * 1024 + j.val < 40000
  · rw [if_pos (by omega)]; exact logit_tile2 V c t r n hn j h
  · rw [if_neg (by omega), tiles_of_not_lt (row2 V c n) (t.val % 40) j h]

def pair2 (c : Dev nD) (p : ℕ) (hp : p < cfg2.N) (r : Fin 2048) : EReal × EReal :=
  ((outsAt2 V c p hp).2.1 (ix2 r 0), (outsAt2 V c p hp).2.2 (ix2 r 0))

-- Every grid point advances the pair by one step over its tile of the row, afresh at the row's first tile.
theorem pair2_step (c : Dev nD) (t : Fin cfg2.N) (r : Fin 2048) (n : Fin 4096) (hn : n.val = t.val / 40 * 2048 + r.val) :
    pair2 V c t.val t.isLt r = step (tiles 1024 40000 (row2 V c n) (t.val % 40))
      (if t.val % 40 = 0 then (⊥, 0) else ((prev2 V c t).2.1 (ix2 r 0), (prev2 V c t).2.2 (ix2 r 0))) := by
  unfold pair2
  by_cases h0 : t.val % 40 = 0
  · have h7 : ¬t.val % 40 = 39 := by omega
    rw [if_pos h0, (carried2_A V c t h0 h7).1, (carried2_A V c t h0 h7).2, ← logit_tiles2 V c t h7 r n hn]
    exact (pair_step _ _ _ r).trans (by rw [k2_pay1_apply, k2_pay2_apply])
  · rw [if_neg h0]
    by_cases h7 : t.val % 40 = 39
    · rw [(carried2_C V c t h0 h7).2.1, (carried2_C V c t h0 h7).2.2, ← masked_tiles2 V c t r n hn]
      exact pair_step _ _ _ r
    · rw [(carried2_B V c t h0 h7).1, (carried2_B V c t h0 h7).2, ← logit_tiles2 V c t h7 r n hn]
      exact pair_step _ _ _ r

theorem pair2_run (c : Dev nD) : ∀ (p : ℕ) (hp : p < cfg2.N) (r : Fin 2048) (n : Fin 4096), n.val = p / 40 * 2048 + r.val →
    pair2 V c p hp r = run (tiles 1024 40000 (row2 V c n)) (p % 40 + 1) := by
  intro p
  induction p with
  | zero => intro hp r n hn; exact (pair2_step V c ⟨0, hp⟩ r n hn).trans (by rw [if_pos (show (⟨0, hp⟩ : Fin cfg2.N).val % 40 = 0 from rfl)]; rfl)
  | succ p ih =>
    intro hp r n hn
    refine (pair2_step V c ⟨p + 1, hp⟩ r n hn).trans ?_
    show step (tiles 1024 40000 (row2 V c n) ((p + 1) % 40))
      (if (p + 1) % 40 = 0 then (⊥, 0) else pair2 V c p (Nat.lt_of_succ_lt hp) r) = _
    rw [run_succ]
    congr 1
    by_cases h0 : (p + 1) % 40 = 0
    · rw [if_pos h0, h0]; rfl
    · rw [if_neg h0, ih (Nat.lt_of_succ_lt hp) r n (by omega), show p % 40 + 1 = (p + 1) % 40 by omega]

theorem out_flush2 (c : Dev nD) (hX : ∀ i, ∃ s : ℝ, Xarr2 V c i = (s : EReal)) (hW : ∀ i, ∃ s : ℝ, Warr2 V c i = (s : EReal))
    (hB : ∀ i, ∃ s : ℝ, Barr2 V c i = (s : EReal)) (t : Fin cfg2.N) (h7 : t.val % 40 = 39) (r : Fin 2048) (n : Fin 4096)
    (hn : n.val = t.val / 40 * 2048 + r.val) :
    (outsAt2 V c t.val t.isLt).1 (ix2 r 0) = Ideal.log (∑ v : Fin 40000, Ideal.exp (row2 V c n v)) := by
  have hp : pair2 V c t.val t.isLt r = run (tiles 1024 40000 (row2 V c n)) 40 := by
    have := pair2_run V c t.val t.isLt r n hn
    rwa [h7] at this
  obtain ⟨e, em, el⟩ := carried2_C V c t (by omega) h7
  rw [e, ← em, ← el]
  refine (k2_pay11_apply _ _ r).trans ?_
  show (pair2 V c t.val t.isLt r).1 + Ideal.log (pair2 V c t.val t.isLt r).2 = _
  rw [hp]
  exact run_tiles_lse (by decide) (row2 V c n) (row2_real V c hX hW hB n) 40 (by decide) (by decide)

end Cert.KernelIdeal.Fr

end
-- ==== Proof.KernelIdeal.R2.ArrValue.lean ====
import proofs.«420015_j11879879541904_3_alg».proof.Proof.KernelIdeal.R2.Frame
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F] [Named F]
variable (V : (c : Dev nD) → (b : Ref sig .tc) → Buf (Elt F) ((c : Thread nD τ).loc b))

theorem out_index2 : ∀ t : Fin cfg2.N, win2_3.index t (0 : Fin 2) = t.val / 40 ∧ win2_3.index t (1 : Fin 2) = 0 :=
  (by decide +kernel : ∀ t : Fin grid2.N, _)

variable (c : Dev nD) (G : Fin 4096 → F .f32)
  (hflush : ∀ (t : Fin cfg2.N), t.val % 40 = 39 → ∀ (r : Fin 2048) (n : Fin 4096), n.val = t.val / 40 * 2048 + r.val →
    (outsAt2 V c t.val t.isLt).1 (ix2 r 0) = G n)
include hflush

theorem flushed2_eq (t : Fin cfg2.N) (hf : (cfg2.win 3).flush t = true) :
    (dat2 V c).flushed 3 t = ((cfg2.win 3).blk t).view.read (Elt F) (fun i : S4096x1.Idx => G (i 0)) := by
  show (cfg2.win 3).cut (grid2.coords t) ((dat2 V c).after 3 t) = _
  rw [after2_3]
  funext j
  have hj0 : (j 0).val < 2048 := (j 0).isLt
  have hj1 : (j 1).val < 1 := (j 1).isLt
  have hx : win2_3.xinj (grid2.coords t) j = ix2 (⟨(j 0).val, hj0⟩ : Fin 2048) (0 : Fin 1) := by
    funext a
    match a with
    | ⟨0, _⟩ => rfl
    | ⟨1, _⟩ => exact Fin.ext (by show (j 1).val = 0; omega)
  show (outsAt2 V c t.val t.isLt).1 (win2_3.xinj (grid2.coords t) j) = G ((((cfg2.win 3).blk t).view.emb j) 0)
  rw [hx]
  refine hflush t ((flush2_3 t).mp hf) _ _ ?_
  show win2_3.index t (0 : Fin 2) * 2048 + 1 * (j 0).val = t.val / 40 * 2048 + (j 0).val
  rw [(out_index2 t).1]
  omega

-- Every row lies in the block written at the last tile of its group of rows.
theorem arr2_apply (n : Fin 4096) : (dat2 V c).arrAt 3 cfg2.N (ix2 n 0) = G n :=
  congrFun ((dat2 V c).arrAt_eq_of_cover 3 _ (flushed2_eq V c G hflush) fun i => by
    have hi0 : (i 0).val < 4096 := (i 0).isLt
    have hi1 : (i 1).val < 1 := (i 1).isLt
    obtain ⟨t, ht⟩ : ∃ t : Fin cfg2.N, t.val = (i 0).val / 2048 * 40 + 39 := ⟨⟨_, by have hN : cfg2.N = 80 := N_2; omega⟩, rfl⟩
    obtain ⟨e0, e1⟩ := out_index2 t
    refine ⟨t, (flush2_3 t).mpr (by omega), ?_⟩
    show i ∈ ((View.whole main_v90).slice (win2_3.rect t)).set
    rw [View.set_slice_whole, Rect.mem_set_unit]
    intro a
    match a with
    | ⟨0, _⟩ =>
      show win2_3.index t (0 : Fin 2) * 2048 ≤ (i 0).val ∧ (i 0).val < win2_3.index t (0 : Fin 2) * 2048 + 2048
      rw [e0]
      omega
    | ⟨1, _⟩ =>
      show win2_3.index t (1 : Fin 2) * 1 ≤ (i 1).val ∧ (i 1).val < win2_3.index t (1 : Fin 2) * 1 + 1
      rw [e1]
      omega) (ix2 n 0)

end Cert.KernelIdeal.Fr

end
-- ==== Proof.KernelIdeal.R2.SpecValue.lean ====
import proofs.«420015_j11879879541904_3_alg».proof.Proof.KernelIdeal.R2.LseValue
import proofs.«420015_j11879879541904_3_alg».proof.Proof.KernelIdeal.R2.ArrValue
import proofs.«420015_j11879879541904_3_alg».proof.Proof.KernelIdeal.EntryValue
import proofs.«420015_j11879879541904_3_alg».proof.Proof.RefValue.Views
import proofs.«420015_j11879879541904_3_alg».proof.Proof.Spec

noncomputable section

namespace Cert.KernelIdeal.Fr

open Cert.KernelIdeal Cert.KernelIdeal.Gen Cert.KernelIdeal.EntryValue
open Idealize.ShloMosaic Idealize.ShloMosaic.TcCoe Idealize.ShloMosaic.ValueIdx
open scoped BigOperators

variable (m : (ℓ : Loc nD τ sig) → Buf (Elt Ideal) ℓ) (outs : Gen.Outs (F := Ideal)) (c : Dev nD)

abbrev entry2 (m : (ℓ : Loc nD τ sig) → Buf (Elt Ideal) ℓ) (outs : Gen.Outs (F := Ideal)) :
    (c : Dev nD) → (b : Ref sig .tc) → Buf (Elt Ideal) ((c : Thread nD τ).loc b) :=
  fun c b => Gen.V28 m outs c b

theorem Xarr2_entry (n : Fin 4096) (k : Fin 512) :
    Xarr2 (entry2 m outs) c (ix2 n k) = RefValue.xfOf (X m c) n k :=
  rows_R2 m outs c n k

theorem Warr2_entry (k : Fin 512) (v : Fin 40000) :
    Warr2 (entry2 m outs) c (ix2 k (⟨v.val, by have := v.isLt; omega⟩ : Fin 40960))
      = RefValue.WOf (Wt m c) k (Spec.col 10000 v.val) :=
  ((wcols_R2 m outs c k _).trans (dif_pos v.isLt)).trans
    (congrArg (fun a => Wt m c (ix2 k a)) (Fin.ext (by have := v.isLt; simp only [Spec.col]; omega)))

theorem Barr2_entry (v : Fin 40000) :
    Barr2 (entry2 m outs) c (ix2 0 (⟨v.val, by have := v.isLt; omega⟩ : Fin 40960))
      = RefValue.bOf (Bs m c) (Spec.col 10000 v.val) :=
  ((bcols_R2 m outs c _).trans (dif_pos v.isLt)).trans
    (congrArg (fun a => Bs m c (ix2 0 a)) (Fin.ext (by have := v.isLt; simp only [Spec.col]; omega)))

theorem row2_entry (n : Fin 4096) (v : Fin 40000) :
    row2 (entry2 m outs) c n v
      = Spec.logit (RefValue.xfOf (X m c)) (RefValue.WOf (Wt m c)) (RefValue.bOf (Bs m c)) n (Spec.col 10000 v.val) := by
  unfold row2 Spec.logit
  exact congrArg₂ (· + ·)
    (Finset.sum_congr rfl fun k _ => congrArg₂ (· * ·) (Xarr2_entry m outs c n k) (Warr2_entry m outs c k v))
    (Barr2_entry m outs c v)

theorem Xarr2_real (hx : ∀ i, ∃ r : ℝ, X m c i = (r : EReal)) (i : S4096x512.Idx) :
    ∃ s : ℝ, Xarr2 (entry2 m outs) c i = (s : EReal) := by
  obtain ⟨n, k, rfl⟩ : ∃ (n : Fin 4096) (k : Fin 512), i = ix2 n k := ⟨i 0, i 1, eq_ix2 i⟩
  rw [Xarr2_entry m outs c n k]
  exact hx _

theorem Warr2_real (hw : ∀ i, ∃ r : ℝ, Wt m c i = (r : EReal)) (i : S512x40960.Idx) :
    ∃ s : ℝ, Warr2 (entry2 m outs) c i = (s : EReal) := by
  obtain ⟨k, j, rfl⟩ : ∃ (k : Fin 512) (j : Fin 40960), i = ix2 k j := ⟨i 0, i 1, eq_ix2 i⟩
  rw [show Warr2 (entry2 m outs) c (ix2 k j) = _ from wcols_R2 m outs c k j]
  split
  · exact hw _
  · exact ⟨0, rfl⟩

theorem Barr2_real (hb : ∀ i, ∃ r : ℝ, Bs m c i = (r : EReal)) (i : S1x40960.Idx) :
    ∃ s : ℝ, Barr2 (entry2 m outs) c i = (s : EReal) := by
  obtain ⟨j, rfl⟩ : ∃ j : Fin 40960, i = ix2 (0 : Fin 1) j :=
    ⟨i 1, (eq_ix2 i).trans (congrArg (fun a : Fin 1 => ix2 a (i 1)) (Subsingleton.elim _ _))⟩
  rw [show Barr2 (entry2 m outs) c (ix2 0 j) = _ from bcols_R2 m outs c j]
  split
  · exact hb _
  · exact ⟨0, rfl⟩

theorem lse2_value (hx : ∀ i, ∃ r : ℝ, X m c i = (r : EReal)) (hw : ∀ i, ∃ r : ℝ, Wt m c i = (r : EReal))
    (hb : ∀ i, ∃ r : ℝ, Bs m c i = (r : EReal)) (n : Fin 4096) :
    ((dat2 (entry2 m outs) c).arrAt 3 cfg2.N : S4096x1.Idx → EReal) (ix2 n 0)
      = Ideal.log (∑ v : Fin 40000, Ideal.exp (Spec.logit (RefValue.xfOf (X m c)) (RefValue.WOf (Wt m c))
          (RefValue.bOf (Bs m c)) n (Spec.col 10000 v.val))) := by
  refine (arr2_apply (entry2 m outs) c (fun n => Ideal.log (∑ v : Fin 40000, Ideal.exp (row2 (entry2 m outs) c n v)))
    (fun t hlast r n hn => out_flush2 (entry2 m outs) c (Xarr2_real m outs c hx) (Warr2_real m outs c hw)
      (Barr2_real m outs c hb) t hlast r n hn) n).trans ?_
  exact congrArg Ideal.log (Finset.sum_congr rfl fun v _ => congrArg Ideal.exp (row2_entry m outs c n v))

end Cert.KernelIdeal.Fr

end
-- ==== Proof.RefValue.Rows.lean ====
import Idealize.ShloMosaic.Lib.StackMember
import Idealize.ShloMosaic.Lib.Pipeline.Value
import Idealize.ShloMosaic.PureOps.Ideal.Laws
import Idealize.ShloMosaic.PureOps.Reduce
import proofs.«420015_j11879879541904_3_alg».proof.Proof.Spec
import proofs.«420015_j11879879541904_3_alg».proof.Proof.LibOnlineLse
import proofs.«420015_j11879879541904_3_alg».proof.Proof.RefValue.Views

noncomputable section

namespace Cert.RefValue

open Idealize.ShloMosaic Idealize.ShloMosaic.ValueIdx Idealize.ShloMosaic.StackMember

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem lift_row {m V : Nat} (h : (⟨2, ![m, V]⟩ : Shape).Reduces [1] (⟨1, ![m]⟩ : Shape)) (n : Fin m)
    (k : Fin ((⟨2, ![m, V]⟩ : Shape).size 1)) : h.lift (ix1 n) k = ix2 n (⟨k.val, k.isLt⟩ : Fin V) := by
  funext c; apply Fin.ext
  fin_cases c <;> rfl

theorem hostReduce_max_row {m V : Nat} (z : FVec Ideal ⟨2, ![m, V]⟩ .f32)
    (h' : (⟨2, ![m, V]⟩ : Shape).ReducesTo [1] (⟨1, ![m]⟩ : Shape))
    (h : (⟨2, ![m, V]⟩ : Shape).Reduces [1] (⟨1, ![m]⟩ : Shape)) (hu : 0 < (⟨0, ![]⟩ : Shape).numel) (n : Fin m) :
    Host.reduce FloatOps.maximumf z (constant (F := Ideal) (⟨0, ![]⟩ : Shape) .f32 0xFF800000#32) h' hu (ix1 n)
      = (Finset.univ : Finset (Fin V)).fold max (⊥ : EReal) (fun k => z (ix2 n k)) := by
  rw [Host.reduce_eq_fold_single FloatOps.maximumf z _ h' h hu]
  have hf : (z ∘ h.lift (ix1 n)) = fun k : Fin V => z (ix2 n k) := funext fun k => congrArg z (lift_row h n k)
  have hb : (constant (F := Ideal) (⟨0, ![]⟩ : Shape) .f32 0xFF800000#32) (Shape.Idx.first hu) = (⊥ : EReal) :=
    ofBits_neg_inf
  rw [hb]
  exact congrArg (fun f => Finset.fold max (⊥ : EReal) f (Finset.univ : Finset (Fin V))) hf

theorem sum_real {κ : Type*} (s : Finset κ) (f : κ → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := ih (fun k hk => hf k (Finset.mem_insert_of_mem hk))
    obtain ⟨q, hq⟩ := hf a (Finset.mem_insert_self a s)
    exact ⟨q + r, by rw [Finset.sum_insert ha, hq, hr, EReal.coe_add]⟩

theorem affine_real {K : Nat} (a w : Fin K → EReal) (c : EReal) (ha : ∀ k, ∃ r : ℝ, a k = (r : EReal))
    (hw : ∀ k, ∃ r : ℝ, w k = (r : EReal)) (hc : ∃ r : ℝ, c = (r : EReal)) :
    ∃ r : ℝ, (∑ k, a k * w k) + c = (r : EReal) := by
  obtain ⟨s, hs⟩ := sum_real Finset.univ (fun k => a k * w k) (fun k _ => by
    obtain ⟨p, hp⟩ := ha k
    obtain ⟨q, hq⟩ := hw k
    exact ⟨p * q, by rw [hp, hq, EReal.coe_mul]⟩)
  obtain ⟨t, ht⟩ := hc
  exact ⟨s + t, by rw [hs, ht, EReal.coe_add]⟩

section Spec

variable (xf : Fin 4096 → Fin 512 → EReal) (cw : Fin 512 → Fin 3 → EReal) (cb : Fin 3 → EReal)
  (W : Fin 512 → Fin 50000 → EReal) (b : Fin 50000 → EReal)

theorem cl_real (hx : ∀ n k, ∃ r : ℝ, xf n k = (r : EReal)) (hw : ∀ k j, ∃ r : ℝ, cw k j = (r : EReal))
    (hb : ∀ j, ∃ r : ℝ, cb j = (r : EReal)) (n : Fin 4096) (j : Fin 3) :
    ∃ r : ℝ, Cert.Spec.cl xf cw cb n j = (r : EReal) :=
  affine_real (xf n) (fun k => cw k j) (cb j) (hx n) (fun k => hw k j) (hb j)

theorem logit_real (hx : ∀ n k, ∃ r : ℝ, xf n k = (r : EReal)) (hw : ∀ k v, ∃ r : ℝ, W k v = (r : EReal))
    (hb : ∀ v, ∃ r : ℝ, b v = (r : EReal)) (n : Fin 4096) (v : Fin 50000) :
    ∃ r : ℝ, Cert.Spec.logit xf W b n v = (r : EReal) :=
  affine_real (xf n) (fun k => W k v) (b v) (hx n) (fun k => hw k v) (hb v)

end Spec

-- A product of matrices read at (n, j) is the sum over the contracted coordinate; a one-row matrix broadcast down the rows reads its row.
theorem affine_apply {m k w : ℕ} (A : FVec Ideal ⟨2, ![m, k]⟩ .f32) (B : FVec Ideal ⟨2, ![k, w]⟩ .f32)
    (c : FVec Ideal ⟨2, ![1, w]⟩ .f32) (bc : (⟨2, ![1, w]⟩ : Shape).BroadcastsInDim ⟨2, ![m, w]⟩ ![0, 1]) (n : Fin m) (j : Fin w) :
    addf (Host.dotGeneral (DotDims.plain m k w) none A B) (broadcastInDim _ ![0, 1] bc c) (ix2 n j)
      = (∑ q : Fin k, A (ix2 n q) * B (ix2 q j)) + c (ix2 0 j) := by
  rw [addf_apply, dotGeneral_plain_apply, broadcastInDim_apply _ bc c (ix2 n j) (ix2 0 j) fun a => by
    match a with
    | ⟨0, _⟩ => rfl
    | ⟨1, _⟩ => show j.val = if w = 1 then 0 else j.val; split <;> omega]

def logSoftmax {m w : ℕ} (z : FVec Ideal ⟨2, ![m, w]⟩ .f32) (hr : (⟨2, ![m, w]⟩ : Shape).ReducesTo [1] ⟨1, ![m]⟩)
    (hu : 0 < (⟨0, ![]⟩ : Shape).numel) (b0 : (⟨0, ![]⟩ : Shape).BroadcastsInDim ⟨1, ![m]⟩ ![])
    (b1 : (⟨1, ![m]⟩ : Shape).BroadcastsInDim ⟨2, ![m, 1]⟩ ![0])
    (b2 : (⟨2, ![m, 1]⟩ : Shape).BroadcastsInDim ⟨2, ![m, w]⟩ ![0, 1]) : FVec Ideal ⟨2, ![m, w]⟩ .f32 :=
  let s := subf z (broadcastInDim _ ![0, 1] b2 (broadcastInDim _ ![0] b1
    (maximumf (broadcastInDim _ ![] b0 (constant ⟨0, ![]⟩ .f32 0xFF800000#32))
      (Host.reduce FloatOps.maximumf z (constant ⟨0, ![]⟩ .f32 0xFF800000#32) hr hu))))
  subf s (broadcastInDim _ ![0, 1] b2 (Host.log (broadcastInDim _ ![0] b1
    (Host.reduceAdd (Host.exp s) (constant ⟨0, ![]⟩ .f32 0x00000000#32) hr hu))))

-- Every broadcast reads its operand at the row, and over a real row the shift by the maximum cancels.
theorem logSoftmax_apply {m w : ℕ} (z : FVec Ideal ⟨2, ![m, w]⟩ .f32) (hr : (⟨2, ![m, w]⟩ : Shape).ReducesTo [1] ⟨1, ![m]⟩)
    (hu : 0 < (⟨0, ![]⟩ : Shape).numel) (b0 : (⟨0, ![]⟩ : Shape).BroadcastsInDim ⟨1, ![m]⟩ ![])
    (b1 : (⟨1, ![m]⟩ : Shape).BroadcastsInDim ⟨2, ![m, 1]⟩ ![0])
    (b2 : (⟨2, ![m, 1]⟩ : Shape).BroadcastsInDim ⟨2, ![m, w]⟩ ![0, 1])
    (hr' : (⟨2, ![m, w]⟩ : Shape).Reduces [1] ⟨1, ![m]⟩) (n : Fin m)
    (hz : ∀ k : Fin w, ∃ r : ℝ, z (ix2 n k) = (r : EReal)) (t : Fin w) :
    logSoftmax z hr hu b0 b1 b2 (ix2 n t) = z (ix2 n t) - Ideal.log (∑ k : Fin w, Ideal.exp (z (ix2 n k))) := by
  have e2 := fun (y : FVec Ideal ⟨2, ![m, 1]⟩ .f32) (t : Fin w) => broadcastInDim_apply _ b2 y (ix2 n t) (ix2 n 0) fun a => by
    match a with
    | ⟨0, _⟩ => show n.val = if m = 1 then 0 else n.val; split <;> omega
    | ⟨1, _⟩ => rfl
  have e1 := fun y : FVec Ideal ⟨1, ![m]⟩ .f32 => broadcastInDim_apply _ b1 y (ix2 n 0) (ix1 n) fun a => by
    match a with
    | ⟨0, _⟩ => show n.val = if m = 1 then 0 else n.val; split <;> omega
  have hs : ∀ t, subf z (broadcastInDim _ ![0, 1] b2 (broadcastInDim _ ![0] b1
      (maximumf (broadcastInDim _ ![] b0 (constant ⟨0, ![]⟩ .f32 0xFF800000#32))
        (Host.reduce FloatOps.maximumf z (constant ⟨0, ![]⟩ .f32 0xFF800000#32) hr hu)))) (ix2 n t)
      = z (ix2 n t) - max ⊥ (Finset.univ.fold max ⊥ fun k : Fin w => z (ix2 n k)) := fun t => by
    rw [subf_apply, e2, e1, maximumf_apply, hostReduce_max_row z hr hr' hu n]
    exact congrArg (fun v => _ - max v _) ofBits_neg_inf
  refine Eq.trans ?_ (Cert.LibOnlineLse.logsoftmax_max_shift_mem Finset.univ (fun k => z (ix2 n k)) (fun v _ => hz v) t
    (Finset.mem_univ t))
  unfold logSoftmax
  rw [subf_apply, e2, hs]
  show _ - Ideal.log (_ : EReal) = _
  rw [e1]
  refine congrArg (fun v => _ - Ideal.log v) (((Ideal.hostReduceAdd_single hr hr' _ _ _).trans
    (congrArg₂ (· + ·) ofBits_zero (Finset.sum_congr rfl fun k _ => ?_))).trans (zero_add _))
  show Ideal.exp (_ : EReal) = _
  rw [lift_row hr' n k, hs]
  rfl

-- A column cut out of a matrix and flattened reads the matrix at that column.
theorem headCol_apply {m w : ℕ} (v : FVec Ideal ⟨2, ![m, w]⟩ .f32) (j : Fin w)
    (hs : (⟨2, ![m, w]⟩ : Shape).Slices ![0, j.val] ⟨2, ![m, 1]⟩) (hc : (⟨2, ![m, 1]⟩ : Shape).ShapeCasts ⟨1, ![m]⟩) (n : Fin m) :
    shapeCast ⟨1, ![m]⟩ (extractStridedSlice ⟨2, ![m, 1]⟩ ![0, j.val] v hs) hc (ix1 n) = v (ix2 n j) := by
  refine (shapeCast_apply _ hc (ix1 n) (ix2 n 0) ?_).trans (extractStridedSlice_apply _ v hs _ _ fun a => ?_)
  · rw [Shape.rowMajor_val_two, Shape.rowMajor_val_one]
    show n.val * 1 + 0 = n.val
    omega
  · match a with
    | ⟨0, _⟩ => exact (Nat.zero_add _).symm
    | ⟨1, _⟩ => rfl

-- Token `n` of the flattened sequences is step `n % 1024` of row `n / 1024`.
theorem flatten_hidden_apply (x : FVec Ideal ⟨3, ![4, 1025, 512]⟩ .f32)
    (hs : (⟨3, ![4, 1025, 512]⟩ : Shape).Slices ![0, 0, 0] ⟨3, ![4, 1024, 512]⟩)
    (hc : (⟨3, ![4, 1024, 512]⟩ : Shape).ShapeCasts ⟨2, ![4096, 512]⟩) (n : Fin 4096) (k : Fin 512) :
    shapeCast ⟨2, ![4096, 512]⟩ (extractStridedSlice ⟨3, ![4, 1024, 512]⟩ ![0, 0, 0] x hs) hc (ix2 n k) = xfOf x n k := by
  have hn := n.isLt
  refine (shapeCast_apply _ hc (ix2 n k) (ix3 (⟨n.val / 1024, by omega⟩ : Fin 4) (⟨n.val % 1024, Nat.mod_lt _ (by decide)⟩ : Fin 1024) k) ?_).trans ?_
  · rw [Shape.rowMajor_val_three, Shape.rowMajor_val_two]
    show (n.val / 1024 * 1024 + n.val % 1024) * 512 + k.val = n.val * 512 + k.val
    omega
  · exact extractStridedSlice_apply _ x hs _ _ fun a => match a with
      | ⟨0, _⟩ => by show n.val / 1024 = 0 + n.val / 1024; omega
      | ⟨1, _⟩ => by show n.val % 1024 = 0 + n.val % 1024; omega
      | ⟨2, _⟩ => by show k.val = 0 + k.val; omega

theorem flatten_labels_apply (y : IVec ⟨2, ![4, 1024]⟩ 32) (hc : (⟨2, ![4, 1024]⟩ : Shape).ShapeCasts ⟨1, ![4096]⟩) (n : Fin 4096) :
    shapeCast ⟨1, ![4096]⟩ y hc (ix1 n) = yOf y n := by
  have hn := n.isLt
  refine shapeCast_apply _ hc (ix1 n) _ ?_
  rw [Shape.rowMajor_val_two, Shape.rowMajor_val_one]
  show n.val / 1024 * 1024 + n.val % 1024 = n.val
  omega

end Cert.RefValue

end
-- ==== Proof.KernelIdeal.Host.Head.lean ====
import proofs.«420015_j11879879541904_3_alg».proof.Proof.Gen.KernelIdeal
import proofs.«420015_j11879879541904_3_alg».proof.Proof.RefValue.Rows

noncomputable section

namespace Cert.KernelIdeal.HostValue

open Idealize.ShloMosaic Idealize.ShloMosaic.ValueIdx Cert.KernelIdeal
open Facts₀

export Cert.RefValue (flatten_hidden_apply flatten_labels_apply)

def headLogits (x1 : FVec Ideal S4096x512 .f32) (cw : FVec Ideal S512x3 .f32) (cb : FVec Ideal S1x3 .f32) : FVec Ideal S4096x3 .f32 :=
  addf (Host.dotGeneral dot_S4096x512_S512x3_S4096x3_1_0_0_1_n_n none x1 cw) (broadcastInDim S4096x3 ![0, 1] bcast_S1x3_S4096x3_0_1 cb)

theorem headLogits_apply (x1 : FVec Ideal S4096x512 .f32) (cw : FVec Ideal S512x3 .f32) (cb : FVec Ideal S1x3 .f32)
    (n : Fin 4096) (j : Fin 3) :
    headLogits x1 cw cb (ix2 n j) = (∑ k : Fin 512, x1 (ix2 n k) * cw (ix2 k j)) + cb (ix2 0 j) :=
  RefValue.affine_apply x1 cw cb bcast_S1x3_S4096x3_0_1 n j

def logSoftmax (z : FVec Ideal S4096x3 .f32) : FVec Ideal S4096x3 .f32 :=
  RefValue.logSoftmax z reducesTo_S4096x3_S4096_d1 h_S_ bcast_S_S4096 bcast_S4096_S4096x1_0 bcast_S4096x1_S4096x3_0_1

theorem logSoftmax_real (z : FVec Ideal S4096x3 .f32) (hz : ∀ i, ∃ r : ℝ, z i = (r : EReal)) (n : Fin 4096) (j : Fin 3) :
    logSoftmax z (ix2 n j) = z (ix2 n j) - Ideal.log (∑ j' : Fin 3, Ideal.exp (z (ix2 n j'))) :=
  RefValue.logSoftmax_apply z _ _ _ _ _ (by decide) n (fun _ => hz _) j

end Cert.KernelIdeal.HostValue

end
-- ==== Proof.KernelIdeal.Host.Entry.lean ====
import proofs.«420015_j11879879541904_3_alg».proof.Proof.KernelIdeal.Regions
import proofs.«420015_j11879879541904_3_alg».proof.Proof.Spec
import proofs.«420015_j11879879541904_3_alg».proof.Proof.LibOnlineLse
import proofs.«420015_j11879879541904_3_alg».proof.Proof.RefValue.Views
import proofs.«420015_j11879879541904_3_alg».proof.Proof.KernelIdeal.Host.Head
import Idealize.ShloMosaic.Lib.StableHlo.Run

noncomputable section

namespace Cert.KernelIdeal.HostValue

open Idealize.ShloMosaic Idealize.ShloMosaic.TcCoe
open Idealize.SL Idealize.SL.Sem
open Idealize.ShloMosaic.ValueIdx Cert.KernelIdeal Cert.KernelIdeal.Gen Idealize.ShloMosaic.StableHlo

local notation "𝕀" => Idealize.ShloMosaic.Ideal

macro "carry_buf " r:term : tactic => `(tactic| (repeat (first
  | rw [Gen.V35_of _ _ _ $r (by decide)] | rw [Gen.V34_of _ _ _ $r (by decide)] | rw [Gen.V33_of _ _ _ $r (by decide)]
  | rw [Gen.V32_of _ _ _ $r (by decide)] | rw [Gen.V31_of _ _ _ $r (by decide)] | rw [Gen.V30_of _ _ _ $r (by decide)]
  | rw [Gen.V29_of _ _ _ $r (by decide)] | rw [Gen.V28_of _ _ _ $r (by decide)] | rw [Gen.V27_of _ _ _ $r (by decide)]
  | rw [Gen.V26_of _ _ _ $r (by decide)] | rw [Gen.V25_of _ _ _ $r (by decide)] | rw [Gen.V24_of _ _ _ $r (by decide)]
  | rw [Gen.V23_of _ _ _ $r (by decide)] | rw [Gen.V22_of _ _ _ $r (by decide)] | rw [Gen.V21_of _ _ _ $r (by decide)]
  | rw [Gen.V20_of _ _ _ $r (by decide)] | rw [Gen.V19_of _ _ _ $r (by decide)] | rw [Gen.V18_of _ _ _ $r (by decide)]
  | rw [Gen.V17_of _ _ _ $r (by decide)] | rw [Gen.V16_of _ _ _ $r (by decide)] | rw [Gen.V15_of _ _ _ $r (by decide)]
  | rw [Gen.V14_of _ _ _ $r (by decide)] | rw [Gen.V13_of _ _ _ $r (by decide)] | rw [Gen.V12_of _ _ _ $r (by decide)]
  | rw [Gen.V11_of _ _ _ $r (by decide)] | rw [Gen.V10_of _ _ _ $r (by decide)] | rw [Gen.V9_of _ _ _ $r (by decide)]
  | rw [Gen.V8_of _ _ _ $r (by decide)] | rw [Gen.V7_of _ _ _ $r (by decide)] | rw [Gen.V6_of _ _ $r (by decide)]
  | rw [Gen.V5_of _ _ $r (by decide)] | rw [Gen.V4_of _ _ $r (by decide)] | rw [Gen.V3_of _ _ $r (by decide)]
  | rw [Gen.V2_of _ _ $r (by decide)] | rw [Gen.V1_of _ _ $r (by decide)])))

variable (m : (ℓ : Loc nD τ sig) → Buf (Elt 𝕀) ℓ) (outs : Gen.Outs (F := 𝕀)) (c : Dev nD)

abbrev arrX : FVec 𝕀 ⟨3, ![4, 1025, 512]⟩ .f32 := m ((c : Thread nD τ).loc main_arg0)
abbrev arrY : IVec ⟨2, ![4, 1024]⟩ 32 := m ((c : Thread nD τ).loc main_arg1)
abbrev arrCw : FVec 𝕀 ⟨2, ![512, 3]⟩ .f32 := m ((c : Thread nD τ).loc main_arg2)
abbrev arrCb : FVec 𝕀 ⟨2, ![1, 3]⟩ .f32 := m ((c : Thread nD τ).loc main_arg3)
abbrev arrW : FVec 𝕀 ⟨2, ![512, 50000]⟩ .f32 := m ((c : Thread nD τ).loc main_arg4)
abbrev arrB : FVec 𝕀 ⟨2, ![1, 50000]⟩ .f32 := m ((c : Thread nD τ).loc main_arg5)

abbrev lse0 (n : Fin 4096) : EReal := (outs 7 main_v14 c : S4096x1.Idx → EReal) (ix2 n 0)
abbrev lse1 (n : Fin 4096) : EReal := (outs 18 main_v52 c : S4096x1.Idx → EReal) (ix2 n 0)
abbrev lse2 (n : Fin 4096) : EReal := (outs 29 main_v90 c : S4096x1.Idx → EReal) (ix2 n 0)

theorem v1_eq : (Gen.V1 m c main_v1 : FVec 𝕀 S4096x512 .f32)
    = shapeCast S4096x512 (extractStridedSlice S4x1024x512 ![0, 0, 0] (arrX m c) slices_S4x1025x512_S4x1024x512_0_0_0)
        shapeCasts_S4x1024x512_S4096x512 := by
  show StableHlo.after hostOps0 (Gen.V0 m c) (Proc.devRef .tc main_v1) = _
  after_results
  rfl

theorem v2_eq : (Gen.V1 m c main_v2 : IVec S4096 32) = shapeCast S4096 (arrY m c) shapeCasts_S4x1024_S4096 := by
  show StableHlo.after hostOps0 (Gen.V0 m c) (Proc.devRef .tc main_v2) = _
  after_results
  rfl

theorem v5_eq : (Gen.V1 m c main_v5 : FVec 𝕀 S4096x3 .f32)
    = headLogits (Gen.V1 m c main_v1) (arrCw m c) (arrCb m c) := by
  show StableHlo.after hostOps0 (Gen.V0 m c) (Proc.devRef .tc main_v5)
    = headLogits (StableHlo.after hostOps0 (Gen.V0 m c) (Proc.devRef .tc main_v1)) _ _
  after_results
  rfl

set_option maxHeartbeats 2000000 in
theorem v6_eq : (Gen.V2 m c main_v6 : FVec 𝕀 S4096x3 .f32) = logSoftmax (Gen.V1 m c main_v5) := by
  show StableHlo.after hostOps0_1 (Gen.V1 m c) (Proc.devRef .tc main_v6) = _
  generalize Gen.V1 m c = Vp
  after_results_simp
  rfl

theorem v9_eq : (Gen.V3 m c main_v9 : FVec 𝕀 S4096 .f32)
    = broadcastInDim S4096 ![] bcast_S_S4096 (constant (F := 𝕀) S_ .f32 0x00000000#32) := by
  show StableHlo.after hostOps0_2 (Gen.V2 m c) (Proc.devRef .tc main_v9) = _
  generalize Gen.V2 m c = Vp
  after_results

theorem x1_apply (n : Fin 4096) (k : Fin 512) :
    (Gen.V1 m c main_v1 : FVec 𝕀 S4096x512 .f32) (ix2 n k) = RefValue.xfOf (arrX m c) n k := by
  rw [v1_eq]
  exact flatten_hidden_apply _ _ _ n k

theorem y2_apply (n : Fin 4096) : (Gen.V1 m c main_v2 : IVec S4096 32) (ix1 n) = RefValue.yOf (arrY m c) n := by
  rw [v2_eq]
  exact flatten_labels_apply _ _ n

theorem v9_apply (n : Fin 4096) : (Gen.V3 m c main_v9 : FVec 𝕀 S4096 .f32) (ix1 n) = (0 : EReal) := by
  rw [v9_eq]
  show Ideal.ofBits .f32 0x00000000#32 = 0
  exact Ideal.ofBits_zero_f32

theorem real_contraction {N : ℕ} (a b : Fin N → EReal) (d : EReal) (ha : ∀ k, ∃ r : ℝ, a k = (r : EReal))
    (hb : ∀ k, ∃ r : ℝ, b k = (r : EReal)) (hd : ∃ r : ℝ, d = (r : EReal)) : ∃ r : ℝ, (∑ k, a k * b k) + d = (r : EReal) := by
  choose ra hra using ha
  choose rb hrb using hb
  obtain ⟨rd, rfl⟩ := hd
  refine ⟨(∑ k, ra k * rb k) + rd, ?_⟩
  rw [EReal.coe_add, LibOnlineLse.coe_sum]
  congr 1
  exact Finset.sum_congr rfl fun k _ => by rw [hra k, hrb k, EReal.coe_mul]

theorem z_apply (n : Fin 4096) (j : Fin 3) :
    (Gen.V1 m c main_v5 : FVec 𝕀 S4096x3 .f32) (ix2 n j)
      = Spec.cl (RefValue.xfOf (arrX m c)) (RefValue.cwOf (arrCw m c)) (RefValue.cbOf (arrCb m c)) n j := by
  rw [v5_eq, headLogits_apply]
  show _ = (∑ k : Fin 512, RefValue.xfOf (arrX m c) n k * RefValue.cwOf (arrCw m c) k j) + RefValue.cbOf (arrCb m c) j
  congr 1
  exact Finset.sum_congr rfl fun k _ => by rw [x1_apply]; rfl

theorem head_apply (hx : ∀ i, ∃ r : ℝ, arrX m c i = (r : EReal)) (hcw : ∀ i, ∃ r : ℝ, arrCw m c i = (r : EReal))
    (hcb : ∀ i, ∃ r : ℝ, arrCb m c i = (r : EReal)) (n : Fin 4096) (j : Fin 3) :
    (Gen.V2 m c main_v6 : FVec 𝕀 S4096x3 .f32) (ix2 n j)
      = Spec.cll (RefValue.xfOf (arrX m c)) (RefValue.cwOf (arrCw m c)) (RefValue.cbOf (arrCb m c)) n j := by
  have hz : ∀ i : S4096x3.Idx, ∃ r : ℝ, (Gen.V1 m c main_v5 : FVec 𝕀 S4096x3 .f32) i = (r : EReal) := fun i => by
    have hi : i = ix2 (⟨(i 0).val, (i 0).isLt⟩ : Fin 4096) (⟨(i 1).val, (i 1).isLt⟩ : Fin 3) := eq_ix2 i
    rw [hi, z_apply]
    exact real_contraction _ _ _ (fun k => hx _) (fun k => hcw _) (hcb _)
  rw [v6_eq, logSoftmax_real _ hz]
  show _ = Spec.cl _ _ _ n j - Ideal.log (∑ j' : Fin 3, Ideal.exp (Spec.cl _ _ _ n j'))
  rw [z_apply]
  congr 2
  exact Finset.sum_congr rfl fun j' _ => by rw [z_apply]

end Cert.KernelIdeal.HostValue

end
-- ==== Proof.KernelIdeal.Host.Words.lean ====
import proofs.«420015_j11879879541904_3_alg».proof.Proof.Spec
import Idealize.ShloMosaic.Lib.Affine
import Idealize.ShloMosaic.Lib.StableHlo.Predicate

namespace Cert.KernelIdeal.HostValue

open Idealize.ShloMosaic

def tgtWord (lo wm1 yv : BitVec 32) : BitVec 32 :=
  IntOp.addi (IntOp.minsi wm1 (IntOp.maxsi 0#32 (IntOp.subi yv lo))) lo

theorem toInt_ofNat_lt (a : ℕ) (ha : a < 2 ^ 31) : (BitVec.ofNat 32 a).toInt = (a : ℤ) :=
  StableHlo.Predicate.toInt_ofNat_small a ha

theorem clip_toInt (width : ℕ) (hw : 0 < width) (hW : width < 2 ^ 31) (d : BitVec 32) :
    (IntOp.minsi (BitVec.ofNat 32 (width - 1)) (IntOp.maxsi 0#32 d)).toInt = max 0 (min ((width : ℤ) - 1) d.toInt) := by
  have hwm : (BitVec.ofNat 32 (width - 1)).toInt = (width : ℤ) - 1 := by
    rw [toInt_ofNat_lt _ (by omega)]; omega
  have h0 : (0#32 : BitVec 32).toInt = 0 := by decide
  unfold IntOp.minsi IntOp.maxsi
  simp only [BitVec.slt_eq_decide, decide_eq_true_eq, hwm, h0]
  by_cases hd : d.toInt < 0
  · rw [if_pos hd]
    simp only [h0]
    rw [if_neg (by omega)]
    rw [h0]; omega
  · rw [if_neg hd]
    by_cases hb : (width : ℤ) - 1 < d.toInt
    · rw [if_pos hb, hwm]; omega
    · rw [if_neg hb]; omega

theorem tgtWord_toInt (lo width : ℕ) (hw : 0 < width) (hhi : lo + width ≤ 50000) (yv : BitVec 32) :
    (tgtWord (BitVec.ofNat 32 lo) (BitVec.ofNat 32 (width - 1)) yv).toInt = ((lo + Spec.tgt lo width yv : ℕ) : ℤ) := by
  have hc := clip_toInt width hw (by omega) (IntOp.subi yv (BitVec.ofNat 32 lo))
  have hlo : (BitVec.ofNat 32 lo).toInt = (lo : ℤ) := toInt_ofNat_lt lo (by omega)
  unfold tgtWord
  generalize IntOp.minsi (BitVec.ofNat 32 (width - 1)) (IntOp.maxsi 0#32 (IntOp.subi yv (BitVec.ofNat 32 lo))) = t at hc ⊢
  unfold IntOp.addi
  rw [BitVec.toInt_add, hc, hlo]
  unfold Spec.tgt
  show (max 0 (min ((width : ℤ) - 1) (yv - BitVec.ofNat 32 lo).toInt) + (lo : ℤ)).bmod (2 ^ 32) = _
  generalize (yv - BitVec.ofNat 32 lo).toInt = di
  have h1 : 0 ≤ max 0 (min ((width : ℤ) - 1) di) := le_max_left _ _
  have h2 : max 0 (min ((width : ℤ) - 1) di) ≤ (width : ℤ) - 1 := by omega
  rw [Nat.cast_add, Int.toNat_of_nonneg h1]
  generalize max 0 (min ((width : ℤ) - 1) di) = c at h1 h2 ⊢
  unfold Int.bmod
  have e : (c + (lo : ℤ)) % ((2 : ℕ) ^ 32 : ℕ) = c + lo := Int.emod_eq_of_lt (by omega) (by push_cast; omega)
  simp only [e]
  push_cast
  split <;> omega

theorem tgt_lt (lo width : ℕ) (hw : 0 < width) (yv : BitVec 32) : Spec.tgt lo width yv < width := by
  unfold Spec.tgt
  generalize (yv - BitVec.ofNat 32 lo).toInt = di
  omega

theorem col_tgt_val (lo width : ℕ) (hw : 0 < width) (hhi : lo + width ≤ 50000) (yv : BitVec 32) :
    (Spec.col lo (Spec.tgt lo width yv)).val = lo + Spec.tgt lo width yv := by
  have := tgt_lt lo width hw yv
  show min (lo + Spec.tgt lo width yv) 49999 = _
  omega

theorem owns_iff (lo hi : ℕ) (hlo : lo < 2 ^ 31) (hhi : hi < 2 ^ 31) (yv : BitVec 32) :
    IntOp.andi (IntOp.cmpi .sge yv (BitVec.ofNat 32 lo)) (IntOp.cmpi .slt yv (BitVec.ofNat 32 hi)) = 1#1 ↔ Spec.owns lo hi yv := by
  rw [IntOp.andi_eq_one]
  unfold IntOp.cmpi Spec.owns
  simp only [StableHlo.Predicate.ofBool_eq_one_iff, BitVec.slt_eq_decide, BitVec.sle_eq_decide, decide_eq_true_eq,
    toInt_ofNat_lt lo hlo, toInt_ofNat_lt hi hhi]

end Cert.KernelIdeal.HostValue
-- ==== Proof.KernelIdeal.Host.Take.lean ====
import proofs.«420015_j11879879541904_3_alg».proof.Proof.Gen.KernelIdeal
import Idealize.ShloMosaic.Lib.ValueIdx
import Idealize.ShloMosaic.Lib.Pipeline.Value

noncomputable section

namespace Cert.KernelIdeal.HostValue

open Idealize.ShloMosaic Idealize.ShloMosaic.ValueIdx Cert.KernelIdeal
open Facts₀

variable {α : Type}

private theorem colGather_row (idx : IVec S4096x1 32) (k : Fin 512) (n : Fin 4096) :
    (gather_S512x50000_S4096x1_S512x4096_0_1_n_n_1_1_5121.operandIdx (ix2 k n) idx 0).val = k.val := by
  show gather_S512x50000_S4096x1_S512x4096_0_1_n_n_1_1_5121.start (ix2 k n) idx 0
    + gather_S512x50000_S4096x1_S512x4096_0_1_n_n_1_1_5121.batchCoord (ix2 k n) 0
    + gather_S512x50000_S4096x1_S512x4096_0_1_n_n_1_1_5121.offCoord (ix2 k n) 0 = _
  rw [GatherDims.batchCoord_eq_zero _ _ _ List.not_mem_nil]
  unfold GatherDims.start
  rw [dif_neg (show ¬(0 : Fin S512x50000.rank) ∈ gather_S512x50000_S4096x1_S512x4096_0_1_n_n_1_1_5121.startIndexMap by decide)]
  unfold GatherDims.offCoord
  rw [dif_pos (show (0 : Fin S512x50000.rank) ∈ gather_S512x50000_S4096x1_S512x4096_0_1_n_n_1_1_5121.sKept by decide)]
  show 0 + 0 + k.val = k.val
  omega

private theorem colGather_col (idx : IVec S4096x1 32) (k : Fin 512) (n : Fin 4096) :
    (gather_S512x50000_S4096x1_S512x4096_0_1_n_n_1_1_5121.operandIdx (ix2 k n) idx 1).val
      = min (idx (ix2 n 0)).toInt.toNat 49999 := by
  show gather_S512x50000_S4096x1_S512x4096_0_1_n_n_1_1_5121.start (ix2 k n) idx 1
    + gather_S512x50000_S4096x1_S512x4096_0_1_n_n_1_1_5121.batchCoord (ix2 k n) 1
    + gather_S512x50000_S4096x1_S512x4096_0_1_n_n_1_1_5121.offCoord (ix2 k n) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin S512x50000.rank) ∈ gather_S512x50000_S4096x1_S512x4096_0_1_n_n_1_1_5121.startIndexMap from
    List.mem_singleton.mpr rfl)]
  have hsi : gather_S512x50000_S4096x1_S512x4096_0_1_n_n_1_1_5121.siIdx (ix2 k n)
      ⟨List.idxOf (1 : Fin S512x50000.rank) gather_S512x50000_S4096x1_S512x4096_0_1_n_n_1_1_5121.startIndexMap,
        List.idxOf_lt_length_iff.2 (List.mem_singleton.mpr rfl)⟩ = ix2 n 0 := by
    funext b; refine Fin.ext ?_
    match b with
    | ⟨0, _⟩ => rfl
    | ⟨1, _⟩ => rfl
  rw [hsi]
  rfl

theorem colGather_apply (W : S512x50000.Idx → α) (idx : IVec S4096x1 32) (k : Fin 512) (n : Fin 4096) :
    Host.gather gather_S512x50000_S4096x1_S512x4096_0_1_n_n_1_1_5121 W idx (ix2 k n)
      = W (ix2 k (⟨min (idx (ix2 n 0)).toInt.toNat 49999, by omega⟩ : Fin 50000)) := by
  unfold Host.gather
  refine congrArg W (funext fun a => Fin.ext ?_)
  match a with
  | ⟨0, _⟩ => exact colGather_row idx k n
  | ⟨1, _⟩ => exact colGather_col idx k n

private theorem biasGather_row (idx : IVec S4096x2 32) (n : Fin 4096) :
    (gather_S1x50000_S4096x2_S4096_n_01_n_n_01_1_11.operandIdx (ix1 n) idx 0).val = 0 := by
  show gather_S1x50000_S4096x2_S4096_n_01_n_n_01_1_11.start (ix1 n) idx 0
    + gather_S1x50000_S4096x2_S4096_n_01_n_n_01_1_11.batchCoord (ix1 n) 0
    + gather_S1x50000_S4096x2_S4096_n_01_n_n_01_1_11.offCoord (ix1 n) 0 = _
  rw [GatherDims.batchCoord_eq_zero _ _ _ List.not_mem_nil,
    GatherDims.offCoord_eq_zero _ _ _ (fun h => ((GatherDims.mem_sKept _ _).mp h).1 (by decide))]
  simp only [Nat.add_zero]
  have := gather_S1x50000_S4096x2_S4096_n_01_n_n_01_1_11.start_le (ix1 n) idx 0
  have e : S1x50000.size 0 - gather_S1x50000_S4096x2_S4096_n_01_n_n_01_1_11.sliceSizes 0 = 0 := rfl
  omega

private theorem biasGather_col (idx : IVec S4096x2 32) (n : Fin 4096) :
    (gather_S1x50000_S4096x2_S4096_n_01_n_n_01_1_11.operandIdx (ix1 n) idx 1).val
      = min (idx (ix2 n 1)).toInt.toNat 49999 := by
  show gather_S1x50000_S4096x2_S4096_n_01_n_n_01_1_11.start (ix1 n) idx 1
    + gather_S1x50000_S4096x2_S4096_n_01_n_n_01_1_11.batchCoord (ix1 n) 1
    + gather_S1x50000_S4096x2_S4096_n_01_n_n_01_1_11.offCoord (ix1 n) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin S1x50000.rank) ∈ gather_S1x50000_S4096x2_S4096_n_01_n_n_01_1_11.startIndexMap by decide)]
  have hsi : gather_S1x50000_S4096x2_S4096_n_01_n_n_01_1_11.siIdx (ix1 n)
      ⟨List.idxOf (1 : Fin S1x50000.rank) gather_S1x50000_S4096x2_S4096_n_01_n_n_01_1_11.startIndexMap,
        List.idxOf_lt_length_iff.2 (by decide)⟩ = ix2 n 1 := by
    funext b; refine Fin.ext ?_
    match b with
    | ⟨0, _⟩ => rfl
    | ⟨1, _⟩ => rfl
  rw [hsi]
  rfl

theorem biasGather_apply (b : S1x50000.Idx → α) (idx : IVec S4096x2 32) (n : Fin 4096) :
    Host.gather gather_S1x50000_S4096x2_S4096_n_01_n_n_01_1_11 b idx (ix1 n)
      = b (ix2 (0 : Fin 1) (⟨min (idx (ix2 n 1)).toInt.toNat 49999, by omega⟩ : Fin 50000)) := by
  unfold Host.gather
  refine congrArg b (funext fun a => Fin.ext ?_)
  match a with
  | ⟨0, _⟩ => exact biasGather_row idx n
  | ⟨1, _⟩ => exact biasGather_col idx n

end Cert.KernelIdeal.HostValue

end
-- ==== Proof.KernelIdeal.Host.Stage.lean ====
import proofs.«420015_j11879879541904_3_alg».proof.Proof.Gen.KernelIdeal
import proofs.«420015_j11879879541904_3_alg».proof.Proof.Spec
import proofs.«420015_j11879879541904_3_alg».proof.Proof.KernelIdeal.Host.Words
import proofs.«420015_j11879879541904_3_alg».proof.Proof.KernelIdeal.Host.Take
import Idealize.ShloMosaic.Lib.ValueIdx
import Idealize.ShloMosaic.Lib.Pipeline.Value
import Idealize.ShloMosaic.PureOps.Ideal.Laws

noncomputable section

namespace Cert.KernelIdeal.HostValue

open Idealize.ShloMosaic Idealize.ShloMosaic.ValueIdx Cert.KernelIdeal
open Facts₀

local notation "𝕀" => Idealize.ShloMosaic.Ideal

abbrev splat (v : BitVec 32) : IVec S4096 32 := broadcastInDim S4096 ![] bcast_S_S4096 (constantI S_ 32 v)

def tgtCols (lo wm1 : BitVec 32) (y2 : IVec S4096 32) : IVec S4096 32 :=
  addi (minsi (splat wm1) (maxsi (splat 0#32) (subi y2 (splat lo)))) (splat lo)

theorem tgtCols_apply (lo wm1 : BitVec 32) (y2 : IVec S4096 32) (n : Fin 4096) :
    tgtCols lo wm1 y2 (ix1 n) = tgtWord lo wm1 (y2 (ix1 n)) := rfl

def wrapIdx (t : IVec S4096 32) : IVec S4096 32 :=
  select (cmpi .slt t (splat 0#32)) (addi t (splat 50000#32)) t

theorem wrapIdx_apply (t : IVec S4096 32) (n : Fin 4096) (h0 : 0 ≤ (t (ix1 n)).toInt) :
    wrapIdx t (ix1 n) = t (ix1 n) := by
  show Scalar.select (IntOp.cmpi .slt (t (ix1 n)) 0#32) _ _ = _
  have : IntOp.cmpi .slt (t (ix1 n)) 0#32 = 0#1 := by
    unfold IntOp.cmpi
    simp only [BitVec.slt_eq_decide]
    rw [show (0#32 : BitVec 32).toInt = 0 by decide, decide_eq_false (by omega)]
    rfl
  rw [this]
  exact select_zero _ _

def startIdx (t : IVec S4096 32) : IVec S4096x1 32 := broadcastInDim S4096x1 ![0] bcast_S4096_S4096x1_0 (wrapIdx t)

theorem startIdx_apply (t : IVec S4096 32) (n : Fin 4096) : startIdx t (ix2 n 0) = wrapIdx t (ix1 n) :=
  broadcastInDim_apply _ bcast_S4096_S4096x1_0 _ (ix2 n 0) (ix1 n) fun a => match a with
    | ⟨0, _⟩ => rfl

def inRange (t : IVec S4096 32) : IVec S4096 1 :=
  Host.reduce IntOp.andi
    (andi (cmpi .sge (startIdx t) (broadcastInDim S4096x1 ![] bcast_S_S4096x1 (constantI S_ 32 0#32)))
      (cmpi .sle (startIdx t) (broadcastInDim S4096x1 ![0, 1] bcast_S1x1_S4096x1_0_1
        (broadcastInDim S1x1 ![1] bcast_S1_S1x1_1 (constantI S1 32 49999#32)))))
    (constantI S_ 1 1#1) reducesTo_S4096x1_S4096_d1 h_S_

theorem lift_unit (h : S4096x1.Reduces [1] S4096) (n : Fin 4096) (j : Fin (S4096x1.size 1)) :
    h.lift (ix1 n) j = ix2 n (0 : Fin 1) := by
  funext c; apply Fin.ext
  have hj : j.val < 1 := j.isLt
  have : j.val = 0 := by omega
  fin_cases c
  · rfl
  · exact this

theorem fold_andi_ones {ι : Type} (s : Finset ι) (f : ι → BitVec 1) (h : ∀ i ∈ s, f i = 1#1) :
    s.fold IntOp.andi 1#1 f = 1#1 := by
  classical
  induction s using Finset.induction_on with
  | empty => rfl
  | insert a s ha ih =>
    rw [Finset.fold_insert ha, h a (Finset.mem_insert_self _ _), ih fun i hi => h i (Finset.mem_insert_of_mem hi)]
    decide

theorem inRange_apply (t : IVec S4096 32) (n : Fin 4096) (h0 : 0 ≤ (t (ix1 n)).toInt) (h1 : (t (ix1 n)).toInt ≤ 49999) :
    inRange t (ix1 n) = 1#1 := by
  unfold inRange
  rw [Host.reduce_eq_fold_single IntOp.andi _ _ reducesTo_S4096x1_S4096_d1 (by decide) h_S_]
  refine fold_andi_ones _ _ fun k _ => ?_
  show IntOp.andi (IntOp.cmpi .sge (startIdx t (_)) 0#32) (IntOp.cmpi .sle (startIdx t (_)) 49999#32) = 1#1
  rw [lift_unit _ n k, startIdx_apply, wrapIdx_apply t n h0]
  have e1 : IntOp.cmpi .sge (t (ix1 n)) 0#32 = 1#1 := by
    unfold IntOp.cmpi
    simp only [BitVec.sle_eq_decide]
    rw [show (0#32 : BitVec 32).toInt = 0 by decide, decide_eq_true h0]
    rfl
  have e2 : IntOp.cmpi .sle (t (ix1 n)) 49999#32 = 1#1 := by
    unfold IntOp.cmpi
    simp only [BitVec.sle_eq_decide]
    rw [show (49999#32 : BitVec 32).toInt = 49999 by decide, decide_eq_true h1]
    rfl
  rw [e1, e2]
  decide

def takeCols (W : FVec 𝕀 S512x50000 .f32) (t : IVec S4096 32) : FVec 𝕀 S512x4096 .f32 :=
  select (broadcastInDim S512x4096 ![1] bcast_S4096_S512x4096_1 (inRange t))
    (Host.gather gather_S512x50000_S4096x1_S512x4096_0_1_n_n_1_1_5121 W (startIdx t))
    (broadcastInDim S512x4096 ![] bcast_S_S512x4096 (constant S_ .f32 0x7FC00000#32))

theorem takeCols_apply (W : FVec 𝕀 S512x50000 .f32) (t : IVec S4096 32) (k : Fin 512) (n : Fin 4096) (v : Fin 50000)
    (hv : (t (ix1 n)).toInt = (v.val : ℤ)) : takeCols W t (ix2 k n) = W (ix2 k v) := by
  have hlt := v.isLt
  have h0 : 0 ≤ (t (ix1 n)).toInt := by omega
  have h1 : (t (ix1 n)).toInt ≤ 49999 := by omega
  show Scalar.select (broadcastInDim S512x4096 ![1] bcast_S4096_S512x4096_1 (inRange t) (ix2 k n)) _ _ = _
  rw [show broadcastInDim S512x4096 ![1] bcast_S4096_S512x4096_1 (inRange t) (ix2 k n) = inRange t (ix1 n) from
    broadcastInDim_apply _ bcast_S4096_S512x4096_1 _ (ix2 k n) (ix1 n) fun a => match a with | ⟨0, _⟩ => rfl,
    inRange_apply t n h0 h1, select_one, colGather_apply]
  refine congrArg W (congrArg (ix2 k) (Fin.ext ?_))
  show min (startIdx t (ix2 n 0)).toInt.toNat 49999 = v.val
  rw [startIdx_apply, wrapIdx_apply t n h0]
  omega

def biasIdx (t : IVec S4096 32) : IVec S4096x2 32 :=
  concatenate S4096x2 1 [⟨S4096x1, broadcastInDim S4096x1 ![0] bcast_S4096_S4096x1_0 (splat 0#32)⟩, ⟨S4096x1, startIdx t⟩]
    concatenates_S4096x1_S4096x1_S4096x2_d1

theorem biasIdx_col (t : IVec S4096 32) (n : Fin 4096) : biasIdx t (ix2 n 1) = startIdx t (ix2 n 0) :=
  concatenate_pair_apply_right 1 _ _ concatenates_S4096x1_S4096x1_S4096x2_d1 (ix2 n 1) rfl rfl (ix2 n 0)
    (fun b hb => match b with
      | ⟨0, _⟩ => rfl
      | ⟨1, _⟩ => absurd rfl hb)
    rfl

def biasAt (b : FVec 𝕀 S1x50000 .f32) (t : IVec S4096 32) : FVec 𝕀 S4096 .f32 :=
  Host.gather gather_S1x50000_S4096x2_S4096_n_01_n_n_01_1_11 b (biasIdx t)

theorem biasAt_apply (b : FVec 𝕀 S1x50000 .f32) (t : IVec S4096 32) (n : Fin 4096) (v : Fin 50000)
    (hv : (t (ix1 n)).toInt = (v.val : ℤ)) : biasAt b t (ix1 n) = b (ix2 0 v) := by
  have hlt := v.isLt
  have h0 : 0 ≤ (t (ix1 n)).toInt := by omega
  unfold biasAt
  rw [biasGather_apply]
  refine congrArg b (congrArg (ix2 0) (Fin.ext ?_))
  show min (biasIdx t (ix2 n 1)).toInt.toNat 49999 = v.val
  rw [biasIdx_col, startIdx_apply, wrapIdx_apply t n h0]
  omega

theorem lift_feature (h : S4096x512.Reduces [1] S4096) (n : Fin 4096) (k : Fin (S4096x512.size 1)) :
    h.lift (ix1 n) k = ix2 n (⟨k.val, k.isLt⟩ : Fin 512) := by
  funext c; apply Fin.ext
  fin_cases c <;> rfl

def tailLp (x1 : FVec 𝕀 S4096x512 .f32) (cols : FVec 𝕀 S512x4096 .f32) (bias : FVec 𝕀 S4096 .f32) (lse : FVec 𝕀 S4096x1 .f32) :
    FVec 𝕀 S4096 .f32 :=
  subf (addf (Host.reduceAdd (mulf x1 (transpose S4096x512 [1, 0] cols transposes_S512x4096_S4096x512_1_0))
      (constant S_ .f32 0x00000000#32) reducesTo_S4096x512_S4096_d1 h_S_) bias)
    (shapeCast S4096 lse shapeCasts_S4096x1_S4096)

theorem tailLp_apply (x1 : FVec 𝕀 S4096x512 .f32) (cols : FVec 𝕀 S512x4096 .f32) (bias : FVec 𝕀 S4096 .f32)
    (lse : FVec 𝕀 S4096x1 .f32) (n : Fin 4096) :
    tailLp x1 cols bias lse (ix1 n) = ((∑ k : Fin 512, x1 (ix2 n k) * cols (ix2 k n)) + bias (ix1 n)) - lse (ix2 n 0) := by
  show (Ideal.hostReduceAdd reducesTo_S4096x512_S4096_d1 (mulf x1 (transpose S4096x512 [1, 0] cols transposes_S512x4096_S4096x512_1_0))
      (Ideal.ofBits .f32 0x00000000#32) (ix1 n) + bias (ix1 n)) - shapeCast S4096 lse shapeCasts_S4096x1_S4096 (ix1 n) = _
  rw [Ideal.hostReduceAdd_single reducesTo_S4096x512_S4096_d1 (by decide), Ideal.ofBits_zero_f32, zero_add]
  congr 1
  · congr 1
    refine Finset.sum_congr rfl fun k _ => ?_
    rw [lift_feature _ n k]
    show x1 (ix2 n _) * transpose S4096x512 [1, 0] cols transposes_S512x4096_S4096x512_1_0 (ix2 n _) = _
    congr 1
    exact transpose_apply _ cols transposes_S512x4096_S4096x512_1_0 (ix2 n _) (ix2 _ n) fun b => match b with
      | ⟨0, _⟩ => rfl
      | ⟨1, _⟩ => rfl
  · refine shapeCast_apply lse shapeCasts_S4096x1_S4096 (ix1 n) (ix2 n 0) ?_
    rw [Shape.rowMajor_val_two, Shape.rowMajor_val_one]
    show n.val * 1 + 0 = n.val
    omega

def ownMask (lo hi : BitVec 32) (y2 : IVec S4096 32) : IVec S4096 1 :=
  andi (cmpi .sge y2 (splat lo)) (cmpi .slt y2 (splat hi))

theorem ownMask_apply (lo hi : BitVec 32) (y2 : IVec S4096 32) (n : Fin 4096) :
    ownMask lo hi y2 (ix1 n) = IntOp.andi (IntOp.cmpi .sge (y2 (ix1 n)) lo) (IntOp.cmpi .slt (y2 (ix1 n)) hi) := rfl

def headCol (st : Fin 2 → ℕ) (hs : S4096x3.Slices st S4096x1) (v6 : FVec 𝕀 S4096x3 .f32) : FVec 𝕀 S4096 .f32 :=
  shapeCast S4096 (extractStridedSlice S4096x1 st v6 hs) shapeCasts_S4096x1_S4096

theorem headCol_apply (j : Fin 3) (hs : S4096x3.Slices ![0, j.val] S4096x1) (v6 : FVec 𝕀 S4096x3 .f32) (n : Fin 4096) :
    headCol ![0, j.val] hs v6 (ix1 n) = v6 (ix2 n j) := by
  refine (shapeCast_apply _ shapeCasts_S4096x1_S4096 (ix1 n) (ix2 n 0) ?_).trans ?_
  · rw [Shape.rowMajor_val_two, Shape.rowMajor_val_one]
    show n.val * 1 + 0 = n.val
    omega
  · exact extractStridedSlice_apply _ v6 hs _ _ fun a => match a with
      | ⟨0, _⟩ => by show n.val = 0 + n.val; omega
      | ⟨1, _⟩ => by show j.val = j.val + 0; omega

def stageVal (mask : IVec S4096 1) (head tail prev : FVec 𝕀 S4096 .f32) : FVec 𝕀 S4096 .f32 :=
  select mask (Host.negf (addf head tail)) prev

theorem stageVal_apply (mask : IVec S4096 1) (head tail prev : FVec 𝕀 S4096 .f32) (n : Fin 4096) :
    stageVal mask head tail prev (ix1 n) = if mask (ix1 n) = 1#1 then -(head (ix1 n) + tail (ix1 n)) else prev (ix1 n) := rfl

theorem cluster_stage (lo width : ℕ) (hw : 0 < width) (hhi : lo + width ≤ 50000) (j : Fin 3)
    (hs : S4096x3.Slices ![0, j.val] S4096x1)
    (x1 : FVec 𝕀 S4096x512 .f32) (y2 : IVec S4096 32) (W : FVec 𝕀 S512x50000 .f32) (b : FVec 𝕀 S1x50000 .f32)
    (v6 : FVec 𝕀 S4096x3 .f32) (lse : FVec 𝕀 S4096x1 .f32) (prev : FVec 𝕀 S4096 .f32) (n : Fin 4096) :
    stageVal (ownMask (BitVec.ofNat 32 lo) (BitVec.ofNat 32 (lo + width)) y2) (headCol ![0, j.val] hs v6)
        (tailLp x1 (takeCols W (tgtCols (BitVec.ofNat 32 lo) (BitVec.ofNat 32 (width - 1)) y2))
          (biasAt b (tgtCols (BitVec.ofNat 32 lo) (BitVec.ofNat 32 (width - 1)) y2)) lse) prev (ix1 n)
      = if Spec.owns lo (lo + width) (y2 (ix1 n)) then
          -(v6 (ix2 n j)
            + (((∑ k : Fin 512, x1 (ix2 n k) * W (ix2 k (Spec.col lo (Spec.tgt lo width (y2 (ix1 n))))))
                + b (ix2 0 (Spec.col lo (Spec.tgt lo width (y2 (ix1 n)))))) - lse (ix2 n 0)))
        else prev (ix1 n) := by
  have hv : (tgtCols (BitVec.ofNat 32 lo) (BitVec.ofNat 32 (width - 1)) y2 (ix1 n)).toInt
      = ((Spec.col lo (Spec.tgt lo width (y2 (ix1 n)))).val : ℤ) := by
    rw [tgtCols_apply, tgtWord_toInt lo width hw hhi, col_tgt_val lo width hw hhi]
  rw [stageVal_apply, ownMask_apply, headCol_apply, tailLp_apply, biasAt_apply b _ n _ hv]
  have hm := owns_iff lo (lo + width) (by omega) (by omega) (y2 (ix1 n))
  by_cases ho : Spec.owns lo (lo + width) (y2 (ix1 n))
  · rw [if_pos (hm.mpr ho), if_pos ho]
    simp only [takeCols_apply W _ _ n _ hv]
  · rw [if_neg (fun h => ho (hm.mp h)), if_neg ho]

theorem cluster_stage_at (lo width : ℕ) (hw : 0 < width) (hhi : lo + width ≤ 50000) (j : Fin 3)
    (hs : S4096x3.Slices ![0, j.val] S4096x1)
    (x1 : FVec 𝕀 S4096x512 .f32) (y2 : IVec S4096 32) (W : FVec 𝕀 S512x50000 .f32) (b : FVec 𝕀 S1x50000 .f32)
    (v6 : FVec 𝕀 S4096x3 .f32) (lse : FVec 𝕀 S4096x1 .f32) (prev : FVec 𝕀 S4096 .f32) (n : Fin 4096)
    (xrow : Fin 512 → EReal) (yv : BitVec 32) (hd : EReal)
    (hx : ∀ k, x1 (ix2 n k) = xrow k) (hy : y2 (ix1 n) = yv) (hh : v6 (ix2 n j) = hd) :
    stageVal (ownMask (BitVec.ofNat 32 lo) (BitVec.ofNat 32 (lo + width)) y2) (headCol ![0, j.val] hs v6)
        (tailLp x1 (takeCols W (tgtCols (BitVec.ofNat 32 lo) (BitVec.ofNat 32 (width - 1)) y2))
          (biasAt b (tgtCols (BitVec.ofNat 32 lo) (BitVec.ofNat 32 (width - 1)) y2)) lse) prev (ix1 n)
      = if Spec.owns lo (lo + width) yv then
          -(hd + (((∑ k : Fin 512, xrow k * W (ix2 k (Spec.col lo (Spec.tgt lo width yv))))
                + b (ix2 0 (Spec.col lo (Spec.tgt lo width yv)))) - lse (ix2 n 0)))
        else prev (ix1 n) := by
  rw [cluster_stage lo width hw hhi j hs, hy, hh]
  simp only [hx]

end Cert.KernelIdeal.HostValue

end
-- ==== Proof.KernelIdeal.Host.Cluster0.lean ====
import proofs.«420015_j11879879541904_3_alg».proof.Proof.KernelIdeal.Host.Entry
import proofs.«420015_j11879879541904_3_alg».proof.Proof.KernelIdeal.Host.Stage

noncomputable section

namespace Cert.KernelIdeal.HostValue

open Idealize.ShloMosaic Idealize.ShloMosaic.TcCoe
open Idealize.SL Idealize.SL.Sem
open Idealize.ShloMosaic.ValueIdx Cert.KernelIdeal Cert.KernelIdeal.Gen Idealize.ShloMosaic.StableHlo

local notation "𝕀" => Idealize.ShloMosaic.Ideal

variable (m : (ℓ : Loc nD τ sig) → Buf (Elt 𝕀) ℓ) (outs : Gen.Outs (F := 𝕀)) (c : Dev nD)

theorem c0_tgt : (Gen.V10 m outs c main_v19 : IVec S4096 32) = tgtCols 0#32 1999#32 (Gen.V7 m outs c main_v2) := by
  show StableHlo.after hostOps1_2 (StableHlo.after hostOps1_1 (StableHlo.after hostOps1 (Gen.V7 m outs c)))
    (Proc.devRef .tc main_v19) = _
  generalize Gen.V7 m outs c = Vp
  after_results
  rfl

set_option maxHeartbeats 2000000 in

theorem c0_take : (Gen.V11 m outs c main_v20 : FVec 𝕀 S512x4096 .f32)
    = takeCols (Gen.V10 m outs c main_arg4) (Gen.V10 m outs c main_v19) := by
  show StableHlo.after hostOps1_3 (Gen.V10 m outs c) (Proc.devRef .tc main_v20) = _
  generalize Gen.V10 m outs c = Vp
  after_results_simp
  rfl

set_option maxHeartbeats 2000000 in

theorem c0_neg : (Gen.V12 m outs c main_v46 : FVec 𝕀 S4096 .f32)
    = Host.negf (addf (headCol ![0, 0] slices_S4096x3_S4096x1_0_0 (Gen.V11 m outs c main_v6))
        (tailLp (Gen.V11 m outs c main_v1) (Gen.V11 m outs c main_v20)
          (biasAt (Gen.V11 m outs c main_arg5) (Gen.V11 m outs c main_v19)) (Gen.V11 m outs c main_v14))) := by
  show StableHlo.after hostOps1_4 (Gen.V11 m outs c) (Proc.devRef .tc main_v46) = _
  generalize Gen.V11 m outs c = Vp
  after_results_simp
  rfl

set_option maxHeartbeats 2000000 in

theorem c0_mask : (Gen.V12 m outs c main_v42 : IVec S4096 1) = ownMask 0#32 2000#32 (Gen.V11 m outs c main_v2) := by
  show StableHlo.after hostOps1_4 (Gen.V11 m outs c) (Proc.devRef .tc main_v42) = _
  generalize Gen.V11 m outs c = Vp
  after_results_simp
  rfl

theorem c0_out : (Gen.V13 m outs c main_v47 : FVec 𝕀 S4096 .f32)
    = select (Gen.V12 m outs c main_v42) (Gen.V12 m outs c main_v46) (Gen.V12 m outs c main_v9) := by
  show StableHlo.after hostOps1_5 (Gen.V12 m outs c) (Proc.devRef .tc main_v47) = _
  generalize Gen.V12 m outs c = Vp
  after_results
  rfl

theorem c0_lse : Gen.V7 m outs c main_v14 = outs 7 main_v14 c := by
  simp only [Gen.V7, Function.update_self]

set_option maxHeartbeats 4000000 in

theorem stage0 (hx : ∀ i, ∃ r : ℝ, arrX m c i = (r : EReal)) (hcw : ∀ i, ∃ r : ℝ, arrCw m c i = (r : EReal))
    (hcb : ∀ i, ∃ r : ℝ, arrCb m c i = (r : EReal)) (n : Fin 4096) :
    (Gen.V13 m outs c main_v47 : FVec 𝕀 S4096 .f32) (ix1 n)
      = if Spec.owns 0 2000 (RefValue.yOf (arrY m c) n) then
          -(Spec.cll (RefValue.xfOf (arrX m c)) (RefValue.cwOf (arrCw m c)) (RefValue.cbOf (arrCb m c)) n (0 : Fin 3)
            + (Spec.logit (RefValue.xfOf (arrX m c)) (RefValue.WOf (arrW m c)) (RefValue.bOf (arrB m c)) n
                (Spec.col 0 (Spec.tgt 0 2000 (RefValue.yOf (arrY m c) n))) - lse0 outs c n))
        else (Gen.V3 m c main_v9 : FVec 𝕀 S4096 .f32) (ix1 n) := by
  rw [c0_out, c0_mask, c0_neg, c0_take]
  carry_buf main_v19
  rw [c0_tgt]
  carry_buf main_v2
  carry_buf main_v6
  carry_buf main_v1
  carry_buf main_arg4
  carry_buf main_arg5
  carry_buf main_v14
  rw [c0_lse]
  carry_buf main_v9
  exact (cluster_stage_at 0 2000 (by omega) (by omega) (0 : Fin 3) slices_S4096x3_S4096x1_0_0 _ _ _ _ _ _ _ n _ _ _
    (fun k => x1_apply m c n k) (y2_apply m c n) (head_apply m c hx hcw hcb n (0 : Fin 3))).trans rfl

end Cert.KernelIdeal.HostValue

end
-- ==== Proof.KernelIdeal.Host.Cluster1.lean ====
import proofs.«420015_j11879879541904_3_alg».proof.Proof.KernelIdeal.Host.Entry
import proofs.«420015_j11879879541904_3_alg».proof.Proof.KernelIdeal.Host.Stage

noncomputable section

namespace Cert.KernelIdeal.HostValue

open Idealize.ShloMosaic Idealize.ShloMosaic.TcCoe
open Idealize.SL Idealize.SL.Sem
open Idealize.ShloMosaic.ValueIdx Cert.KernelIdeal Cert.KernelIdeal.Gen Idealize.ShloMosaic.StableHlo

local notation "𝕀" => Idealize.ShloMosaic.Ideal

variable (m : (ℓ : Loc nD τ sig) → Buf (Elt 𝕀) ℓ) (outs : Gen.Outs (F := 𝕀)) (c : Dev nD)

theorem c1_tgt : (Gen.V21 m outs c main_v57 : IVec S4096 32) = tgtCols 2000#32 7999#32 (Gen.V18 m outs c main_v2) := by
  show StableHlo.after hostOps2_2 (StableHlo.after hostOps2_1 (StableHlo.after hostOps2 (Gen.V18 m outs c)))
    (Proc.devRef .tc main_v57) = _
  generalize Gen.V18 m outs c = Vp
  after_results
  rfl

set_option maxHeartbeats 2000000 in

theorem c1_take : (Gen.V22 m outs c main_v58 : FVec 𝕀 S512x4096 .f32)
    = takeCols (Gen.V21 m outs c main_arg4) (Gen.V21 m outs c main_v57) := by
  show StableHlo.after hostOps2_3 (Gen.V21 m outs c) (Proc.devRef .tc main_v58) = _
  generalize Gen.V21 m outs c = Vp
  after_results_simp
  rfl

set_option maxHeartbeats 2000000 in

theorem c1_neg : (Gen.V23 m outs c main_v84 : FVec 𝕀 S4096 .f32)
    = Host.negf (addf (headCol ![0, 1] slices_S4096x3_S4096x1_0_1 (Gen.V22 m outs c main_v6))
        (tailLp (Gen.V22 m outs c main_v1) (Gen.V22 m outs c main_v58)
          (biasAt (Gen.V22 m outs c main_arg5) (Gen.V22 m outs c main_v57)) (Gen.V22 m outs c main_v52))) := by
  show StableHlo.after hostOps2_4 (Gen.V22 m outs c) (Proc.devRef .tc main_v84) = _
  generalize Gen.V22 m outs c = Vp
  after_results_simp
  rfl

set_option maxHeartbeats 2000000 in

theorem c1_mask : (Gen.V23 m outs c main_v80 : IVec S4096 1) = ownMask 2000#32 10000#32 (Gen.V22 m outs c main_v2) := by
  show StableHlo.after hostOps2_4 (Gen.V22 m outs c) (Proc.devRef .tc main_v80) = _
  generalize Gen.V22 m outs c = Vp
  after_results_simp
  rfl

theorem c1_out : (Gen.V24 m outs c main_v85 : FVec 𝕀 S4096 .f32)
    = select (Gen.V23 m outs c main_v80) (Gen.V23 m outs c main_v84) (Gen.V23 m outs c main_v47) := by
  show StableHlo.after hostOps2_5 (Gen.V23 m outs c) (Proc.devRef .tc main_v85) = _
  generalize Gen.V23 m outs c = Vp
  after_results
  rfl

theorem c1_lse : Gen.V18 m outs c main_v52 = outs 18 main_v52 c := by
  simp only [Gen.V18, Function.update_self]

set_option maxHeartbeats 4000000 in

theorem stage1 (hx : ∀ i, ∃ r : ℝ, arrX m c i = (r : EReal)) (hcw : ∀ i, ∃ r : ℝ, arrCw m c i = (r : EReal))
    (hcb : ∀ i, ∃ r : ℝ, arrCb m c i = (r : EReal)) (n : Fin 4096) :
    (Gen.V24 m outs c main_v85 : FVec 𝕀 S4096 .f32) (ix1 n)
      = if Spec.owns 2000 10000 (RefValue.yOf (arrY m c) n) then
          -(Spec.cll (RefValue.xfOf (arrX m c)) (RefValue.cwOf (arrCw m c)) (RefValue.cbOf (arrCb m c)) n (1 : Fin 3)
            + (Spec.logit (RefValue.xfOf (arrX m c)) (RefValue.WOf (arrW m c)) (RefValue.bOf (arrB m c)) n
                (Spec.col 2000 (Spec.tgt 2000 8000 (RefValue.yOf (arrY m c) n))) - lse1 outs c n))
        else (Gen.V13 m outs c main_v47 : FVec 𝕀 S4096 .f32) (ix1 n) := by
  rw [c1_out, c1_mask, c1_neg, c1_take]
  carry_buf main_v57
  rw [c1_tgt]
  carry_buf main_v2
  carry_buf main_v6
  carry_buf main_v1
  carry_buf main_arg4
  carry_buf main_arg5
  carry_buf main_v52
  rw [c1_lse]
  carry_buf main_v47
  exact (cluster_stage_at 2000 8000 (by omega) (by omega) (1 : Fin 3) slices_S4096x3_S4096x1_0_1 _ _ _ _ _ _ _ n _ _ _
    (fun k => x1_apply m c n k) (y2_apply m c n) (head_apply m c hx hcw hcb n (1 : Fin 3))).trans rfl

end Cert.KernelIdeal.HostValue

end
-- ==== Proof.KernelIdeal.Host.Cluster2.lean ====
import proofs.«420015_j11879879541904_3_alg».proof.Proof.KernelIdeal.Host.Entry
import proofs.«420015_j11879879541904_3_alg».proof.Proof.KernelIdeal.Host.Stage

noncomputable section

namespace Cert.KernelIdeal.HostValue

open Idealize.ShloMosaic Idealize.ShloMosaic.TcCoe
open Idealize.SL Idealize.SL.Sem
open Idealize.ShloMosaic.ValueIdx Cert.KernelIdeal Cert.KernelIdeal.Gen Idealize.ShloMosaic.StableHlo

local notation "𝕀" => Idealize.ShloMosaic.Ideal

variable (m : (ℓ : Loc nD τ sig) → Buf (Elt 𝕀) ℓ) (outs : Gen.Outs (F := 𝕀)) (c : Dev nD)

theorem c2_tgt : (Gen.V32 m outs c main_v95 : IVec S4096 32) = tgtCols 10000#32 39999#32 (Gen.V29 m outs c main_v2) := by
  show StableHlo.after hostOps3_2 (StableHlo.after hostOps3_1 (StableHlo.after hostOps3 (Gen.V29 m outs c)))
    (Proc.devRef .tc main_v95) = _
  generalize Gen.V29 m outs c = Vp
  after_results
  rfl

set_option maxHeartbeats 2000000 in

theorem c2_take : (Gen.V33 m outs c main_v96 : FVec 𝕀 S512x4096 .f32)
    = takeCols (Gen.V32 m outs c main_arg4) (Gen.V32 m outs c main_v95) := by
  show StableHlo.after hostOps3_3 (Gen.V32 m outs c) (Proc.devRef .tc main_v96) = _
  generalize Gen.V32 m outs c = Vp
  after_results_simp
  rfl

set_option maxHeartbeats 2000000 in

theorem c2_neg : (Gen.V34 m outs c main_v122 : FVec 𝕀 S4096 .f32)
    = Host.negf (addf (headCol ![0, 2] slices_S4096x3_S4096x1_0_2 (Gen.V33 m outs c main_v6))
        (tailLp (Gen.V33 m outs c main_v1) (Gen.V33 m outs c main_v96)
          (biasAt (Gen.V33 m outs c main_arg5) (Gen.V33 m outs c main_v95)) (Gen.V33 m outs c main_v90))) := by
  show StableHlo.after hostOps3_4 (Gen.V33 m outs c) (Proc.devRef .tc main_v122) = _
  generalize Gen.V33 m outs c = Vp
  after_results_simp
  rfl

set_option maxHeartbeats 2000000 in

theorem c2_mask : (Gen.V34 m outs c main_v118 : IVec S4096 1) = ownMask 10000#32 50000#32 (Gen.V33 m outs c main_v2) := by
  show StableHlo.after hostOps3_4 (Gen.V33 m outs c) (Proc.devRef .tc main_v118) = _
  generalize Gen.V33 m outs c = Vp
  after_results_simp
  rfl

theorem c2_out : (Gen.V35 m outs c main_v123 : FVec 𝕀 S4096 .f32)
    = select (Gen.V34 m outs c main_v118) (Gen.V34 m outs c main_v122) (Gen.V34 m outs c main_v85) := by
  show StableHlo.after hostOps3_5 (Gen.V34 m outs c) (Proc.devRef .tc main_v123) = _
  generalize Gen.V34 m outs c = Vp
  after_results
  rfl

theorem c2_lse : Gen.V29 m outs c main_v90 = outs 29 main_v90 c := by
  simp only [Gen.V29, Function.update_self]

set_option maxHeartbeats 4000000 in

theorem stage2 (hx : ∀ i, ∃ r : ℝ, arrX m c i = (r : EReal)) (hcw : ∀ i, ∃ r : ℝ, arrCw m c i = (r : EReal))
    (hcb : ∀ i, ∃ r : ℝ, arrCb m c i = (r : EReal)) (n : Fin 4096) :
    (Gen.V35 m outs c main_v123 : FVec 𝕀 S4096 .f32) (ix1 n)
      = if Spec.owns 10000 50000 (RefValue.yOf (arrY m c) n) then
          -(Spec.cll (RefValue.xfOf (arrX m c)) (RefValue.cwOf (arrCw m c)) (RefValue.cbOf (arrCb m c)) n (2 : Fin 3)
            + (Spec.logit (RefValue.xfOf (arrX m c)) (RefValue.WOf (arrW m c)) (RefValue.bOf (arrB m c)) n
                (Spec.col 10000 (Spec.tgt 10000 40000 (RefValue.yOf (arrY m c) n))) - lse2 outs c n))
        else (Gen.V24 m outs c main_v85 : FVec 𝕀 S4096 .f32) (ix1 n) := by
  rw [c2_out, c2_mask, c2_neg, c2_take]
  carry_buf main_v95
  rw [c2_tgt]
  carry_buf main_v2
  carry_buf main_v6
  carry_buf main_v1
  carry_buf main_arg4
  carry_buf main_arg5
  carry_buf main_v90
  rw [c2_lse]
  carry_buf main_v85
  exact (cluster_stage_at 10000 40000 (by omega) (by omega) (2 : Fin 3) slices_S4096x3_S4096x1_0_2 _ _ _ _ _ _ _ n _ _ _
    (fun k => x1_apply m c n k) (y2_apply m c n) (head_apply m c hx hcw hcb n (2 : Fin 3))).trans rfl

end Cert.KernelIdeal.HostValue

end
-- ==== Proof.KernelIdeal.HostValue.lean ====
import proofs.«420015_j11879879541904_3_alg».proof.Proof.KernelIdeal.Host.Cluster0
import proofs.«420015_j11879879541904_3_alg».proof.Proof.KernelIdeal.Host.Cluster1
import proofs.«420015_j11879879541904_3_alg».proof.Proof.KernelIdeal.Host.Cluster2

noncomputable section

namespace Cert.KernelIdeal.HostValue

open Idealize.ShloMosaic Idealize.ShloMosaic.TcCoe
open Idealize.SL Idealize.SL.Sem
open Idealize.ShloMosaic.ValueIdx Cert.KernelIdeal Cert.KernelIdeal.Gen

local notation "𝕀" => Idealize.ShloMosaic.Ideal

variable (m : (ℓ : Loc nD τ sig) → Buf (Elt 𝕀) ℓ) (outs : Gen.Outs (F := 𝕀)) (c : Dev nD)

theorem kernel_result
    (hx : ∀ i, ∃ r : ℝ, arrX m c i = (r : EReal)) (hcw : ∀ i, ∃ r : ℝ, arrCw m c i = (r : EReal))
    (hcb : ∀ i, ∃ r : ℝ, arrCb m c i = (r : EReal)) (n : Fin 4096) :
    (Gen.V35 m outs c main_v123 : S4096.Idx → EReal) (ix1 n)
      = if Spec.owns 10000 50000 (RefValue.yOf (arrY m c) n) then
          -(Spec.cll (RefValue.xfOf (arrX m c)) (RefValue.cwOf (arrCw m c)) (RefValue.cbOf (arrCb m c)) n 2
            + (Spec.logit (RefValue.xfOf (arrX m c)) (RefValue.WOf (arrW m c)) (RefValue.bOf (arrB m c)) n
                (Spec.col 10000 (Spec.tgt 10000 40000 (RefValue.yOf (arrY m c) n))) - lse2 outs c n))
        else if Spec.owns 2000 10000 (RefValue.yOf (arrY m c) n) then
          -(Spec.cll (RefValue.xfOf (arrX m c)) (RefValue.cwOf (arrCw m c)) (RefValue.cbOf (arrCb m c)) n 1
            + (Spec.logit (RefValue.xfOf (arrX m c)) (RefValue.WOf (arrW m c)) (RefValue.bOf (arrB m c)) n
                (Spec.col 2000 (Spec.tgt 2000 8000 (RefValue.yOf (arrY m c) n))) - lse1 outs c n))
        else if Spec.owns 0 2000 (RefValue.yOf (arrY m c) n) then
          -(Spec.cll (RefValue.xfOf (arrX m c)) (RefValue.cwOf (arrCw m c)) (RefValue.cbOf (arrCb m c)) n 0
            + (Spec.logit (RefValue.xfOf (arrX m c)) (RefValue.WOf (arrW m c)) (RefValue.bOf (arrB m c)) n
                (Spec.col 0 (Spec.tgt 0 2000 (RefValue.yOf (arrY m c) n))) - lse0 outs c n))
        else 0 := by
  rw [stage2 m outs c hx hcw hcb n, stage1 m outs c hx hcw hcb n, stage0 m outs c hx hcw hcb n, v9_apply]

end Cert.KernelIdeal.HostValue

end
-- ==== Proof.RefValue.Hidden.lean ====
import proofs.«420015_j11879879541904_3_alg».proof.Proof.ReferenceIdeal.Stages
import proofs.«420015_j11879879541904_3_alg».proof.Proof.RefValue.Rows

noncomputable section

namespace Cert.RefValue

open Cert.ReferenceIdeal Cert.ReferenceIdeal.Gen Cert.ReferenceIdeal.Read Idealize.ShloMosaic Idealize.ShloMosaic.ValueIdx

theorem hidden_apply (x0 : (⟨S4x1025x512, .f32⟩ : BufTy).Contents (Elt Ideal)) (n : Fin 4096) (k : Fin 512) : val_main_v1 (F := Ideal) x0 (ix2 n k) = xfOf x0 n k :=
  flatten_hidden_apply x0 slices_S4x1025x512_S4x1024x512_0_0_0 shapeCasts_S4x1024x512_S4096x512 n k

theorem label_apply (x1 : (⟨S4x1024, .i32⟩ : BufTy).Contents (Elt Ideal)) (n : Fin 4096) : val_main_v2 (F := Ideal) x1 (ix1 n) = yOf x1 n :=
  flatten_labels_apply x1 shapeCasts_S4x1024_S4096 n

end Cert.RefValue

end
-- ==== Proof.RefValue.Gather.lean ====
import Idealize.ShloMosaic.Lib.ValueIdx
import Idealize.ShloMosaic.PureOps.ShapeOps

noncomputable section

namespace Cert.RefValue

open Idealize.ShloMosaic Idealize.ShloMosaic.ValueIdx

theorem gather_pair_apply {α : Type} {A B N w : Nat} (hA : 0 < A) (hB : 0 < B)
    (d : GatherDims ⟨2, ![A, B]⟩ ⟨2, ![N, 2]⟩ ⟨1, ![N]⟩)
    (hcoll : d.collapsedSliceDims = [0, 1]) (hob : d.operandBatchingDims = [])
    (hsim : d.startIndexMap = [0, 1]) (hivd : d.indexVectorDim = 1)
    (x : (⟨2, ![A, B]⟩ : Shape).Idx → α) (idx : IVec ⟨2, ![N, 2]⟩ w) (n : Fin N) :
    Host.gather d x idx (ix1 n)
      = x (ix2 (⟨min (idx (ix2 n 0)).toInt.toNat (A - 1), by omega⟩ : Fin A)
          (⟨min (idx (ix2 n 1)).toInt.toNat (B - 1), by omega⟩ : Fin B)) := by
  unfold Host.gather
  congr 1
  have hb : ∀ a : Fin 2, a ∉ d.operandBatchingDims := fun a => by rw [hob]; exact List.not_mem_nil
  have hk : ∀ a : Fin 2, a ∉ d.sKept := fun a => by
    rw [GatherDims.mem_sKept, hcoll]
    match a with
    | ⟨0, _⟩ => simp
    | ⟨1, _⟩ => simp
  have hm : ∀ a : Fin 2, a ∈ d.startIndexMap := fun a => by
    rw [hsim]
    match a with
    | ⟨0, _⟩ => simp
    | ⟨1, _⟩ => simp
  have hsl : ∀ a : Fin 2, d.sliceSizes a = 1 := fun a => d.slice_collapsed a (by
    rw [hcoll]
    match a with
    | ⟨0, _⟩ => simp
    | ⟨1, _⟩ => simp)

  have hsi : ∀ (a : Fin 2) (c : Fin d.startIndexMap.length), c.val = a.val → d.siIdx (ix1 n) c = ix2 n a := by
    intro a c hc
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 n : (⟨1, ![N]⟩ : Shape).Idx) X).val = n.val := fun X => by
        have hX : X = 0 := Subsingleton.elim _ _
        subst hX; rfl
      exact e _
    | ⟨1, _⟩ =>
      unfold GatherDims.siIdx
      rw [dif_pos (by rw [hivd])]
      apply Fin.ext
      exact hc
  funext a
  apply Fin.ext
  simp only [GatherDims.operandIdx, GatherDims.batchCoord_eq_zero _ _ _ (hb a), GatherDims.offCoord_eq_zero _ _ _ (hk a),
    Nat.add_zero, GatherDims.start, dif_pos (hm a)]
  rw [hsl a]
  match a with
  | ⟨0, _⟩ =>
    rw [hsi 0 _ (by show List.idxOf (0 : Fin 2) d.startIndexMap = 0; rw [hsim]; simp)]
    rfl
  | ⟨1, _⟩ =>
    rw [hsi 1 _ (by show List.idxOf (1 : Fin 2) d.startIndexMap = 1; rw [hsim]; simp)]
    rfl

end Cert.RefValue

end
-- ==== Proof.RefValue.Words.lean ====
import Idealize.ShloMosaic.Lib.StableHlo.Predicate
import Idealize.ShloMosaic.Lib.Affine
import Idealize.ShloMosaic.Lib.ValueIdx
import proofs.«420015_j11879879541904_3_alg».proof.Proof.Spec

namespace Cert.RefValue

open Idealize.ShloMosaic Idealize.ShloMosaic.StableHlo.Predicate Idealize.ShloMosaic.ValueIdx

theorem mask_iff (lo hi : ℕ) (hlo : lo < 2 ^ 31) (hhi : hi < 2 ^ 31) (yv : BitVec 32) :
    IntOp.andi (IntOp.cmpi .sge yv (BitVec.ofNat 32 lo)) (IntOp.cmpi .slt yv (BitVec.ofNat 32 hi)) = 1#1
      ↔ Cert.Spec.owns lo hi yv := by
  rw [IntOp.andi_eq_one]
  unfold IntOp.cmpi Cert.Spec.owns
  simp only [ofBool_eq_one_iff, BitVec.sle, BitVec.slt, decide_eq_true_eq, toInt_ofNat_small lo hlo,
    toInt_ofNat_small hi hhi]

theorem toInt_maxsi_zero (d : BitVec 32) : (IntOp.maxsi 0#32 d).toInt = max 0 d.toInt := by
  unfold IntOp.maxsi
  have h0 : (0#32 : BitVec 32).toInt = 0 := by decide
  by_cases h : d.slt 0#32 = true
  · rw [if_pos h]
    simp only [BitVec.slt, decide_eq_true_eq, h0] at h
    rw [h0]; omega
  · rw [if_neg h]
    simp only [BitVec.slt, decide_eq_true_eq, h0] at h
    omega

theorem toInt_minsi_ofNat (a : ℕ) (ha : a < 2 ^ 31) (m : BitVec 32) :
    (IntOp.minsi (BitVec.ofNat 32 a) m).toInt = min (a : ℤ) m.toInt := by
  unfold IntOp.minsi
  have h0 := toInt_ofNat_small a ha
  by_cases h : (BitVec.ofNat 32 a).slt m = true
  · rw [if_pos h]
    simp only [BitVec.slt, decide_eq_true_eq, h0] at h
    rw [h0]; omega
  · rw [if_neg h]
    simp only [BitVec.slt, decide_eq_true_eq, h0] at h
    omega

theorem clip_toNat (lo width wm1 : ℕ) (hw : wm1 + 1 = width) (hwid : width < 2 ^ 31) (yv : BitVec 32) :
    (Scalar.select
        (IntOp.cmpi .slt (IntOp.minsi (BitVec.ofNat 32 wm1) (IntOp.maxsi 0#32 (IntOp.subi yv (BitVec.ofNat 32 lo)))) 0#32)
        (IntOp.addi (IntOp.minsi (BitVec.ofNat 32 wm1) (IntOp.maxsi 0#32 (IntOp.subi yv (BitVec.ofNat 32 lo))))
          (BitVec.ofNat 32 width))
        (IntOp.minsi (BitVec.ofNat 32 wm1) (IntOp.maxsi 0#32 (IntOp.subi yv (BitVec.ofNat 32 lo))))).toInt.toNat
      = Cert.Spec.tgt lo width yv := by
  have hc : (IntOp.minsi (BitVec.ofNat 32 wm1) (IntOp.maxsi 0#32 (IntOp.subi yv (BitVec.ofNat 32 lo)))).toInt
      = min (wm1 : ℤ) (max 0 (yv - BitVec.ofNat 32 lo).toInt) := by
    rw [toInt_minsi_ofNat wm1 (by omega), toInt_maxsi_zero]; rfl
  generalize IntOp.minsi (BitVec.ofNat 32 wm1) (IntOp.maxsi 0#32 (IntOp.subi yv (BitVec.ofNat 32 lo))) = c at hc
  have h0 : (0#32 : BitVec 32).toInt = 0 := by decide
  have hn : ¬ IntOp.cmpi .slt c 0#32 = 1#1 := by
    unfold IntOp.cmpi
    simp only [ofBool_eq_one_iff, BitVec.slt, decide_eq_true_eq, h0, hc]
    omega
  rw [eq_zero_of_ne_one hn, select_zero, hc]
  unfold Cert.Spec.tgt
  have e : ((width : ℤ) - 1) = (wm1 : ℤ) := by omega
  rw [e]
  congr 1
  omega

theorem row_toNat (n : ℕ) (hn : n < 4096) :
    (Scalar.select (IntOp.cmpi .slt (BitVec.ofNat 32 n) 0#32) (IntOp.addi (BitVec.ofNat 32 n) 4096#32)
        (BitVec.ofNat 32 n)).toInt.toNat = n := by
  have hneg : ¬ IntOp.cmpi .slt (BitVec.ofNat 32 n) 0#32 = 1#1 := by
    unfold IntOp.cmpi
    have := slt_ofNat_iff n 0 (by omega) (by omega)
    simp only at this ⊢
    rw [this]; omega
  rw [eq_zero_of_ne_one hneg, select_zero, toInt_ofNat_small n (by omega)]
  rfl

theorem tgt_lt (lo width : ℕ) (hw : 0 < width) (yv : BitVec 32) : Cert.Spec.tgt lo width yv < width := by
  unfold Cert.Spec.tgt
  omega

end Cert.RefValue
-- ==== Proof.RefValue.Laws.lean ====
import proofs.«420015_j11879879541904_3_alg».proof.Proof.RefValue.Gather
import proofs.«420015_j11879879541904_3_alg».proof.Proof.RefValue.Words
import proofs.«420015_j11879879541904_3_alg».proof.Proof.RefValue.Rows

noncomputable section

namespace Cert.RefValue

open Idealize.ShloMosaic Idealize.ShloMosaic.ValueIdx

theorem tail_law (lo width wm1 : ℕ) (hw : wm1 + 1 = width)
    (xf : Fin 4096 → Fin 512 → EReal) (y : Fin 4096 → BitVec 32) (W : Fin 512 → Fin 50000 → EReal) (b : Fin 50000 → EReal)
    (hreal : ∀ n v, ∃ r : ℝ, Cert.Spec.logit xf W b n v = (r : EReal))
    (z lsm : FVec Ideal ⟨2, ![4096, width]⟩ .f32) (idx : IVec ⟨2, ![4096, 2]⟩ 32)
    (d : GatherDims ⟨2, ![4096, width]⟩ ⟨2, ![4096, 2]⟩ ⟨1, ![4096]⟩)
    (hcoll : d.collapsedSliceDims = [0, 1]) (hob : d.operandBatchingDims = [])
    (hsim : d.startIndexMap = [0, 1]) (hivd : d.indexVectorDim = 1) (n : Fin 4096)
    (hz : ∀ t : Fin width, z (ix2 n t) = Cert.Spec.logit xf W b n (Cert.Spec.col lo t.val))
    (hlsm : (∀ k : Fin width, ∃ r : ℝ, z (ix2 n k) = (r : EReal)) → ∀ t : Fin width,
      lsm (ix2 n t) = z (ix2 n t) - Ideal.log (∑ k : Fin width, Ideal.exp (z (ix2 n k))))
    (hrow : (idx (ix2 n 0)).toInt.toNat = n.val)
    (hcol : (idx (ix2 n 1)).toInt.toNat = Cert.Spec.tgt lo width (y n)) :
    Host.gather d lsm idx (ix1 n) = Cert.Spec.tailLp xf y W b lo width n := by
  have hpos : 0 < width := by omega
  have htl := tgt_lt lo width hpos (y n)
  rw [gather_pair_apply (by decide) hpos d hcoll hob hsim hivd lsm idx n]
  have e : (ix2 (⟨min (idx (ix2 n 0)).toInt.toNat (4096 - 1), by omega⟩ : Fin 4096)
      (⟨min (idx (ix2 n 1)).toInt.toNat (width - 1), by omega⟩ : Fin width))
      = ix2 n (⟨Cert.Spec.tgt lo width (y n), htl⟩ : Fin width) := by
    have hn := n.isLt
    funext a
    match a with
    | ⟨0, _⟩ => exact Fin.ext (by show min (idx (ix2 n 0)).toInt.toNat (4096 - 1) = n.val; rw [hrow]; omega)
    | ⟨1, _⟩ => exact Fin.ext (by
        show min (idx (ix2 n 1)).toInt.toNat (width - 1) = Cert.Spec.tgt lo width (y n); rw [hcol]; omega)
  rw [e, hlsm fun k => by rw [hz k]; exact hreal n _]
  unfold Cert.Spec.tailLp
  simp only [hz]

end Cert.RefValue

end
-- ==== Proof.RefValue.Head.lean ====
import proofs.«420015_j11879879541904_3_alg».proof.Proof.ReferenceIdeal.Stages
import proofs.«420015_j11879879541904_3_alg».proof.Proof.RefValue.Hidden
import proofs.«420015_j11879879541904_3_alg».proof.Proof.RefValue.Laws

noncomputable section

namespace Cert.RefValue

open Cert.ReferenceIdeal Cert.ReferenceIdeal.Gen Cert.ReferenceIdeal.Read Idealize.ShloMosaic Idealize.ShloMosaic.ValueIdx

variable (x0 : (⟨S4x1025x512, .f32⟩ : BufTy).Contents (Elt Ideal)) (x2 : (⟨S512x3, .f32⟩ : BufTy).Contents (Elt Ideal)) (x3 : (⟨S1x3, .f32⟩ : BufTy).Contents (Elt Ideal))

theorem cl_apply (n : Fin 4096) (j : Fin 3) :
    val_main_v6 (F := Ideal) x0 x2 x3 (ix2 n j) = Cert.Spec.cl (xfOf x0) (cwOf x2) (cbOf x3) n j := by
  refine (affine_apply (val_main_v1 (F := Ideal) x0) x2 x3 bcast_S1x3_S4096x3_0_1 n j).trans ?_
  simp only [hidden_apply]
  rfl

theorem cll0_apply (n : Fin 4096) :
    val_main_v24 (F := Ideal) x0 x2 x3 (ix1 n) = val_main_v7 (F := Ideal) x0 x2 x3 (ix2 n (0 : Fin 3)) :=
  headCol_apply (val_main_v7 (F := Ideal) x0 x2 x3) 0 slices_S4096x3_S4096x1_0_0 shapeCasts_S4096x1_S4096 n

theorem cll1_apply (n : Fin 4096) :
    val_main_v57 (F := Ideal) x0 x2 x3 (ix1 n) = val_main_v7 (F := Ideal) x0 x2 x3 (ix2 n (1 : Fin 3)) :=
  headCol_apply (val_main_v7 (F := Ideal) x0 x2 x3) 1 slices_S4096x3_S4096x1_0_1 shapeCasts_S4096x1_S4096 n

theorem cll2_apply (n : Fin 4096) :
    val_main_v90 (F := Ideal) x0 x2 x3 (ix1 n) = val_main_v7 (F := Ideal) x0 x2 x3 (ix2 n (2 : Fin 3)) :=
  headCol_apply (val_main_v7 (F := Ideal) x0 x2 x3) 2 slices_S4096x3_S4096x1_0_2 shapeCasts_S4096x1_S4096 n

theorem cll_apply (h0 : ∀ i, ∃ r : ℝ, x0 i = (r : EReal)) (h2 : ∀ i, ∃ r : ℝ, x2 i = (r : EReal)) (h3 : ∀ i, ∃ r : ℝ, x3 i = (r : EReal)) (n : Fin 4096) (j : Fin 3) :
    val_main_v7 (F := Ideal) x0 x2 x3 (ix2 n j) = Cert.Spec.cll (xfOf x0) (cwOf x2) (cbOf x3) n j := by
  refine (logSoftmax_apply (val_main_v6 (F := Ideal) x0 x2 x3) reducesTo_S4096x3_S4096_d1 h_S_ bcast_S_S4096 bcast_S4096_S4096x1_0
    bcast_S4096x1_S4096x3_0_1 (by decide) n (fun k => by
      rw [cl_apply]
      exact cl_real (xfOf x0) (cwOf x2) (cbOf x3) (xfOf_real x0 h0) (cwOf_real x2 h2) (cbOf_real x3 h3) n k) j).trans ?_
  simp only [cl_apply]
  rfl

end Cert.RefValue

end
-- ==== Proof.RefValue.Masks.lean ====
import proofs.«420015_j11879879541904_3_alg».proof.Proof.ReferenceIdeal.Stages
import proofs.«420015_j11879879541904_3_alg».proof.Proof.RefValue.Hidden
import proofs.«420015_j11879879541904_3_alg».proof.Proof.RefValue.Words

noncomputable section

namespace Cert.RefValue

open Cert.ReferenceIdeal Cert.ReferenceIdeal.Gen Cert.ReferenceIdeal.Read Idealize.ShloMosaic Idealize.ShloMosaic.ValueIdx

variable (x1 : (⟨S4x1024, .i32⟩ : BufTy).Contents (Elt Ideal))

theorem mask0_iff (n : Fin 4096) : val_main_v13 (F := Ideal) x1 (ix1 n) = 1#1 ↔ Cert.Spec.owns 0 2000 (yOf x1 n) := by
  rw [← label_apply]
  exact mask_iff 0 2000 (by norm_num) (by norm_num) _

theorem mask1_iff (n : Fin 4096) : val_main_v46 (F := Ideal) x1 (ix1 n) = 1#1 ↔ Cert.Spec.owns 2000 10000 (yOf x1 n) := by
  rw [← label_apply]
  exact mask_iff 2000 10000 (by norm_num) (by norm_num) _

theorem mask2_iff (n : Fin 4096) : val_main_v79 (F := Ideal) x1 (ix1 n) = 1#1 ↔ Cert.Spec.owns 10000 50000 (yOf x1 n) := by
  rw [← label_apply]
  exact mask_iff 10000 50000 (by norm_num) (by norm_num) _

end Cert.RefValue

end
-- ==== Proof.RefValue.Tail0.lean ====
import proofs.«420015_j11879879541904_3_alg».proof.Proof.ReferenceIdeal.Stages
import proofs.«420015_j11879879541904_3_alg».proof.Proof.RefValue.Hidden
import proofs.«420015_j11879879541904_3_alg».proof.Proof.RefValue.Laws

noncomputable section

namespace Cert.RefValue

open Cert.ReferenceIdeal Cert.ReferenceIdeal.Gen Cert.ReferenceIdeal.Read Idealize.ShloMosaic Idealize.ShloMosaic.ValueIdx

variable (x0 : (⟨S4x1025x512, .f32⟩ : BufTy).Contents (Elt Ideal)) (x1 : (⟨S4x1024, .i32⟩ : BufTy).Contents (Elt Ideal))
  (x4 : (⟨S512x50000, .f32⟩ : BufTy).Contents (Elt Ideal)) (x5 : (⟨S1x50000, .f32⟩ : BufTy).Contents (Elt Ideal))

-- A slice reads its source at the offset column.
theorem logit_apply (lo w : ℕ) (hlo : lo + w ≤ 50000) (s4 : S512x50000.Slices ![0, lo] ⟨2, ![512, w]⟩)
    (s5 : S1x50000.Slices ![0, lo] ⟨2, ![1, w]⟩) (bc : (⟨2, ![1, w]⟩ : Shape).BroadcastsInDim ⟨2, ![4096, w]⟩ ![0, 1])
    (n : Fin 4096) (t : Fin w) :
    addf (F := Ideal) (Host.dotGeneral (φ₁ := .f32) (φ₂ := .f32) (DotDims.plain 4096 512 w) none (val_main_v1 (F := Ideal) x0)
          (extractStridedSlice _ ![0, lo] x4 s4))
        (broadcastInDim _ ![0, 1] bc (extractStridedSlice _ ![0, lo] x5 s5)) (ix2 n t)
      = Cert.Spec.logit (xfOf x0) (WOf x4) (bOf x5) n (Cert.Spec.col lo t.val) := by
  have ht := t.isLt
  have hc : ∀ {r : ℕ} (k : Fin r) (a : Fin 2), ((ix2 k (Cert.Spec.col lo t.val) : (⟨2, ![r, 50000]⟩ : Shape).Idx) a).val
      = (![0, lo] : Fin 2 → ℕ) a + ((ix2 k t : (⟨2, ![r, w]⟩ : Shape).Idx) a).val := fun k a => by
    match a with
    | ⟨0, _⟩ => exact (Nat.zero_add _).symm
    | ⟨1, _⟩ => show min (lo + t.val) 49999 = lo + t.val; omega
  rw [affine_apply, extractStridedSlice_apply _ x5 s5 _ _ (hc 0)]
  refine congrArg (· + _) (Finset.sum_congr rfl fun k _ => ?_)
  rw [hidden_apply, extractStridedSlice_apply _ x4 s4 _ _ (hc k)]
  rfl

-- Row `n` of the concatenation holds the token's number and the label clipped into the cluster; neither is negative.
theorem pairs_apply (lo width wm1 : ℕ) (hw : wm1 + 1 = width) (hwid : width < 2 ^ 31) (n : Fin 4096) :
    let c := fun v : ℕ => broadcastInDim S4096 ![] bcast_S_S4096 (constantI S_ 32 (BitVec.ofNat 32 v))
    let r := val_main_v3 (F := Ideal)
    let q := minsi (c wm1) (maxsi (c 0) (subi (val_main_v2 (F := Ideal) x1) (c lo)))
    let idx := concatenate S4096x2 1
      [⟨S4096x1, broadcastInDim S4096x1 ![0] bcast_S4096_S4096x1_0 (select (cmpi .slt r (c 0)) (addi r (c 4096)) r)⟩,
        ⟨S4096x1, broadcastInDim S4096x1 ![0] bcast_S4096_S4096x1_0 (select (cmpi .slt q (c 0)) (addi q (c width)) q)⟩]
      concatenates_S4096x1_S4096x1_S4096x2_d1
    (idx (ix2 n 0)).toInt.toNat = n.val ∧ (idx (ix2 n 1)).toInt.toNat = Cert.Spec.tgt lo width (yOf x1 n) := by
  intro c r q idx
  have e1 := fun y : IVec S4096 32 => broadcastInDim_apply _ bcast_S4096_S4096x1_0 y (ix2 n 0) (ix1 n) fun a => by
    match a with | ⟨0, _⟩ => rfl
  constructor
  · exact (congrArg (fun v : BitVec 32 => v.toInt.toNat) ((concatenate_pair_apply_left (1 : Fin S4096x2.rank) _ _
      concatenates_S4096x1_S4096x1_S4096x2_d1 (ix2 n (0 : Fin 2)) rfl (ix2 n (0 : Fin 1))
      (fun b => by match b with | ⟨0, _⟩ => rfl | ⟨1, _⟩ => rfl)).trans (e1 _))).trans (row_toNat n.val n.isLt)
  · refine (congrArg (fun v : BitVec 32 => v.toInt.toNat) ((concatenate_pair_apply_right (1 : Fin S4096x2.rank) _ _
      concatenates_S4096x1_S4096x1_S4096x2_d1 (ix2 n (1 : Fin 2)) rfl rfl (ix2 n (0 : Fin 1))
      (fun b hb => by match b with | ⟨0, _⟩ => rfl | ⟨1, _⟩ => exact absurd rfl hb) rfl).trans (e1 _))).trans ?_
    rw [← label_apply x1 n]
    exact clip_toNat lo width wm1 hw hwid _

variable (h0 : ∀ i, ∃ r : ℝ, x0 i = (r : EReal)) (h4 : ∀ i, ∃ r : ℝ, x4 i = (r : EReal)) (h5 : ∀ i, ∃ r : ℝ, x5 i = (r : EReal))
include h0 h4 h5

theorem tail0_apply (n : Fin 4096) :
    val_main_v38 (F := Ideal) x0 x1 x4 x5 (ix1 n)
      = Cert.Spec.tailLp (xfOf x0) (yOf x1) (WOf x4) (bOf x5) 0 2000 n := by
  have p := pairs_apply x1 0 2000 1999 rfl (by decide) n
  exact tail_law 0 2000 1999 rfl (xfOf x0) (yOf x1) (WOf x4) (bOf x5)
    (logit_real (xfOf x0) (WOf x4) (bOf x5) (xfOf_real x0 h0) (WOf_real x4 h4) (bOf_real x5 h5))
    (val_main_v18 (F := Ideal) x0 x4 x5) (val_main_v19 (F := Ideal) x0 x4 x5) (val_main_v37 (F := Ideal) x1)
    gather_S4096x2000_S4096x2_S4096_n_01_n_n_01_1_11 rfl rfl rfl rfl n
    (logit_apply x0 x4 x5 0 2000 (by decide) slices_S512x50000_S512x2000_0_0 slices_S1x50000_S1x2000_0_0
      bcast_S1x2000_S4096x2000_0_1 n)
    (logSoftmax_apply (val_main_v18 (F := Ideal) x0 x4 x5) reducesTo_S4096x2000_S4096_d1 h_S_ bcast_S_S4096
      bcast_S4096_S4096x1_0 bcast_S4096x1_S4096x2000_0_1 (by decide) n)
    p.1 p.2

theorem tail1_apply (n : Fin 4096) :
    val_main_v71 (F := Ideal) x0 x1 x4 x5 (ix1 n)
      = Cert.Spec.tailLp (xfOf x0) (yOf x1) (WOf x4) (bOf x5) 2000 8000 n := by
  have p := pairs_apply x1 2000 8000 7999 rfl (by decide) n
  exact tail_law 2000 8000 7999 rfl (xfOf x0) (yOf x1) (WOf x4) (bOf x5)
    (logit_real (xfOf x0) (WOf x4) (bOf x5) (xfOf_real x0 h0) (WOf_real x4 h4) (bOf_real x5 h5))
    (val_main_v51 (F := Ideal) x0 x4 x5) (val_main_v52 (F := Ideal) x0 x4 x5) (val_main_v70 (F := Ideal) x1)
    gather_S4096x8000_S4096x2_S4096_n_01_n_n_01_1_11 rfl rfl rfl rfl n
    (logit_apply x0 x4 x5 2000 8000 (by decide) slices_S512x50000_S512x8000_0_2000 slices_S1x50000_S1x8000_0_2000
      bcast_S1x8000_S4096x8000_0_1 n)
    (logSoftmax_apply (val_main_v51 (F := Ideal) x0 x4 x5) reducesTo_S4096x8000_S4096_d1 h_S_ bcast_S_S4096
      bcast_S4096_S4096x1_0 bcast_S4096x1_S4096x8000_0_1 (by decide) n)
    p.1 p.2

theorem tail2_apply (n : Fin 4096) :
    val_main_v104 (F := Ideal) x0 x1 x4 x5 (ix1 n)
      = Cert.Spec.tailLp (xfOf x0) (yOf x1) (WOf x4) (bOf x5) 10000 40000 n := by
  have p := pairs_apply x1 10000 40000 39999 rfl (by decide) n
  exact tail_law 10000 40000 39999 rfl (xfOf x0) (yOf x1) (WOf x4) (bOf x5)
    (logit_real (xfOf x0) (WOf x4) (bOf x5) (xfOf_real x0 h0) (WOf_real x4 h4) (bOf_real x5 h5))
    (val_main_v84 (F := Ideal) x0 x4 x5) (val_main_v85 (F := Ideal) x0 x4 x5) (val_main_v103 (F := Ideal) x1)
    gather_S4096x40000_S4096x2_S4096_n_01_n_n_01_1_11 rfl rfl rfl rfl n
    (logit_apply x0 x4 x5 10000 40000 (by decide) slices_S512x50000_S512x40000_0_10000 slices_S1x50000_S1x40000_0_10000
      bcast_S1x40000_S4096x40000_0_1 n)
    (logSoftmax_apply (val_main_v84 (F := Ideal) x0 x4 x5) reducesTo_S4096x40000_S4096_d1 h_S_ bcast_S_S4096
      bcast_S4096_S4096x1_0 bcast_S4096x1_S4096x40000_0_1 (by decide) n)
    p.1 p.2

end Cert.RefValue

end
-- ==== Proof.RefValue.lean ====
import proofs.«420015_j11879879541904_3_alg».proof.Defs
import proofs.«420015_j11879879541904_3_alg».proof.Proof.RefValue.Head
import proofs.«420015_j11879879541904_3_alg».proof.Proof.RefValue.Masks
import proofs.«420015_j11879879541904_3_alg».proof.Proof.RefValue.Tail0

noncomputable section

namespace Cert.RefValue

open Cert.ReferenceIdeal Cert.ReferenceIdeal.Gen Cert.ReferenceIdeal.Read Idealize.ShloMosaic Idealize.ShloMosaic.ValueIdx

variable (x0 : (⟨S4x1025x512, .f32⟩ : BufTy).Contents (Elt Ideal)) (x1 : (⟨S4x1024, .i32⟩ : BufTy).Contents (Elt Ideal)) (x2 : (⟨S512x3, .f32⟩ : BufTy).Contents (Elt Ideal))
  (x3 : (⟨S1x3, .f32⟩ : BufTy).Contents (Elt Ideal)) (x4 : (⟨S512x50000, .f32⟩ : BufTy).Contents (Elt Ideal)) (x5 : (⟨S1x50000, .f32⟩ : BufTy).Contents (Elt Ideal))
  (h0 : ∀ i, ∃ r : ℝ, x0 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal))

theorem select_of_iff {α : Type} {c : BitVec 1} {p : Prop} [Decidable p] (h : c = 1#1 ↔ p) (a b : α) :
    Scalar.select c a b = if p then a else b := by
  by_cases hp : p
  · rw [if_pos hp, h.mpr hp, select_one]
  · rw [if_neg hp, eq_zero_of_ne_one (fun hc => hp (h.mp hc)), select_zero]

include h0 h2 h3 h4 h5

theorem ref_result (n : Fin 4096) :
    val_main_v107 (F := Ideal) x0 x1 x2 x3 x4 x5 (ix1 n)
      = Cert.Spec.nll (xfOf x0) (yOf x1) (cwOf x2) (cbOf x3) (WOf x4) (bOf x5) n := by
  rw [val_main_v107_apply, val_main_v74_apply, val_main_v41_apply, val_main_v8_apply, val_main_cst_apply,
    val_main_v106_apply, val_main_v105_apply, cll2_apply, tail2_apply x0 x1 x4 x5 h0 h4 h5,
    val_main_v73_apply, val_main_v72_apply, cll1_apply, tail1_apply x0 x1 x4 x5 h0 h4 h5,
    val_main_v40_apply, val_main_v39_apply, cll0_apply, tail0_apply x0 x1 x4 x5 h0 h4 h5,
    cll_apply x0 x2 x3 h0 h2 h3, cll_apply x0 x2 x3 h0 h2 h3, cll_apply x0 x2 x3 h0 h2 h3,
    select_of_iff (mask2_iff x1 n), select_of_iff (mask1_iff x1 n), select_of_iff (mask0_iff x1 n),
    Ideal.ofBits_def, ofBits_zero]
  rfl

end Cert.RefValue

end
-- ==== Proof.PreFinite.lean ====
import proofs.«420015_j11879879541904_3_alg».proof.Pre_finite_inputs
import proofs.«420015_j11879879541904_3_alg».proof.Proof.Gen.Pre_finite_inputs
import Idealize.ShloMosaic.Lib.ReduceAll
import Idealize.ShloMosaic.Lib.ValueIdx
import Idealize.ShloMosaic.PureOps.Ideal

noncomputable section

namespace Cert.PreFinite

open Idealize.ShloMosaic Idealize.ShloMosaic.ValueIdx Cert.Pre_finite_inputs

theorem ofBits_inf : Ideal.ofBits .f32 0x7F800000#32 = (⊤ : EReal) := by
  simp [Ideal.ofBits, Ideal.ieee]

theorem real_of_abs_lt_top (v : EReal) (h : Ideal.cmp .olt (max v (-v)) ⊤ = 1#1) : ∃ r : ℝ, v = (r : EReal) := by
  have hlt : max v (-v) < ⊤ := by
    by_contra hn
    have h' : BitVec.ofBool (decide (max v (-v) < ⊤)) = 1#1 := h
    rw [decide_eq_false hn] at h'
    exact absurd h' (by decide)
  induction v using EReal.rec with
  | bot => simp at hlt
  | coe r => exact ⟨r, rfl⟩
  | top => simp at hlt

instance subsingleton_S_ : Subsingleton S_.Idx := ⟨fun a b => funext fun d => d.elim0⟩

theorem real_of_word {s : Shape} (hb : S_.BroadcastsInDim s (![] : Fin 0 → Fin s.rank)) (v : FVec Ideal s .f32) (i : s.Idx)
    (h : cmpf .olt (Host.absf v) (broadcastInDim s ![] hb (constant S_ .f32 0x7F800000#32)) i = 1#1) :
    ∃ r : ℝ, v i = (r : EReal) := by
  have h' : Ideal.cmp .olt (max (v i) (-(v i))) (Ideal.ofBits .f32 0x7F800000#32) = 1#1 := h
  rw [ofBits_inf] at h'
  exact real_of_abs_lt_top (v i) h'

theorem all_real {s : Shape} {axes : List (Fin s.rank)} (hb : S_.BroadcastsInDim s (![] : Fin 0 → Fin s.rank))
    (hr : s.ReducesTo axes S_) (hu : 0 < S_.numel) (v : FVec Ideal s .f32) (j : S_.Idx)
    (h : Host.reduce IntOp.andi (cmpf .olt (Host.absf v) (broadcastInDim s ![] hb (constant S_ .f32 0x7F800000#32)))
          (constantI S_ 1 1#1) hr hu j = 1#1) :
    ∀ i, ∃ r : ℝ, v i = (r : EReal) :=
  fun i => real_of_word hb v i (Host.reduce_andi_all _ _ hr hu j h i)

theorem reals_of_pre [Cert.Pre_finite_inputs.Facts] (x : FVec Ideal S4x1025x512 .f32) (y : IVec S4x1024 32)
    (cw : FVec Ideal S512x3 .f32) (cb : FVec Ideal S1x3 .f32) (W : FVec Ideal S512x50000 .f32) (b : FVec Ideal S1x50000 .f32)
    (h : Cert.Pre_finite_inputs.fn (F := Ideal) x y cw cb W b = fun _ => 1#1) :
    (∀ i, ∃ r : ℝ, x i = (r : EReal)) ∧ (∀ i, ∃ r : ℝ, cw i = (r : EReal)) ∧ (∀ i, ∃ r : ℝ, cb i = (r : EReal))
      ∧ (∀ i, ∃ r : ℝ, W i = (r : EReal)) ∧ (∀ i, ∃ r : ℝ, b i = (r : EReal)) := by
  have h0 := congrFun h ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨all_real _ _ _ x ix0 h1, all_real _ _ _ cw ix0 h2, all_real _ _ _ cb ix0 h3, all_real _ _ _ W ix0 h4,
    all_real _ _ _ b ix0 h5⟩

end Cert.PreFinite

end
-- ==== Proof.Bridge.lean ====
import proofs.«420015_j11879879541904_3_alg».proof.Defs
import proofs.«420015_j11879879541904_3_alg».proof.Proof.KernelIdeal.RegsValue
import proofs.«420015_j11879879541904_3_alg».proof.Proof.KernelIdeal.R0.SpecValue
import proofs.«420015_j11879879541904_3_alg».proof.Proof.KernelIdeal.R1.SpecValue
import proofs.«420015_j11879879541904_3_alg».proof.Proof.KernelIdeal.R2.SpecValue
import proofs.«420015_j11879879541904_3_alg».proof.Proof.KernelIdeal.HostValue
import proofs.«420015_j11879879541904_3_alg».proof.Proof.RefValue
import proofs.«420015_j11879879541904_3_alg».proof.Proof.ReferenceIdeal.Run
import proofs.«420015_j11879879541904_3_alg».proof.Proof.PreFinite
import proofs.«420015_j11879879541904_3_alg».proof.Proof.Spec

noncomputable section

namespace Cert.Bridge

open Idealize.ShloMosaic Idealize.ShloMosaic.TcCoe Idealize.ShloMosaic.ValueIdx Idealize.SL.Sem
open Cert.KernelIdeal Cert.KernelIdeal.Gen Cert.KernelIdeal.HostValue
open scoped BigOperators

variable (m : (ℓ : Loc nD τ sig) → Buf (Elt Ideal) ℓ) (c : Dev nD)

theorem lse0_eq (hx : ∀ i, ∃ r : ℝ, arrX m c i = (r : EReal)) (hw : ∀ i, ∃ r : ℝ, arrW m c i = (r : EReal))
    (hb : ∀ i, ∃ r : ℝ, arrB m c i = (r : EReal)) (n : Fin 4096) :
    lse0 (Fr.outs m) c n
      = Ideal.log (∑ v : Fin 2000, Ideal.exp (Spec.logit (RefValue.xfOf (arrX m c)) (RefValue.WOf (arrW m c))
          (RefValue.bOf (arrB m c)) n (Spec.col 0 v.val))) := by
  show (Fr.outs m 7 main_v14 c : S4096x1.Idx → EReal) (ix2 n 0) = _
  rw [Fr.outs_0 m 7 c]
  exact Fr.lse0_value m (Fr.outs m) c hx hw hb n

theorem lse1_eq (hx : ∀ i, ∃ r : ℝ, arrX m c i = (r : EReal)) (hw : ∀ i, ∃ r : ℝ, arrW m c i = (r : EReal))
    (hb : ∀ i, ∃ r : ℝ, arrB m c i = (r : EReal)) (n : Fin 4096) :
    lse1 (Fr.outs m) c n
      = Ideal.log (∑ v : Fin 8000, Ideal.exp (Spec.logit (RefValue.xfOf (arrX m c)) (RefValue.WOf (arrW m c))
          (RefValue.bOf (arrB m c)) n (Spec.col 2000 v.val))) := by
  show (Fr.outs m 18 main_v52 c : S4096x1.Idx → EReal) (ix2 n 0) = _
  rw [Fr.outs_1 m 18 c]
  exact Fr.lse1_value m (Fr.outsA m) c hx hw hb n

theorem lse2_eq (hx : ∀ i, ∃ r : ℝ, arrX m c i = (r : EReal)) (hw : ∀ i, ∃ r : ℝ, arrW m c i = (r : EReal))
    (hb : ∀ i, ∃ r : ℝ, arrB m c i = (r : EReal)) (n : Fin 4096) :
    lse2 (Fr.outs m) c n
      = Ideal.log (∑ v : Fin 40000, Ideal.exp (Spec.logit (RefValue.xfOf (arrX m c)) (RefValue.WOf (arrW m c))
          (RefValue.bOf (arrB m c)) n (Spec.col 10000 v.val))) := by
  show (Fr.outs m 29 main_v90 c : S4096x1.Idx → EReal) (ix2 n 0) = _
  rw [Fr.outs_2 m 29 c]
  exact Fr.lse2_value m (Fr.outsB m) c hx hw hb n

theorem kernel_value (hx : ∀ i, ∃ r : ℝ, arrX m c i = (r : EReal)) (hcw : ∀ i, ∃ r : ℝ, arrCw m c i = (r : EReal))
    (hcb : ∀ i, ∃ r : ℝ, arrCb m c i = (r : EReal)) (hw : ∀ i, ∃ r : ℝ, arrW m c i = (r : EReal))
    (hb : ∀ i, ∃ r : ℝ, arrB m c i = (r : EReal)) (n : Fin 4096) :
    (Gen.V35 m (Fr.outs m) c main_v123 : S4096.Idx → EReal) (ix1 n)
      = Spec.nll (RefValue.xfOf (arrX m c)) (RefValue.yOf (arrY m c)) (RefValue.cwOf (arrCw m c))
          (RefValue.cbOf (arrCb m c)) (RefValue.WOf (arrW m c)) (RefValue.bOf (arrB m c)) n := by
  rw [kernel_result m (Fr.outs m) c hx hcw hcb n, lse0_eq m c hx hw hb n, lse1_eq m c hx hw hb n,
    lse2_eq m c hx hw hb n]
  rfl

theorem algebraic : Cert.algebraic_KernelIdeal_ReferenceIdeal := by
  intro m ρ m' ρ' hpre hagree
  refine ⟨fun c => Gen.V35 m (Fr.outs m) c main_v123, Fr.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hcw, hcb, hw, hb⟩ := Cert.PreFinite.reals_of_pre _ _ _ _ _ _ (hpre c)
  rw [(hagree c).1, (hagree c).2.1, (hagree c).2.2.1, (hagree c).2.2.2.1, (hagree c).2.2.2.2.1, (hagree c).2.2.2.2.2]
  funext i
  obtain ⟨n, rfl⟩ : ∃ n : Fin 4096, i = ix1 n := ⟨i 0, eq_ix1 i⟩
  rw [Cert.RefValue.ref_result _ _ _ _ _ _ hx hcw hcb hw hb n]
  exact (kernel_value m c hx hcw hcb hw hb n).symm

end Cert.Bridge

end
-- ==== Proof.lean ====
/- Both programs compute, token by token, the negative log-likelihood of an adaptive softmax with three vocabulary
   clusters. The kernel program takes each cluster's log-sum-exp ONLINE, tile by tile, carrying a running maximum `m` and a
   running sum `l` of exponentials shifted by `m`; the reference subtracts each row's maximum. Over the extended reals,
   for finitely many real logits `x` and any real `M`, `M + log ∑ exp (x - M) = log ∑ exp x`, so both equal one shift-free
   specification; padded columns are masked with the constant named `-∞`, whose exponential is `0`. -/
import proofs.«420015_j11879879541904_3_alg».proof.Defs
import proofs.«420015_j11879879541904_3_alg».proof.Proof.Gen.Kernel
import proofs.«420015_j11879879541904_3_alg».proof.Proof.Gen.KernelIdeal
import proofs.«420015_j11879879541904_3_alg».proof.Proof.Gen.ReferenceIdeal
import proofs.«420015_j11879879541904_3_alg».proof.Proof.Gen.Pre_finite_inputs
import proofs.«420015_j11879879541904_3_alg».proof.Proof.Kernel.Regs
import proofs.«420015_j11879879541904_3_alg».proof.Proof.KernelIdeal.Regs
import proofs.«420015_j11879879541904_3_alg».proof.Proof.ReferenceIdeal.Run
import proofs.«420015_j11879879541904_3_alg».proof.Proof.Bridge
import Idealize.ShloMosaic.Adequacy
import Idealize.ShloMosaic.Init

noncomputable section

namespace Cert.Proof

open Idealize.ShloMosaic Idealize.SL.Sem

theorem neg_big_named : IdealRules.named_const.Statement Cert.KernelIdeal.κ "neg_big" .f32 0xF149F2CA#32 ⊥ :=
  IdealRules.named_const.statement Cert.KernelIdeal.κ "neg_big" .f32 0xF149F2CA#32 ⊥ rfl

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame (F := Bits) m ρ,
    fun m ρ _ => Cert.KernelIdeal.Fr.frame (F := Ideal) m ρ,
    fun m ρ _ => (θ_run Cert.ReferenceIdeal.defs _ _).mono (fun _ h c => (h c).2)
      (Cert.ReferenceIdeal.Value.run (F := Ideal) m ρ),
    ⟨neg_big_named, neg_big_named, neg_big_named, neg_big_named, neg_big_named, neg_big_named⟩,
    Cert.Bridge.algebraic⟩

end Cert.Proof

end
